-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33)) (m ((c.tc : Thread Cert.Kernel.nD Cert.Kernel.τ).loc Cert.Kernel.main_arg34)) (m ((c.tc : Thread Cert.Kernel.nD Cert.Kernel.τ).loc Cert.Kernel.main_arg35)) (m ((c.tc : Thread Cert.Kernel.nD Cert.Kernel.τ).loc Cert.Kernel.main_arg36)) (m ((c.tc : Thread Cert.Kernel.nD Cert.Kernel.τ).loc Cert.Kernel.main_arg37)) (m ((c.tc : Thread Cert.Kernel.nD Cert.Kernel.τ).loc Cert.Kernel.main_arg38)) (m ((c.tc : Thread Cert.Kernel.nD Cert.Kernel.τ).loc Cert.Kernel.main_arg39))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35)) (m ((c.tc : Thread Cert.KernelIdeal.nD Cert.KernelIdeal.τ).loc Cert.KernelIdeal.main_arg36)) (m ((c.tc : Thread Cert.KernelIdeal.nD Cert.KernelIdeal.τ).loc Cert.KernelIdeal.main_arg37)) (m ((c.tc : Thread Cert.KernelIdeal.nD Cert.KernelIdeal.τ).loc Cert.KernelIdeal.main_arg38)) (m ((c.tc : Thread Cert.KernelIdeal.nD Cert.KernelIdeal.τ).loc Cert.KernelIdeal.main_arg39))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34)) (m ((c.tc : Thread Cert.ReferenceIdeal.nD Cert.ReferenceIdeal.τ).loc Cert.ReferenceIdeal.main_arg35)) (m ((c.tc : Thread Cert.ReferenceIdeal.nD Cert.ReferenceIdeal.τ).loc Cert.ReferenceIdeal.main_arg36)) (m ((c.tc : Thread Cert.ReferenceIdeal.nD Cert.ReferenceIdeal.τ).loc Cert.ReferenceIdeal.main_arg37)) (m ((c.tc : Thread Cert.ReferenceIdeal.nD Cert.ReferenceIdeal.τ).loc Cert.ReferenceIdeal.main_arg38)) (m ((c.tc : Thread Cert.ReferenceIdeal.nD Cert.ReferenceIdeal.τ).loc Cert.ReferenceIdeal.main_arg39))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34)
      ∧ r.2.mem ((c.tc : Thread Cert.Kernel.nD Cert.Kernel.τ).loc Cert.Kernel.main_arg35) = m ((c.tc : Thread Cert.Kernel.nD Cert.Kernel.τ).loc Cert.Kernel.main_arg35)
      ∧ r.2.mem ((c.tc : Thread Cert.Kernel.nD Cert.Kernel.τ).loc Cert.Kernel.main_arg36) = m ((c.tc : Thread Cert.Kernel.nD Cert.Kernel.τ).loc Cert.Kernel.main_arg36)
      ∧ r.2.mem ((c.tc : Thread Cert.Kernel.nD Cert.Kernel.τ).loc Cert.Kernel.main_arg37) = m ((c.tc : Thread Cert.Kernel.nD Cert.Kernel.τ).loc Cert.Kernel.main_arg37)
      ∧ r.2.mem ((c.tc : Thread Cert.Kernel.nD Cert.Kernel.τ).loc Cert.Kernel.main_arg38) = m ((c.tc : Thread Cert.Kernel.nD Cert.Kernel.τ).loc Cert.Kernel.main_arg38)
      ∧ r.2.mem ((c.tc : Thread Cert.Kernel.nD Cert.Kernel.τ).loc Cert.Kernel.main_arg39) = m ((c.tc : Thread Cert.Kernel.nD Cert.Kernel.τ).loc Cert.Kernel.main_arg39))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
      ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
      ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
      ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38)
      ∧ r.2.mem ((c.tc : Thread Cert.KernelIdeal.nD Cert.KernelIdeal.τ).loc Cert.KernelIdeal.main_arg39) = m ((c.tc : Thread Cert.KernelIdeal.nD Cert.KernelIdeal.τ).loc Cert.KernelIdeal.main_arg39))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35)
      ∧ r.2.mem ((c.tc : Thread Cert.ReferenceIdeal.nD Cert.ReferenceIdeal.τ).loc Cert.ReferenceIdeal.main_arg36) = m ((c.tc : Thread Cert.ReferenceIdeal.nD Cert.ReferenceIdeal.τ).loc Cert.ReferenceIdeal.main_arg36)
      ∧ r.2.mem ((c.tc : Thread Cert.ReferenceIdeal.nD Cert.ReferenceIdeal.τ).loc Cert.ReferenceIdeal.main_arg37) = m ((c.tc : Thread Cert.ReferenceIdeal.nD Cert.ReferenceIdeal.τ).loc Cert.ReferenceIdeal.main_arg37)
      ∧ r.2.mem ((c.tc : Thread Cert.ReferenceIdeal.nD Cert.ReferenceIdeal.τ).loc Cert.ReferenceIdeal.main_arg38) = m ((c.tc : Thread Cert.ReferenceIdeal.nD Cert.ReferenceIdeal.τ).loc Cert.ReferenceIdeal.main_arg38)
      ∧ r.2.mem ((c.tc : Thread Cert.ReferenceIdeal.nD Cert.ReferenceIdeal.τ).loc Cert.ReferenceIdeal.main_arg39) = m ((c.tc : Thread Cert.ReferenceIdeal.nD Cert.ReferenceIdeal.τ).loc Cert.ReferenceIdeal.main_arg39))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)
      ∧ m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36)
      ∧ m' ((c.tc : Thread Cert.ReferenceIdeal.nD Cert.ReferenceIdeal.τ).loc Cert.ReferenceIdeal.main_arg37) = m ((c.tc : Thread Cert.KernelIdeal.nD Cert.KernelIdeal.τ).loc Cert.KernelIdeal.main_arg37)
      ∧ m' ((c.tc : Thread Cert.ReferenceIdeal.nD Cert.ReferenceIdeal.τ).loc Cert.ReferenceIdeal.main_arg38) = m ((c.tc : Thread Cert.KernelIdeal.nD Cert.KernelIdeal.τ).loc Cert.KernelIdeal.main_arg38)
      ∧ m' ((c.tc : Thread Cert.ReferenceIdeal.nD Cert.ReferenceIdeal.τ).loc Cert.ReferenceIdeal.main_arg39) = m ((c.tc : Thread Cert.KernelIdeal.nD Cert.KernelIdeal.τ).loc Cert.KernelIdeal.main_arg39)) →
    ∃ (v0 : (c : Dev Cert.KernelIdeal.nD) → Buf (Elt Ideal) ((c.tc : Thread Cert.KernelIdeal.nD Cert.KernelIdeal.τ).loc Cert.KernelIdeal.main_v127)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v127) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
          ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
          ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
          ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
          ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38)
          ∧ r.2.mem ((c.tc : Thread Cert.KernelIdeal.nD Cert.KernelIdeal.τ).loc Cert.KernelIdeal.main_arg39) = m ((c.tc : Thread Cert.KernelIdeal.nD Cert.KernelIdeal.τ).loc Cert.KernelIdeal.main_arg39))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v218) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34)
          ∧ r.2.mem ((c.tc : Thread Cert.ReferenceIdeal.nD Cert.ReferenceIdeal.τ).loc Cert.ReferenceIdeal.main_arg35) = m' ((c.tc : Thread Cert.ReferenceIdeal.nD Cert.ReferenceIdeal.τ).loc Cert.ReferenceIdeal.main_arg35)
          ∧ r.2.mem ((c.tc : Thread Cert.ReferenceIdeal.nD Cert.ReferenceIdeal.τ).loc Cert.ReferenceIdeal.main_arg36) = m' ((c.tc : Thread Cert.ReferenceIdeal.nD Cert.ReferenceIdeal.τ).loc Cert.ReferenceIdeal.main_arg36)
          ∧ r.2.mem ((c.tc : Thread Cert.ReferenceIdeal.nD Cert.ReferenceIdeal.τ).loc Cert.ReferenceIdeal.main_arg37) = m' ((c.tc : Thread Cert.ReferenceIdeal.nD Cert.ReferenceIdeal.τ).loc Cert.ReferenceIdeal.main_arg37)
          ∧ r.2.mem ((c.tc : Thread Cert.ReferenceIdeal.nD Cert.ReferenceIdeal.τ).loc Cert.ReferenceIdeal.main_arg38) = m' ((c.tc : Thread Cert.ReferenceIdeal.nD Cert.ReferenceIdeal.τ).loc Cert.ReferenceIdeal.main_arg38)
          ∧ r.2.mem ((c.tc : Thread Cert.ReferenceIdeal.nD Cert.ReferenceIdeal.τ).loc Cert.ReferenceIdeal.main_arg39) = m' ((c.tc : Thread Cert.ReferenceIdeal.nD Cert.ReferenceIdeal.τ).loc Cert.ReferenceIdeal.main_arg39))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x64 : Shape := ⟨2, ![32768, 64]⟩
abbrev S524288 : Shape := ⟨1, ![524288]⟩
abbrev S64x128 : Shape := ⟨2, ![64, 128]⟩
abbrev S128 : Shape := ⟨1, ![128]⟩
abbrev S128x128 : Shape := ⟨2, ![128, 128]⟩
abbrev S640x128 : Shape := ⟨2, ![640, 128]⟩
abbrev S128x2 : Shape := ⟨2, ![128, 2]⟩
abbrev S2 : Shape := ⟨1, ![2]⟩
abbrev S2x524288 : Shape := ⟨2, ![2, 524288]⟩
abbrev S32768 : Shape := ⟨1, ![32768]⟩
abbrev S_ : Shape := ⟨0, ![]⟩

class Facts : Prop where
  bcast_S_S32768x64 : S_.BroadcastsInDim S32768x64 (![] : Fin 0 → Fin S32768x64.rank)
  reducesTo_S32768x64_S_d0_1 : S32768x64.ReducesTo [0, 1] S_
  h_S_ : 0 < S_.numel
  bcast_S_S524288 : S_.BroadcastsInDim S524288 (![] : Fin 0 → Fin S524288.rank)
  reducesTo_S524288_S_d0 : S524288.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S640x128 : S_.BroadcastsInDim S640x128 (![] : Fin 0 → Fin S640x128.rank)
  reducesTo_S640x128_S_d0_1 : S640x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part11 {F : FTy → Type} [FloatOps F] (main_v183 : IVec S_ 1) (main_v187 : IVec S_ 1) : IVec S_ 1 :=
  let main_v188 : IVec S_ 1 := andi main_v183 main_v187
  main_v188

def fn_part10 {F : FTy → Type} [FloatOps F] (main_arg35 : FVec F S128 .f32) (main_arg36 : FVec F S128x2 .f32) (main_arg37 : FVec F S2 .f32) (main_v168 : IVec S_ 1) (main_v169 : FVec F S640x128 .f32) (main_v170 : FVec F S640x128 .f32) : IVec S_ 1 :=
  let main_v171 : IVec S640x128 1 := cmpf .olt main_v169 main_v170
  let main_c_67 : IVec S_ 1 := constantI S_ 1 1#1
  let main_v172 : IVec S_ 1 := (fun x v => Host.reduce IntOp.andi x v reducesTo_S640x128_S_d0_1 h_S_) main_v171 main_c_67
  let main_v173 : IVec S_ 1 := andi main_v168 main_v172
  let main_v174 : FVec F S128 .f32 := Host.absf main_arg35
  let main_cst_68 : FVec F S_ .f32 := constant S_ .f32 0x7F800000#32
  let main_v175 : FVec F S128 .f32 := broadcastInDim S128 ![] bcast_S_S128 main_cst_68
  let main_v176 : IVec S128 1 := cmpf .olt main_v174 main_v175
  let main_c_69 : IVec S_ 1 := constantI S_ 1 1#1
  let main_v177 : IVec S_ 1 := (fun x v => Host.reduce IntOp.andi x v reducesTo_S128_S_d0 h_S_) main_v176 main_c_69
  let main_v178 : IVec S_ 1 := andi main_v173 main_v177
  let main_v179 : FVec F S128x2 .f32 := Host.absf main_arg36
  let main_cst_70 : FVec F S_ .f32 := constant S_ .f32 0x7F800000#32
  let main_v180 : FVec F S128x2 .f32 := broadcastInDim S128x2 ![] bcast_S_S128x2 main_cst_70
  let main_v181 : IVec S128x2 1 := cmpf .olt main_v179 main_v180
  let main_c_71 : IVec S_ 1 := constantI S_ 1 1#1
  let main_v182 : IVec S_ 1 := (fun x v => Host.reduce IntOp.andi x v reducesTo_S128x2_S_d0_1 h_S_) main_v181 main_c_71
  let main_v183 : IVec S_ 1 := andi main_v178 main_v182
  let main_v184 : FVec F S2 .f32 := Host.absf main_arg37
  let main_cst_72 : FVec F S_ .f32 := constant S_ .f32 0x7F800000#32
  let main_v185 : FVec F S2 .f32 := broadcastInDim S2 ![] bcast_S_S2 main_cst_72
  let main_v186 : IVec S2 1 := cmpf .olt main_v184 main_v185
  let main_c_73 : IVec S_ 1 := constantI S_ 1 1#1
  let main_v187 : IVec S_ 1 := (fun x v => Host.reduce IntOp.andi x v reducesTo_S2_S_d0 h_S_) main_v186 main_c_73
  fn_part11 (F := F) main_v183 main_v187

def fn_part9 {F : FTy → Type} [FloatOps F] (main_arg31 : FVec F S128 .f32) (main_arg32 : FVec F S128 .f32) (main_arg33 : FVec F S128 .f32) (main_arg34 : FVec F S640x128 .f32) (main_arg35 : FVec F S128 .f32) (main_arg36 : FVec F S128x2 .f32) (main_arg37 : FVec F S2 .f32) (main_v153 : IVec S_ 1) : IVec S_ 1 :=
  let main_v154 : FVec F S128 .f32 := Host.absf main_arg31
  let main_cst_60 : FVec F S_ .f32 := constant S_ .f32 0x7F800000#32
  let main_v155 : FVec F S128 .f32 := broadcastInDim S128 ![] bcast_S_S128 main_cst_60
  let main_v156 : IVec S128 1 := cmpf .olt main_v154 main_v155
  let main_c_61 : IVec S_ 1 := constantI S_ 1 1#1
  let main_v157 : IVec S_ 1 := (fun x v => Host.reduce IntOp.andi x v reducesTo_S128_S_d0 h_S_) main_v156 main_c_61
  let main_v158 : IVec S_ 1 := andi main_v153 main_v157
  let main_v159 : FVec F S128 .f32 := Host.absf main_arg32
  let main_cst_62 : FVec F S_ .f32 := constant S_ .f32 0x7F800000#32
  let main_v160 : FVec F S128 .f32 := broadcastInDim S128 ![] bcast_S_S128 main_cst_62
  let main_v161 : IVec S128 1 := cmpf .olt main_v159 main_v160
  let main_c_63 : IVec S_ 1 := constantI S_ 1 1#1
  let main_v162 : IVec S_ 1 := (fun x v => Host.reduce IntOp.andi x v reducesTo_S128_S_d0 h_S_) main_v161 main_c_63
  let main_v163 : IVec S_ 1 := andi main_v158 main_v162
  let main_v164 : FVec F S128 .f32 := Host.absf main_arg33
  let main_cst_64 : FVec F S_ .f32 := constant S_ .f32 0x7F800000#32
  let main_v165 : FVec F S128 .f32 := broadcastInDim S128 ![] bcast_S_S128 main_cst_64
  let main_v166 : IVec S128 1 := cmpf .olt main_v164 main_v165
  let main_c_65 : IVec S_ 1 := constantI S_ 1 1#1
  let main_v167 : IVec S_ 1 := (fun x v => Host.reduce IntOp.andi x v reducesTo_S128_S_d0 h_S_) main_v166 main_c_65
  let main_v168 : IVec S_ 1 := andi main_v163 main_v167
  let main_v169 : FVec F S640x128 .f32 := Host.absf main_arg34
  let main_cst_66 : FVec F S_ .f32 := constant S_ .f32 0x7F800000#32
  let main_v170 : FVec F S640x128 .f32 := broadcastInDim S640x128 ![] bcast_S_S640x128 main_cst_66
  fn_part10 (F := F) main_arg35 main_arg36 main_arg37 main_v168 main_v169 main_v170

def fn_part8 {F : FTy → Type} [FloatOps F] (main_arg28 : FVec F S128 .f32) (main_arg29 : FVec F S128 .f32) (main_arg30 : FVec F S128 .f32) (main_arg31 : FVec F S128 .f32) (main_arg32 : FVec F S128 .f32) (main_arg33 : FVec F S128 .f32) (main_arg34 : FVec F S640x128 .f32) (main_arg35 : FVec F S128 .f32) (main_arg36 : FVec F S128x2 .f32) (main_arg37 : FVec F S2 .f32) (main_v133 : IVec S_ 1) (main_v136 : IVec S128 1) : IVec S_ 1 :=
  let main_c_53 : IVec S_ 1 := constantI S_ 1 1#1
  let main_v137 : IVec S_ 1 := (fun x v => Host.reduce IntOp.andi x v reducesTo_S128_S_d0 h_S_) main_v136 main_c_53
  let main_v138 : IVec S_ 1 := andi main_v133 main_v137
  let main_v139 : FVec F S128 .f32 := Host.absf main_arg28
  let main_cst_54 : FVec F S_ .f32 := constant S_ .f32 0x7F800000#32
  let main_v140 : FVec F S128 .f32 := broadcastInDim S128 ![] bcast_S_S128 main_cst_54
  let main_v141 : IVec S128 1 := cmpf .olt main_v139 main_v140
  let main_c_55 : IVec S_ 1 := constantI S_ 1 1#1
  let main_v142 : IVec S_ 1 := (fun x v => Host.reduce IntOp.andi x v reducesTo_S128_S_d0 h_S_) main_v141 main_c_55
  let main_v143 : IVec S_ 1 := andi main_v138 main_v142
  let main_v144 : FVec F S128 .f32 := Host.absf main_arg29
  let main_cst_56 : FVec F S_ .f32 := constant S_ .f32 0x7F800000#32
  let main_v145 : FVec F S128 .f32 := broadcastInDim S128 ![] bcast_S_S128 main_cst_56
  let main_v146 : IVec S128 1 := cmpf .olt main_v144 main_v145
  let main_c_57 : IVec S_ 1 := constantI S_ 1 1#1
  let main_v147 : IVec S_ 1 := (fun x v => Host.reduce IntOp.andi x v reducesTo_S128_S_d0 h_S_) main_v146 main_c_57
  let main_v148 : IVec S_ 1 := andi main_v143 main_v147
  let main_v149 : FVec F S128 .f32 := Host.absf main_arg30
  let main_cst_58 : FVec F S_ .f32 := constant S_ .f32 0x7F800000#32
  let main_v150 : FVec F S128 .f32 := broadcastInDim S128 ![] bcast_S_S128 main_cst_58
  let main_v151 : IVec S128 1 := cmpf .olt main_v149 main_v150
  let main_c_59 : IVec S_ 1 := constantI S_ 1 1#1
  let main_v152 : IVec S_ 1 := (fun x v => Host.reduce IntOp.andi x v reducesTo_S128_S_d0 h_S_) main_v151 main_c_59
  let main_v153 : IVec S_ 1 := andi main_v148 main_v152
  fn_part9 (F := F) main_arg31 main_arg32 main_arg33 main_arg34 main_arg35 main_arg36 main_arg37 main_v153

def fn_part7 {F : FTy → Type} [FloatOps F] (main_arg25 : FVec F S128 .f32) (main_arg26 : FVec F S128 .f32) (main_arg27 : FVec F S128 .f32) (main_arg28 : FVec F S128 .f32) (main_arg29 : FVec F S128 .f32) (main_arg30 : FVec F S128 .f32) (main_arg31 : FVec F S128 .f32) (main_arg32 : FVec F S128 .f32) (main_arg33 : FVec F S128 .f32) (main_arg34 : FVec F S640x128 .f32) (main_arg35 : FVec F S128 .f32) (main_arg36 : FVec F S128x2 .f32) (main_arg37 : FVec F S2 .f32) (main_v118 : IVec S_ 1) (main_v119 : FVec F S128 .f32) : IVec S_ 1 :=
  let main_cst_46 : FVec F S_ .f32 := constant S_ .f32 0x7F800000#32
  let main_v120 : FVec F S128 .f32 := broadcastInDim S128 ![] bcast_S_S128 main_cst_46
  let main_v121 : IVec S128 1 := cmpf .olt main_v119 main_v120
  let main_c_47 : IVec S_ 1 := constantI S_ 1 1#1
  let main_v122 : IVec S_ 1 := (fun x v => Host.reduce IntOp.andi x v reducesTo_S128_S_d0 h_S_) main_v121 main_c_47
  let main_v123 : IVec S_ 1 := andi main_v118 main_v122
  let main_v124 : FVec F S128 .f32 := Host.absf main_arg25
  let main_cst_48 : FVec F S_ .f32 := constant S_ .f32 0x7F800000#32
  let main_v125 : FVec F S128 .f32 := broadcastInDim S128 ![] bcast_S_S128 main_cst_48
  let main_v126 : IVec S128 1 := cmpf .olt main_v124 main_v125
  let main_c_49 : IVec S_ 1 := constantI S_ 1 1#1
  let main_v127 : IVec S_ 1 := (fun x v => Host.reduce IntOp.andi x v reducesTo_S128_S_d0 h_S_) main_v126 main_c_49
  let main_v128 : IVec S_ 1 := andi main_v123 main_v127
  let main_v129 : FVec F S128 .f32 := Host.absf main_arg26
  let main_cst_50 : FVec F S_ .f32 := constant S_ .f32 0x7F800000#32
  let main_v130 : FVec F S128 .f32 := broadcastInDim S128 ![] bcast_S_S128 main_cst_50
  let main_v131 : IVec S128 1 := cmpf .olt main_v129 main_v130
  let main_c_51 : IVec S_ 1 := constantI S_ 1 1#1
  let main_v132 : IVec S_ 1 := (fun x v => Host.reduce IntOp.andi x v reducesTo_S128_S_d0 h_S_) main_v131 main_c_51
  let main_v133 : IVec S_ 1 := andi main_v128 main_v132
  let main_v134 : FVec F S128 .f32 := Host.absf main_arg27
  let main_cst_52 : FVec F S_ .f32 := constant S_ .f32 0x7F800000#32
  let main_v135 : FVec F S128 .f32 := broadcastInDim S128 ![] bcast_S_S128 main_cst_52
  let main_v136 : IVec S128 1 := cmpf .olt main_v134 main_v135
  fn_part8 (F := F) main_arg28 main_arg29 main_arg30 main_arg31 main_arg32 main_arg33 main_arg34 main_arg35 main_arg36 main_arg37 main_v133 main_v136

def fn_part6 {F : FTy → Type} [FloatOps F] (main_arg21 : FVec F S128 .f32) (main_arg22 : FVec F S128 .f32) (main_arg23 : FVec F S128 .f32) (main_arg24 : FVec F S128 .f32) (main_arg25 : FVec F S128 .f32) (main_arg26 : FVec F S128 .f32) (main_arg27 : FVec F S128 .f32) (main_arg28 : FVec F S128 .f32) (main_arg29 : FVec F S128 .f32) (main_arg30 : FVec F S128 .f32) (main_arg31 : FVec F S128 .f32) (main_arg32 : FVec F S128 .f32) (main_arg33 : FVec F S128 .f32) (main_arg34 : FVec F S640x128 .f32) (main_arg35 : FVec F S128 .f32) (main_arg36 : FVec F S128x2 .f32) (main_arg37 : FVec F S2 .f32) (main_v98 : IVec S_ 1) (main_v101 : IVec S128x128 1) (main_c_39 : IVec S_ 1) : IVec S_ 1 :=
  let main_v102 : IVec S_ 1 := (fun x v => Host.reduce IntOp.andi x v reducesTo_S128x128_S_d0_1 h_S_) main_v101 main_c_39
  let main_v103 : IVec S_ 1 := andi main_v98 main_v102
  let main_v104 : FVec F S128 .f32 := Host.absf main_arg21
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128 .f32 := Host.absf main_arg22
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S128 .f32 := Host.absf main_arg23
  let main_cst_44 : FVec F S_ .f32 := constant S_ .f32 0x7F800000#32
  let main_v115 : FVec F S128 .f32 := broadcastInDim S128 ![] bcast_S_S128 main_cst_44
  let main_v116 : IVec S128 1 := cmpf .olt main_v114 main_v115
  let main_c_45 : IVec S_ 1 := constantI S_ 1 1#1
  let main_v117 : IVec S_ 1 := (fun x v => Host.reduce IntOp.andi x v reducesTo_S128_S_d0 h_S_) main_v116 main_c_45
  let main_v118 : IVec S_ 1 := andi main_v113 main_v117
  let main_v119 : FVec F S128 .f32 := Host.absf main_arg24
  fn_part7 (F := F) main_arg25 main_arg26 main_arg27 main_arg28 main_arg29 main_arg30 main_arg31 main_arg32 main_arg33 main_arg34 main_arg35 main_arg36 main_arg37 main_v118 main_v119

def fn_part5 {F : FTy → Type} [FloatOps F] (main_arg18 : FVec F S128x128 .f32) (main_arg19 : FVec F S128 .f32) (main_arg20 : FVec F S128x128 .f32) (main_arg21 : FVec F S128 .f32) (main_arg22 : FVec F S128 .f32) (main_arg23 : FVec F S128 .f32) (main_arg24 : FVec F S128 .f32) (main_arg25 : FVec F S128 .f32) (main_arg26 : FVec F S128 .f32) (main_arg27 : FVec F S128 .f32) (main_arg28 : FVec F S128 .f32) (main_arg29 : FVec F S128 .f32) (main_arg30 : FVec F S128 .f32) (main_arg31 : FVec F S128 .f32) (main_arg32 : FVec F S128 .f32) (main_arg33 : FVec F S128 .f32) (main_arg34 : FVec F S640x128 .f32) (main_arg35 : FVec F S128 .f32) (main_arg36 : FVec F S128x2 .f32) (main_arg37 : FVec F S2 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x128 .f32 := Host.absf main_arg18
  let main_cst_34 : FVec F S_ .f32 := constant S_ .f32 0x7F800000#32
  let main_v90 : FVec F S128x128 .f32 := broadcastInDim S128x128 ![] bcast_S_S128x128 main_cst_34
  let main_v91 : IVec S128x128 1 := cmpf .olt main_v89 main_v90
  let main_c_35 : IVec S_ 1 := constantI S_ 1 1#1
  let main_v92 : IVec S_ 1 := (fun x v => Host.reduce IntOp.andi x v reducesTo_S128x128_S_d0_1 h_S_) main_v91 main_c_35
  let main_v93 : IVec S_ 1 := andi main_v88 main_v92
  let main_v94 : FVec F S128 .f32 := Host.absf main_arg19
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128x128 .f32 := Host.absf main_arg20
  let main_cst_38 : FVec F S_ .f32 := constant S_ .f32 0x7F800000#32
  let main_v100 : FVec F S128x128 .f32 := broadcastInDim S128x128 ![] bcast_S_S128x128 main_cst_38
  let main_v101 : IVec S128x128 1 := cmpf .olt main_v99 main_v100
  let main_c_39 : IVec S_ 1 := constantI S_ 1 1#1
  fn_part6 (F := F) main_arg21 main_arg22 main_arg23 main_arg24 main_arg25 main_arg26 main_arg27 main_arg28 main_arg29 main_arg30 main_arg31 main_arg32 main_arg33 main_arg34 main_arg35 main_arg36 main_arg37 main_v98 main_v101 main_c_39

def fn_part4 {F : FTy → Type} [FloatOps F] (main_arg14 : FVec F S128x128 .f32) (main_arg15 : FVec F S128 .f32) (main_arg16 : FVec F S128x128 .f32) (main_arg17 : FVec F S128 .f32) (main_arg18 : FVec F S128x128 .f32) (main_arg19 : FVec F S128 .f32) (main_arg20 : FVec F S128x128 .f32) (main_arg21 : FVec F S128 .f32) (main_arg22 : FVec F S128 .f32) (main_arg23 : FVec F S128 .f32) (main_arg24 : FVec F S128 .f32) (main_arg25 : FVec F S128 .f32) (main_arg26 : FVec F S128 .f32) (main_arg27 : FVec F S128 .f32) (main_arg28 : FVec F S128 .f32) (main_arg29 : FVec F S128 .f32) (main_arg30 : FVec F S128 .f32) (main_arg31 : FVec F S128 .f32) (main_arg32 : FVec F S128 .f32) (main_arg33 : FVec F S128 .f32) (main_arg34 : FVec F S640x128 .f32) (main_arg35 : FVec F S128 .f32) (main_arg36 : FVec F S128x2 .f32) (main_arg37 : FVec F S2 .f32) (main_v63 : IVec S_ 1) (main_v67 : IVec S_ 1) : IVec S_ 1 :=
  let main_v68 : IVec S_ 1 := andi main_v63 main_v67
  let main_v69 : FVec F S128x128 .f32 := Host.absf main_arg14
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg16
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_arg27 main_arg28 main_arg29 main_arg30 main_arg31 main_arg32 main_arg33 main_arg34 main_arg35 main_arg36 main_arg37 main_v83 main_v84 main_cst_32

def fn_part3 {F : FTy → Type} [FloatOps F] (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_arg20 : FVec F S128x128 .f32) (main_arg21 : FVec F S128 .f32) (main_arg22 : FVec F S128 .f32) (main_arg23 : FVec F S128 .f32) (main_arg24 : FVec F S128 .f32) (main_arg25 : FVec F S128 .f32) (main_arg26 : FVec F S128 .f32) (main_arg27 : FVec F S128 .f32) (main_arg28 : FVec F S128 .f32) (main_arg29 : FVec F S128 .f32) (main_arg30 : FVec F S128 .f32) (main_arg31 : FVec F S128 .f32) (main_arg32 : FVec F S128 .f32) (main_arg33 : FVec F S128 .f32) (main_arg34 : FVec F S640x128 .f32) (main_arg35 : FVec F S128 .f32) (main_arg36 : FVec F S128x2 .f32) (main_arg37 : FVec F S2 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg12
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_v63 main_v67

def fn_part2 {F : FTy → Type} [FloatOps F] (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_arg20 : FVec F S128x128 .f32) (main_arg21 : FVec F S128 .f32) (main_arg22 : FVec F S128 .f32) (main_arg23 : FVec F S128 .f32) (main_arg24 : FVec F S128 .f32) (main_arg25 : FVec F S128 .f32) (main_arg26 : FVec F S128 .f32) (main_arg27 : FVec F S128 .f32) (main_arg28 : FVec F S128 .f32) (main_arg29 : FVec F S128 .f32) (main_arg30 : FVec F S128 .f32) (main_arg31 : FVec F S128 .f32) (main_arg32 : FVec F S128 .f32) (main_arg33 : FVec F S128 .f32) (main_arg34 : FVec F S640x128 .f32) (main_arg35 : FVec F S128 .f32) (main_arg36 : FVec F S128x2 .f32) (main_arg37 : FVec F S2 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_v48 main_v49 main_v50

def fn_part1 {F : FTy → Type} [FloatOps F] (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_arg20 : FVec F S128x128 .f32) (main_arg21 : FVec F S128 .f32) (main_arg22 : FVec F S128 .f32) (main_arg23 : FVec F S128 .f32) (main_arg24 : FVec F S128 .f32) (main_arg25 : FVec F S128 .f32) (main_arg26 : FVec F S128 .f32) (main_arg27 : FVec F S128 .f32) (main_arg28 : FVec F S128 .f32) (main_arg29 : FVec F S128 .f32) (main_arg30 : FVec F S128 .f32) (main_arg31 : FVec F S128 .f32) (main_arg32 : FVec F S128 .f32) (main_arg33 : FVec F S128 .f32) (main_arg34 : FVec F S640x128 .f32) (main_arg35 : FVec F S128 .f32) (main_arg36 : FVec F S128x2 .f32) (main_arg37 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_v33

def fn {F : FTy → Type} [FloatOps F] (main_arg0 : FVec F S32768x64 .f32) (main_arg1 : FVec F S524288 .f32) (main_arg2 : FVec F S64x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_arg20 : FVec F S128x128 .f32) (main_arg21 : FVec F S128 .f32) (main_arg22 : FVec F S128 .f32) (main_arg23 : FVec F S128 .f32) (main_arg24 : FVec F S128 .f32) (main_arg25 : FVec F S128 .f32) (main_arg26 : FVec F S128 .f32) (main_arg27 : FVec F S128 .f32) (main_arg28 : FVec F S128 .f32) (main_arg29 : FVec F S128 .f32) (main_arg30 : FVec F S128 .f32) (main_arg31 : FVec F S128 .f32) (main_arg32 : FVec F S128 .f32) (main_arg33 : FVec F S128 .f32) (main_arg34 : FVec F S640x128 .f32) (main_arg35 : FVec F S128 .f32) (main_arg36 : FVec F S128x2 .f32) (main_arg37 : FVec F S2 .f32) (main_arg38 : IVec S2x524288 32) (main_arg39 : IVec S32768 32) : IVec S_ 1 :=
  let main_v0 : FVec F S32768x64 .f32 := Host.absf main_arg0
  let main_cst : FVec F S_ .f32 := constant S_ .f32 0x7F800000#32
  let main_v1 : FVec F S32768x64 .f32 := broadcastInDim S32768x64 ![] bcast_S_S32768x64 main_cst
  let main_v2 : IVec S32768x64 1 := cmpf .olt main_v0 main_v1
  let main_c : IVec S_ 1 := constantI S_ 1 1#1
  let main_v3 : IVec S_ 1 := (fun x v => Host.reduce IntOp.andi x v reducesTo_S32768x64_S_d0_1 h_S_) main_v2 main_c
  let main_v4 : FVec F S524288 .f32 := Host.absf main_arg1
  let main_cst_0 : FVec F S_ .f32 := constant S_ .f32 0x7F800000#32
  let main_v5 : FVec F S524288 .f32 := broadcastInDim S524288 ![] bcast_S_S524288 main_cst_0
  let main_v6 : IVec S524288 1 := cmpf .olt main_v4 main_v5
  let main_c_1 : IVec S_ 1 := constantI S_ 1 1#1
  let main_v7 : IVec S_ 1 := (fun x v => Host.reduce IntOp.andi x v reducesTo_S524288_S_d0 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_v13 main_v16
-- ==== Kernel.lean ====
abbrev S32768x64 : Shape := ⟨2, ![32768, 64]⟩
abbrev S524288 : Shape := ⟨1, ![524288]⟩
abbrev S64x128 : Shape := ⟨2, ![64, 128]⟩
abbrev S128 : Shape := ⟨1, ![128]⟩
abbrev S128x128 : Shape := ⟨2, ![128, 128]⟩
abbrev S640x128 : Shape := ⟨2, ![640, 128]⟩
abbrev S128x2 : Shape := ⟨2, ![128, 2]⟩
abbrev S2 : Shape := ⟨1, ![2]⟩
abbrev S2x524288 : Shape := ⟨2, ![2, 524288]⟩
abbrev S32768 : Shape := ⟨1, ![32768]⟩
abbrev S1x524288 : Shape := ⟨2, ![1, 524288]⟩
abbrev S_ : Shape := ⟨0, ![]⟩
abbrev S524288x1 : Shape := ⟨2, ![524288, 1]⟩
abbrev S524288x64 : Shape := ⟨2, ![524288, 64]⟩
abbrev S1x128 : Shape := ⟨2, ![1, 128]⟩
abbrev S32768x128 : Shape := ⟨2, ![32768, 128]⟩
abbrev S4096x64 : Shape := ⟨2, ![4096, 64]⟩
abbrev S4096x128 : Shape := ⟨2, ![4096, 128]⟩
abbrev S524288x128 : Shape := ⟨2, ![524288, 128]⟩
abbrev S512x128 : Shape := ⟨2, ![512, 128]⟩
abbrev S32768x1 : Shape := ⟨2, ![32768, 1]⟩
abbrev S512x640 : Shape := ⟨2, ![512, 640]⟩
abbrev S1x2 : Shape := ⟨2, ![1, 2]⟩
abbrev S512x2 : Shape := ⟨2, ![512, 2]⟩

abbrev nBuf : Space → Nat
  | .hbm => 188
  | .vmem => 96
  | .smem => 0
  | _ => 0

abbrev hbmTy0_0 (i : Nat) : BufTy := match i % 128 with
  | 0 => ⟨S32768x64, .f32⟩
  | 1 => ⟨S524288, .f32⟩
  | 2 => ⟨S64x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128x128, .f32⟩
  | 15 => ⟨S128, .f32⟩
  | 16 => ⟨S128x128, .f32⟩
  | 17 => ⟨S128, .f32⟩
  | 18 => ⟨S128x128, .f32⟩
  | 19 => ⟨S128, .f32⟩
  | 20 => ⟨S128x128, .f32⟩
  | 21 => ⟨S128, .f32⟩
  | 22 => ⟨S128, .f32⟩
  | 23 => ⟨S128, .f32⟩
  | 24 => ⟨S128, .f32⟩
  | 25 => ⟨S128, .f32⟩
  | 26 => ⟨S128, .f32⟩
  | 27 => ⟨S128, .f32⟩
  | 28 => ⟨S128, .f32⟩
  | 29 => ⟨S128, .f32⟩
  | 30 => ⟨S128, .f32⟩
  | 31 => ⟨S128, .f32⟩
  | 32 => ⟨S128, .f32⟩
  | 33 => ⟨S128, .f32⟩
  | 34 => ⟨S640x128, .f32⟩
  | 35 => ⟨S128, .f32⟩
  | 36 => ⟨S128x2, .f32⟩
  | 37 => ⟨S2, .f32⟩
  | 38 => ⟨S2x524288, .i32⟩
  | 39 => ⟨S32768, .i32⟩
  | 40 => ⟨S1x524288, .i32⟩
  | 41 => ⟨S524288, .i32⟩
  | 42 => ⟨S1x524288, .i32⟩
  | 43 => ⟨S524288, .i32⟩
  | 44 => ⟨S_, .i32⟩
  | 45 => ⟨S524288, .i32⟩
  | 46 => ⟨S524288, .i1⟩
  | 47 => ⟨S_, .i32⟩
  | 48 => ⟨S524288, .i32⟩
  | 49 => ⟨S524288, .i32⟩
  | 50 => ⟨S524288, .i32⟩
  | 51 => ⟨S524288x1, .i32⟩
  | 52 => ⟨S524288x64, .f32⟩
  | 53 => ⟨S524288x1, .f32⟩
  | 54 => ⟨S524288x64, .f32⟩
  | 55 => ⟨S524288x64, .f32⟩
  | 56 => ⟨S_, .f32⟩
  | 57 => ⟨S32768x64, .f32⟩
  | 58 => ⟨S524288x1, .i32⟩
  | 59 => ⟨S32768x64, .f32⟩
  | 60 => ⟨S1x128, .f32⟩
  | 61 => ⟨S1x128, .f32⟩
  | 62 => ⟨S32768x128, .f32⟩
  | 63 => ⟨S1x128, .f32⟩
  | 64 => ⟨S1x128, .f32⟩
  | 65 => ⟨S1x128, .f32⟩
  | 66 => ⟨S1x128, .f32⟩
  | 67 => ⟨S32768x128, .f32⟩
  | 68 => ⟨S_, .i32⟩
  | 69 => ⟨S524288, .i32⟩
  | 70 => ⟨S524288, .i1⟩
  | 71 => ⟨S_, .i32⟩
  | 72 => ⟨S524288, .i32⟩
  | 73 => ⟨S524288, .i32⟩
  | 74 => ⟨S524288, .i32⟩
  | 75 => ⟨S524288x1, .i32⟩
  | 76 => ⟨S524288x128, .f32⟩
  | 77 => ⟨S524288x1, .f32⟩
  | 78 => ⟨S524288x128, .f32⟩
  | 79 => ⟨S524288x128, .f32⟩
  | 80 => ⟨S_, .f32⟩
  | 81 => ⟨S32768x128, .f32⟩
  | 82 => ⟨S524288x1, .i32⟩
  | 83 => ⟨S32768x128, .f32⟩
  | 84 => ⟨S1x128, .f32⟩
  | 85 => ⟨S1x128, .f32⟩
  | 86 => ⟨S32768x128, .f32⟩
  | 87 => ⟨S1x128, .f32⟩
  | 88 => ⟨S1x128, .f32⟩
  | 89 => ⟨S1x128, .f32⟩
  | 90 => ⟨S1x128, .f32⟩
  | 91 => ⟨S32768x128, .f32⟩
  | 92 => ⟨S_, .i32⟩
  | 93 => ⟨S524288, .i32⟩
  | 94 => ⟨S524288, .i1⟩
  | 95 => ⟨S_, .i32⟩
  | 96 => ⟨S524288, .i32⟩
  | 97 => ⟨S524288, .i32⟩
  | 98 => ⟨S524288, .i32⟩
  | 99 => ⟨S524288x1, .i32⟩
  | 100 => ⟨S524288x128, .f32⟩
  | 101 => ⟨S524288x1, .f32⟩
  | 102 => ⟨S524288x128, .f32⟩
  | 103 => ⟨S524288x128, .f32⟩
  | 104 => ⟨S_, .f32⟩
  | 105 => ⟨S32768x128, .f32⟩
  | 106 => ⟨S524288x1, .i32⟩
  | 107 => ⟨S32768x128, .f32⟩
  | 108 => ⟨S1x128, .f32⟩
  | 109 => ⟨S1x128, .f32⟩
  | 110 => ⟨S32768x128, .f32⟩
  | 111 => ⟨S1x128, .f32⟩
  | 112 => ⟨S1x128, .f32⟩
  | 113 => ⟨S1x128, .f32⟩
  | 114 => ⟨S1x128, .f32⟩
  | 115 => ⟨S32768x128, .f32⟩
  | 116 => ⟨S_, .i32⟩
  | 117 => ⟨S524288, .i32⟩
  | 118 => ⟨S524288, .i1⟩
  | 119 => ⟨S_, .i32⟩
  | 120 => ⟨S524288, .i32⟩
  | 121 => ⟨S524288, .i32⟩
  | 122 => ⟨S524288, .i32⟩
  | 123 => ⟨S524288x1, .i32⟩
  | 124 => ⟨S524288x128, .f32⟩
  | 125 => ⟨S524288x1, .f32⟩
  | 126 => ⟨S524288x128, .f32⟩
  | 127 => ⟨S524288x128, .f32⟩
  | _ => ⟨S32768x64, .f32⟩

abbrev hbmTy0_1 (i : Nat) : BufTy := match i % 128 with
  | 0 => ⟨S_, .f32⟩
  | 1 => ⟨S32768x128, .f32⟩
  | 2 => ⟨S524288x1, .i32⟩
  | 3 => ⟨S32768x128, .f32⟩
  | 4 => ⟨S1x128, .f32⟩
  | 5 => ⟨S1x128, .f32⟩
  | 6 => ⟨S32768x128, .f32⟩
  | 7 => ⟨S1x128, .f32⟩
  | 8 => ⟨S1x128, .f32⟩
  | 9 => ⟨S1x128, .f32⟩
  | 10 => ⟨S1x128, .f32⟩
  | 11 => ⟨S32768x128, .f32⟩
  | 12 => ⟨S_, .i32⟩
  | 13 => ⟨S524288, .i32⟩
  | 14 => ⟨S524288, .i1⟩
  | 15 => ⟨S_, .i32⟩
  | 16 => ⟨S524288, .i32⟩
  | 17 => ⟨S524288, .i32⟩
  | 18 => ⟨S524288, .i32⟩
  | 19 => ⟨S524288x1, .i32⟩
  | 20 => ⟨S524288x128, .f32⟩
  | 21 => ⟨S524288x1, .f32⟩
  | 22 => ⟨S524288x128, .f32⟩
  | 23 => ⟨S524288x128, .f32⟩
  | 24 => ⟨S_, .f32⟩
  | 25 => ⟨S32768x128, .f32⟩
  | 26 => ⟨S524288x1, .i32⟩
  | 27 => ⟨S32768x128, .f32⟩
  | 28 => ⟨S1x128, .f32⟩
  | 29 => ⟨S1x128, .f32⟩
  | 30 => ⟨S32768x128, .f32⟩
  | 31 => ⟨S1x128, .f32⟩
  | 32 => ⟨S1x128, .f32⟩
  | 33 => ⟨S1x128, .f32⟩
  | 34 => ⟨S1x128, .f32⟩
  | 35 => ⟨S32768x128, .f32⟩
  | 36 => ⟨S_, .f32⟩
  | 37 => ⟨S512x128, .f32⟩
  | 38 => ⟨S32768x1, .i32⟩
  | 39 => ⟨S512x128, .f32⟩
  | 40 => ⟨S_, .f32⟩
  | 41 => ⟨S512x128, .f32⟩
  | 42 => ⟨S32768x1, .i32⟩
  | 43 => ⟨S512x128, .f32⟩
  | 44 => ⟨S_, .f32⟩
  | 45 => ⟨S512x128, .f32⟩
  | 46 => ⟨S32768x1, .i32⟩
  | 47 => ⟨S512x128, .f32⟩
  | 48 => ⟨S_, .f32⟩
  | 49 => ⟨S512x128, .f32⟩
  | 50 => ⟨S32768x1, .i32⟩
  | 51 => ⟨S512x128, .f32⟩
  | 52 => ⟨S_, .f32⟩
  | 53 => ⟨S512x128, .f32⟩
  | 54 => ⟨S32768x1, .i32⟩
  | 55 => ⟨S512x128, .f32⟩
  | 56 => ⟨S512x640, .f32⟩
  | 57 => ⟨S1x128, .f32⟩
  | 58 => ⟨S1x2, .f32⟩
  | 59 => ⟨S512x2, .f32⟩
  | _ => ⟨S32768x64, .f32⟩

abbrev hbmTy (i : Nat) : BufTy := match i / 128 with
  | 0 => hbmTy0_0 i
  | 1 => hbmTy0_1 i
  | _ => ⟨S32768x64, .f32⟩

abbrev bufTy : (tb : Table) → Fin (tcTables nBuf tb) → BufTy
  | .hbm, ⟨i, _⟩ => hbmTy i
  | .local _ .vmem, ⟨0, _⟩ => ⟨S4096x64, .f32⟩
  | .local _ .vmem, ⟨1, _⟩ => ⟨S4096x64, .f32⟩
  | .local _ .vmem, ⟨2, _⟩ => ⟨S4096x64, .f32⟩
  | .local _ .vmem, ⟨3, _⟩ => ⟨S4096x64, .f32⟩
  | .local _ .vmem, ⟨4, _⟩ => ⟨S64x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S4096x128, .f32⟩
  | .local _ .vmem, ⟨17, _⟩ => ⟨S4096x128, .f32⟩
  | .local _ .vmem, ⟨18, _⟩ => ⟨S4096x128, .f32⟩
  | .local _ .vmem, ⟨19, _⟩ => ⟨S4096x128, .f32⟩
  | .local _ .vmem, ⟨20, _⟩ => ⟨S4096x128, .f32⟩
  | .local _ .vmem, ⟨21, _⟩ => ⟨S4096x128, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S1x128, .f32⟩
  | .local _ .vmem, ⟨26, _⟩ => ⟨S4096x128, .f32⟩
  | .local _ .vmem, ⟨27, _⟩ => ⟨S4096x128, .f32⟩
  | .local _ .vmem, ⟨28, _⟩ => ⟨S4096x128, .f32⟩
  | .local _ .vmem, ⟨29, _⟩ => ⟨S4096x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S4096x128, .f32⟩
  | .local _ .vmem, ⟨35, _⟩ => ⟨S4096x128, .f32⟩
  | .local _ .vmem, ⟨36, _⟩ => ⟨S4096x128, .f32⟩
  | .local _ .vmem, ⟨37, _⟩ => ⟨S4096x128, .f32⟩
  | .local _ .vmem, ⟨38, _⟩ => ⟨S4096x128, .f32⟩
  | .local _ .vmem, ⟨39, _⟩ => ⟨S4096x128, .f32⟩
  | .local _ .vmem, ⟨40, _⟩ => ⟨S128x128, .f32⟩
  | .local _ .vmem, ⟨41, _⟩ => ⟨S1x128, .f32⟩
  | .local _ .vmem, ⟨42, _⟩ => ⟨S128x128, .f32⟩
  | .local _ .vmem, ⟨43, _⟩ => ⟨S1x128, .f32⟩
  | .local _ .vmem, ⟨44, _⟩ => ⟨S4096x128, .f32⟩
  | .local _ .vmem, ⟨45, _⟩ => ⟨S4096x128, .f32⟩
  | .local _ .vmem, ⟨46, _⟩ => ⟨S4096x128, .f32⟩
  | .local _ .vmem, ⟨47, _⟩ => ⟨S4096x128, .f32⟩
  | .local _ .vmem, ⟨48, _⟩ => ⟨S1x128, .f32⟩
  | .local _ .vmem, ⟨49, _⟩ => ⟨S1x128, .f32⟩
  | .local _ .vmem, ⟨50, _⟩ => ⟨S1x128, .f32⟩
  | .local _ .vmem, ⟨51, _⟩ => ⟨S1x128, .f32⟩
  | .local _ .vmem, ⟨52, _⟩ => ⟨S4096x128, .f32⟩
  | .local _ .vmem, ⟨53, _⟩ => ⟨S4096x128, .f32⟩
  | .local _ .vmem, ⟨54, _⟩ => ⟨S4096x128, .f32⟩
  | .local _ .vmem, ⟨55, _⟩ => ⟨S4096x128, .f32⟩
  | .local _ .vmem, ⟨56, _⟩ => ⟨S4096x128, .f32⟩
  | .local _ .vmem, ⟨57, _⟩ => ⟨S4096x128, .f32⟩
  | .local _ .vmem, ⟨58, _⟩ => ⟨S128x128, .f32⟩
  | .local _ .vmem, ⟨59, _⟩ => ⟨S1x128, .f32⟩
  | .local _ .vmem, ⟨60, _⟩ => ⟨S128x128, .f32⟩
  | .local _ .vmem, ⟨61, _⟩ => ⟨S1x128, .f32⟩
  | .local _ .vmem, ⟨62, _⟩ => ⟨S4096x128, .f32⟩
  | .local _ .vmem, ⟨63, _⟩ => ⟨S4096x128, .f32⟩
  | .local _ .vmem, ⟨64, _⟩ => ⟨S4096x128, .f32⟩
  | .local _ .vmem, ⟨65, _⟩ => ⟨S4096x128, .f32⟩
  | .local _ .vmem, ⟨66, _⟩ => ⟨S1x128, .f32⟩
  | .local _ .vmem, ⟨67, _⟩ => ⟨S1x128, .f32⟩
  | .local _ .vmem, ⟨68, _⟩ => ⟨S1x128, .f32⟩
  | .local _ .vmem, ⟨69, _⟩ => ⟨S1x128, .f32⟩
  | .local _ .vmem, ⟨70, _⟩ => ⟨S4096x128, .f32⟩
  | .local _ .vmem, ⟨71, _⟩ => ⟨S4096x128, .f32⟩
  | .local _ .vmem, ⟨72, _⟩ => ⟨S4096x128, .f32⟩
  | .local _ .vmem, ⟨73, _⟩ => ⟨S4096x128, .f32⟩
  | .local _ .vmem, ⟨74, _⟩ => ⟨S4096x128, .f32⟩
  | .local _ .vmem, ⟨75, _⟩ => ⟨S4096x128, .f32⟩
  | .local _ .vmem, ⟨76, _⟩ => ⟨S128x128, .f32⟩
  | .local _ .vmem, ⟨77, _⟩ => ⟨S1x128, .f32⟩
  | .local _ .vmem, ⟨78, _⟩ => ⟨S128x128, .f32⟩
  | .local _ .vmem, ⟨79, _⟩ => ⟨S1x128, .f32⟩
  | .local _ .vmem, ⟨80, _⟩ => ⟨S4096x128, .f32⟩
  | .local _ .vmem, ⟨81, _⟩ => ⟨S4096x128, .f32⟩
  | .local _ .vmem, ⟨82, _⟩ => ⟨S4096x128, .f32⟩
  | .local _ .vmem, ⟨83, _⟩ => ⟨S4096x128, .f32⟩
  | .local _ .vmem, ⟨84, _⟩ => ⟨S1x128, .f32⟩
  | .local _ .vmem, ⟨85, _⟩ => ⟨S1x128, .f32⟩
  | .local _ .vmem, ⟨86, _⟩ => ⟨S1x128, .f32⟩
  | .local _ .vmem, ⟨87, _⟩ => ⟨S1x128, .f32⟩
  | .local _ .vmem, ⟨88, _⟩ => ⟨S4096x128, .f32⟩
  | .local _ .vmem, ⟨89, _⟩ => ⟨S4096x128, .f32⟩
  | .local _ .vmem, ⟨90, _⟩ => ⟨S512x640, .f32⟩
  | .local _ .vmem, ⟨91, _⟩ => ⟨S640x128, .f32⟩
  | .local _ .vmem, ⟨92, _⟩ => ⟨S1x128, .f32⟩
  | .local _ .vmem, ⟨93, _⟩ => ⟨S128x2, .f32⟩
  | .local _ .vmem, ⟨94, _⟩ => ⟨S1x2, .f32⟩
  | .local _ .vmem, ⟨95, _⟩ => ⟨S512x2, .f32⟩
  | _, _ => ⟨S32768x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | _, _ => false

abbrev semScoped : Fin 0 → Bool
  | ⟨_, h⟩ => absurd h (Nat.not_lt_zero _)

abbrev dmaSemScoped : Fin 96 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | _ => false

abbrev sig : RefSig :=
  ofTc nBuf bufTy 0 96 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_v0 : Ref sig .tc := ⟨.hbm, 40, rfl⟩
abbrev main_v1 : Ref sig .tc := ⟨.hbm, 41, rfl⟩
abbrev main_v2 : Ref sig .tc := ⟨.hbm, 42, rfl⟩
abbrev main_v3 : Ref sig .tc := ⟨.hbm, 43, rfl⟩
abbrev main_c : Ref sig .tc := ⟨.hbm, 44, rfl⟩
abbrev main_v4 : Ref sig .tc := ⟨.hbm, 45, rfl⟩
abbrev main_v5 : Ref sig .tc := ⟨.hbm, 46, rfl⟩
abbrev main_c_0 : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_cst : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_c_1 : Ref sig .tc := ⟨.hbm, 68, rfl⟩
abbrev main_v25 : Ref sig .tc := ⟨.hbm, 69, rfl⟩
abbrev main_v26 : Ref sig .tc := ⟨.hbm, 70, rfl⟩
abbrev main_c_2 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_cst_3 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_c_4 : Ref sig .tc := ⟨.hbm, 92, rfl⟩
abbrev main_v46 : Ref sig .tc := ⟨.hbm, 93, rfl⟩
abbrev main_v47 : Ref sig .tc := ⟨.hbm, 94, rfl⟩
abbrev main_c_5 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_cst_6 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_c_7 : Ref sig .tc := ⟨.hbm, 116, rfl⟩
abbrev main_v67 : Ref sig .tc := ⟨.hbm, 117, rfl⟩
abbrev main_v68 : Ref sig .tc := ⟨.hbm, 118, rfl⟩
abbrev main_c_8 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_cst_9 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_c_10 : Ref sig .tc := ⟨.hbm, 140, rfl⟩
abbrev main_v88 : Ref sig .tc := ⟨.hbm, 141, rfl⟩
abbrev main_v89 : Ref sig .tc := ⟨.hbm, 142, rfl⟩
abbrev main_c_11 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_cst_12 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_cst_13 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_cst_14 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_cst_15 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_cst_16 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_cst_17 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg6_0 : Ref sig .tc := ⟨.vmem, 44, rfl⟩
abbrev cc4_stg6_1 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg4_0 : Ref sig .tc := ⟨.vmem, 51, rfl⟩
abbrev cc5_stg5_0 : Ref sig .tc := ⟨.vmem, 52, rfl⟩
abbrev cc5_stg5_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg1_1 : Ref sig .tc := ⟨.vmem, 57, rfl⟩
abbrev cc6_stg2_0 : Ref sig .tc := ⟨.vmem, 58, rfl⟩
abbrev cc6_stg3_0 : Ref sig .tc := ⟨.vmem, 59, rfl⟩
abbrev cc6_stg4_0 : Ref sig .tc := ⟨.vmem, 60, rfl⟩
abbrev cc6_stg5_0 : Ref sig .tc := ⟨.vmem, 61, rfl⟩
abbrev cc6_stg6_0 : Ref sig .tc := ⟨.vmem, 62, rfl⟩
abbrev cc6_stg6_1 : Ref sig .tc := ⟨.vmem, 63, rfl⟩
abbrev cc7_stg0_0 : Ref sig .tc := ⟨.vmem, 64, rfl⟩
abbrev cc7_stg0_1 : Ref sig .tc := ⟨.vmem, 65, rfl⟩
abbrev cc7_stg1_0 : Ref sig .tc := ⟨.vmem, 66, rfl⟩
abbrev cc7_stg2_0 : Ref sig .tc := ⟨.vmem, 67, rfl⟩
abbrev cc7_stg3_0 : Ref sig .tc := ⟨.vmem, 68, rfl⟩
abbrev cc7_stg4_0 : Ref sig .tc := ⟨.vmem, 69, rfl⟩
abbrev cc7_stg5_0 : Ref sig .tc := ⟨.vmem, 70, rfl⟩
abbrev cc7_stg5_1 : Ref sig .tc := ⟨.vmem, 71, rfl⟩
abbrev cc8_stg0_0 : Ref sig .tc := ⟨.vmem, 72, rfl⟩
abbrev cc8_stg0_1 : Ref sig .tc := ⟨.vmem, 73, rfl⟩
abbrev cc8_stg1_0 : Ref sig .tc := ⟨.vmem, 74, rfl⟩
abbrev cc8_stg1_1 : Ref sig .tc := ⟨.vmem, 75, rfl⟩
abbrev cc8_stg2_0 : Ref sig .tc := ⟨.vmem, 76, rfl⟩
abbrev cc8_stg3_0 : Ref sig .tc := ⟨.vmem, 77, rfl⟩
abbrev cc8_stg4_0 : Ref sig .tc := ⟨.vmem, 78, rfl⟩
abbrev cc8_stg5_0 : Ref sig .tc := ⟨.vmem, 79, rfl⟩
abbrev cc8_stg6_0 : Ref sig .tc := ⟨.vmem, 80, rfl⟩
abbrev cc8_stg6_1 : Ref sig .tc := ⟨.vmem, 81, rfl⟩
abbrev cc9_stg0_0 : Ref sig .tc := ⟨.vmem, 82, rfl⟩
abbrev cc9_stg0_1 : Ref sig .tc := ⟨.vmem, 83, rfl⟩
abbrev cc9_stg1_0 : Ref sig .tc := ⟨.vmem, 84, rfl⟩
abbrev cc9_stg2_0 : Ref sig .tc := ⟨.vmem, 85, rfl⟩
abbrev cc9_stg3_0 : Ref sig .tc := ⟨.vmem, 86, rfl⟩
abbrev cc9_stg4_0 : Ref sig .tc := ⟨.vmem, 87, rfl⟩
abbrev cc9_stg5_0 : Ref sig .tc := ⟨.vmem, 88, rfl⟩
abbrev cc9_stg5_1 : Ref sig .tc := ⟨.vmem, 89, rfl⟩
abbrev cc10_stg0_0 : Ref sig .tc := ⟨.vmem, 90, rfl⟩
abbrev cc10_stg1_0 : Ref sig .tc := ⟨.vmem, 91, rfl⟩
abbrev cc10_stg2_0 : Ref sig .tc := ⟨.vmem, 92, rfl⟩
abbrev cc10_stg3_0 : Ref sig .tc := ⟨.vmem, 93, rfl⟩
abbrev cc10_stg4_0 : Ref sig .tc := ⟨.vmem, 94, rfl⟩
abbrev cc10_stg5_0 : Ref sig .tc := ⟨.vmem, 95, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem6_0 : DmaSem sig := 44
abbrev cc4_sem6_1 : DmaSem sig := 45
abbrev cc5_sem0_0 : DmaSem sig := 46
abbrev cc5_sem0_1 : DmaSem sig := 47
abbrev cc5_sem1_0 : DmaSem sig := 48
abbrev cc5_sem2_0 : DmaSem sig := 49
abbrev cc5_sem3_0 : DmaSem sig := 50
abbrev cc5_sem4_0 : DmaSem sig := 51
abbrev cc5_sem5_0 : DmaSem sig := 52
abbrev cc5_sem5_1 : DmaSem sig := 53
abbrev cc6_sem0_0 : DmaSem sig := 54
abbrev cc6_sem0_1 : DmaSem sig := 55
abbrev cc6_sem1_0 : DmaSem sig := 56
abbrev cc6_sem1_1 : DmaSem sig := 57
abbrev cc6_sem2_0 : DmaSem sig := 58
abbrev cc6_sem3_0 : DmaSem sig := 59
abbrev cc6_sem4_0 : DmaSem sig := 60
abbrev cc6_sem5_0 : DmaSem sig := 61
abbrev cc6_sem6_0 : DmaSem sig := 62
abbrev cc6_sem6_1 : DmaSem sig := 63
abbrev cc7_sem0_0 : DmaSem sig := 64
abbrev cc7_sem0_1 : DmaSem sig := 65
abbrev cc7_sem1_0 : DmaSem sig := 66
abbrev cc7_sem2_0 : DmaSem sig := 67
abbrev cc7_sem3_0 : DmaSem sig := 68
abbrev cc7_sem4_0 : DmaSem sig := 69
abbrev cc7_sem5_0 : DmaSem sig := 70
abbrev cc7_sem5_1 : DmaSem sig := 71
abbrev cc8_sem0_0 : DmaSem sig := 72
abbrev cc8_sem0_1 : DmaSem sig := 73
abbrev cc8_sem1_0 : DmaSem sig := 74
abbrev cc8_sem1_1 : DmaSem sig := 75
abbrev cc8_sem2_0 : DmaSem sig := 76
abbrev cc8_sem3_0 : DmaSem sig := 77
abbrev cc8_sem4_0 : DmaSem sig := 78
abbrev cc8_sem5_0 : DmaSem sig := 79
abbrev cc8_sem6_0 : DmaSem sig := 80
abbrev cc8_sem6_1 : DmaSem sig := 81
abbrev cc9_sem0_0 : DmaSem sig := 82
abbrev cc9_sem0_1 : DmaSem sig := 83
abbrev cc9_sem1_0 : DmaSem sig := 84
abbrev cc9_sem2_0 : DmaSem sig := 85
abbrev cc9_sem3_0 : DmaSem sig := 86
abbrev cc9_sem4_0 : DmaSem sig := 87
abbrev cc9_sem5_0 : DmaSem sig := 88
abbrev cc9_sem5_1 : DmaSem sig := 89
abbrev cc10_sem0_0 : DmaSem sig := 90
abbrev cc10_sem1_0 : DmaSem sig := 91
abbrev cc10_sem2_0 : DmaSem sig := 92
abbrev cc10_sem3_0 : DmaSem sig := 93
abbrev cc10_sem4_0 : DmaSem sig := 94
abbrev cc10_sem5_0 : DmaSem sig := 95

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4096x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4096x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S4096x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4096x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4096x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S4096x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4096x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S4096x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4096x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S4096x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S128x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S4096x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![8], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S4096x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S4096x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![8], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S4096x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S4096x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S128x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S128x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 2 → Memref sig .tc .vmem S4096x128 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev grid9 : Pipeline.Grid := ⟨1, ![8], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S4096x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S4096x128 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨1, ![1], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 1 → Memref sig .tc .vmem S512x640 .f32 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![false]

abbrev stage10_1 : Fin 1 → Memref sig .tc .vmem S640x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S128x2 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x2 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S512x2 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S524288 : S_.BroadcastsInDim S524288 (![] : Fin 0 → Fin S524288.rank)
  bcast_S524288_S524288x1_0 : S524288.BroadcastsInDim S524288x1 (![0] : Fin 1 → Fin S524288x1.rank)
  bcast_S524288x1_S524288x64_0_1 : S524288x1.BroadcastsInDim S524288x64 (![0, 1] : Fin 2 → Fin S524288x64.rank)
  bcast_S_S32768x64 : S_.BroadcastsInDim S32768x64 (![] : Fin 0 → Fin S32768x64.rank)
  shapeCasts_S128_S1x128 : S128.ShapeCasts S1x128
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S128x128_S128x128_0_0 : ∀ a, (![0, 0] : Fin 2 → Nat) a + S128x128.size a ≤ S128x128.size a
  h_S128x128 : 0 < S128x128.numel
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  bcast_S524288x1_S524288x128_0_1 : S524288x1.BroadcastsInDim S524288x128 (![0, 1] : Fin 2 → Fin S524288x128.rank)
  bcast_S_S32768x128 : S_.BroadcastsInDim S32768x128 (![] : Fin 0 → Fin S32768x128.rank)
  bcast_S_S512x128 : S_.BroadcastsInDim S512x128 (![] : Fin 0 → Fin S512x128.rank)
  bcast_S32768_S32768x1_0 : S32768.BroadcastsInDim S32768x1 (![0] : Fin 1 → Fin S32768x1.rank)
  concatenates_S512x128_S512x128_S512x128_S512x128_S512x128_S512x640_d1 : Shape.Concatenates [S512x128, S512x128, S512x128, S512x128, S512x128] S512x640 1
  shapeCasts_S2_S1x2 : S2.ShapeCasts S1x2
  inb_S512x640_S512x640_0_0 : ∀ a, (![0, 0] : Fin 2 → Nat) a + S512x640.size a ≤ S512x640.size a
  h_S512x640 : 0 < S512x640.numel
  shapeCasts_S512x640_S512x640 : S512x640.ShapeCasts S512x640
  inb_S640x128_S640x128_0_0 : ∀ a, (![0, 0] : Fin 2 → Nat) a + S640x128.size a ≤ S640x128.size a
  h_S640x128 : 0 < S640x128.numel
  broadcasts_S1x128_S512x128 : S1x128.Broadcasts S512x128
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S512x2 : S1x2.Broadcasts S512x2
  inb_S512x2_S512x2_0_0 : ∀ a, (![0, 0] : Fin 2 → Nat) a + S512x2.size a ≤ S512x2.size a
  h_S512x2 : 0 < S512x2.numel
  gather_S32768x64_S524288x1_S524288x64_1_0_n_n_0_1_164_wf : GatherDims.WF S32768x64 S524288x1 S524288x64 [1] [0] [] [0] [] 1 ![1, 64]
  scatter_S32768x64_S524288x1_S524288x64_1_0_0_1_wf : ScatterDims.WF S32768x64 S524288x1 S524288x64 [1] [0] [0] 1
  dot_S4096x64_S64x128_S4096x128_1_0_0_1_n_n_wf : DotDims.WF S4096x64 S64x128 S4096x128 [1] [0] [0] [1] [] []
  dot_S4096x128_S128x128_S4096x128_1_0_0_1_n_n_wf : DotDims.WF S4096x128 S128x128 S4096x128 [1] [0] [0] [1] [] []
  gather_S32768x128_S524288x1_S524288x128_1_0_n_n_0_1_1128_wf : GatherDims.WF S32768x128 S524288x1 S524288x128 [1] [0] [] [0] [] 1 ![1, 128]
  scatter_S32768x128_S524288x1_S524288x128_1_0_0_1_wf : ScatterDims.WF S32768x128 S524288x1 S524288x128 [1] [0] [0] 1
  scatter_S512x128_S32768x1_S32768x128_1_0_0_1_wf : ScatterDims.WF S512x128 S32768x1 S32768x128 [1] [0] [0] 1
  dot_S512x640_S640x128_S512x128_1_0_0_1_n_n_wf : DotDims.WF S512x640 S640x128 S512x128 [1] [0] [0] [1] [] []
  dot_S512x128_S128x2_S512x2_1_0_0_1_n_n_wf : DotDims.WF S512x128 S128x2 S512x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S32768x64.size a
  hwx0_0 : ∀ i : grid0.Coords, EltTy.bits .f32 = 32 ∨ (Rect.block (s := S32768x64) S4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S32768x64.size a
  hwx0_1 : ∀ i : grid0.Coords, EltTy.bits .f32 = 32 ∨ (Rect.block (s := S32768x64) S4096x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x128.size a ≤ S32768x128.size a
  hwx0_6 : ∀ i : grid0.Coords, EltTy.bits .f32 = 32 ∨ (Rect.block (s := S32768x128) S4096x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S32768x128.size a
  hwx1_0 : ∀ i : grid1.Coords, EltTy.bits .f32 = 32 ∨ (Rect.block (s := S32768x128) S4096x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4096x128.size a ≤ S32768x128.size a
  hwx1_5 : ∀ i : grid1.Coords, EltTy.bits .f32 = 32 ∨ (Rect.block (s := S32768x128) S4096x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x128.size a ≤ S32768x128.size a
  hwx2_0 : ∀ i : grid2.Coords, EltTy.bits .f32 = 32 ∨ (Rect.block (s := S32768x128) S4096x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x128.size a ≤ S32768x128.size a
  hwx2_1 : ∀ i : grid2.Coords, EltTy.bits .f32 = 32 ∨ (Rect.block (s := S32768x128) S4096x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4096x128.size a ≤ S32768x128.size a
  hwx2_6 : ∀ i : grid2.Coords, EltTy.bits .f32 = 32 ∨ (Rect.block (s := S32768x128) S4096x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x128.size a ≤ S32768x128.size a
  hwx3_0 : ∀ i : grid3.Coords, EltTy.bits .f32 = 32 ∨ (Rect.block (s := S32768x128) S4096x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S4096x128.size a ≤ S32768x128.size a
  hwx3_5 : ∀ i : grid3.Coords, EltTy.bits .f32 = 32 ∨ (Rect.block (s := S32768x128) S4096x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4096x128.size a ≤ S32768x128.size a
  hwx4_0 : ∀ i : grid4.Coords, EltTy.bits .f32 = 32 ∨ (Rect.block (s := S32768x128) S4096x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4096x128.size a ≤ S32768x128.size a
  hwx4_1 : ∀ i : grid4.Coords, EltTy.bits .f32 = 32 ∨ (Rect.block (s := S32768x128) S4096x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S4096x128.size a ≤ S32768x128.size a
  hwx4_6 : ∀ i : grid4.Coords, EltTy.bits .f32 = 32 ∨ (Rect.block (s := S32768x128) S4096x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4096x128.size a ≤ S32768x128.size a
  hwx5_0 : ∀ i : grid5.Coords, EltTy.bits .f32 = 32 ∨ (Rect.block (s := S32768x128) S4096x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S4096x128.size a ≤ S32768x128.size a
  hwx5_5 : ∀ i : grid5.Coords, EltTy.bits .f32 = 32 ∨ (Rect.block (s := S32768x128) S4096x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4096x128.size a ≤ S32768x128.size a
  hwx6_0 : ∀ i : grid6.Coords, EltTy.bits .f32 = 32 ∨ (Rect.block (s := S32768x128) S4096x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S4096x128.size a ≤ S32768x128.size a
  hwx6_1 : ∀ i : grid6.Coords, EltTy.bits .f32 = 32 ∨ (Rect.block (s := S32768x128) S4096x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128x128.size a ≤ S128x128.size a
  hwx6_4 : ∀ i : grid6.Coords, EltTy.bits .f32 = 32 ∨ (Rect.block (s := S128x128) S128x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S4096x128.size a ≤ S32768x128.size a
  hwx6_6 : ∀ i : grid6.Coords, EltTy.bits .f32 = 32 ∨ (Rect.block (s := S32768x128) S4096x128.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S4096x128.size a ≤ S32768x128.size a
  hwx7_0 : ∀ i : grid7.Coords, EltTy.bits .f32 = 32 ∨ (Rect.block (s := S32768x128) S4096x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S4096x128.size a ≤ S32768x128.size a
  hwx7_5 : ∀ i : grid7.Coords, EltTy.bits .f32 = 32 ∨ (Rect.block (s := S32768x128) S4096x128.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S4096x128.size a ≤ S32768x128.size a
  hwx8_0 : ∀ i : grid8.Coords, EltTy.bits .f32 = 32 ∨ (Rect.block (s := S32768x128) S4096x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S4096x128.size a ≤ S32768x128.size a
  hwx8_1 : ∀ i : grid8.Coords, EltTy.bits .f32 = 32 ∨ (Rect.block (s := S32768x128) S4096x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S128x128.size a ≤ S128x128.size a
  hwx8_2 : ∀ i : grid8.Coords, EltTy.bits .f32 = 32 ∨ (Rect.block (s := S128x128) S128x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S128x128.size a ≤ S128x128.size a
  hwx8_4 : ∀ i : grid8.Coords, EltTy.bits .f32 = 32 ∨ (Rect.block (s := S128x128) S128x128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x128.size a ≤ S1x128.size a
  hwx8_5 : ∀ i : grid8.Coords, EltTy.bits .f32 = 32 ∨ (Rect.block (s := S1x128) S1x128.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S4096x128.size a ≤ S32768x128.size a
  hwx8_6 : ∀ i : grid8.Coords, EltTy.bits .f32 = 32 ∨ (Rect.block (s := S32768x128) S4096x128.size (cc8_transform_6 i) (hinb8_6 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S4096x128.size a ≤ S32768x128.size a
  hwx9_0 : ∀ i : grid9.Coords, EltTy.bits .f32 = 32 ∨ (Rect.block (s := S32768x128) S4096x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x128.size a ≤ S1x128.size a
  hwx9_1 : ∀ i : grid9.Coords, EltTy.bits .f32 = 32 ∨ (Rect.block (s := S1x128) S1x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x128.size a ≤ S1x128.size a
  hwx9_4 : ∀ i : grid9.Coords, EltTy.bits .f32 = 32 ∨ (Rect.block (s := S1x128) S1x128.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S4096x128.size a ≤ S32768x128.size a
  hwx9_5 : ∀ i : grid9.Coords, EltTy.bits .f32 = 32 ∨ (Rect.block (s := S32768x128) S4096x128.size (cc9_transform_5 i) (hinb9_5 i)).WholeWords (EltTy.packing .f32)
  hrank10 : 0 < grid10.rank
  hstage10_0 : ∀ j, (stage10_0 j).IsWhole
  nbuf10_0 : grid10.bufCount reads10_0 true = 1
  hreads10_0 : ∀ i i' : grid10.Coords, (∀ a, reads10_0 a = true → i a = i' a) → cc10_transform_0 i = cc10_transform_0 i'
  hinb10_0 : ∀ (i : grid10.Coords) a, (cc10_transform_0 i a + 1) * S512x640.size a ≤ S512x640.size a
  hwx10_0 : ∀ i : grid10.Coords, EltTy.bits .f32 = 32 ∨ (Rect.block (s := S512x640) S512x640.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S640x128.size a ≤ S640x128.size a
  hwx10_1 : ∀ i : grid10.Coords, EltTy.bits .f32 = 32 ∨ (Rect.block (s := S640x128) S640x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x128.size a
  hwx10_2 : ∀ i : grid10.Coords, EltTy.bits .f32 = 32 ∨ (Rect.block (s := S1x128) S1x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S128x2.size a ≤ S128x2.size a
  hwx10_3 : ∀ i : grid10.Coords, EltTy.bits .f32 = 32 ∨ (Rect.block (s := S128x2) S128x2.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x2.size a ≤ S1x2.size a
  hwx10_4 : ∀ i : grid10.Coords, EltTy.bits .f32 = 32 ∨ (Rect.block (s := S1x2) S1x2.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S512x2.size a ≤ S512x2.size a
  hwx10_5 : ∀ i : grid10.Coords, EltTy.bits .f32 = 32 ∨ (Rect.block (s := S512x2) S512x2.size (cc10_transform_5 i) (hinb10_5 i)).WholeWords (EltTy.packing .f32)

variable [Facts₀]

def gather_S32768x64_S524288x1_S524288x64_1_0_n_n_0_1_164 : GatherDims S32768x64 S524288x1 S524288x64 where
  offsetDims := [1]
  collapsedSliceDims := [0]
  operandBatchingDims := []
  startIndicesBatchingDims := []
  startIndexMap := [0]
  indexVectorDim := 1
  sliceSizes := ![1, 64]
  wf := gather_S32768x64_S524288x1_S524288x64_1_0_n_n_0_1_164_wf
def scatter_S32768x64_S524288x1_S524288x64_1_0_0_1 : ScatterDims S32768x64 S524288x1 S524288x64 where
  updateWindowDims := [1]
  insertedWindowDims := [0]
  scatterDimsToOperandDims := [0]
  indexVectorDim := 1
  wf := scatter_S32768x64_S524288x1_S524288x64_1_0_0_1_wf
def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def gather_S32768x128_S524288x1_S524288x128_1_0_n_n_0_1_1128 : GatherDims S32768x128 S524288x1 S524288x128 where
  offsetDims := [1]
  collapsedSliceDims := [0]
  operandBatchingDims := []
  startIndicesBatchingDims := []
  startIndexMap := [0]
  indexVectorDim := 1
  sliceSizes := ![1, 128]
  wf := gather_S32768x128_S524288x1_S524288x128_1_0_n_n_0_1_1128_wf
def scatter_S32768x128_S524288x1_S524288x128_1_0_0_1 : ScatterDims S32768x128 S524288x1 S524288x128 where
  updateWindowDims := [1]
  insertedWindowDims := [0]
  scatterDimsToOperandDims := [0]
  indexVectorDim := 1
  wf := scatter_S32768x128_S524288x1_S524288x128_1_0_0_1_wf
def scatter_S512x128_S32768x1_S32768x128_1_0_0_1 : ScatterDims S512x128 S32768x1 S32768x128 where
  updateWindowDims := [1]
  insertedWindowDims := [0]
  scatterDimsToOperandDims := [0]
  indexVectorDim := 1
  wf := scatter_S512x128_S32768x1_S32768x128_1_0_0_1_wf
def dot_S512x640_S640x128_S512x128_1_0_0_1_n_n : DotDims S512x640 S640x128 S512x128 where
  lhsContracting := [1]
  rhsContracting := [0]
  lhsNonContracting := [0]
  rhsNonContracting := [1]
  lhsBatch := []
  rhsBatch := []
  wf := dot_S512x640_S640x128_S512x128_1_0_0_1_n_n_wf
def dot_S512x128_S128x2_S512x2_1_0_0_1_n_n : DotDims S512x128 S128x2 S512x2 where
  lhsContracting := [1]
  rhsContracting := [0]
  lhsNonContracting := [0]
  rhsNonContracting := [1]
  lhsBatch := []
  rhsBatch := []
  wf := dot_S512x128_S128x2_S512x2_1_0_0_1_n_n_wf

abbrev win0_0 : Pipeline.Window sig grid0 :=
  Pipeline.Window.ofSpec (Memref.whole main_arg0) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S4096x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v19) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v21) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S4096x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v24) S4096x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S4096x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v38) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg8) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v39) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v40) S4096x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v40) S4096x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v41) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v42) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v43) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v44) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v45) S4096x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v45) S4096x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v58) S4096x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg10) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v59) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg12) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v60) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v61) S4096x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v61) S4096x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v62) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v63) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v64) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v65) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v66) S4096x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v66) S4096x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v79) S4096x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_arg14) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v80) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_arg16) S128x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v81) S1x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v82) S4096x128.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v82) S4096x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v83) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v84) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v85) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v86) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v87) S4096x128.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v87) S4096x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v100) S4096x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_arg18) S128x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v101) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_arg20) S128x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v102) S1x128.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v103) S4096x128.size cc8_transform_6 reads8_6 true false 2 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

abbrev win9_0 : Pipeline.Window sig grid9 :=
  Pipeline.Window.ofSpec (Memref.whole main_v103) S4096x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v104) S1x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v105) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v106) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v107) S1x128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v108) S4096x128.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v124) S512x640.size cc10_transform_0 reads10_0 false true 1 stage10_0 sem10_0
    hrank10 hreads10_0 hinb10_0 nbuf10_0 (Memref.isWhole_whole _) hwx10_0 hstage10_0

abbrev win10_1 : Pipeline.Window sig grid10 :=
  Pipeline.Window.ofSpec (Memref.whole main_arg34) S640x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v125) S1x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_arg36) S128x2.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v126) S1x2.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v127) S512x2.size cc10_transform_5 reads10_5 true true 1 stage10_5 sem10_5
    hrank10 hreads10_5 hinb10_5 nbuf10_5 (Memref.isWhole_whole _) hwx10_5 hstage10_5

abbrev win10 : Fin 6 → Pipeline.Window sig grid10 := fun | 0 => win10_0 | 1 => win10_1 | 2 => win10_2 | 3 => win10_3 | 4 => win10_4 | 5 => win10_5 | ⟨_ + 6, h⟩ => absurd h (Nat.not_lt.2 (Nat.le_add_left _ _))
abbrev spec10 : Fin 6 → Pipeline.WinSpec sig grid10.rank := fun w => (win10 w).toWinSpec

class Facts : Prop extends Facts₀ where

variable [Facts]
-- ==== ReferenceIdeal.lean ====
abbrev S32768x64 : Shape := ⟨2, ![32768, 64]⟩
abbrev S524288 : Shape := ⟨1, ![524288]⟩
abbrev S64x128 : Shape := ⟨2, ![64, 128]⟩
abbrev S128 : Shape := ⟨1, ![128]⟩
abbrev S128x128 : Shape := ⟨2, ![128, 128]⟩
abbrev S640x128 : Shape := ⟨2, ![640, 128]⟩
abbrev S128x2 : Shape := ⟨2, ![128, 2]⟩
abbrev S2 : Shape := ⟨1, ![2]⟩
abbrev S2x524288 : Shape := ⟨2, ![2, 524288]⟩
abbrev S32768 : Shape := ⟨1, ![32768]⟩
abbrev S1x524288 : Shape := ⟨2, ![1, 524288]⟩
abbrev S_ : Shape := ⟨0, ![]⟩
abbrev S524288x1 : Shape := ⟨2, ![524288, 1]⟩
abbrev S524288x64 : Shape := ⟨2, ![524288, 64]⟩
abbrev S32768x128 : Shape := ⟨2, ![32768, 128]⟩
abbrev S1x128 : Shape := ⟨2, ![1, 128]⟩
abbrev S524288x128 : Shape := ⟨2, ![524288, 128]⟩
abbrev S512x128 : Shape := ⟨2, ![512, 128]⟩
abbrev S32768x1 : Shape := ⟨2, ![32768, 1]⟩
abbrev S512x640 : Shape := ⟨2, ![512, 640]⟩
abbrev S512x2 : Shape := ⟨2, ![512, 2]⟩
abbrev S1x2 : Shape := ⟨2, ![1, 2]⟩

abbrev nBuf : Space → Nat
  | .hbm => 296
  | .vmem => 0
  | .smem => 0
  | _ => 0

abbrev hbmTy0_0 (i : Nat) : BufTy := match i % 128 with
  | 0 => ⟨S32768x64, .f32⟩
  | 1 => ⟨S524288, .f32⟩
  | 2 => ⟨S64x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128x128, .f32⟩
  | 15 => ⟨S128, .f32⟩
  | 16 => ⟨S128x128, .f32⟩
  | 17 => ⟨S128, .f32⟩
  | 18 => ⟨S128x128, .f32⟩
  | 19 => ⟨S128, .f32⟩
  | 20 => ⟨S128x128, .f32⟩
  | 21 => ⟨S128, .f32⟩
  | 22 => ⟨S128, .f32⟩
  | 23 => ⟨S128, .f32⟩
  | 24 => ⟨S128, .f32⟩
  | 25 => ⟨S128, .f32⟩
  | 26 => ⟨S128, .f32⟩
  | 27 => ⟨S128, .f32⟩
  | 28 => ⟨S128, .f32⟩
  | 29 => ⟨S128, .f32⟩
  | 30 => ⟨S128, .f32⟩
  | 31 => ⟨S128, .f32⟩
  | 32 => ⟨S128, .f32⟩
  | 33 => ⟨S128, .f32⟩
  | 34 => ⟨S640x128, .f32⟩
  | 35 => ⟨S128, .f32⟩
  | 36 => ⟨S128x2, .f32⟩
  | 37 => ⟨S2, .f32⟩
  | 38 => ⟨S2x524288, .i32⟩
  | 39 => ⟨S32768, .i32⟩
  | 40 => ⟨S1x524288, .i32⟩
  | 41 => ⟨S524288, .i32⟩
  | 42 => ⟨S1x524288, .i32⟩
  | 43 => ⟨S524288, .i32⟩
  | 44 => ⟨S_, .i32⟩
  | 45 => ⟨S524288, .i32⟩
  | 46 => ⟨S524288, .i1⟩
  | 47 => ⟨S_, .i32⟩
  | 48 => ⟨S524288, .i32⟩
  | 49 => ⟨S524288, .i32⟩
  | 50 => ⟨S524288, .i32⟩
  | 51 => ⟨S524288x1, .i32⟩
  | 52 => ⟨S524288x64, .f32⟩
  | 53 => ⟨S524288x1, .f32⟩
  | 54 => ⟨S524288x64, .f32⟩
  | 55 => ⟨S524288x64, .f32⟩
  | 56 => ⟨S_, .f32⟩
  | 57 => ⟨S32768x64, .f32⟩
  | 58 => ⟨S524288x1, .i32⟩
  | 59 => ⟨S32768x64, .f32⟩
  | 60 => ⟨S32768x64, .f32⟩
  | 61 => ⟨S32768x128, .f32⟩
  | 62 => ⟨S1x128, .f32⟩
  | 63 => ⟨S32768x128, .f32⟩
  | 64 => ⟨S32768x128, .f32⟩
  | 65 => ⟨S_, .f32⟩
  | 66 => ⟨S32768x128, .f32⟩
  | 67 => ⟨S32768x128, .f32⟩
  | 68 => ⟨S32768x128, .f32⟩
  | 69 => ⟨S1x128, .f32⟩
  | 70 => ⟨S32768x128, .f32⟩
  | 71 => ⟨S32768x128, .f32⟩
  | 72 => ⟨S1x128, .f32⟩
  | 73 => ⟨S32768x128, .f32⟩
  | 74 => ⟨S32768x128, .f32⟩
  | 75 => ⟨S_, .f32⟩
  | 76 => ⟨S128, .f32⟩
  | 77 => ⟨S128, .f32⟩
  | 78 => ⟨S128, .f32⟩
  | 79 => ⟨S1x128, .f32⟩
  | 80 => ⟨S32768x128, .f32⟩
  | 81 => ⟨S32768x128, .f32⟩
  | 82 => ⟨S1x128, .f32⟩
  | 83 => ⟨S32768x128, .f32⟩
  | 84 => ⟨S32768x128, .f32⟩
  | 85 => ⟨S1x128, .f32⟩
  | 86 => ⟨S32768x128, .f32⟩
  | 87 => ⟨S32768x128, .f32⟩
  | 88 => ⟨S_, .i32⟩
  | 89 => ⟨S524288, .i32⟩
  | 90 => ⟨S524288, .i1⟩
  | 91 => ⟨S_, .i32⟩
  | 92 => ⟨S524288, .i32⟩
  | 93 => ⟨S524288, .i32⟩
  | 94 => ⟨S524288, .i32⟩
  | 95 => ⟨S524288x1, .i32⟩
  | 96 => ⟨S524288x128, .f32⟩
  | 97 => ⟨S524288x1, .f32⟩
  | 98 => ⟨S524288x128, .f32⟩
  | 99 => ⟨S524288x128, .f32⟩
  | 100 => ⟨S_, .f32⟩
  | 101 => ⟨S32768x128, .f32⟩
  | 102 => ⟨S524288x1, .i32⟩
  | 103 => ⟨S32768x128, .f32⟩
  | 104 => ⟨S32768x128, .f32⟩
  | 105 => ⟨S32768x128, .f32⟩
  | 106 => ⟨S1x128, .f32⟩
  | 107 => ⟨S32768x128, .f32⟩
  | 108 => ⟨S32768x128, .f32⟩
  | 109 => ⟨S_, .f32⟩
  | 110 => ⟨S32768x128, .f32⟩
  | 111 => ⟨S32768x128, .f32⟩
  | 112 => ⟨S32768x128, .f32⟩
  | 113 => ⟨S1x128, .f32⟩
  | 114 => ⟨S32768x128, .f32⟩
  | 115 => ⟨S32768x128, .f32⟩
  | 116 => ⟨S1x128, .f32⟩
  | 117 => ⟨S32768x128, .f32⟩
  | 118 => ⟨S32768x128, .f32⟩
  | 119 => ⟨S_, .f32⟩
  | 120 => ⟨S128, .f32⟩
  | 121 => ⟨S128, .f32⟩
  | 122 => ⟨S128, .f32⟩
  | 123 => ⟨S1x128, .f32⟩
  | 124 => ⟨S32768x128, .f32⟩
  | 125 => ⟨S32768x128, .f32⟩
  | 126 => ⟨S1x128, .f32⟩
  | 127 => ⟨S32768x128, .f32⟩
  | _ => ⟨S32768x64, .f32⟩

abbrev hbmTy0_1 (i : Nat) : BufTy := match i % 128 with
  | 0 => ⟨S32768x128, .f32⟩
  | 1 => ⟨S1x128, .f32⟩
  | 2 => ⟨S32768x128, .f32⟩
  | 3 => ⟨S32768x128, .f32⟩
  | 4 => ⟨S_, .i32⟩
  | 5 => ⟨S524288, .i32⟩
  | 6 => ⟨S524288, .i1⟩
  | 7 => ⟨S_, .i32⟩
  | 8 => ⟨S524288, .i32⟩
  | 9 => ⟨S524288, .i32⟩
  | 10 => ⟨S524288, .i32⟩
  | 11 => ⟨S524288x1, .i32⟩
  | 12 => ⟨S524288x128, .f32⟩
  | 13 => ⟨S524288x1, .f32⟩
  | 14 => ⟨S524288x128, .f32⟩
  | 15 => ⟨S524288x128, .f32⟩
  | 16 => ⟨S_, .f32⟩
  | 17 => ⟨S32768x128, .f32⟩
  | 18 => ⟨S524288x1, .i32⟩
  | 19 => ⟨S32768x128, .f32⟩
  | 20 => ⟨S32768x128, .f32⟩
  | 21 => ⟨S32768x128, .f32⟩
  | 22 => ⟨S1x128, .f32⟩
  | 23 => ⟨S32768x128, .f32⟩
  | 24 => ⟨S32768x128, .f32⟩
  | 25 => ⟨S_, .f32⟩
  | 26 => ⟨S32768x128, .f32⟩
  | 27 => ⟨S32768x128, .f32⟩
  | 28 => ⟨S32768x128, .f32⟩
  | 29 => ⟨S1x128, .f32⟩
  | 30 => ⟨S32768x128, .f32⟩
  | 31 => ⟨S32768x128, .f32⟩
  | 32 => ⟨S1x128, .f32⟩
  | 33 => ⟨S32768x128, .f32⟩
  | 34 => ⟨S32768x128, .f32⟩
  | 35 => ⟨S_, .f32⟩
  | 36 => ⟨S128, .f32⟩
  | 37 => ⟨S128, .f32⟩
  | 38 => ⟨S128, .f32⟩
  | 39 => ⟨S1x128, .f32⟩
  | 40 => ⟨S32768x128, .f32⟩
  | 41 => ⟨S32768x128, .f32⟩
  | 42 => ⟨S1x128, .f32⟩
  | 43 => ⟨S32768x128, .f32⟩
  | 44 => ⟨S32768x128, .f32⟩
  | 45 => ⟨S1x128, .f32⟩
  | 46 => ⟨S32768x128, .f32⟩
  | 47 => ⟨S32768x128, .f32⟩
  | 48 => ⟨S_, .i32⟩
  | 49 => ⟨S524288, .i32⟩
  | 50 => ⟨S524288, .i1⟩
  | 51 => ⟨S_, .i32⟩
  | 52 => ⟨S524288, .i32⟩
  | 53 => ⟨S524288, .i32⟩
  | 54 => ⟨S524288, .i32⟩
  | 55 => ⟨S524288x1, .i32⟩
  | 56 => ⟨S524288x128, .f32⟩
  | 57 => ⟨S524288x1, .f32⟩
  | 58 => ⟨S524288x128, .f32⟩
  | 59 => ⟨S524288x128, .f32⟩
  | 60 => ⟨S_, .f32⟩
  | 61 => ⟨S32768x128, .f32⟩
  | 62 => ⟨S524288x1, .i32⟩
  | 63 => ⟨S32768x128, .f32⟩
  | 64 => ⟨S32768x128, .f32⟩
  | 65 => ⟨S32768x128, .f32⟩
  | 66 => ⟨S1x128, .f32⟩
  | 67 => ⟨S32768x128, .f32⟩
  | 68 => ⟨S32768x128, .f32⟩
  | 69 => ⟨S_, .f32⟩
  | 70 => ⟨S32768x128, .f32⟩
  | 71 => ⟨S32768x128, .f32⟩
  | 72 => ⟨S32768x128, .f32⟩
  | 73 => ⟨S1x128, .f32⟩
  | 74 => ⟨S32768x128, .f32⟩
  | 75 => ⟨S32768x128, .f32⟩
  | 76 => ⟨S1x128, .f32⟩
  | 77 => ⟨S32768x128, .f32⟩
  | 78 => ⟨S32768x128, .f32⟩
  | 79 => ⟨S_, .f32⟩
  | 80 => ⟨S128, .f32⟩
  | 81 => ⟨S128, .f32⟩
  | 82 => ⟨S128, .f32⟩
  | 83 => ⟨S1x128, .f32⟩
  | 84 => ⟨S32768x128, .f32⟩
  | 85 => ⟨S32768x128, .f32⟩
  | 86 => ⟨S1x128, .f32⟩
  | 87 => ⟨S32768x128, .f32⟩
  | 88 => ⟨S32768x128, .f32⟩
  | 89 => ⟨S1x128, .f32⟩
  | 90 => ⟨S32768x128, .f32⟩
  | 91 => ⟨S32768x128, .f32⟩
  | 92 => ⟨S_, .i32⟩
  | 93 => ⟨S524288, .i32⟩
  | 94 => ⟨S524288, .i1⟩
  | 95 => ⟨S_, .i32⟩
  | 96 => ⟨S524288, .i32⟩
  | 97 => ⟨S524288, .i32⟩
  | 98 => ⟨S524288, .i32⟩
  | 99 => ⟨S524288x1, .i32⟩
  | 100 => ⟨S524288x128, .f32⟩
  | 101 => ⟨S524288x1, .f32⟩
  | 102 => ⟨S524288x128, .f32⟩
  | 103 => ⟨S524288x128, .f32⟩
  | 104 => ⟨S_, .f32⟩
  | 105 => ⟨S32768x128, .f32⟩
  | 106 => ⟨S524288x1, .i32⟩
  | 107 => ⟨S32768x128, .f32⟩
  | 108 => ⟨S32768x128, .f32⟩
  | 109 => ⟨S32768x128, .f32⟩
  | 110 => ⟨S1x128, .f32⟩
  | 111 => ⟨S32768x128, .f32⟩
  | 112 => ⟨S32768x128, .f32⟩
  | 113 => ⟨S_, .f32⟩
  | 114 => ⟨S32768x128, .f32⟩
  | 115 => ⟨S32768x128, .f32⟩
  | 116 => ⟨S32768x128, .f32⟩
  | 117 => ⟨S1x128, .f32⟩
  | 118 => ⟨S32768x128, .f32⟩
  | 119 => ⟨S32768x128, .f32⟩
  | 120 => ⟨S1x128, .f32⟩
  | 121 => ⟨S32768x128, .f32⟩
  | 122 => ⟨S32768x128, .f32⟩
  | 123 => ⟨S_, .f32⟩
  | 124 => ⟨S128, .f32⟩
  | 125 => ⟨S128, .f32⟩
  | 126 => ⟨S128, .f32⟩
  | 127 => ⟨S1x128, .f32⟩
  | _ => ⟨S32768x64, .f32⟩

abbrev hbmTy0_2 (i : Nat) : BufTy := match i % 128 with
  | 0 => ⟨S32768x128, .f32⟩
  | 1 => ⟨S32768x128, .f32⟩
  | 2 => ⟨S1x128, .f32⟩
  | 3 => ⟨S32768x128, .f32⟩
  | 4 => ⟨S32768x128, .f32⟩
  | 5 => ⟨S1x128, .f32⟩
  | 6 => ⟨S32768x128, .f32⟩
  | 7 => ⟨S32768x128, .f32⟩
  | 8 => ⟨S_, .f32⟩
  | 9 => ⟨S512x128, .f32⟩
  | 10 => ⟨S32768x1, .i32⟩
  | 11 => ⟨S512x128, .f32⟩
  | 12 => ⟨S_, .f32⟩
  | 13 => ⟨S512x128, .f32⟩
  | 14 => ⟨S32768x1, .i32⟩
  | 15 => ⟨S512x128, .f32⟩
  | 16 => ⟨S_, .f32⟩
  | 17 => ⟨S512x128, .f32⟩
  | 18 => ⟨S32768x1, .i32⟩
  | 19 => ⟨S512x128, .f32⟩
  | 20 => ⟨S_, .f32⟩
  | 21 => ⟨S512x128, .f32⟩
  | 22 => ⟨S32768x1, .i32⟩
  | 23 => ⟨S512x128, .f32⟩
  | 24 => ⟨S_, .f32⟩
  | 25 => ⟨S512x128, .f32⟩
  | 26 => ⟨S32768x1, .i32⟩
  | 27 => ⟨S512x128, .f32⟩
  | 28 => ⟨S512x640, .f32⟩
  | 29 => ⟨S512x128, .f32⟩
  | 30 => ⟨S1x128, .f32⟩
  | 31 => ⟨S512x128, .f32⟩
  | 32 => ⟨S512x128, .f32⟩
  | 33 => ⟨S_, .f32⟩
  | 34 => ⟨S512x128, .f32⟩
  | 35 => ⟨S512x128, .f32⟩
  | 36 => ⟨S512x2, .f32⟩
  | 37 => ⟨S1x2, .f32⟩
  | 38 => ⟨S512x2, .f32⟩
  | 39 => ⟨S512x2, .f32⟩
  | _ => ⟨S32768x64, .f32⟩

abbrev hbmTy (i : Nat) : BufTy := match i / 128 with
  | 0 => hbmTy0_0 i
  | 1 => hbmTy0_1 i
  | 2 => hbmTy0_2 i
  | _ => ⟨S32768x64, .f32⟩

abbrev bufTy : (tb : Table) → Fin (tcTables nBuf tb) → BufTy
  | .hbm, ⟨i, _⟩ => hbmTy i
  | _, _ => ⟨S32768x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_v0 : Ref sig .tc := ⟨.hbm, 40, rfl⟩
abbrev main_v1 : Ref sig .tc := ⟨.hbm, 41, rfl⟩
abbrev main_v2 : Ref sig .tc := ⟨.hbm, 42, rfl⟩
abbrev main_v3 : Ref sig .tc := ⟨.hbm, 43, rfl⟩
abbrev main_c : Ref sig .tc := ⟨.hbm, 44, rfl⟩
abbrev main_v4 : Ref sig .tc := ⟨.hbm, 45, rfl⟩
abbrev main_v5 : Ref sig .tc := ⟨.hbm, 46, rfl⟩
abbrev main_c_0 : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_cst : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_call0_cst : Ref sig .tc := ⟨.hbm, 65, rfl⟩
abbrev main_call0_v0 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_cst_1 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_c_2 : Ref sig .tc := ⟨.hbm, 88, rfl⟩
abbrev main_v42 : Ref sig .tc := ⟨.hbm, 89, rfl⟩
abbrev main_v43 : Ref sig .tc := ⟨.hbm, 90, rfl⟩
abbrev main_c_3 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_cst_4 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_call1_cst : Ref sig .tc := ⟨.hbm, 109, rfl⟩
abbrev main_call1_v0 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_cst_5 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_c_6 : Ref sig .tc := ⟨.hbm, 132, rfl⟩
abbrev main_v80 : Ref sig .tc := ⟨.hbm, 133, rfl⟩
abbrev main_v81 : Ref sig .tc := ⟨.hbm, 134, rfl⟩
abbrev main_c_7 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_cst_8 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_call2_cst : Ref sig .tc := ⟨.hbm, 153, rfl⟩
abbrev main_call2_v0 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_cst_9 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_c_10 : Ref sig .tc := ⟨.hbm, 176, rfl⟩
abbrev main_v118 : Ref sig .tc := ⟨.hbm, 177, rfl⟩
abbrev main_v119 : Ref sig .tc := ⟨.hbm, 178, rfl⟩
abbrev main_c_11 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_cst_12 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_v135 : Ref sig .tc := ⟨.hbm, 196, rfl⟩
abbrev main_call3_cst : Ref sig .tc := ⟨.hbm, 197, rfl⟩
abbrev main_call3_v0 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_v143 : Ref sig .tc := ⟨.hbm, 206, rfl⟩
abbrev main_cst_13 : Ref sig .tc := ⟨.hbm, 207, rfl⟩
abbrev main_v144 : Ref sig .tc := ⟨.hbm, 208, rfl⟩
abbrev main_v145 : Ref sig .tc := ⟨.hbm, 209, rfl⟩
abbrev main_v146 : Ref sig .tc := ⟨.hbm, 210, rfl⟩
abbrev main_v147 : Ref sig .tc := ⟨.hbm, 211, rfl⟩
abbrev main_v148 : Ref sig .tc := ⟨.hbm, 212, rfl⟩
abbrev main_v149 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_v153 : Ref sig .tc := ⟨.hbm, 217, rfl⟩
abbrev main_v154 : Ref sig .tc := ⟨.hbm, 218, rfl⟩
abbrev main_v155 : Ref sig .tc := ⟨.hbm, 219, rfl⟩
abbrev main_c_14 : Ref sig .tc := ⟨.hbm, 220, rfl⟩
abbrev main_v156 : Ref sig .tc := ⟨.hbm, 221, rfl⟩
abbrev main_v157 : Ref sig .tc := ⟨.hbm, 222, rfl⟩
abbrev main_c_15 : Ref sig .tc := ⟨.hbm, 223, rfl⟩
abbrev main_v158 : Ref sig .tc := ⟨.hbm, 224, rfl⟩
abbrev main_v159 : Ref sig .tc := ⟨.hbm, 225, rfl⟩
abbrev main_v160 : Ref sig .tc := ⟨.hbm, 226, rfl⟩
abbrev main_v161 : Ref sig .tc := ⟨.hbm, 227, rfl⟩
abbrev main_v162 : Ref sig .tc := ⟨.hbm, 228, rfl⟩
abbrev main_v163 : Ref sig .tc := ⟨.hbm, 229, rfl⟩
abbrev main_v164 : Ref sig .tc := ⟨.hbm, 230, rfl⟩
abbrev main_v165 : Ref sig .tc := ⟨.hbm, 231, rfl⟩
abbrev main_cst_16 : Ref sig .tc := ⟨.hbm, 232, rfl⟩
abbrev main_v166 : Ref sig .tc := ⟨.hbm, 233, rfl⟩
abbrev main_v167 : Ref sig .tc := ⟨.hbm, 234, rfl⟩
abbrev main_v168 : Ref sig .tc := ⟨.hbm, 235, rfl⟩
abbrev main_v169 : Ref sig .tc := ⟨.hbm, 236, rfl⟩
abbrev main_v170 : Ref sig .tc := ⟨.hbm, 237, rfl⟩
abbrev main_v171 : Ref sig .tc := ⟨.hbm, 238, rfl⟩
abbrev main_v172 : Ref sig .tc := ⟨.hbm, 239, rfl⟩
abbrev main_v173 : Ref sig .tc := ⟨.hbm, 240, rfl⟩
abbrev main_call4_cst : Ref sig .tc := ⟨.hbm, 241, rfl⟩
abbrev main_call4_v0 : Ref sig .tc := ⟨.hbm, 242, rfl⟩
abbrev main_v174 : Ref sig .tc := ⟨.hbm, 243, rfl⟩
abbrev main_v175 : Ref sig .tc := ⟨.hbm, 244, rfl⟩
abbrev main_v176 : Ref sig .tc := ⟨.hbm, 245, rfl⟩
abbrev main_v177 : Ref sig .tc := ⟨.hbm, 246, rfl⟩
abbrev main_v178 : Ref sig .tc := ⟨.hbm, 247, rfl⟩
abbrev main_v179 : Ref sig .tc := ⟨.hbm, 248, rfl⟩
abbrev main_v180 : Ref sig .tc := ⟨.hbm, 249, rfl⟩
abbrev main_v181 : Ref sig .tc := ⟨.hbm, 250, rfl⟩
abbrev main_cst_17 : Ref sig .tc := ⟨.hbm, 251, rfl⟩
abbrev main_v182 : Ref sig .tc := ⟨.hbm, 252, rfl⟩
abbrev main_v183 : Ref sig .tc := ⟨.hbm, 253, rfl⟩
abbrev main_v184 : Ref sig .tc := ⟨.hbm, 254, rfl⟩
abbrev main_v185 : Ref sig .tc := ⟨.hbm, 255, rfl⟩
abbrev main_v186 : Ref sig .tc := ⟨.hbm, 256, rfl⟩
abbrev main_v187 : Ref sig .tc := ⟨.hbm, 257, rfl⟩
abbrev main_v188 : Ref sig .tc := ⟨.hbm, 258, rfl⟩
abbrev main_v189 : Ref sig .tc := ⟨.hbm, 259, rfl⟩
abbrev main_v190 : Ref sig .tc := ⟨.hbm, 260, rfl⟩
abbrev main_v191 : Ref sig .tc := ⟨.hbm, 261, rfl⟩
abbrev main_v192 : Ref sig .tc := ⟨.hbm, 262, rfl⟩
abbrev main_v193 : Ref sig .tc := ⟨.hbm, 263, rfl⟩
abbrev main_cst_18 : Ref sig .tc := ⟨.hbm, 264, rfl⟩
abbrev main_v194 : Ref sig .tc := ⟨.hbm, 265, rfl⟩
abbrev main_v195 : Ref sig .tc := ⟨.hbm, 266, rfl⟩
abbrev main_v196 : Ref sig .tc := ⟨.hbm, 267, rfl⟩
abbrev main_cst_19 : Ref sig .tc := ⟨.hbm, 268, rfl⟩
abbrev main_v197 : Ref sig .tc := ⟨.hbm, 269, rfl⟩
abbrev main_v198 : Ref sig .tc := ⟨.hbm, 270, rfl⟩
abbrev main_v199 : Ref sig .tc := ⟨.hbm, 271, rfl⟩
abbrev main_cst_20 : Ref sig .tc := ⟨.hbm, 272, rfl⟩
abbrev main_v200 : Ref sig .tc := ⟨.hbm, 273, rfl⟩
abbrev main_v201 : Ref sig .tc := ⟨.hbm, 274, rfl⟩
abbrev main_v202 : Ref sig .tc := ⟨.hbm, 275, rfl⟩
abbrev main_cst_21 : Ref sig .tc := ⟨.hbm, 276, rfl⟩
abbrev main_v203 : Ref sig .tc := ⟨.hbm, 277, rfl⟩
abbrev main_v204 : Ref sig .tc := ⟨.hbm, 278, rfl⟩
abbrev main_v205 : Ref sig .tc := ⟨.hbm, 279, rfl⟩
abbrev main_cst_22 : Ref sig .tc := ⟨.hbm, 280, rfl⟩
abbrev main_v206 : Ref sig .tc := ⟨.hbm, 281, rfl⟩
abbrev main_v207 : Ref sig .tc := ⟨.hbm, 282, rfl⟩
abbrev main_v208 : Ref sig .tc := ⟨.hbm, 283, rfl⟩
abbrev main_v209 : Ref sig .tc := ⟨.hbm, 284, rfl⟩
abbrev main_v210 : Ref sig .tc := ⟨.hbm, 285, rfl⟩
abbrev main_v211 : Ref sig .tc := ⟨.hbm, 286, rfl⟩
abbrev main_v212 : Ref sig .tc := ⟨.hbm, 287, rfl⟩
abbrev main_v213 : Ref sig .tc := ⟨.hbm, 288, rfl⟩
abbrev main_call5_cst : Ref sig .tc := ⟨.hbm, 289, rfl⟩
abbrev main_call5_v0 : Ref sig .tc := ⟨.hbm, 290, rfl⟩
abbrev main_v214 : Ref sig .tc := ⟨.hbm, 291, rfl⟩
abbrev main_v215 : Ref sig .tc := ⟨.hbm, 292, rfl⟩
abbrev main_v216 : Ref sig .tc := ⟨.hbm, 293, rfl⟩
abbrev main_v217 : Ref sig .tc := ⟨.hbm, 294, rfl⟩
abbrev main_v218 : Ref sig .tc := ⟨.hbm, 295, rfl⟩

abbrev nD : Nat := 1
abbrev τ : Topo := Topo.v7x

variable {F : FTy → Type} [FloatOps F]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S524288 : S_.BroadcastsInDim S524288 (![] : Fin 0 → Fin S524288.rank)
  bcast_S524288_S524288x1_0 : S524288.BroadcastsInDim S524288x1 (![0] : Fin 1 → Fin S524288x1.rank)
  bcast_S524288x1_S524288x64_0_1 : S524288x1.BroadcastsInDim S524288x64 (![0, 1] : Fin 2 → Fin S524288x64.rank)
  bcast_S_S32768x64 : S_.BroadcastsInDim S32768x64 (![] : Fin 0 → Fin S32768x64.rank)
  bcast_S128_S1x128_1 : S128.BroadcastsInDim S1x128 (![1] : Fin 1 → Fin S1x128.rank)
  bcast_S1x128_S32768x128_0_1 : S1x128.BroadcastsInDim S32768x128 (![0, 1] : Fin 2 → Fin S32768x128.rank)
  bcast_S_S32768x128 : S_.BroadcastsInDim S32768x128 (![] : Fin 0 → Fin S32768x128.rank)
  bcast_S_S128 : S_.BroadcastsInDim S128 (![] : Fin 0 → Fin S128.rank)
  bcast_S524288x1_S524288x128_0_1 : S524288x1.BroadcastsInDim S524288x128 (![0, 1] : Fin 2 → Fin S524288x128.rank)
  bcast_S_S512x128 : S_.BroadcastsInDim S512x128 (![] : Fin 0 → Fin S512x128.rank)
  bcast_S32768_S32768x1_0 : S32768.BroadcastsInDim S32768x1 (![0] : Fin 1 → Fin S32768x1.rank)
  concatenates_S512x128_S512x128_S512x128_S512x128_S512x128_S512x640_d1 : Shape.Concatenates [S512x128, S512x128, S512x128, S512x128, S512x128] S512x640 1
  bcast_S1x128_S512x128_0_1 : S1x128.BroadcastsInDim S512x128 (![0, 1] : Fin 2 → Fin S512x128.rank)
  bcast_S2_S1x2_1 : S2.BroadcastsInDim S1x2 (![1] : Fin 1 → Fin S1x2.rank)
  bcast_S1x2_S512x2_0_1 : S1x2.BroadcastsInDim S512x2 (![0, 1] : Fin 2 → Fin S512x2.rank)
  gather_S32768x64_S524288x1_S524288x64_1_0_n_n_0_1_164_wf : GatherDims.WF S32768x64 S524288x1 S524288x64 [1] [0] [] [0] [] 1 ![1, 64]
  scatter_S32768x64_S524288x1_S524288x64_1_0_0_1_wf : ScatterDims.WF S32768x64 S524288x1 S524288x64 [1] [0] [0] 1
  dot_S32768x64_S64x128_S32768x128_1_0_0_1_n_n_wf : DotDims.WF S32768x64 S64x128 S32768x128 [1] [0] [0] [1] [] []
  dot_S32768x128_S128x128_S32768x128_1_0_0_1_n_n_wf : DotDims.WF S32768x128 S128x128 S32768x128 [1] [0] [0] [1] [] []
  gather_S32768x128_S524288x1_S524288x128_1_0_n_n_0_1_1128_wf : GatherDims.WF S32768x128 S524288x1 S524288x128 [1] [0] [] [0] [] 1 ![1, 128]
  scatter_S32768x128_S524288x1_S524288x128_1_0_0_1_wf : ScatterDims.WF S32768x128 S524288x1 S524288x128 [1] [0] [0] 1
  scatter_S512x128_S32768x1_S32768x128_1_0_0_1_wf : ScatterDims.WF S512x128 S32768x1 S32768x128 [1] [0] [0] 1
  dot_S512x640_S640x128_S512x128_1_0_0_1_n_n_wf : DotDims.WF S512x640 S640x128 S512x128 [1] [0] [0] [1] [] []
  dot_S512x128_S128x2_S512x2_1_0_0_1_n_n_wf : DotDims.WF S512x128 S128x2 S512x2 [1] [0] [0] [1] [] []

variable [Facts₀]

def gather_S32768x64_S524288x1_S524288x64_1_0_n_n_0_1_164 : GatherDims S32768x64 S524288x1 S524288x64 where
  offsetDims := [1]
  collapsedSliceDims := [0]
  operandBatchingDims := []
  startIndicesBatchingDims := []
  startIndexMap := [0]
  indexVectorDim := 1
  sliceSizes := ![1, 64]
  wf := gather_S32768x64_S524288x1_S524288x64_1_0_n_n_0_1_164_wf
def scatter_S32768x64_S524288x1_S524288x64_1_0_0_1 : ScatterDims S32768x64 S524288x1 S524288x64 where
  updateWindowDims := [1]
  insertedWindowDims := [0]
  scatterDimsToOperandDims := [0]
  indexVectorDim := 1
  wf := scatter_S32768x64_S524288x1_S524288x64_1_0_0_1_wf
def dot_S32768x64_S64x128_S32768x128_1_0_0_1_n_n : DotDims S32768x64 S64x128 S32768x128 where
  lhsContracting := [1]
  rhsContracting := [0]
  lhsNonContracting := [0]
  rhsNonContracting := [1]
  lhsBatch := []
  rhsBatch := []
  wf := dot_S32768x64_S64x128_S32768x128_1_0_0_1_n_n_wf
def dot_S32768x128_S128x128_S32768x128_1_0_0_1_n_n : DotDims S32768x128 S128x128 S32768x128 where
  lhsContracting := [1]
  rhsContracting := [0]
  lhsNonContracting := [0]
  rhsNonContracting := [1]
  lhsBatch := []
  rhsBatch := []
  wf := dot_S32768x128_S128x128_S32768x128_1_0_0_1_n_n_wf
def gather_S32768x128_S524288x1_S524288x128_1_0_n_n_0_1_1128 : GatherDims S32768x128 S524288x1 S524288x128 where
  offsetDims := [1]
  collapsedSliceDims := [0]
  operandBatchingDims := []
  startIndicesBatchingDims := []
  startIndexMap := [0]
  indexVectorDim := 1
  sliceSizes := ![1, 128]
  wf := gather_S32768x128_S524288x1_S524288x128_1_0_n_n_0_1_1128_wf
def scatter_S32768x128_S524288x1_S524288x128_1_0_0_1 : ScatterDims S32768x128 S524288x1 S524288x128 where
  updateWindowDims := [1]
  insertedWindowDims := [0]
  scatterDimsToOperandDims := [0]
  indexVectorDim := 1
  wf := scatter_S32768x128_S524288x1_S524288x128_1_0_0_1_wf
def scatter_S512x128_S32768x1_S32768x128_1_0_0_1 : ScatterDims S512x128 S32768x1 S32768x128 where
  updateWindowDims := [1]
  insertedWindowDims := [0]
  scatterDimsToOperandDims := [0]
  indexVectorDim := 1
  wf := scatter_S512x128_S32768x1_S32768x128_1_0_0_1_wf
def dot_S512x640_S640x128_S512x128_1_0_0_1_n_n : DotDims S512x640 S640x128 S512x128 where
  lhsContracting := [1]
  rhsContracting := [0]
  lhsNonContracting := [0]
  rhsNonContracting := [1]
  lhsBatch := []
  rhsBatch := []
  wf := dot_S512x640_S640x128_S512x128_1_0_0_1_n_n_wf
def dot_S512x128_S128x2_S512x2_1_0_0_1_n_n : DotDims S512x128 S128x2 S512x2 where
  lhsContracting := [1]
  rhsContracting := [0]
  lhsNonContracting := [0]
  rhsNonContracting := [1]
  lhsBatch := []
  rhsBatch := []
  wf := dot_S512x128_S128x2_S512x2_1_0_0_1_n_n_wf

class Facts : Prop extends Facts₀ where

variable [Facts]
-- ==== Proof.K.R0.lean ====
import proofs.«141374_j27161373180011_1_alg».proof.Proof.Gen.Kernel.Launch
import proofs.«141374_j27161373180011_1_alg».proof.Proof.Gen.Kernel.Skeleton
import proofs.«141374_j27161373180011_1_alg».proof.Proof.Gen.Kernel.Points
import Idealize.ShloMosaic.Lib.Pipeline.FrameBody
import Idealize.ShloMosaic.Lib.Tactic

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t of the array V gives it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev whole0_S4096x64 : Rect S4096x64 := Rect.unit (s := S4096x64) ![0, 0] S4096x64.size inb_S4096x64_S4096x64_0_0
abbrev whole0_S64x128 : Rect S64x128 := Rect.unit (s := S64x128) ![0, 0] S64x128.size inb_S64x128_S64x128_0_0
abbrev whole0_S1x128 : Rect S1x128 := Rect.unit (s := S1x128) ![0, 0] S1x128.size inb_S1x128_S1x128_0_0
abbrev whole0_S128x128 : Rect S128x128 := Rect.unit (s := S128x128) ![0, 0] S128x128.size inb_S128x128_S128x128_0_0
abbrev whole0_S4096x128 : Rect S4096x128 := Rect.unit (s := S4096x128) ![0, 0] S4096x128.size inb_S4096x128_S4096x128_0_0

/-- The output block after the body: the payload of the whole input blocks, stored over the whole block. -/
def out0_6 (x0 : Vec F S4096x64 .f32) (x1 : Vec F S4096x64 .f32) (x2 : Vec F S64x128 .f32) (x3 : Vec F S1x128 .f32) (x4 : Vec F S128x128 .f32) (x5 : Vec F S1x128 .f32) : Vec F S4096x128 .f32 :=
  View.canon [⟨whole0_S4096x128, k0_pay1 (View.ld x0 whole0_S4096x64) (View.ld x1 whole0_S4096x64) (View.ld x2 whole0_S64x128) (View.ld x3 whole0_S1x128) (View.ld x4 whole0_S128x128) (View.ld x5 whole0_S1x128)⟩]

theorem cover0_6 (p0 : Vec F S4096x128 .f32) (y : S4096x128.Idx) :
    ∃ pc ∈ ([⟨whole0_S4096x128, p0⟩] : List (View.Piece (Elt F) S4096x128 .f32)), y ∈ pc.1.set :=
  View.cover_of_tiled [⟨whole0_S4096x128, p0⟩] S4096x128.size (by rfl) y

set_option maxHeartbeats 1000000 in
/-- The body's triple: it leaves the inputs as they were and the output at out0_6 of them. -/
theorem sound_kernel0 (c : Dev nD) (E : Set ℕ) (i : grid0.Coords)
    (arg1 : Memref sig .tc .vmem S4096x64 .f32) (harg1 : arg1.IsWhole) (arg2 : Memref sig .tc .vmem S4096x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4096x128 .f32) (harg7 : arg7.IsWhole)
    (x0 : Vec F S4096x64 .f32) (x1 : Vec F S4096x64 .f32) (x2 : Vec F S64x128 .f32) (x3 : Vec F S1x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E (cc0__gin_mlp_kernel i arg1 harg1 arg2 harg2 arg3 harg3 arg4 harg4 arg5 harg5 arg6 harg6 arg7 harg7) K := by
  simp only [cc0__gin_mlp_kernel_eq_skeleton]; unfold cc0__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  iexists _; isplitr
  swap; · iexact H6
  ipureintro
  exact View.read_writes_eq_canon _ _ _ (cover0_6 _)

/-- The region's proof data: an input keeps its block, the output block is out0_6 of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) :
    (dat0 V c).after 6 t = out0_6 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d
theorem before0_3 (c : Dev nD) (t : Fin cfg0.N) (d) : (dat0 V c).before 3 t d = iblk0 V c 3 t :=
  (dat0 V c).before_in_eq_fetched 3 rfl (fun _ => rfl) (fun _ _ _ => rfl) (fun _ => rfl) t d
theorem before0_4 (c : Dev nD) (t : Fin cfg0.N) (d) : (dat0 V c).before 4 t d = iblk0 V c 4 t :=
  (dat0 V c).before_in_eq_fetched 4 rfl (fun _ => rfl) (fun _ _ _ => rfl) (fun _ => rfl) t d
theorem before0_5 (c : Dev nD) (t : Fin cfg0.N) (d) : (dat0 V c).before 5 t d = iblk0 V c 5 t :=
  (dat0 V c).before_in_eq_fetched 5 rfl (fun _ => rfl) (fun _ _ _ => rfl) (fun _ => rfl) t d

/-- At any point the inputs hold their blocks, so the body's triple applies; the invariant and the dues pass through. -/
theorem body_obligation0 (c : Dev nD) : BodyObligation (dat0 (F := F) V c) (defs₀ (F := F)) Variants.none () Set.univ := fun t => by
  show iprop((dat0 V c).Φ t.castSucc ∗ (dat0 V c).owesAt () t.castSucc
      ∗ bigSep Finset.univ fun w : Fin 7 => iprop(∃ d, owns (c : Thread nD τ) ((cfg0.win w).stage (cfg0.slots t w)) fullShare ((dat0 V c).before w t d)))
    ⊢ wp frame (wpE (defs₀ (F := F)) Variants.none c none) Set.univ (bodyAt0 t) fun _ =>
      iprop((dat0 V c).Φ t.castSucc ∗ (dat0 V c).owesAt () t.castSucc
        ∗ bigSep Finset.univ fun w : Fin 7 => owns (c : Thread nD τ) ((cfg0.win w).stage (cfg0.slots t w)) fullShare ((dat0 V c).after w t))
  rw [bigSep_W0, bigSep_W0]
  simp only [before0_0, before0_1, before0_2, before0_3, before0_4, before0_5, after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  iframe
  isplitl [H6]; · iexists _; iexact H6
  iintro ⟨H0, H1, H2, H3, H4, H5, H6⟩
  iframe

end Cert.Kernel.Fr

end
-- ==== Proof.K.R1.lean ====
import proofs.«141374_j27161373180011_1_alg».proof.Proof.Gen.Kernel.Launch
import proofs.«141374_j27161373180011_1_alg».proof.Proof.Gen.Kernel.Skeleton
import proofs.«141374_j27161373180011_1_alg».proof.Proof.Gen.Kernel.Points
import Idealize.ShloMosaic.Lib.Pipeline.FrameBody
import Idealize.ShloMosaic.Lib.Tactic

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t of the array V gives it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev whole1_S4096x128 : Rect S4096x128 := Rect.unit (s := S4096x128) ![0, 0] S4096x128.size inb_S4096x128_S4096x128_0_0
abbrev whole1_S1x128 : Rect S1x128 := Rect.unit (s := S1x128) ![0, 0] S1x128.size inb_S1x128_S1x128_0_0

/-- The output block after the body: the payload of the whole input blocks, stored over the whole block. -/
def out1_5 (x0 : Vec F S4096x128 .f32) (x1 : Vec F S1x128 .f32) (x2 : Vec F S1x128 .f32) (x3 : Vec F S1x128 .f32) (x4 : Vec F S1x128 .f32) : Vec F S4096x128 .f32 :=
  View.canon [⟨whole1_S4096x128, k1_pay1 (View.ld x0 whole1_S4096x128) (View.ld x3 whole1_S1x128) (View.ld x4 whole1_S1x128) (View.ld x1 whole1_S1x128) (View.ld x2 whole1_S1x128)⟩]

theorem cover1_5 (p0 : Vec F S4096x128 .f32) (y : S4096x128.Idx) :
    ∃ pc ∈ ([⟨whole1_S4096x128, p0⟩] : List (View.Piece (Elt F) S4096x128 .f32)), y ∈ pc.1.set :=
  View.cover_of_tiled [⟨whole1_S4096x128, p0⟩] S4096x128.size (by rfl) y

set_option maxHeartbeats 1000000 in
/-- The body's triple: it leaves the inputs as they were and the output at out1_5 of them. -/
theorem sound_kernel1 (c : Dev nD) (E : Set ℕ) (i : grid1.Coords)
    (arg1 : Memref sig .tc .vmem S4096x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S4096x128 .f32) (harg6 : arg6.IsWhole)
    (x0 : Vec F S4096x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__bn_kernel i arg1 harg1 arg2 harg2 arg3 harg3 arg4 harg4 arg5 harg5 arg6 harg6) K := by
  simp only [cc1__bn_kernel_eq_skeleton]; unfold cc1__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  iexists _; isplitr
  swap; · iexact H5
  ipureintro
  exact View.read_writes_eq_canon _ _ _ (cover1_5 _)

/-- The region's proof data: an input keeps its block, the output block is out1_5 of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d
theorem before1_3 (c : Dev nD) (t : Fin cfg1.N) (d) : (dat1 V c).before 3 t d = iblk1 V c 3 t :=
  (dat1 V c).before_in_eq_fetched 3 rfl (fun _ => rfl) (fun _ _ _ => rfl) (fun _ => rfl) t d
theorem before1_4 (c : Dev nD) (t : Fin cfg1.N) (d) : (dat1 V c).before 4 t d = iblk1 V c 4 t :=
  (dat1 V c).before_in_eq_fetched 4 rfl (fun _ => rfl) (fun _ _ _ => rfl) (fun _ => rfl) t d

/-- At any point the inputs hold their blocks, so the body's triple applies; the invariant and the dues pass through. -/
theorem body_obligation1 (c : Dev nD) : BodyObligation (dat1 (F := F) V c) (defs₀ (F := F)) Variants.none () Set.univ := fun t => by
  show iprop((dat1 V c).Φ t.castSucc ∗ (dat1 V c).owesAt () t.castSucc
      ∗ bigSep Finset.univ fun w : Fin 6 => iprop(∃ d, owns (c : Thread nD τ) ((cfg1.win w).stage (cfg1.slots t w)) fullShare ((dat1 V c).before w t d)))
    ⊢ wp frame (wpE (defs₀ (F := F)) Variants.none c none) Set.univ (bodyAt1 t) fun _ =>
      iprop((dat1 V c).Φ t.castSucc ∗ (dat1 V c).owesAt () t.castSucc
        ∗ bigSep Finset.univ fun w : Fin 6 => owns (c : Thread nD τ) ((cfg1.win w).stage (cfg1.slots t w)) fullShare ((dat1 V c).after w t))
  rw [bigSep_W1, bigSep_W1]
  simp only [before1_0, before1_1, before1_2, before1_3, before1_4, after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  iframe
  isplitl [H5]; · iexists _; iexact H5
  iintro ⟨H0, H1, H2, H3, H4, H5⟩
  iframe

end Cert.Kernel.Fr

end
-- ==== Proof.K.R2.lean ====
import proofs.«141374_j27161373180011_1_alg».proof.Proof.Gen.Kernel.Launch
import proofs.«141374_j27161373180011_1_alg».proof.Proof.Gen.Kernel.Skeleton
import proofs.«141374_j27161373180011_1_alg».proof.Proof.Gen.Kernel.Points
import Idealize.ShloMosaic.Lib.Pipeline.FrameBody
import Idealize.ShloMosaic.Lib.Tactic

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t of the array V gives it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev whole2_S4096x128 : Rect S4096x128 := Rect.unit (s := S4096x128) ![0, 0] S4096x128.size inb_S4096x128_S4096x128_0_0
abbrev whole2_S128x128 : Rect S128x128 := Rect.unit (s := S128x128) ![0, 0] S128x128.size inb_S128x128_S128x128_0_0
abbrev whole2_S1x128 : Rect S1x128 := Rect.unit (s := S1x128) ![0, 0] S1x128.size inb_S1x128_S1x128_0_0

/-- The output block after the body: the payload of the whole input blocks, stored over the whole block. -/
def out2_6 (x0 : Vec F S4096x128 .f32) (x1 : Vec F S4096x128 .f32) (x2 : Vec F S128x128 .f32) (x3 : Vec F S1x128 .f32) (x4 : Vec F S128x128 .f32) (x5 : Vec F S1x128 .f32) : Vec F S4096x128 .f32 :=
  View.canon [⟨whole2_S4096x128, k2_pay1 (View.ld x0 whole2_S4096x128) (View.ld x1 whole2_S4096x128) (View.ld x2 whole2_S128x128) (View.ld x3 whole2_S1x128) (View.ld x4 whole2_S128x128) (View.ld x5 whole2_S1x128)⟩]

theorem cover2_6 (p0 : Vec F S4096x128 .f32) (y : S4096x128.Idx) :
    ∃ pc ∈ ([⟨whole2_S4096x128, p0⟩] : List (View.Piece (Elt F) S4096x128 .f32)), y ∈ pc.1.set :=
  View.cover_of_tiled [⟨whole2_S4096x128, p0⟩] S4096x128.size (by rfl) y

set_option maxHeartbeats 1000000 in
/-- The body's triple: it leaves the inputs as they were and the output at out2_6 of them. -/
theorem sound_kernel2 (c : Dev nD) (E : Set ℕ) (i : grid2.Coords)
    (arg1 : Memref sig .tc .vmem S4096x128 .f32) (harg1 : arg1.IsWhole) (arg2 : Memref sig .tc .vmem S4096x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4096x128 .f32) (harg7 : arg7.IsWhole)
    (x0 : Vec F S4096x128 .f32) (x1 : Vec F S4096x128 .f32) (x2 : Vec F S128x128 .f32) (x3 : Vec F S1x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5)) -∗ K ⟨⟩))
      ⊢ wp frame (wpE (defs₀ (F := F)) Variants.none c none) E (cc2__gin_mlp_kernel i arg1 harg1 arg2 harg2 arg3 harg3 arg4 harg4 arg5 harg5 arg6 harg6 arg7 harg7) K := by
  simp only [cc2__gin_mlp_kernel_eq_skeleton]; unfold cc2__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  iexists _; isplitr
  swap; · iexact H6
  ipureintro
  exact View.read_writes_eq_canon _ _ _ (cover2_6 _)

/-- The region's proof data: an input keeps its block, the output block is out2_6 of the input blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) :
    (dat2 V c).after 6 t = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d
theorem before2_3 (c : Dev nD) (t : Fin cfg2.N) (d) : (dat2 V c).before 3 t d = iblk2 V c 3 t :=
  (dat2 V c).before_in_eq_fetched 3 rfl (fun _ => rfl) (fun _ _ _ => rfl) (fun _ => rfl) t d
theorem before2_4 (c : Dev nD) (t : Fin cfg2.N) (d) : (dat2 V c).before 4 t d = iblk2 V c 4 t :=
  (dat2 V c).before_in_eq_fetched 4 rfl (fun _ => rfl) (fun _ _ _ => rfl) (fun _ => rfl) t d
theorem before2_5 (c : Dev nD) (t : Fin cfg2.N) (d) : (dat2 V c).before 5 t d = iblk2 V c 5 t :=
  (dat2 V c).before_in_eq_fetched 5 rfl (fun _ => rfl) (fun _ _ _ => rfl) (fun _ => rfl) t d

/-- At any point the inputs hold their blocks, so the body's triple applies; the invariant and the dues pass through. -/
theorem body_obligation2 (c : Dev nD) : BodyObligation (dat2 (F := F) V c) (defs₀ (F := F)) Variants.none () Set.univ := fun t => by
  show iprop((dat2 V c).Φ t.castSucc ∗ (dat2 V c).owesAt () t.castSucc
      ∗ bigSep Finset.univ fun w : Fin 7 => iprop(∃ d, owns (c : Thread nD τ) ((cfg2.win w).stage (cfg2.slots t w)) fullShare ((dat2 V c).before w t d)))
    ⊢ wp frame (wpE (defs₀ (F := F)) Variants.none c none) Set.univ (bodyAt2 t) fun _ =>
      iprop((dat2 V c).Φ t.castSucc ∗ (dat2 V c).owesAt () t.castSucc
        ∗ bigSep Finset.univ fun w : Fin 7 => owns (c : Thread nD τ) ((cfg2.win w).stage (cfg2.slots t w)) fullShare ((dat2 V c).after w t))
  rw [bigSep_W2, bigSep_W2]
  simp only [before2_0, before2_1, before2_2, before2_3, before2_4, before2_5, after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  iframe
  isplitl [H6]; · iexists _; iexact H6
  iintro ⟨H0, H1, H2, H3, H4, H5, H6⟩
  iframe

end Cert.Kernel.Fr

end
-- ==== Proof.K.R3.lean ====
import proofs.«141374_j27161373180011_1_alg».proof.Proof.Gen.Kernel.Launch
import proofs.«141374_j27161373180011_1_alg».proof.Proof.Gen.Kernel.Skeleton
import proofs.«141374_j27161373180011_1_alg».proof.Proof.Gen.Kernel.Points
import Idealize.ShloMosaic.Lib.Pipeline.FrameBody
import Idealize.ShloMosaic.Lib.Tactic

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t of the array V gives it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev whole3_S4096x128 : Rect S4096x128 := Rect.unit (s := S4096x128) ![0, 0] S4096x128.size inb_S4096x128_S4096x128_0_0
abbrev whole3_S1x128 : Rect S1x128 := Rect.unit (s := S1x128) ![0, 0] S1x128.size inb_S1x128_S1x128_0_0

/-- The output block after the body: the payload of the whole input blocks, stored over the whole block. -/
def out3_5 (x0 : Vec F S4096x128 .f32) (x1 : Vec F S1x128 .f32) (x2 : Vec F S1x128 .f32) (x3 : Vec F S1x128 .f32) (x4 : Vec F S1x128 .f32) : Vec F S4096x128 .f32 :=
  View.canon [⟨whole3_S4096x128, k3_pay1 (View.ld x0 whole3_S4096x128) (View.ld x3 whole3_S1x128) (View.ld x4 whole3_S1x128) (View.ld x1 whole3_S1x128) (View.ld x2 whole3_S1x128)⟩]

theorem cover3_5 (p0 : Vec F S4096x128 .f32) (y : S4096x128.Idx) :
    ∃ pc ∈ ([⟨whole3_S4096x128, p0⟩] : List (View.Piece (Elt F) S4096x128 .f32)), y ∈ pc.1.set :=
  View.cover_of_tiled [⟨whole3_S4096x128, p0⟩] S4096x128.size (by rfl) y

set_option maxHeartbeats 1000000 in
/-- The body's triple: it leaves the inputs as they were and the output at out3_5 of them. -/
theorem sound_kernel3 (c : Dev nD) (E : Set ℕ) (i : grid3.Coords)
    (arg1 : Memref sig .tc .vmem S4096x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S4096x128 .f32) (harg6 : arg6.IsWhole)
    (x0 : Vec F S4096x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E (cc3__bn_kernel i arg1 harg1 arg2 harg2 arg3 harg3 arg4 harg4 arg5 harg5 arg6 harg6) K := by
  simp only [cc3__bn_kernel_eq_skeleton]; unfold cc3__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  iexists _; isplitr
  swap; · iexact H5
  ipureintro
  exact View.read_writes_eq_canon _ _ _ (cover3_5 _)

/-- The region's proof data: an input keeps its block, the output block is out3_5 of the input blocks. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d
theorem before3_2 (c : Dev nD) (t : Fin cfg3.N) (d) : (dat3 V c).before 2 t d = iblk3 V c 2 t :=
  (dat3 V c).before_in_eq_fetched 2 rfl (fun _ => rfl) (fun _ _ _ => rfl) (fun _ => rfl) t d
theorem before3_3 (c : Dev nD) (t : Fin cfg3.N) (d) : (dat3 V c).before 3 t d = iblk3 V c 3 t :=
  (dat3 V c).before_in_eq_fetched 3 rfl (fun _ => rfl) (fun _ _ _ => rfl) (fun _ => rfl) t d
theorem before3_4 (c : Dev nD) (t : Fin cfg3.N) (d) : (dat3 V c).before 4 t d = iblk3 V c 4 t :=
  (dat3 V c).before_in_eq_fetched 4 rfl (fun _ => rfl) (fun _ _ _ => rfl) (fun _ => rfl) t d

/-- At any point the inputs hold their blocks, so the body's triple applies; the invariant and the dues pass through. -/
theorem body_obligation3 (c : Dev nD) : BodyObligation (dat3 (F := F) V c) (defs₀ (F := F)) Variants.none () Set.univ := fun t => by
  show iprop((dat3 V c).Φ t.castSucc ∗ (dat3 V c).owesAt () t.castSucc
      ∗ bigSep Finset.univ fun w : Fin 6 => iprop(∃ d, owns (c : Thread nD τ) ((cfg3.win w).stage (cfg3.slots t w)) fullShare ((dat3 V c).before w t d)))
    ⊢ wp frame (wpE (defs₀ (F := F)) Variants.none c none) Set.univ (bodyAt3 t) fun _ =>
      iprop((dat3 V c).Φ t.castSucc ∗ (dat3 V c).owesAt () t.castSucc
        ∗ bigSep Finset.univ fun w : Fin 6 => owns (c : Thread nD τ) ((cfg3.win w).stage (cfg3.slots t w)) fullShare ((dat3 V c).after w t))
  rw [bigSep_W3, bigSep_W3]
  simp only [before3_0, before3_1, before3_2, before3_3, before3_4, after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  iframe
  isplitl [H5]; · iexists _; iexact H5
  iintro ⟨H0, H1, H2, H3, H4, H5⟩
  iframe

end Cert.Kernel.Fr

end
-- ==== Proof.K.R4.lean ====
import proofs.«141374_j27161373180011_1_alg».proof.Proof.Gen.Kernel.Launch
import proofs.«141374_j27161373180011_1_alg».proof.Proof.Gen.Kernel.Skeleton
import proofs.«141374_j27161373180011_1_alg».proof.Proof.Gen.Kernel.Points
import Idealize.ShloMosaic.Lib.Pipeline.FrameBody
import Idealize.ShloMosaic.Lib.Tactic

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t of the array V gives it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev whole4_S4096x128 : Rect S4096x128 := Rect.unit (s := S4096x128) ![0, 0] S4096x128.size inb_S4096x128_S4096x128_0_0
abbrev whole4_S128x128 : Rect S128x128 := Rect.unit (s := S128x128) ![0, 0] S128x128.size inb_S128x128_S128x128_0_0
abbrev whole4_S1x128 : Rect S1x128 := Rect.unit (s := S1x128) ![0, 0] S1x128.size inb_S1x128_S1x128_0_0

/-- The output block after the body: the payload of the whole input blocks, stored over the whole block. -/
def out4_6 (x0 : Vec F S4096x128 .f32) (x1 : Vec F S4096x128 .f32) (x2 : Vec F S128x128 .f32) (x3 : Vec F S1x128 .f32) (x4 : Vec F S128x128 .f32) (x5 : Vec F S1x128 .f32) : Vec F S4096x128 .f32 :=
  View.canon [⟨whole4_S4096x128, k4_pay1 (View.ld x0 whole4_S4096x128) (View.ld x1 whole4_S4096x128) (View.ld x2 whole4_S128x128) (View.ld x3 whole4_S1x128) (View.ld x4 whole4_S128x128) (View.ld x5 whole4_S1x128)⟩]

theorem cover4_6 (p0 : Vec F S4096x128 .f32) (y : S4096x128.Idx) :
    ∃ pc ∈ ([⟨whole4_S4096x128, p0⟩] : List (View.Piece (Elt F) S4096x128 .f32)), y ∈ pc.1.set :=
  View.cover_of_tiled [⟨whole4_S4096x128, p0⟩] S4096x128.size (by rfl) y

set_option maxHeartbeats 1000000 in
/-- The body's triple: it leaves the inputs as they were and the output at out4_6 of them. -/
theorem sound_kernel4 (c : Dev nD) (E : Set ℕ) (i : grid4.Coords)
    (arg1 : Memref sig .tc .vmem S4096x128 .f32) (harg1 : arg1.IsWhole) (arg2 : Memref sig .tc .vmem S4096x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4096x128 .f32) (harg7 : arg7.IsWhole)
    (x0 : Vec F S4096x128 .f32) (x1 : Vec F S4096x128 .f32) (x2 : Vec F S128x128 .f32) (x3 : Vec F S1x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out4_6 x0 x1 x2 x3 x4 x5)) -∗ K ⟨⟩))
      ⊢ wp frame (wpE (defs₀ (F := F)) Variants.none c none) E (cc4__gin_mlp_kernel i arg1 harg1 arg2 harg2 arg3 harg3 arg4 harg4 arg5 harg5 arg6 harg6 arg7 harg7) K := by
  simp only [cc4__gin_mlp_kernel_eq_skeleton]; unfold cc4__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  iexists _; isplitr
  swap; · iexact H6
  ipureintro
  exact View.read_writes_eq_canon _ _ _ (cover4_6 _)

/-- The region's proof data: an input keeps its block, the output block is out4_6 of the input blocks. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t) (iblk4 V c 1 t) (iblk4 V c 2 t) (iblk4 V c 3 t) (iblk4 V c 4 t) (iblk4 V c 5 t)
  Φ _ := Pipeline.ΦA spec4 c
  q _ := fullShare
  owed _ := 0

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) :
    (dat4 V c).after 6 t = out4_6 (iblk4 V c 0 t) (iblk4 V c 1 t) (iblk4 V c 2 t) (iblk4 V c 3 t) (iblk4 V c 4 t) (iblk4 V c 5 t) := by dsimp only [dat4]

theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d
theorem before4_2 (c : Dev nD) (t : Fin cfg4.N) (d) : (dat4 V c).before 2 t d = iblk4 V c 2 t :=
  (dat4 V c).before_in_eq_fetched 2 rfl (fun _ => rfl) (fun _ _ _ => rfl) (fun _ => rfl) t d
theorem before4_3 (c : Dev nD) (t : Fin cfg4.N) (d) : (dat4 V c).before 3 t d = iblk4 V c 3 t :=
  (dat4 V c).before_in_eq_fetched 3 rfl (fun _ => rfl) (fun _ _ _ => rfl) (fun _ => rfl) t d
theorem before4_4 (c : Dev nD) (t : Fin cfg4.N) (d) : (dat4 V c).before 4 t d = iblk4 V c 4 t :=
  (dat4 V c).before_in_eq_fetched 4 rfl (fun _ => rfl) (fun _ _ _ => rfl) (fun _ => rfl) t d
theorem before4_5 (c : Dev nD) (t : Fin cfg4.N) (d) : (dat4 V c).before 5 t d = iblk4 V c 5 t :=
  (dat4 V c).before_in_eq_fetched 5 rfl (fun _ => rfl) (fun _ _ _ => rfl) (fun _ => rfl) t d

/-- At any point the inputs hold their blocks, so the body's triple applies; the invariant and the dues pass through. -/
theorem body_obligation4 (c : Dev nD) : BodyObligation (dat4 (F := F) V c) (defs₀ (F := F)) Variants.none () Set.univ := fun t => by
  show iprop((dat4 V c).Φ t.castSucc ∗ (dat4 V c).owesAt () t.castSucc
      ∗ bigSep Finset.univ fun w : Fin 7 => iprop(∃ d, owns (c : Thread nD τ) ((cfg4.win w).stage (cfg4.slots t w)) fullShare ((dat4 V c).before w t d)))
    ⊢ wp frame (wpE (defs₀ (F := F)) Variants.none c none) Set.univ (bodyAt4 t) fun _ =>
      iprop((dat4 V c).Φ t.castSucc ∗ (dat4 V c).owesAt () t.castSucc
        ∗ bigSep Finset.univ fun w : Fin 7 => owns (c : Thread nD τ) ((cfg4.win w).stage (cfg4.slots t w)) fullShare ((dat4 V c).after w t))
  rw [bigSep_W4, bigSep_W4]
  simp only [before4_0, before4_1, before4_2, before4_3, before4_4, before4_5, after4_0, after4_1, after4_2, after4_3, after4_4, after4_5, after4_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ _ _ _ _ _ _ _ _ _ _ _ _ _ _ _ (iblk4 V c 0 t) (iblk4 V c 1 t) (iblk4 V c 2 t) (iblk4 V c 3 t) (iblk4 V c 4 t) (iblk4 V c 5 t) _)
  iframe
  isplitl [H6]; · iexists _; iexact H6
  iintro ⟨H0, H1, H2, H3, H4, H5, H6⟩
  iframe

end Cert.Kernel.Fr

end
-- ==== Proof.K.R5.lean ====
import proofs.«141374_j27161373180011_1_alg».proof.Proof.Gen.Kernel.Launch
import proofs.«141374_j27161373180011_1_alg».proof.Proof.Gen.Kernel.Skeleton
import proofs.«141374_j27161373180011_1_alg».proof.Proof.Gen.Kernel.Points
import Idealize.ShloMosaic.Lib.Pipeline.FrameBody
import Idealize.ShloMosaic.Lib.Tactic

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t of the array V gives it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev whole5_S4096x128 : Rect S4096x128 := Rect.unit (s := S4096x128) ![0, 0] S4096x128.size inb_S4096x128_S4096x128_0_0
abbrev whole5_S1x128 : Rect S1x128 := Rect.unit (s := S1x128) ![0, 0] S1x128.size inb_S1x128_S1x128_0_0

/-- The output block after the body: the payload of the whole input blocks, stored over the whole block. -/
def out5_5 (x0 : Vec F S4096x128 .f32) (x1 : Vec F S1x128 .f32) (x2 : Vec F S1x128 .f32) (x3 : Vec F S1x128 .f32) (x4 : Vec F S1x128 .f32) : Vec F S4096x128 .f32 :=
  View.canon [⟨whole5_S4096x128, k5_pay1 (View.ld x0 whole5_S4096x128) (View.ld x3 whole5_S1x128) (View.ld x4 whole5_S1x128) (View.ld x1 whole5_S1x128) (View.ld x2 whole5_S1x128)⟩]

theorem cover5_5 (p0 : Vec F S4096x128 .f32) (y : S4096x128.Idx) :
    ∃ pc ∈ ([⟨whole5_S4096x128, p0⟩] : List (View.Piece (Elt F) S4096x128 .f32)), y ∈ pc.1.set :=
  View.cover_of_tiled [⟨whole5_S4096x128, p0⟩] S4096x128.size (by rfl) y

set_option maxHeartbeats 1000000 in
/-- The body's triple: it leaves the inputs as they were and the output at out5_5 of them. -/
theorem sound_kernel5 (c : Dev nD) (E : Set ℕ) (i : grid5.Coords)
    (arg1 : Memref sig .tc .vmem S4096x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S4096x128 .f32) (harg6 : arg6.IsWhole)
    (x0 : Vec F S4096x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out5_5 x0 x1 x2 x3 x4)) -∗ K ⟨⟩))
      ⊢ wp frame (wpE (defs₀ (F := F)) Variants.none c none) E (cc5__bn_kernel i arg1 harg1 arg2 harg2 arg3 harg3 arg4 harg4 arg5 harg5 arg6 harg6) K := by
  simp only [cc5__bn_kernel_eq_skeleton]; unfold cc5__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  iexists _; isplitr
  swap; · iexact H5
  ipureintro
  exact View.read_writes_eq_canon _ _ _ (cover5_5 _)

/-- The region's proof data: an input keeps its block, the output block is out5_5 of the input blocks. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) :
    (dat5 V c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  (dat5 V c).before_in_eq_fetched 0 rfl (fun _ => rfl) (fun _ _ _ => rfl) (fun _ => rfl) t d
theorem before5_1 (c : Dev nD) (t : Fin cfg5.N) (d) : (dat5 V c).before 1 t d = iblk5 V c 1 t :=
  (dat5 V c).before_in_eq_fetched 1 rfl (fun _ => rfl) (fun _ _ _ => rfl) (fun _ => rfl) t d
theorem before5_2 (c : Dev nD) (t : Fin cfg5.N) (d) : (dat5 V c).before 2 t d = iblk5 V c 2 t :=
  (dat5 V c).before_in_eq_fetched 2 rfl (fun _ => rfl) (fun _ _ _ => rfl) (fun _ => rfl) t d
theorem before5_3 (c : Dev nD) (t : Fin cfg5.N) (d) : (dat5 V c).before 3 t d = iblk5 V c 3 t :=
  (dat5 V c).before_in_eq_fetched 3 rfl (fun _ => rfl) (fun _ _ _ => rfl) (fun _ => rfl) t d
theorem before5_4 (c : Dev nD) (t : Fin cfg5.N) (d) : (dat5 V c).before 4 t d = iblk5 V c 4 t :=
  (dat5 V c).before_in_eq_fetched 4 rfl (fun _ => rfl) (fun _ _ _ => rfl) (fun _ => rfl) t d

/-- At any point the inputs hold their blocks, so the body's triple applies; the invariant and the dues pass through. -/
theorem body_obligation5 (c : Dev nD) : BodyObligation (dat5 (F := F) V c) (defs₀ (F := F)) Variants.none () Set.univ := fun t => by
  show iprop((dat5 V c).Φ t.castSucc ∗ (dat5 V c).owesAt () t.castSucc
      ∗ bigSep Finset.univ fun w : Fin 6 => iprop(∃ d, owns (c : Thread nD τ) ((cfg5.win w).stage (cfg5.slots t w)) fullShare ((dat5 V c).before w t d)))
    ⊢ wp frame (wpE (defs₀ (F := F)) Variants.none c none) Set.univ (bodyAt5 t) fun _ =>
      iprop((dat5 V c).Φ t.castSucc ∗ (dat5 V c).owesAt () t.castSucc
        ∗ bigSep Finset.univ fun w : Fin 6 => owns (c : Thread nD τ) ((cfg5.win w).stage (cfg5.slots t w)) fullShare ((dat5 V c).after w t))
  rw [bigSep_W5, bigSep_W5]
  simp only [before5_0, before5_1, before5_2, before5_3, before5_4, after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  iframe
  isplitl [H5]; · iexists _; iexact H5
  iintro ⟨H0, H1, H2, H3, H4, H5⟩
  iframe

end Cert.Kernel.Fr

end
-- ==== Proof.K.R6.lean ====
import proofs.«141374_j27161373180011_1_alg».proof.Proof.Gen.Kernel.Launch
import proofs.«141374_j27161373180011_1_alg».proof.Proof.Gen.Kernel.Skeleton
import proofs.«141374_j27161373180011_1_alg».proof.Proof.Gen.Kernel.Points
import Idealize.ShloMosaic.Lib.Pipeline.FrameBody
import Idealize.ShloMosaic.Lib.Tactic

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t of the array V gives it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev whole6_S4096x128 : Rect S4096x128 := Rect.unit (s := S4096x128) ![0, 0] S4096x128.size inb_S4096x128_S4096x128_0_0
abbrev whole6_S128x128 : Rect S128x128 := Rect.unit (s := S128x128) ![0, 0] S128x128.size inb_S128x128_S128x128_0_0
abbrev whole6_S1x128 : Rect S1x128 := Rect.unit (s := S1x128) ![0, 0] S1x128.size inb_S1x128_S1x128_0_0

/-- The output block after the body: the payload of the whole input blocks, stored over the whole block. -/
def out6_6 (x0 : Vec F S4096x128 .f32) (x1 : Vec F S4096x128 .f32) (x2 : Vec F S128x128 .f32) (x3 : Vec F S1x128 .f32) (x4 : Vec F S128x128 .f32) (x5 : Vec F S1x128 .f32) : Vec F S4096x128 .f32 :=
  View.canon [⟨whole6_S4096x128, k6_pay1 (View.ld x0 whole6_S4096x128) (View.ld x1 whole6_S4096x128) (View.ld x2 whole6_S128x128) (View.ld x3 whole6_S1x128) (View.ld x4 whole6_S128x128) (View.ld x5 whole6_S1x128)⟩]

theorem cover6_6 (p0 : Vec F S4096x128 .f32) (y : S4096x128.Idx) :
    ∃ pc ∈ ([⟨whole6_S4096x128, p0⟩] : List (View.Piece (Elt F) S4096x128 .f32)), y ∈ pc.1.set :=
  View.cover_of_tiled [⟨whole6_S4096x128, p0⟩] S4096x128.size (by rfl) y

set_option maxHeartbeats 1000000 in
/-- The body's triple: it leaves the inputs as they were and the output at out6_6 of them. -/
theorem sound_kernel6 (c : Dev nD) (E : Set ℕ) (i : grid6.Coords)
    (arg1 : Memref sig .tc .vmem S4096x128 .f32) (harg1 : arg1.IsWhole) (arg2 : Memref sig .tc .vmem S4096x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4096x128 .f32) (harg7 : arg7.IsWhole)
    (x0 : Vec F S4096x128 .f32) (x1 : Vec F S4096x128 .f32) (x2 : Vec F S128x128 .f32) (x3 : Vec F S1x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out6_6 x0 x1 x2 x3 x4 x5)) -∗ K ⟨⟩))
      ⊢ wp frame (wpE (defs₀ (F := F)) Variants.none c none) E (cc6__gin_mlp_kernel i arg1 harg1 arg2 harg2 arg3 harg3 arg4 harg4 arg5 harg5 arg6 harg6 arg7 harg7) K := by
  simp only [cc6__gin_mlp_kernel_eq_skeleton]; unfold cc6__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  iexists _; isplitr
  swap; · iexact H6
  ipureintro
  exact View.read_writes_eq_canon _ _ _ (cover6_6 _)

/-- The region's proof data: an input keeps its block, the output block is out6_6 of the input blocks. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => out6_6 (iblk6 V c 0 t) (iblk6 V c 1 t) (iblk6 V c 2 t) (iblk6 V c 3 t) (iblk6 V c 4 t) (iblk6 V c 5 t)
  Φ _ := Pipeline.ΦA spec6 c
  q _ := fullShare
  owed _ := 0

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) :
    (dat6 V c).after 6 t = out6_6 (iblk6 V c 0 t) (iblk6 V c 1 t) (iblk6 V c 2 t) (iblk6 V c 3 t) (iblk6 V c 4 t) (iblk6 V c 5 t) := by dsimp only [dat6]

theorem before6_0 (c : Dev nD) (t : Fin cfg6.N) (d) : (dat6 V c).before 0 t d = iblk6 V c 0 t :=
  (dat6 V c).before_in_eq_fetched 0 rfl (fun _ => rfl) (fun _ _ _ => rfl) (fun _ => rfl) t d
theorem before6_1 (c : Dev nD) (t : Fin cfg6.N) (d) : (dat6 V c).before 1 t d = iblk6 V c 1 t :=
  (dat6 V c).before_in_eq_fetched 1 rfl (fun _ => rfl) (fun _ _ _ => rfl) (fun _ => rfl) t d
theorem before6_2 (c : Dev nD) (t : Fin cfg6.N) (d) : (dat6 V c).before 2 t d = iblk6 V c 2 t :=
  (dat6 V c).before_in_eq_fetched 2 rfl (fun _ => rfl) (fun _ _ _ => rfl) (fun _ => rfl) t d
theorem before6_3 (c : Dev nD) (t : Fin cfg6.N) (d) : (dat6 V c).before 3 t d = iblk6 V c 3 t :=
  (dat6 V c).before_in_eq_fetched 3 rfl (fun _ => rfl) (fun _ _ _ => rfl) (fun _ => rfl) t d
theorem before6_4 (c : Dev nD) (t : Fin cfg6.N) (d) : (dat6 V c).before 4 t d = iblk6 V c 4 t :=
  (dat6 V c).before_in_eq_fetched 4 rfl (fun _ => rfl) (fun _ _ _ => rfl) (fun _ => rfl) t d
theorem before6_5 (c : Dev nD) (t : Fin cfg6.N) (d) : (dat6 V c).before 5 t d = iblk6 V c 5 t :=
  (dat6 V c).before_in_eq_fetched 5 rfl (fun _ => rfl) (fun _ _ _ => rfl) (fun _ => rfl) t d

/-- At any point the inputs hold their blocks, so the body's triple applies; the invariant and the dues pass through. -/
theorem body_obligation6 (c : Dev nD) : BodyObligation (dat6 (F := F) V c) (defs₀ (F := F)) Variants.none () Set.univ := fun t => by
  show iprop((dat6 V c).Φ t.castSucc ∗ (dat6 V c).owesAt () t.castSucc
      ∗ bigSep Finset.univ fun w : Fin 7 => iprop(∃ d, owns (c : Thread nD τ) ((cfg6.win w).stage (cfg6.slots t w)) fullShare ((dat6 V c).before w t d)))
    ⊢ wp frame (wpE (defs₀ (F := F)) Variants.none c none) Set.univ (bodyAt6 t) fun _ =>
      iprop((dat6 V c).Φ t.castSucc ∗ (dat6 V c).owesAt () t.castSucc
        ∗ bigSep Finset.univ fun w : Fin 7 => owns (c : Thread nD τ) ((cfg6.win w).stage (cfg6.slots t w)) fullShare ((dat6 V c).after w t))
  rw [bigSep_W6, bigSep_W6]
  simp only [before6_0, before6_1, before6_2, before6_3, before6_4, before6_5, after6_0, after6_1, after6_2, after6_3, after6_4, after6_5, after6_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel6 c Set.univ _ _ _ _ _ _ _ _ _ _ _ _ _ _ _ (iblk6 V c 0 t) (iblk6 V c 1 t) (iblk6 V c 2 t) (iblk6 V c 3 t) (iblk6 V c 4 t) (iblk6 V c 5 t) _)
  iframe
  isplitl [H6]; · iexists _; iexact H6
  iintro ⟨H0, H1, H2, H3, H4, H5, H6⟩
  iframe

end Cert.Kernel.Fr

end
-- ==== Proof.K.R7.lean ====
import proofs.«141374_j27161373180011_1_alg».proof.Proof.Gen.Kernel.Launch
import proofs.«141374_j27161373180011_1_alg».proof.Proof.Gen.Kernel.Skeleton
import proofs.«141374_j27161373180011_1_alg».proof.Proof.Gen.Kernel.Points
import Idealize.ShloMosaic.Lib.Pipeline.FrameBody
import Idealize.ShloMosaic.Lib.Tactic

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t of the array V gives it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev whole7_S4096x128 : Rect S4096x128 := Rect.unit (s := S4096x128) ![0, 0] S4096x128.size inb_S4096x128_S4096x128_0_0
abbrev whole7_S1x128 : Rect S1x128 := Rect.unit (s := S1x128) ![0, 0] S1x128.size inb_S1x128_S1x128_0_0

/-- The output block after the body: the payload of the whole input blocks, stored over the whole block. -/
def out7_5 (x0 : Vec F S4096x128 .f32) (x1 : Vec F S1x128 .f32) (x2 : Vec F S1x128 .f32) (x3 : Vec F S1x128 .f32) (x4 : Vec F S1x128 .f32) : Vec F S4096x128 .f32 :=
  View.canon [⟨whole7_S4096x128, k7_pay1 (View.ld x0 whole7_S4096x128) (View.ld x3 whole7_S1x128) (View.ld x4 whole7_S1x128) (View.ld x1 whole7_S1x128) (View.ld x2 whole7_S1x128)⟩]

theorem cover7_5 (p0 : Vec F S4096x128 .f32) (y : S4096x128.Idx) :
    ∃ pc ∈ ([⟨whole7_S4096x128, p0⟩] : List (View.Piece (Elt F) S4096x128 .f32)), y ∈ pc.1.set :=
  View.cover_of_tiled [⟨whole7_S4096x128, p0⟩] S4096x128.size (by rfl) y

set_option maxHeartbeats 1000000 in
/-- The body's triple: it leaves the inputs as they were and the output at out7_5 of them. -/
theorem sound_kernel7 (c : Dev nD) (E : Set ℕ) (i : grid7.Coords)
    (arg1 : Memref sig .tc .vmem S4096x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S4096x128 .f32) (harg6 : arg6.IsWhole)
    (x0 : Vec F S4096x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out7_5 x0 x1 x2 x3 x4)) -∗ K ⟨⟩))
      ⊢ wp frame (wpE (defs₀ (F := F)) Variants.none c none) E (cc7__bn_kernel i arg1 harg1 arg2 harg2 arg3 harg3 arg4 harg4 arg5 harg5 arg6 harg6) K := by
  simp only [cc7__bn_kernel_eq_skeleton]; unfold cc7__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  iexists _; isplitr
  swap; · iexact H5
  ipureintro
  exact View.read_writes_eq_canon _ _ _ (cover7_5 _)

/-- The region's proof data: an input keeps its block, the output block is out7_5 of the input blocks. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := Pipeline.ΦA spec7 c
  q _ := fullShare
  owed _ := 0

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) :
    (dat7 V c).after 5 t = out7_5 (iblk7 V c 0 t) (iblk7 V c 1 t) (iblk7 V c 2 t) (iblk7 V c 3 t) (iblk7 V c 4 t) := by dsimp only [dat7]

theorem before7_0 (c : Dev nD) (t : Fin cfg7.N) (d) : (dat7 V c).before 0 t d = iblk7 V c 0 t :=
  (dat7 V c).before_in_eq_fetched 0 rfl (fun _ => rfl) (fun _ _ _ => rfl) (fun _ => rfl) t d
theorem before7_1 (c : Dev nD) (t : Fin cfg7.N) (d) : (dat7 V c).before 1 t d = iblk7 V c 1 t :=
  (dat7 V c).before_in_eq_fetched 1 rfl (fun _ => rfl) (fun _ _ _ => rfl) (fun _ => rfl) t d
theorem before7_2 (c : Dev nD) (t : Fin cfg7.N) (d) : (dat7 V c).before 2 t d = iblk7 V c 2 t :=
  (dat7 V c).before_in_eq_fetched 2 rfl (fun _ => rfl) (fun _ _ _ => rfl) (fun _ => rfl) t d
theorem before7_3 (c : Dev nD) (t : Fin cfg7.N) (d) : (dat7 V c).before 3 t d = iblk7 V c 3 t :=
  (dat7 V c).before_in_eq_fetched 3 rfl (fun _ => rfl) (fun _ _ _ => rfl) (fun _ => rfl) t d
theorem before7_4 (c : Dev nD) (t : Fin cfg7.N) (d) : (dat7 V c).before 4 t d = iblk7 V c 4 t :=
  (dat7 V c).before_in_eq_fetched 4 rfl (fun _ => rfl) (fun _ _ _ => rfl) (fun _ => rfl) t d

/-- At any point the inputs hold their blocks, so the body's triple applies; the invariant and the dues pass through. -/
theorem body_obligation7 (c : Dev nD) : BodyObligation (dat7 (F := F) V c) (defs₀ (F := F)) Variants.none () Set.univ := fun t => by
  show iprop((dat7 V c).Φ t.castSucc ∗ (dat7 V c).owesAt () t.castSucc
      ∗ bigSep Finset.univ fun w : Fin 6 => iprop(∃ d, owns (c : Thread nD τ) ((cfg7.win w).stage (cfg7.slots t w)) fullShare ((dat7 V c).before w t d)))
    ⊢ wp frame (wpE (defs₀ (F := F)) Variants.none c none) Set.univ (bodyAt7 t) fun _ =>
      iprop((dat7 V c).Φ t.castSucc ∗ (dat7 V c).owesAt () t.castSucc
        ∗ bigSep Finset.univ fun w : Fin 6 => owns (c : Thread nD τ) ((cfg7.win w).stage (cfg7.slots t w)) fullShare ((dat7 V c).after w t))
  rw [bigSep_W7, bigSep_W7]
  simp only [before7_0, before7_1, before7_2, before7_3, before7_4, after7_0, after7_1, after7_2, after7_3, after7_4, after7_5]
  iintro ⟨HΦ, Ho, ⟨%d0, H0⟩, ⟨%d1, H1⟩, ⟨%d2, H2⟩, ⟨%d3, H3⟩, ⟨%d4, H4⟩, ⟨%d5, H5⟩⟩
  iapply (sound_kernel7 c Set.univ _ _ _ _ _ _ _ _ _ _ _ _ _ (iblk7 V c 0 t) (iblk7 V c 1 t) (iblk7 V c 2 t) (iblk7 V c 3 t) (iblk7 V c 4 t) _)
  iframe
  isplitl [H5]; · iexists _; iexact H5
  iintro ⟨H0, H1, H2, H3, H4, H5⟩
  iframe

end Cert.Kernel.Fr

end
-- ==== Proof.K.R8.lean ====
import proofs.«141374_j27161373180011_1_alg».proof.Proof.Gen.Kernel.Launch
import proofs.«141374_j27161373180011_1_alg».proof.Proof.Gen.Kernel.Skeleton
import proofs.«141374_j27161373180011_1_alg».proof.Proof.Gen.Kernel.Points
import Idealize.ShloMosaic.Lib.Pipeline.FrameBody
import Idealize.ShloMosaic.Lib.Tactic

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t of the array V gives it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev whole8_S4096x128 : Rect S4096x128 := Rect.unit (s := S4096x128) ![0, 0] S4096x128.size inb_S4096x128_S4096x128_0_0
abbrev whole8_S128x128 : Rect S128x128 := Rect.unit (s := S128x128) ![0, 0] S128x128.size inb_S128x128_S128x128_0_0
abbrev whole8_S1x128 : Rect S1x128 := Rect.unit (s := S1x128) ![0, 0] S1x128.size inb_S1x128_S1x128_0_0

/-- The output block after the body: the payload of the whole input blocks, stored over the whole block. -/
def out8_6 (x0 : Vec F S4096x128 .f32) (x1 : Vec F S4096x128 .f32) (x2 : Vec F S128x128 .f32) (x3 : Vec F S1x128 .f32) (x4 : Vec F S128x128 .f32) (x5 : Vec F S1x128 .f32) : Vec F S4096x128 .f32 :=
  View.canon [⟨whole8_S4096x128, k8_pay1 (View.ld x0 whole8_S4096x128) (View.ld x1 whole8_S4096x128) (View.ld x2 whole8_S128x128) (View.ld x3 whole8_S1x128) (View.ld x4 whole8_S128x128) (View.ld x5 whole8_S1x128)⟩]

theorem cover8_6 (p0 : Vec F S4096x128 .f32) (y : S4096x128.Idx) :
    ∃ pc ∈ ([⟨whole8_S4096x128, p0⟩] : List (View.Piece (Elt F) S4096x128 .f32)), y ∈ pc.1.set :=
  View.cover_of_tiled [⟨whole8_S4096x128, p0⟩] S4096x128.size (by rfl) y

set_option maxHeartbeats 1000000 in
/-- The body's triple: it leaves the inputs as they were and the output at out8_6 of them. -/
theorem sound_kernel8 (c : Dev nD) (E : Set ℕ) (i : grid8.Coords)
    (arg1 : Memref sig .tc .vmem S4096x128 .f32) (harg1 : arg1.IsWhole) (arg2 : Memref sig .tc .vmem S4096x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4096x128 .f32) (harg7 : arg7.IsWhole)
    (x0 : Vec F S4096x128 .f32) (x1 : Vec F S4096x128 .f32) (x2 : Vec F S128x128 .f32) (x3 : Vec F S1x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out8_6 x0 x1 x2 x3 x4 x5)) -∗ K ⟨⟩))
      ⊢ wp frame (wpE (defs₀ (F := F)) Variants.none c none) E (cc8__gin_mlp_kernel i arg1 harg1 arg2 harg2 arg3 harg3 arg4 harg4 arg5 harg5 arg6 harg6 arg7 harg7) K := by
  simp only [cc8__gin_mlp_kernel_eq_skeleton]; unfold cc8__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  iexists _; isplitr
  swap; · iexact H6
  ipureintro
  exact View.read_writes_eq_canon _ _ _ (cover8_6 _)

/-- The region's proof data: an input keeps its block, the output block is out8_6 of the input blocks. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => out8_6 (iblk8 V c 0 t) (iblk8 V c 1 t) (iblk8 V c 2 t) (iblk8 V c 3 t) (iblk8 V c 4 t) (iblk8 V c 5 t)
  Φ _ := Pipeline.ΦA spec8 c
  q _ := fullShare
  owed _ := 0

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) :
    (dat8 V c).after 6 t = out8_6 (iblk8 V c 0 t) (iblk8 V c 1 t) (iblk8 V c 2 t) (iblk8 V c 3 t) (iblk8 V c 4 t) (iblk8 V c 5 t) := by dsimp only [dat8]

theorem before8_0 (c : Dev nD) (t : Fin cfg8.N) (d) : (dat8 V c).before 0 t d = iblk8 V c 0 t :=
  (dat8 V c).before_in_eq_fetched 0 rfl (fun _ => rfl) (fun _ _ _ => rfl) (fun _ => rfl) t d
theorem before8_1 (c : Dev nD) (t : Fin cfg8.N) (d) : (dat8 V c).before 1 t d = iblk8 V c 1 t :=
  (dat8 V c).before_in_eq_fetched 1 rfl (fun _ => rfl) (fun _ _ _ => rfl) (fun _ => rfl) t d
theorem before8_2 (c : Dev nD) (t : Fin cfg8.N) (d) : (dat8 V c).before 2 t d = iblk8 V c 2 t :=
  (dat8 V c).before_in_eq_fetched 2 rfl (fun _ => rfl) (fun _ _ _ => rfl) (fun _ => rfl) t d
theorem before8_3 (c : Dev nD) (t : Fin cfg8.N) (d) : (dat8 V c).before 3 t d = iblk8 V c 3 t :=
  (dat8 V c).before_in_eq_fetched 3 rfl (fun _ => rfl) (fun _ _ _ => rfl) (fun _ => rfl) t d
theorem before8_4 (c : Dev nD) (t : Fin cfg8.N) (d) : (dat8 V c).before 4 t d = iblk8 V c 4 t :=
  (dat8 V c).before_in_eq_fetched 4 rfl (fun _ => rfl) (fun _ _ _ => rfl) (fun _ => rfl) t d
theorem before8_5 (c : Dev nD) (t : Fin cfg8.N) (d) : (dat8 V c).before 5 t d = iblk8 V c 5 t :=
  (dat8 V c).before_in_eq_fetched 5 rfl (fun _ => rfl) (fun _ _ _ => rfl) (fun _ => rfl) t d

/-- At any point the inputs hold their blocks, so the body's triple applies; the invariant and the dues pass through. -/
theorem body_obligation8 (c : Dev nD) : BodyObligation (dat8 (F := F) V c) (defs₀ (F := F)) Variants.none () Set.univ := fun t => by
  show iprop((dat8 V c).Φ t.castSucc ∗ (dat8 V c).owesAt () t.castSucc
      ∗ bigSep Finset.univ fun w : Fin 7 => iprop(∃ d, owns (c : Thread nD τ) ((cfg8.win w).stage (cfg8.slots t w)) fullShare ((dat8 V c).before w t d)))
    ⊢ wp frame (wpE (defs₀ (F := F)) Variants.none c none) Set.univ (bodyAt8 t) fun _ =>
      iprop((dat8 V c).Φ t.castSucc ∗ (dat8 V c).owesAt () t.castSucc
        ∗ bigSep Finset.univ fun w : Fin 7 => owns (c : Thread nD τ) ((cfg8.win w).stage (cfg8.slots t w)) fullShare ((dat8 V c).after w t))
  rw [bigSep_W8, bigSep_W8]
  simp only [before8_0, before8_1, before8_2, before8_3, before8_4, before8_5, after8_0, after8_1, after8_2, after8_3, after8_4, after8_5, after8_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel8 c Set.univ _ _ _ _ _ _ _ _ _ _ _ _ _ _ _ (iblk8 V c 0 t) (iblk8 V c 1 t) (iblk8 V c 2 t) (iblk8 V c 3 t) (iblk8 V c 4 t) (iblk8 V c 5 t) _)
  iframe
  isplitl [H6]; · iexists _; iexact H6
  iintro ⟨H0, H1, H2, H3, H4, H5, H6⟩
  iframe

end Cert.Kernel.Fr

end
-- ==== Proof.K.R9.lean ====
import proofs.«141374_j27161373180011_1_alg».proof.Proof.Gen.Kernel.Launch
import proofs.«141374_j27161373180011_1_alg».proof.Proof.Gen.Kernel.Skeleton
import proofs.«141374_j27161373180011_1_alg».proof.Proof.Gen.Kernel.Points
import Idealize.ShloMosaic.Lib.Pipeline.FrameBody
import Idealize.ShloMosaic.Lib.Tactic

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t of the array V gives it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

abbrev whole9_S4096x128 : Rect S4096x128 := Rect.unit (s := S4096x128) ![0, 0] S4096x128.size inb_S4096x128_S4096x128_0_0
abbrev whole9_S1x128 : Rect S1x128 := Rect.unit (s := S1x128) ![0, 0] S1x128.size inb_S1x128_S1x128_0_0

/-- The output block after the body: the payload of the whole input blocks, stored over the whole block. -/
def out9_5 (x0 : Vec F S4096x128 .f32) (x1 : Vec F S1x128 .f32) (x2 : Vec F S1x128 .f32) (x3 : Vec F S1x128 .f32) (x4 : Vec F S1x128 .f32) : Vec F S4096x128 .f32 :=
  View.canon [⟨whole9_S4096x128, k9_pay1 (View.ld x0 whole9_S4096x128) (View.ld x3 whole9_S1x128) (View.ld x4 whole9_S1x128) (View.ld x1 whole9_S1x128) (View.ld x2 whole9_S1x128)⟩]

theorem cover9_5 (p0 : Vec F S4096x128 .f32) (y : S4096x128.Idx) :
    ∃ pc ∈ ([⟨whole9_S4096x128, p0⟩] : List (View.Piece (Elt F) S4096x128 .f32)), y ∈ pc.1.set :=
  View.cover_of_tiled [⟨whole9_S4096x128, p0⟩] S4096x128.size (by rfl) y

set_option maxHeartbeats 1000000 in
/-- The body's triple: it leaves the inputs as they were and the output at out9_5 of them. -/
theorem sound_kernel9 (c : Dev nD) (E : Set ℕ) (i : grid9.Coords)
    (arg1 : Memref sig .tc .vmem S4096x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S4096x128 .f32) (harg6 : arg6.IsWhole)
    (x0 : Vec F S4096x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out9_5 x0 x1 x2 x3 x4)) -∗ K ⟨⟩))
      ⊢ wp frame (wpE (defs₀ (F := F)) Variants.none c none) E (cc9__bn_kernel i arg1 harg1 arg2 harg2 arg3 harg3 arg4 harg4 arg5 harg5 arg6 harg6) K := by
  simp only [cc9__bn_kernel_eq_skeleton]; unfold cc9__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  iexists _; isplitr
  swap; · iexact H5
  ipureintro
  exact View.read_writes_eq_canon _ _ _ (cover9_5 _)

/-- The region's proof data: an input keeps its block, the output block is out9_5 of the input blocks. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => out9_5 (iblk9 V c 0 t) (iblk9 V c 1 t) (iblk9 V c 2 t) (iblk9 V c 3 t) (iblk9 V c 4 t)
  Φ _ := Pipeline.ΦA spec9 c
  q _ := fullShare
  owed _ := 0

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) :
    (dat9 V c).after 5 t = out9_5 (iblk9 V c 0 t) (iblk9 V c 1 t) (iblk9 V c 2 t) (iblk9 V c 3 t) (iblk9 V c 4 t) := by dsimp only [dat9]

theorem before9_0 (c : Dev nD) (t : Fin cfg9.N) (d) : (dat9 V c).before 0 t d = iblk9 V c 0 t :=
  (dat9 V c).before_in_eq_fetched 0 rfl (fun _ => rfl) (fun _ _ _ => rfl) (fun _ => rfl) t d
theorem before9_1 (c : Dev nD) (t : Fin cfg9.N) (d) : (dat9 V c).before 1 t d = iblk9 V c 1 t :=
  (dat9 V c).before_in_eq_fetched 1 rfl (fun _ => rfl) (fun _ _ _ => rfl) (fun _ => rfl) t d
theorem before9_2 (c : Dev nD) (t : Fin cfg9.N) (d) : (dat9 V c).before 2 t d = iblk9 V c 2 t :=
  (dat9 V c).before_in_eq_fetched 2 rfl (fun _ => rfl) (fun _ _ _ => rfl) (fun _ => rfl) t d
theorem before9_3 (c : Dev nD) (t : Fin cfg9.N) (d) : (dat9 V c).before 3 t d = iblk9 V c 3 t :=
  (dat9 V c).before_in_eq_fetched 3 rfl (fun _ => rfl) (fun _ _ _ => rfl) (fun _ => rfl) t d
theorem before9_4 (c : Dev nD) (t : Fin cfg9.N) (d) : (dat9 V c).before 4 t d = iblk9 V c 4 t :=
  (dat9 V c).before_in_eq_fetched 4 rfl (fun _ => rfl) (fun _ _ _ => rfl) (fun _ => rfl) t d

/-- At any point the inputs hold their blocks, so the body's triple applies; the invariant and the dues pass through. -/
theorem body_obligation9 (c : Dev nD) : BodyObligation (dat9 (F := F) V c) (defs₀ (F := F)) Variants.none () Set.univ := fun t => by
  show iprop((dat9 V c).Φ t.castSucc ∗ (dat9 V c).owesAt () t.castSucc
      ∗ bigSep Finset.univ fun w : Fin 6 => iprop(∃ d, owns (c : Thread nD τ) ((cfg9.win w).stage (cfg9.slots t w)) fullShare ((dat9 V c).before w t d)))
    ⊢ wp frame (wpE (defs₀ (F := F)) Variants.none c none) Set.univ (bodyAt9 t) fun _ =>
      iprop((dat9 V c).Φ t.castSucc ∗ (dat9 V c).owesAt () t.castSucc
        ∗ bigSep Finset.univ fun w : Fin 6 => owns (c : Thread nD τ) ((cfg9.win w).stage (cfg9.slots t w)) fullShare ((dat9 V c).after w t))
  rw [bigSep_W9, bigSep_W9]
  simp only [before9_0, before9_1, before9_2, before9_3, before9_4, after9_0, after9_1, after9_2, after9_3, after9_4, after9_5]
  iintro ⟨HΦ, Ho, ⟨%d0, H0⟩, ⟨%d1, H1⟩, ⟨%d2, H2⟩, ⟨%d3, H3⟩, ⟨%d4, H4⟩, ⟨%d5, H5⟩⟩
  iapply (sound_kernel9 c Set.univ _ _ _ _ _ _ _ _ _ _ _ _ _ (iblk9 V c 0 t) (iblk9 V c 1 t) (iblk9 V c 2 t) (iblk9 V c 3 t) (iblk9 V c 4 t) _)
  iframe
  isplitl [H5]; · iexists _; iexact H5
  iintro ⟨H0, H1, H2, H3, H4, H5⟩
  iframe

end Cert.Kernel.Fr

end
-- ==== Proof.K.R10.lean ====
import proofs.«141374_j27161373180011_1_alg».proof.Proof.Gen.Kernel.Launch
import proofs.«141374_j27161373180011_1_alg».proof.Proof.Gen.Kernel.Skeleton
import proofs.«141374_j27161373180011_1_alg».proof.Proof.Gen.Kernel.Points
import Idealize.ShloMosaic.Lib.Pipeline.FrameBody
import Idealize.ShloMosaic.Lib.Tactic

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t of the array V gives it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

abbrev whole10_S512x640 : Rect S512x640 := Rect.unit (s := S512x640) ![0, 0] S512x640.size inb_S512x640_S512x640_0_0
abbrev whole10_S640x128 : Rect S640x128 := Rect.unit (s := S640x128) ![0, 0] S640x128.size inb_S640x128_S640x128_0_0
abbrev whole10_S1x128 : Rect S1x128 := Rect.unit (s := S1x128) ![0, 0] S1x128.size inb_S1x128_S1x128_0_0
abbrev whole10_S128x2 : Rect S128x2 := Rect.unit (s := S128x2) ![0, 0] S128x2.size inb_S128x2_S128x2_0_0
abbrev whole10_S1x2 : Rect S1x2 := Rect.unit (s := S1x2) ![0, 0] S1x2.size inb_S1x2_S1x2_0_0
abbrev whole10_S512x2 : Rect S512x2 := Rect.unit (s := S512x2) ![0, 0] S512x2.size inb_S512x2_S512x2_0_0

/-- The output block after the body: the payload of the whole input blocks, stored over the whole block. -/
def out10_5 (x0 : Vec F S512x640 .f32) (x1 : Vec F S640x128 .f32) (x2 : Vec F S1x128 .f32) (x3 : Vec F S128x2 .f32) (x4 : Vec F S1x2 .f32) : Vec F S512x2 .f32 :=
  View.canon [⟨whole10_S512x2, k10_pay1 (View.ld x0 whole10_S512x640) (View.ld x1 whole10_S640x128) (View.ld x2 whole10_S1x128) (View.ld x3 whole10_S128x2) (View.ld x4 whole10_S1x2)⟩]

theorem cover10_5 (p0 : Vec F S512x2 .f32) (y : S512x2.Idx) :
    ∃ pc ∈ ([⟨whole10_S512x2, p0⟩] : List (View.Piece (Elt F) S512x2 .f32)), y ∈ pc.1.set :=
  View.cover_of_tiled [⟨whole10_S512x2, p0⟩] S512x2.size (by rfl) y

set_option maxHeartbeats 1000000 in
/-- The body's triple: it leaves the inputs as they were and the output at out10_5 of them. -/
theorem sound_kernel10 (c : Dev nD) (E : Set ℕ) (i : grid10.Coords)
    (arg1 : Memref sig .tc .vmem S512x640 .f32) (harg1 : arg1.IsWhole) (arg2 : Memref sig .tc .vmem S640x128 .f32) (harg2 : arg2.IsWhole) (arg3 : Memref sig .tc .vmem S1x128 .f32) (harg3 : arg3.IsWhole) (arg4 : Memref sig .tc .vmem S128x2 .f32) (harg4 : arg4.IsWhole) (arg5 : Memref sig .tc .vmem S1x2 .f32) (harg5 : arg5.IsWhole) (arg6 : Memref sig .tc .vmem S512x2 .f32) (harg6 : arg6.IsWhole)
    (x0 : Vec F S512x640 .f32) (x1 : Vec F S640x128 .f32) (x2 : Vec F S1x128 .f32) (x3 : Vec F S128x2 .f32) (x4 : Vec F S1x2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out10_5 x0 x1 x2 x3 x4)) -∗ K ⟨⟩))
      ⊢ wp frame (wpE (defs₀ (F := F)) Variants.none c none) E (cc10__readout_kernel i arg1 harg1 arg2 harg2 arg3 harg3 arg4 harg4 arg5 harg5 arg6 harg6) K := by
  simp only [cc10__readout_kernel_eq_skeleton]; unfold cc10__readout_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  iexists _; isplitr
  swap; · iexact H5
  ipureintro
  exact View.read_writes_eq_canon _ _ _ (cover10_5 _)

/-- The region's proof data: an input keeps its block, the output block is out10_5 of the input blocks. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => out10_5 (iblk10 V c 0 t) (iblk10 V c 1 t) (iblk10 V c 2 t) (iblk10 V c 3 t) (iblk10 V c 4 t)
  Φ _ := Pipeline.ΦA spec10 c
  q _ := fullShare
  owed _ := 0

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) :
    (dat10 V c).after 5 t = out10_5 (iblk10 V c 0 t) (iblk10 V c 1 t) (iblk10 V c 2 t) (iblk10 V c 3 t) (iblk10 V c 4 t) := by dsimp only [dat10]

theorem before10_0 (c : Dev nD) (t : Fin cfg10.N) (d) : (dat10 V c).before 0 t d = iblk10 V c 0 t :=
  (dat10 V c).before_in_eq_fetched 0 rfl (fun _ => rfl) (fun _ _ _ => rfl) (fun _ => rfl) t d
theorem before10_1 (c : Dev nD) (t : Fin cfg10.N) (d) : (dat10 V c).before 1 t d = iblk10 V c 1 t :=
  (dat10 V c).before_in_eq_fetched 1 rfl (fun _ => rfl) (fun _ _ _ => rfl) (fun _ => rfl) t d
theorem before10_2 (c : Dev nD) (t : Fin cfg10.N) (d) : (dat10 V c).before 2 t d = iblk10 V c 2 t :=
  (dat10 V c).before_in_eq_fetched 2 rfl (fun _ => rfl) (fun _ _ _ => rfl) (fun _ => rfl) t d
theorem before10_3 (c : Dev nD) (t : Fin cfg10.N) (d) : (dat10 V c).before 3 t d = iblk10 V c 3 t :=
  (dat10 V c).before_in_eq_fetched 3 rfl (fun _ => rfl) (fun _ _ _ => rfl) (fun _ => rfl) t d
theorem before10_4 (c : Dev nD) (t : Fin cfg10.N) (d) : (dat10 V c).before 4 t d = iblk10 V c 4 t :=
  (dat10 V c).before_in_eq_fetched 4 rfl (fun _ => rfl) (fun _ _ _ => rfl) (fun _ => rfl) t d

/-- At any point the inputs hold their blocks, so the body's triple applies; the invariant and the dues pass through. -/
theorem body_obligation10 (c : Dev nD) : BodyObligation (dat10 (F := F) V c) (defs₀ (F := F)) Variants.none () Set.univ := fun t => by
  show iprop((dat10 V c).Φ t.castSucc ∗ (dat10 V c).owesAt () t.castSucc
      ∗ bigSep Finset.univ fun w : Fin 6 => iprop(∃ d, owns (c : Thread nD τ) ((cfg10.win w).stage (cfg10.slots t w)) fullShare ((dat10 V c).before w t d)))
    ⊢ wp frame (wpE (defs₀ (F := F)) Variants.none c none) Set.univ (bodyAt10 t) fun _ =>
      iprop((dat10 V c).Φ t.castSucc ∗ (dat10 V c).owesAt () t.castSucc
        ∗ bigSep Finset.univ fun w : Fin 6 => owns (c : Thread nD τ) ((cfg10.win w).stage (cfg10.slots t w)) fullShare ((dat10 V c).after w t))
  rw [bigSep_W10, bigSep_W10]
  simp only [before10_0, before10_1, before10_2, before10_3, before10_4, after10_0, after10_1, after10_2, after10_3, after10_4, after10_5]
  iintro ⟨HΦ, Ho, ⟨%d0, H0⟩, ⟨%d1, H1⟩, ⟨%d2, H2⟩, ⟨%d3, H3⟩, ⟨%d4, H4⟩, ⟨%d5, H5⟩⟩
  iapply (sound_kernel10 c Set.univ _ _ _ _ _ _ _ _ _ _ _ _ _ (iblk10 V c 0 t) (iblk10 V c 1 t) (iblk10 V c 2 t) (iblk10 V c 3 t) (iblk10 V c 4 t) _)
  iframe
  isplitl [H5]; · iexists _; iexact H5
  iintro ⟨H0, H1, H2, H3, H4, H5⟩
  iframe

end Cert.Kernel.Fr

end
-- ==== Proof.LibFold.lean ====
import Idealize.ShloMosaic.Lib.Pipeline.Cells
import Idealize.ShloMosaic.Lib.StableHlo.Run

namespace Cert.LibFold

open Idealize.ShloMosaic Idealize.ShloMosaic.TcCoe Idealize.SL.RA
open Idealize.ShloMosaic.Pipeline (Dat Cfg)

variable {nD : ℕ} {τ : Topo} {sig : RefSig} {Val : EltTy → Type} {Λ₀ : Idealize.SL.Sem.Labels}
variable {Ix : Type} [DecidableEq Ix] {Name : Type} [DecidableEq Name] {U : Type} [URA U] {Lvl : Type}

/-- Only window `o` is an output, so at exit each window's array holds the entry contents updated at `o`'s array. -/
theorem arrAt_update {cfg : Cfg sig Λ₀} {c : Dev nD} {dat : Dat τ Val Ix Name U Lvl cfg c} {W : Valuation τ sig Val}
    (o : Fin cfg.W) (hA : ∀ w, dat.A w = W (cfg.win w).arr.view.ref)
    (h : ∀ w, w ≠ o → (cfg.win w).isOut = false ∧ (cfg.win w).arr.view.ref ≠ (cfg.win o).arr.view.ref)
    (w : Fin cfg.W) :
    dat.arrAt w cfg.N = Function.update W (cfg.win o).arr.view.ref (dat.arrAt o cfg.N) (cfg.win w).arr.view.ref := by
  by_cases hw : w = o
  · subst hw; exact (Function.update_self _ _ W).symm
  · rw [dat.arrAt_in w (h w hw).1, Function.update_of_ne (StableHlo.devRef_ne_of_ne (h w hw).2)]; exact hA w

/-- A buffer that is no window's array is not the updated one. -/
theorem update_rest {n : ℕ} {W : Valuation τ sig Val} (ar : Fin n → Ref sig .tc) (o : Fin n) {x} (b : Ref sig .tc)
    (hb : b ∉ Finset.univ.image ar) : Function.update W (ar o) x b = W b :=
  Function.update_of_ne (StableHlo.devRef_ne_of_ne fun e => hb (Finset.mem_image.mpr ⟨o, Finset.mem_univ _, e.symm⟩)) _ _

/-- Updating at `r` with the value an update at `r` already holds there gives that update back. -/
theorem update_update_self {W W' : Valuation τ sig Val} (h : W' = W) {r : DevRef τ sig} {x} :
    Function.update W' r (Function.update W r x r) = Function.update W r x := by rw [h, Function.update_self]

end Cert.LibFold
-- ==== Proof.K.Fold.lean ====
import proofs.«141374_j27161373180011_1_alg».proof.Proof.Gen.Kernel.Regions
import proofs.«141374_j27161373180011_1_alg».proof.Proof.K.R0
import proofs.«141374_j27161373180011_1_alg».proof.Proof.K.R1
import proofs.«141374_j27161373180011_1_alg».proof.Proof.K.R2
import proofs.«141374_j27161373180011_1_alg».proof.Proof.K.R3
import proofs.«141374_j27161373180011_1_alg».proof.Proof.K.R4
import proofs.«141374_j27161373180011_1_alg».proof.Proof.K.R5
import proofs.«141374_j27161373180011_1_alg».proof.Proof.K.R6
import proofs.«141374_j27161373180011_1_alg».proof.Proof.K.R7
import proofs.«141374_j27161373180011_1_alg».proof.Proof.K.R8
import proofs.«141374_j27161373180011_1_alg».proof.Proof.K.R9
import proofs.«141374_j27161373180011_1_alg».proof.Proof.K.R10
import proofs.«141374_j27161373180011_1_alg».proof.Proof.LibFold

noncomputable section

namespace Cert.Kernel.Fr

open Cert.Kernel Cert.Kernel.Gen Cert.LibFold
open Idealize.ShloMosaic Idealize.ShloMosaic.TcCoe
open Idealize.SL Idealize.SL.BI Idealize.SL.BI.BIBase
open Idealize.ShloMosaic.Pipeline (Dat)

variable {F : FTy → Type} [FloatOps F] (m : (ℓ : Loc nD τ sig) → Buf (Elt F) ℓ)

abbrev rd (W : Dev nD → Valuation τ sig (Elt F)) : (c : Dev nD) → (b : Ref sig .tc) → Buf (Elt F) ((c : Thread nD τ).loc b) := fun c b => W c b

def U1 (c : Dev nD) : Valuation τ sig (Elt F) := V1 m c
def U2 (c : Dev nD) : Valuation τ sig (Elt F) :=
  Function.update (U1 m c) main_v19 ((dat0 (rd (U1 m)) c).arrAt 6 cfg0.N)
def U3 (c : Dev nD) : Valuation τ sig (Elt F) := StableHlo.after hostOps1 (U2 m c)
def U4 (c : Dev nD) : Valuation τ sig (Elt F) :=
  Function.update (U3 m c) main_v24 ((dat1 (rd (U3 m)) c).arrAt 5 cfg1.N)
def U5 (c : Dev nD) : Valuation τ sig (Elt F) := StableHlo.after hostOps2 (U4 m c)
def U6 (c : Dev nD) : Valuation τ sig (Elt F) :=
  Function.update (U5 m c) main_v40 ((dat2 (rd (U5 m)) c).arrAt 6 cfg2.N)
def U7 (c : Dev nD) : Valuation τ sig (Elt F) := StableHlo.after hostOps3 (U6 m c)
def U8 (c : Dev nD) : Valuation τ sig (Elt F) :=
  Function.update (U7 m c) main_v45 ((dat3 (rd (U7 m)) c).arrAt 5 cfg3.N)
def U9 (c : Dev nD) : Valuation τ sig (Elt F) := StableHlo.after hostOps4 (U8 m c)
def U10 (c : Dev nD) : Valuation τ sig (Elt F) :=
  Function.update (U9 m c) main_v61 ((dat4 (rd (U9 m)) c).arrAt 6 cfg4.N)
def U11 (c : Dev nD) : Valuation τ sig (Elt F) := StableHlo.after hostOps5 (U10 m c)
def U12 (c : Dev nD) : Valuation τ sig (Elt F) :=
  Function.update (U11 m c) main_v66 ((dat5 (rd (U11 m)) c).arrAt 5 cfg5.N)
def U13 (c : Dev nD) : Valuation τ sig (Elt F) := StableHlo.after hostOps6 (U12 m c)
def U14 (c : Dev nD) : Valuation τ sig (Elt F) :=
  Function.update (U13 m c) main_v82 ((dat6 (rd (U13 m)) c).arrAt 6 cfg6.N)
def U15 (c : Dev nD) : Valuation τ sig (Elt F) := StableHlo.after hostOps7 (U14 m c)
def U16 (c : Dev nD) : Valuation τ sig (Elt F) :=
  Function.update (U15 m c) main_v87 ((dat7 (rd (U15 m)) c).arrAt 5 cfg7.N)
def U17 (c : Dev nD) : Valuation τ sig (Elt F) := StableHlo.after hostOps8 (U16 m c)
def U18 (c : Dev nD) : Valuation τ sig (Elt F) :=
  Function.update (U17 m c) main_v103 ((dat8 (rd (U17 m)) c).arrAt 6 cfg8.N)
def U19 (c : Dev nD) : Valuation τ sig (Elt F) := StableHlo.after hostOps9 (U18 m c)
def U20 (c : Dev nD) : Valuation τ sig (Elt F) :=
  Function.update (U19 m c) main_v108 ((dat9 (rd (U19 m)) c).arrAt 5 cfg9.N)
def U21 (c : Dev nD) : Valuation τ sig (Elt F) := StableHlo.after hostOps10 (U20 m c)
def U22 (c : Dev nD) : Valuation τ sig (Elt F) :=
  Function.update (U21 m c) main_v127 ((dat10 (rd (U21 m)) c).arrAt 5 cfg10.N)

theorem hF0 (c : Dev nD) (w : Fin cfg0.W) : (dat0 (rd (U1 m)) c).arrAt w cfg0.N = rd (U2 m) c (Pipeline.arrRef spec0 w) :=
  arrAt_update 6 (fun _ => rfl) (by decide) w
theorem hrest0 (c : Dev nD) : ∀ b, b ∉ Finset.univ.image (Pipeline.arrRef spec0) → rd (U2 m) c b = rd (U1 m) c b :=
  update_rest (Pipeline.arrRef spec0) 6
theorem hF1 (c : Dev nD) (w : Fin cfg1.W) : (dat1 (rd (U3 m)) c).arrAt w cfg1.N = rd (U4 m) c (Pipeline.arrRef spec1 w) :=
  arrAt_update 5 (fun _ => rfl) (by decide) w
theorem hrest1 (c : Dev nD) : ∀ b, b ∉ Finset.univ.image (Pipeline.arrRef spec1) → rd (U4 m) c b = rd (U3 m) c b :=
  update_rest (Pipeline.arrRef spec1) 5
theorem hF2 (c : Dev nD) (w : Fin cfg2.W) : (dat2 (rd (U5 m)) c).arrAt w cfg2.N = rd (U6 m) c (Pipeline.arrRef spec2 w) :=
  arrAt_update 6 (fun _ => rfl) (by decide) w
theorem hrest2 (c : Dev nD) : ∀ b, b ∉ Finset.univ.image (Pipeline.arrRef spec2) → rd (U6 m) c b = rd (U5 m) c b :=
  update_rest (Pipeline.arrRef spec2) 6
theorem hF3 (c : Dev nD) (w : Fin cfg3.W) : (dat3 (rd (U7 m)) c).arrAt w cfg3.N = rd (U8 m) c (Pipeline.arrRef spec3 w) :=
  arrAt_update 5 (fun _ => rfl) (by decide) w
theorem hrest3 (c : Dev nD) : ∀ b, b ∉ Finset.univ.image (Pipeline.arrRef spec3) → rd (U8 m) c b = rd (U7 m) c b :=
  update_rest (Pipeline.arrRef spec3) 5
theorem hF4 (c : Dev nD) (w : Fin cfg4.W) : (dat4 (rd (U9 m)) c).arrAt w cfg4.N = rd (U10 m) c (Pipeline.arrRef spec4 w) :=
  arrAt_update 6 (fun _ => rfl) (by decide) w
theorem hrest4 (c : Dev nD) : ∀ b, b ∉ Finset.univ.image (Pipeline.arrRef spec4) → rd (U10 m) c b = rd (U9 m) c b :=
  update_rest (Pipeline.arrRef spec4) 6
theorem hF5 (c : Dev nD) (w : Fin cfg5.W) : (dat5 (rd (U11 m)) c).arrAt w cfg5.N = rd (U12 m) c (Pipeline.arrRef spec5 w) :=
  arrAt_update 5 (fun _ => rfl) (by decide) w
theorem hrest5 (c : Dev nD) : ∀ b, b ∉ Finset.univ.image (Pipeline.arrRef spec5) → rd (U12 m) c b = rd (U11 m) c b :=
  update_rest (Pipeline.arrRef spec5) 5
theorem hF6 (c : Dev nD) (w : Fin cfg6.W) : (dat6 (rd (U13 m)) c).arrAt w cfg6.N = rd (U14 m) c (Pipeline.arrRef spec6 w) :=
  arrAt_update 6 (fun _ => rfl) (by decide) w
theorem hrest6 (c : Dev nD) : ∀ b, b ∉ Finset.univ.image (Pipeline.arrRef spec6) → rd (U14 m) c b = rd (U13 m) c b :=
  update_rest (Pipeline.arrRef spec6) 6
theorem hF7 (c : Dev nD) (w : Fin cfg7.W) : (dat7 (rd (U15 m)) c).arrAt w cfg7.N = rd (U16 m) c (Pipeline.arrRef spec7 w) :=
  arrAt_update 5 (fun _ => rfl) (by decide) w
theorem hrest7 (c : Dev nD) : ∀ b, b ∉ Finset.univ.image (Pipeline.arrRef spec7) → rd (U16 m) c b = rd (U15 m) c b :=
  update_rest (Pipeline.arrRef spec7) 5
theorem hF8 (c : Dev nD) (w : Fin cfg8.W) : (dat8 (rd (U17 m)) c).arrAt w cfg8.N = rd (U18 m) c (Pipeline.arrRef spec8 w) :=
  arrAt_update 6 (fun _ => rfl) (by decide) w
theorem hrest8 (c : Dev nD) : ∀ b, b ∉ Finset.univ.image (Pipeline.arrRef spec8) → rd (U18 m) c b = rd (U17 m) c b :=
  update_rest (Pipeline.arrRef spec8) 6
theorem hF9 (c : Dev nD) (w : Fin cfg9.W) : (dat9 (rd (U19 m)) c).arrAt w cfg9.N = rd (U20 m) c (Pipeline.arrRef spec9 w) :=
  arrAt_update 5 (fun _ => rfl) (by decide) w
theorem hrest9 (c : Dev nD) : ∀ b, b ∉ Finset.univ.image (Pipeline.arrRef spec9) → rd (U20 m) c b = rd (U19 m) c b :=
  update_rest (Pipeline.arrRef spec9) 5
theorem hF10 (c : Dev nD) (w : Fin cfg10.W) : (dat10 (rd (U21 m)) c).arrAt w cfg10.N = rd (U22 m) c (Pipeline.arrRef spec10 w) :=
  arrAt_update 5 (fun _ => rfl) (by decide) w
theorem hrest10 (c : Dev nD) : ∀ b, b ∉ Finset.univ.image (Pipeline.arrRef spec10) → rd (U22 m) c b = rd (U21 m) c b :=
  update_rest (Pipeline.arrRef spec10) 5

def pdats : (p : Fin 11) → (c : Dev nD) → Dat τ (Elt F) Unit ℕ (UR sig nD τ) ℕ (cfgs p) c
  | ⟨0, _⟩ => dat0 (rd (U1 m))
  | ⟨1, _⟩ => dat1 (rd (U3 m))
  | ⟨2, _⟩ => dat2 (rd (U5 m))
  | ⟨3, _⟩ => dat3 (rd (U7 m))
  | ⟨4, _⟩ => dat4 (rd (U9 m))
  | ⟨5, _⟩ => dat5 (rd (U11 m))
  | ⟨6, _⟩ => dat6 (rd (U13 m))
  | ⟨7, _⟩ => dat7 (rd (U15 m))
  | ⟨8, _⟩ => dat8 (rd (U17 m))
  | ⟨9, _⟩ => dat9 (rd (U19 m))
  | ⟨10, _⟩ => dat10 (rd (U21 m))

abbrev 𝒱₀ : Variants := Variants.none
abbrev L : GSem nD τ sig → Finset Unit := fun _ => ∅
abbrev lv : GSem nD τ sig → Unit → ℕ := fun _ _ => 0
abbrev R (c : Dev nD) : sProp (MT nD τ sig Unit (Elt F) ℕ (UR sig nD τ) ℕ) :=
  iprop((∃ r, prngReg c r) ∗ ∃ W, owes (c : Thread nD τ) (0 : CellTallies nD τ sig Unit) W)

def outs : Outs (F := F) := fun J r c => match J with
  | 2 => U2 m c r
  | 4 => U4 m c r
  | 6 => U6 m c r
  | 8 => U8 m c r
  | 10 => U10 m c r
  | 12 => U12 m c r
  | 14 => U14 m c r
  | 16 => U16 m c r
  | 18 => U18 m c r
  | 20 => U20 m c r
  | 22 => U22 m c r
  | _ => V0 m c r

theorem V1_eq (c : Dev nD) : V1 m c = U1 m c := rfl
theorem V2_eq (c : Dev nD) : V2 m (outs m) c = U2 m c := update_update_self (V1_eq m c)
theorem V3_eq (c : Dev nD) : V3 m (outs m) c = U3 m c := congrArg (StableHlo.after hostOps1) (V2_eq m c)
theorem V4_eq (c : Dev nD) : V4 m (outs m) c = U4 m c := update_update_self (V3_eq m c)
theorem V5_eq (c : Dev nD) : V5 m (outs m) c = U5 m c := congrArg (StableHlo.after hostOps2) (V4_eq m c)
theorem V6_eq (c : Dev nD) : V6 m (outs m) c = U6 m c := update_update_self (V5_eq m c)
theorem V7_eq (c : Dev nD) : V7 m (outs m) c = U7 m c := congrArg (StableHlo.after hostOps3) (V6_eq m c)
theorem V8_eq (c : Dev nD) : V8 m (outs m) c = U8 m c := update_update_self (V7_eq m c)
theorem V9_eq (c : Dev nD) : V9 m (outs m) c = U9 m c := congrArg (StableHlo.after hostOps4) (V8_eq m c)
theorem V10_eq (c : Dev nD) : V10 m (outs m) c = U10 m c := update_update_self (V9_eq m c)
theorem V11_eq (c : Dev nD) : V11 m (outs m) c = U11 m c := congrArg (StableHlo.after hostOps5) (V10_eq m c)
theorem V12_eq (c : Dev nD) : V12 m (outs m) c = U12 m c := update_update_self (V11_eq m c)
theorem V13_eq (c : Dev nD) : V13 m (outs m) c = U13 m c := congrArg (StableHlo.after hostOps6) (V12_eq m c)
theorem V14_eq (c : Dev nD) : V14 m (outs m) c = U14 m c := update_update_self (V13_eq m c)
theorem V15_eq (c : Dev nD) : V15 m (outs m) c = U15 m c := congrArg (StableHlo.after hostOps7) (V14_eq m c)
theorem V16_eq (c : Dev nD) : V16 m (outs m) c = U16 m c := update_update_self (V15_eq m c)
theorem V17_eq (c : Dev nD) : V17 m (outs m) c = U17 m c := congrArg (StableHlo.after hostOps8) (V16_eq m c)
theorem V18_eq (c : Dev nD) : V18 m (outs m) c = U18 m c := update_update_self (V17_eq m c)
theorem V19_eq (c : Dev nD) : V19 m (outs m) c = U19 m c := congrArg (StableHlo.after hostOps9) (V18_eq m c)
theorem V20_eq (c : Dev nD) : V20 m (outs m) c = U20 m c := update_update_self (V19_eq m c)
theorem V21_eq (c : Dev nD) : V21 m (outs m) c = U21 m c := congrArg (StableHlo.after hostOps10) (V20_eq m c)
theorem V22_eq (c : Dev nD) : V22 m (outs m) c = U22 m c := update_update_self (V21_eq m c)

end Cert.Kernel.Fr

end
-- ==== Proof.LibRegionSeg.lean ====
import Idealize.ShloMosaic.Lib.Pipeline.RegionsLoop
import Idealize.ShloMosaic.Lib.Pipeline.Frame
import Idealize.ShloMosaic.Lib.Tactic

noncomputable section

namespace Cert

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg BodyObligation)

variable {nD : Nat} {τ : Topo} {sig : RefSig} {Val : EltTy → Type} {U : Type} [URA U] {Λ₀ : Labels} {P : Type} [Fintype P]
  (cfgs : P → Cfg sig Λ₀) (pdats : (p : P) → (c : Dev nD) → Dat τ Val Unit ℕ U ℕ (cfgs p) c) (defs₀ : Defs nD τ sig Val Λ₀)

/-- The segment of @main for pipeline p, from the unscoped buffers at Ui to the same at Uo, where Uo is Ui with p's arrays at their final contents. -/
def regOf {p : P} (Ui Uo : Dev nD → Valuation τ sig Val) (lf : Pipeline.LaunchFacts (nD := nD) (τ := τ) cfgs p)
    (hb : ∀ c, BodyObligation (pdats p c) defs₀ Variants.none () Set.univ)
    (hF : ∀ c w, (pdats p c).arrAt w (cfgs p).N = Uo c (Pipeline.arrRef (cfgs p).spec w))
    (hrest : ∀ c b, b ∉ Finset.univ.image (Pipeline.arrRef (cfgs p).spec) → Uo c b = Ui c b)
    (hq : ∀ c w, (pdats p c).q w = fullShare := by exact fun _ _ => rfl)
    (hA : ∀ c w, (pdats p c).A w = Ui c (Pipeline.arrRef (cfgs p).spec w) := by exact fun _ _ => rfl)
    (hΦ : ∀ c i, (pdats p c).Φ i = Pipeline.ΦA (cfgs p).spec c := by exact fun _ _ => rfl)
    (h0 : ∀ c t, (pdats p c).owed t = 0 := by exact fun _ _ => rfl)
    (hr : ∀ c x, x ∈ (pdats p c).recorded 0 := by exact fun _ _ => trivial) :
    Pipeline.RegionSeg (fun q => (cfgs q).toPCfg (Val := Val)) (fun q => (cfgs q).toPCfg_adm) pdats () defs₀ Variants.none
      (fun _ => ∅) (fun _ _ => 0) p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ _ _ p h0
  pre c := iprop(StableHlo.held (c : Thread nD τ) (Pipeline.ucRefs τ sig) (Ui c) ∗ (∃ r, prngReg c r) ∗ ∃ W, owes (c : Thread nD τ) (0 : CellTallies nD τ sig Unit) W)
  post c := iprop(StableHlo.held (c : Thread nD τ) (Pipeline.ucRefs τ sig) (Uo c) ∗ (∃ r, prngReg c r) ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := U) (Lvl := ℕ) (cfgs p).spec c fun b => Ui c b
  hentry c := by
    rw [Pipeline.ownSems0_none]; unfold Pipeline.Dat.owesAt Pipeline.owesWithin Pipeline.prefHeld
    rw [h0, show (Finset.univ : Finset (Fin 0)) = ∅ from rfl, BI.bigSep_empty]
    have hsplit := Pipeline.arrays_of_unscopedBufs (fun q => (cfgs q).toPCfg (Val := Val)) (fun q => (cfgs q).toPCfg_adm) pdats
      lf.win lf.arr_whole c ((pdats p c).share_full (hq c)) (fun b => Ui c b) (hA c)
    rw [Pipeline.unscopedBufs_held] at hsplit
    iintro ⟨⟨Hub, Hp, %W, HO⟩, -, -⟩
    ihave H := hsplit $$ Hub
    icases H with ⟨Ha, Hrest⟩
    imodintro
    isplitl [Ha]; · iexact Ha
    isplitr; · iempintro
    isplitl [HO]
    · iexists W; isplitr; · ipureintro; exact fun x _ => Or.inl (hr c x)
      iexact HO
    isplitl [Hp] <;> iassumption
  hin c := by
    rw [hΦ]; unfold Pipeline.ΦA
    iintro ⟨Hp, -, Hr⟩; isplitl [Hr] <;> iassumption
  hout c := by
    rw [Pipeline.ownSems0_none, hΦ]; unfold Pipeline.ΦA
    iintro ⟨Hr, Hp⟩; isplitl [Hp]; · iexact Hp
    isplitr; · iempintro
    iexact Hr
  hexit c := by
    have hjoin := Pipeline.unscopedBufs_of_arrays (fun q => (cfgs q).toPCfg (Val := Val)) (fun q => (cfgs q).toPCfg_adm) (Ix := Unit) (Name := ℕ) (U := U) (Lvl := ℕ)
      lf.win lf.arr_whole c pdats ((pdats p c).share_full (hq c)) (fun b => Ui c b) (fun b => Uo c b) _ (hF c) (hrest c)
    rw [Pipeline.unscopedBufs_held] at hjoin
    unfold Pipeline.Dat.owesAt Pipeline.owesWithin; rw [h0]
    iintro ⟨Ha, ⟨%W, -, HO⟩, HY, Hrest⟩
    imodintro
    isplitl [Ha Hrest]
    · iapply hjoin; isplitl [Ha] <;> iassumption
    isplitl [HY]; · iexact HY
    iexists W; iexact HO

end Cert

end
-- ==== Proof.K.Regs.lean ====
import proofs.«141374_j27161373180011_1_alg».proof.Proof.K.Fold
import proofs.«141374_j27161373180011_1_alg».proof.Proof.LibRegionSeg

noncomputable section

namespace Cert.Kernel.Fr

open Cert.Kernel Cert.Kernel.Gen Idealize.ShloMosaic

variable {F : FTy → Type} [FloatOps F] (m : (ℓ : Loc nD τ sig) → Buf (Elt F) ℓ)

def reg0 : Pipeline.RegionSeg (pcfgs (F := F)) adm (pdats m) () defs₀ 𝒱₀ L lv 0 :=
  regOf cfgs (pdats m) defs₀ (U1 m) (U2 m) launch0 (body_obligation0 _) (hF0 m) (hrest0 m)
def reg1 : Pipeline.RegionSeg (pcfgs (F := F)) adm (pdats m) () defs₀ 𝒱₀ L lv 1 :=
  regOf cfgs (pdats m) defs₀ (U3 m) (U4 m) launch1 (body_obligation1 _) (hF1 m) (hrest1 m)
def reg2 : Pipeline.RegionSeg (pcfgs (F := F)) adm (pdats m) () defs₀ 𝒱₀ L lv 2 :=
  regOf cfgs (pdats m) defs₀ (U5 m) (U6 m) launch2 (body_obligation2 _) (hF2 m) (hrest2 m)
def reg3 : Pipeline.RegionSeg (pcfgs (F := F)) adm (pdats m) () defs₀ 𝒱₀ L lv 3 :=
  regOf cfgs (pdats m) defs₀ (U7 m) (U8 m) launch3 (body_obligation3 _) (hF3 m) (hrest3 m)
def reg4 : Pipeline.RegionSeg (pcfgs (F := F)) adm (pdats m) () defs₀ 𝒱₀ L lv 4 :=
  regOf cfgs (pdats m) defs₀ (U9 m) (U10 m) launch4 (body_obligation4 _) (hF4 m) (hrest4 m)
def reg5 : Pipeline.RegionSeg (pcfgs (F := F)) adm (pdats m) () defs₀ 𝒱₀ L lv 5 :=
  regOf cfgs (pdats m) defs₀ (U11 m) (U12 m) launch5 (body_obligation5 _) (hF5 m) (hrest5 m)
def reg6 : Pipeline.RegionSeg (pcfgs (F := F)) adm (pdats m) () defs₀ 𝒱₀ L lv 6 :=
  regOf cfgs (pdats m) defs₀ (U13 m) (U14 m) launch6 (body_obligation6 _) (hF6 m) (hrest6 m)
def reg7 : Pipeline.RegionSeg (pcfgs (F := F)) adm (pdats m) () defs₀ 𝒱₀ L lv 7 :=
  regOf cfgs (pdats m) defs₀ (U15 m) (U16 m) launch7 (body_obligation7 _) (hF7 m) (hrest7 m)
def reg8 : Pipeline.RegionSeg (pcfgs (F := F)) adm (pdats m) () defs₀ 𝒱₀ L lv 8 :=
  regOf cfgs (pdats m) defs₀ (U17 m) (U18 m) launch8 (body_obligation8 _) (hF8 m) (hrest8 m)
def reg9 : Pipeline.RegionSeg (pcfgs (F := F)) adm (pdats m) () defs₀ 𝒱₀ L lv 9 :=
  regOf cfgs (pdats m) defs₀ (U19 m) (U20 m) launch9 (body_obligation9 _) (hF9 m) (hrest9 m)
def reg10 : Pipeline.RegionSeg (pcfgs (F := F)) adm (pdats m) () defs₀ 𝒱₀ L lv 10 :=
  regOf cfgs (pdats m) defs₀ (U21 m) (U22 m) launch10 (body_obligation10 _) (hF10 m) (hrest10 m)

end Cert.Kernel.Fr

end
-- ==== Proof.K.Frame.lean ====
import proofs.«141374_j27161373180011_1_alg».proof.Proof.K.Regs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

set_option backward.isDefEq.respectTransparency.types false in
def frameOf :=
  Gen.frame_cond (F := F) m emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := Pipeline.initEach L lv fun c => by
      iintro ⟨⟨-, HO, -, Hp, -⟩, -⟩
      imodintro
      isplitl [Hp]; · iexists _; iexact Hp
      iexists ∅; iexact HO)
    (hE11 := fun c => by iintro ⟨-, HO⟩; iexact HO)
    (R0 := reg0 m) (hpre0 := fun c => by rw [V1_eq]; exact .rfl) (hpost0 := fun c => by rw [V2_eq]; exact .rfl)
    (R1 := reg1 m) (hpre1 := fun c => by rw [V3_eq]; exact .rfl) (hpost1 := fun c => by rw [V4_eq]; exact .rfl)
    (R2 := reg2 m) (hpre2 := fun c => by rw [V5_eq]; exact .rfl) (hpost2 := fun c => by rw [V6_eq]; exact .rfl)
    (R3 := reg3 m) (hpre3 := fun c => by rw [V7_eq]; exact .rfl) (hpost3 := fun c => by rw [V8_eq]; exact .rfl)
    (R4 := reg4 m) (hpre4 := fun c => by rw [V9_eq]; exact .rfl) (hpost4 := fun c => by rw [V10_eq]; exact .rfl)
    (R5 := reg5 m) (hpre5 := fun c => by rw [V11_eq]; exact .rfl) (hpost5 := fun c => by rw [V12_eq]; exact .rfl)
    (R6 := reg6 m) (hpre6 := fun c => by rw [V13_eq]; exact .rfl) (hpost6 := fun c => by rw [V14_eq]; exact .rfl)
    (R7 := reg7 m) (hpre7 := fun c => by rw [V15_eq]; exact .rfl) (hpost7 := fun c => by rw [V16_eq]; exact .rfl)
    (R8 := reg8 m) (hpre8 := fun c => by rw [V17_eq]; exact .rfl) (hpost8 := fun c => by rw [V18_eq]; exact .rfl)
    (R9 := reg9 m) (hpre9 := fun c => by rw [V19_eq]; exact .rfl) (hpost9 := fun c => by rw [V20_eq]; exact .rfl)
    (R10 := reg10 m) (hpre10 := fun c => by rw [V21_eq]; exact .rfl) (hpost10 := fun c => by rw [V22_eq]; exact .rfl)

end Cert.Kernel.Fr

end
-- ==== Proof.KI.R0.lean ====
import proofs.«141374_j27161373180011_1_alg».proof.Proof.Gen.KernelIdeal.Launch
import proofs.«141374_j27161373180011_1_alg».proof.Proof.Gen.KernelIdeal.Skeleton
import proofs.«141374_j27161373180011_1_alg».proof.Proof.Gen.KernelIdeal.Points
import Idealize.ShloMosaic.Lib.Pipeline.FrameBody
import Idealize.ShloMosaic.Lib.Tactic

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t of the array V gives it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev whole0_S4096x64 : Rect S4096x64 := Rect.unit (s := S4096x64) ![0, 0] S4096x64.size inb_S4096x64_S4096x64_0_0
abbrev whole0_S64x128 : Rect S64x128 := Rect.unit (s := S64x128) ![0, 0] S64x128.size inb_S64x128_S64x128_0_0
abbrev whole0_S1x128 : Rect S1x128 := Rect.unit (s := S1x128) ![0, 0] S1x128.size inb_S1x128_S1x128_0_0
abbrev whole0_S128x128 : Rect S128x128 := Rect.unit (s := S128x128) ![0, 0] S128x128.size inb_S128x128_S128x128_0_0
abbrev whole0_S4096x128 : Rect S4096x128 := Rect.unit (s := S4096x128) ![0, 0] S4096x128.size inb_S4096x128_S4096x128_0_0

/-- The output block after the body: the payload of the whole input blocks, stored over the whole block. -/
def out0_6 (x0 : Vec F S4096x64 .f32) (x1 : Vec F S4096x64 .f32) (x2 : Vec F S64x128 .f32) (x3 : Vec F S1x128 .f32) (x4 : Vec F S128x128 .f32) (x5 : Vec F S1x128 .f32) : Vec F S4096x128 .f32 :=
  View.canon [⟨whole0_S4096x128, k0_pay1 (View.ld x0 whole0_S4096x64) (View.ld x1 whole0_S4096x64) (View.ld x2 whole0_S64x128) (View.ld x3 whole0_S1x128) (View.ld x4 whole0_S128x128) (View.ld x5 whole0_S1x128)⟩]

theorem cover0_6 (p0 : Vec F S4096x128 .f32) (y : S4096x128.Idx) :
    ∃ pc ∈ ([⟨whole0_S4096x128, p0⟩] : List (View.Piece (Elt F) S4096x128 .f32)), y ∈ pc.1.set :=
  View.cover_of_tiled [⟨whole0_S4096x128, p0⟩] S4096x128.size (by rfl) y

set_option maxHeartbeats 1000000 in
/-- The body's triple: it leaves the inputs as they were and the output at out0_6 of them. -/
theorem sound_kernel0 (c : Dev nD) (E : Set ℕ) (i : grid0.Coords)
    (arg1 : Memref sig .tc .vmem S4096x64 .f32) (harg1 : arg1.IsWhole) (arg2 : Memref sig .tc .vmem S4096x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4096x128 .f32) (harg7 : arg7.IsWhole)
    (x0 : Vec F S4096x64 .f32) (x1 : Vec F S4096x64 .f32) (x2 : Vec F S64x128 .f32) (x3 : Vec F S1x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E (cc0__gin_mlp_kernel i arg1 harg1 arg2 harg2 arg3 harg3 arg4 harg4 arg5 harg5 arg6 harg6 arg7 harg7) K := by
  simp only [cc0__gin_mlp_kernel_eq_skeleton]; unfold cc0__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  iexists _; isplitr
  swap; · iexact H6
  ipureintro
  exact View.read_writes_eq_canon _ _ _ (cover0_6 _)

/-- The region's proof data: an input keeps its block, the output block is out0_6 of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) :
    (dat0 V c).after 6 t = out0_6 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d
theorem before0_3 (c : Dev nD) (t : Fin cfg0.N) (d) : (dat0 V c).before 3 t d = iblk0 V c 3 t :=
  (dat0 V c).before_in_eq_fetched 3 rfl (fun _ => rfl) (fun _ _ _ => rfl) (fun _ => rfl) t d
theorem before0_4 (c : Dev nD) (t : Fin cfg0.N) (d) : (dat0 V c).before 4 t d = iblk0 V c 4 t :=
  (dat0 V c).before_in_eq_fetched 4 rfl (fun _ => rfl) (fun _ _ _ => rfl) (fun _ => rfl) t d
theorem before0_5 (c : Dev nD) (t : Fin cfg0.N) (d) : (dat0 V c).before 5 t d = iblk0 V c 5 t :=
  (dat0 V c).before_in_eq_fetched 5 rfl (fun _ => rfl) (fun _ _ _ => rfl) (fun _ => rfl) t d

/-- At any point the inputs hold their blocks, so the body's triple applies; the invariant and the dues pass through. -/
theorem body_obligation0 (c : Dev nD) : BodyObligation (dat0 (F := F) V c) (defs₀ (F := F)) Variants.none () Set.univ := fun t => by
  show iprop((dat0 V c).Φ t.castSucc ∗ (dat0 V c).owesAt () t.castSucc
      ∗ bigSep Finset.univ fun w : Fin 7 => iprop(∃ d, owns (c : Thread nD τ) ((cfg0.win w).stage (cfg0.slots t w)) fullShare ((dat0 V c).before w t d)))
    ⊢ wp frame (wpE (defs₀ (F := F)) Variants.none c none) Set.univ (bodyAt0 t) fun _ =>
      iprop((dat0 V c).Φ t.castSucc ∗ (dat0 V c).owesAt () t.castSucc
        ∗ bigSep Finset.univ fun w : Fin 7 => owns (c : Thread nD τ) ((cfg0.win w).stage (cfg0.slots t w)) fullShare ((dat0 V c).after w t))
  rw [bigSep_W0, bigSep_W0]
  simp only [before0_0, before0_1, before0_2, before0_3, before0_4, before0_5, after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  iframe
  isplitl [H6]; · iexists _; iexact H6
  iintro ⟨H0, H1, H2, H3, H4, H5, H6⟩
  iframe

end Cert.KernelIdeal.Fr

end
-- ==== Proof.KI.R1.lean ====
import proofs.«141374_j27161373180011_1_alg».proof.Proof.Gen.KernelIdeal.Launch
import proofs.«141374_j27161373180011_1_alg».proof.Proof.Gen.KernelIdeal.Skeleton
import proofs.«141374_j27161373180011_1_alg».proof.Proof.Gen.KernelIdeal.Points
import Idealize.ShloMosaic.Lib.Pipeline.FrameBody
import Idealize.ShloMosaic.Lib.Tactic

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t of the array V gives it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev whole1_S4096x128 : Rect S4096x128 := Rect.unit (s := S4096x128) ![0, 0] S4096x128.size inb_S4096x128_S4096x128_0_0
abbrev whole1_S1x128 : Rect S1x128 := Rect.unit (s := S1x128) ![0, 0] S1x128.size inb_S1x128_S1x128_0_0

/-- The output block after the body: the payload of the whole input blocks, stored over the whole block. -/
def out1_5 (x0 : Vec F S4096x128 .f32) (x1 : Vec F S1x128 .f32) (x2 : Vec F S1x128 .f32) (x3 : Vec F S1x128 .f32) (x4 : Vec F S1x128 .f32) : Vec F S4096x128 .f32 :=
  View.canon [⟨whole1_S4096x128, k1_pay1 (View.ld x0 whole1_S4096x128) (View.ld x3 whole1_S1x128) (View.ld x4 whole1_S1x128) (View.ld x1 whole1_S1x128) (View.ld x2 whole1_S1x128)⟩]

theorem cover1_5 (p0 : Vec F S4096x128 .f32) (y : S4096x128.Idx) :
    ∃ pc ∈ ([⟨whole1_S4096x128, p0⟩] : List (View.Piece (Elt F) S4096x128 .f32)), y ∈ pc.1.set :=
  View.cover_of_tiled [⟨whole1_S4096x128, p0⟩] S4096x128.size (by rfl) y

set_option maxHeartbeats 1000000 in
/-- The body's triple: it leaves the inputs as they were and the output at out1_5 of them. -/
theorem sound_kernel1 (c : Dev nD) (E : Set ℕ) (i : grid1.Coords)
    (arg1 : Memref sig .tc .vmem S4096x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S4096x128 .f32) (harg6 : arg6.IsWhole)
    (x0 : Vec F S4096x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__bn_kernel i arg1 harg1 arg2 harg2 arg3 harg3 arg4 harg4 arg5 harg5 arg6 harg6) K := by
  simp only [cc1__bn_kernel_eq_skeleton]; unfold cc1__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  iexists _; isplitr
  swap; · iexact H5
  ipureintro
  exact View.read_writes_eq_canon _ _ _ (cover1_5 _)

/-- The region's proof data: an input keeps its block, the output block is out1_5 of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d
theorem before1_3 (c : Dev nD) (t : Fin cfg1.N) (d) : (dat1 V c).before 3 t d = iblk1 V c 3 t :=
  (dat1 V c).before_in_eq_fetched 3 rfl (fun _ => rfl) (fun _ _ _ => rfl) (fun _ => rfl) t d
theorem before1_4 (c : Dev nD) (t : Fin cfg1.N) (d) : (dat1 V c).before 4 t d = iblk1 V c 4 t :=
  (dat1 V c).before_in_eq_fetched 4 rfl (fun _ => rfl) (fun _ _ _ => rfl) (fun _ => rfl) t d

/-- At any point the inputs hold their blocks, so the body's triple applies; the invariant and the dues pass through. -/
theorem body_obligation1 (c : Dev nD) : BodyObligation (dat1 (F := F) V c) (defs₀ (F := F)) Variants.none () Set.univ := fun t => by
  show iprop((dat1 V c).Φ t.castSucc ∗ (dat1 V c).owesAt () t.castSucc
      ∗ bigSep Finset.univ fun w : Fin 6 => iprop(∃ d, owns (c : Thread nD τ) ((cfg1.win w).stage (cfg1.slots t w)) fullShare ((dat1 V c).before w t d)))
    ⊢ wp frame (wpE (defs₀ (F := F)) Variants.none c none) Set.univ (bodyAt1 t) fun _ =>
      iprop((dat1 V c).Φ t.castSucc ∗ (dat1 V c).owesAt () t.castSucc
        ∗ bigSep Finset.univ fun w : Fin 6 => owns (c : Thread nD τ) ((cfg1.win w).stage (cfg1.slots t w)) fullShare ((dat1 V c).after w t))
  rw [bigSep_W1, bigSep_W1]
  simp only [before1_0, before1_1, before1_2, before1_3, before1_4, after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  iframe
  isplitl [H5]; · iexists _; iexact H5
  iintro ⟨H0, H1, H2, H3, H4, H5⟩
  iframe

end Cert.KernelIdeal.Fr

end
-- ==== Proof.KI.R2.lean ====
import proofs.«141374_j27161373180011_1_alg».proof.Proof.Gen.KernelIdeal.Launch
import proofs.«141374_j27161373180011_1_alg».proof.Proof.Gen.KernelIdeal.Skeleton
import proofs.«141374_j27161373180011_1_alg».proof.Proof.Gen.KernelIdeal.Points
import Idealize.ShloMosaic.Lib.Pipeline.FrameBody
import Idealize.ShloMosaic.Lib.Tactic

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t of the array V gives it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev whole2_S4096x128 : Rect S4096x128 := Rect.unit (s := S4096x128) ![0, 0] S4096x128.size inb_S4096x128_S4096x128_0_0
abbrev whole2_S128x128 : Rect S128x128 := Rect.unit (s := S128x128) ![0, 0] S128x128.size inb_S128x128_S128x128_0_0
abbrev whole2_S1x128 : Rect S1x128 := Rect.unit (s := S1x128) ![0, 0] S1x128.size inb_S1x128_S1x128_0_0

/-- The output block after the body: the payload of the whole input blocks, stored over the whole block. -/
def out2_6 (x0 : Vec F S4096x128 .f32) (x1 : Vec F S4096x128 .f32) (x2 : Vec F S128x128 .f32) (x3 : Vec F S1x128 .f32) (x4 : Vec F S128x128 .f32) (x5 : Vec F S1x128 .f32) : Vec F S4096x128 .f32 :=
  View.canon [⟨whole2_S4096x128, k2_pay1 (View.ld x0 whole2_S4096x128) (View.ld x1 whole2_S4096x128) (View.ld x2 whole2_S128x128) (View.ld x3 whole2_S1x128) (View.ld x4 whole2_S128x128) (View.ld x5 whole2_S1x128)⟩]

theorem cover2_6 (p0 : Vec F S4096x128 .f32) (y : S4096x128.Idx) :
    ∃ pc ∈ ([⟨whole2_S4096x128, p0⟩] : List (View.Piece (Elt F) S4096x128 .f32)), y ∈ pc.1.set :=
  View.cover_of_tiled [⟨whole2_S4096x128, p0⟩] S4096x128.size (by rfl) y

set_option maxHeartbeats 1000000 in
/-- The body's triple: it leaves the inputs as they were and the output at out2_6 of them. -/
theorem sound_kernel2 (c : Dev nD) (E : Set ℕ) (i : grid2.Coords)
    (arg1 : Memref sig .tc .vmem S4096x128 .f32) (harg1 : arg1.IsWhole) (arg2 : Memref sig .tc .vmem S4096x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4096x128 .f32) (harg7 : arg7.IsWhole)
    (x0 : Vec F S4096x128 .f32) (x1 : Vec F S4096x128 .f32) (x2 : Vec F S128x128 .f32) (x3 : Vec F S1x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5)) -∗ K ⟨⟩))
      ⊢ wp frame (wpE (defs₀ (F := F)) Variants.none c none) E (cc2__gin_mlp_kernel i arg1 harg1 arg2 harg2 arg3 harg3 arg4 harg4 arg5 harg5 arg6 harg6 arg7 harg7) K := by
  simp only [cc2__gin_mlp_kernel_eq_skeleton]; unfold cc2__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  iexists _; isplitr
  swap; · iexact H6
  ipureintro
  exact View.read_writes_eq_canon _ _ _ (cover2_6 _)

/-- The region's proof data: an input keeps its block, the output block is out2_6 of the input blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) :
    (dat2 V c).after 6 t = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d
theorem before2_3 (c : Dev nD) (t : Fin cfg2.N) (d) : (dat2 V c).before 3 t d = iblk2 V c 3 t :=
  (dat2 V c).before_in_eq_fetched 3 rfl (fun _ => rfl) (fun _ _ _ => rfl) (fun _ => rfl) t d
theorem before2_4 (c : Dev nD) (t : Fin cfg2.N) (d) : (dat2 V c).before 4 t d = iblk2 V c 4 t :=
  (dat2 V c).before_in_eq_fetched 4 rfl (fun _ => rfl) (fun _ _ _ => rfl) (fun _ => rfl) t d
theorem before2_5 (c : Dev nD) (t : Fin cfg2.N) (d) : (dat2 V c).before 5 t d = iblk2 V c 5 t :=
  (dat2 V c).before_in_eq_fetched 5 rfl (fun _ => rfl) (fun _ _ _ => rfl) (fun _ => rfl) t d

/-- At any point the inputs hold their blocks, so the body's triple applies; the invariant and the dues pass through. -/
theorem body_obligation2 (c : Dev nD) : BodyObligation (dat2 (F := F) V c) (defs₀ (F := F)) Variants.none () Set.univ := fun t => by
  show iprop((dat2 V c).Φ t.castSucc ∗ (dat2 V c).owesAt () t.castSucc
      ∗ bigSep Finset.univ fun w : Fin 7 => iprop(∃ d, owns (c : Thread nD τ) ((cfg2.win w).stage (cfg2.slots t w)) fullShare ((dat2 V c).before w t d)))
    ⊢ wp frame (wpE (defs₀ (F := F)) Variants.none c none) Set.univ (bodyAt2 t) fun _ =>
      iprop((dat2 V c).Φ t.castSucc ∗ (dat2 V c).owesAt () t.castSucc
        ∗ bigSep Finset.univ fun w : Fin 7 => owns (c : Thread nD τ) ((cfg2.win w).stage (cfg2.slots t w)) fullShare ((dat2 V c).after w t))
  rw [bigSep_W2, bigSep_W2]
  simp only [before2_0, before2_1, before2_2, before2_3, before2_4, before2_5, after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  iframe
  isplitl [H6]; · iexists _; iexact H6
  iintro ⟨H0, H1, H2, H3, H4, H5, H6⟩
  iframe

end Cert.KernelIdeal.Fr

end
-- ==== Proof.KI.R3.lean ====
import proofs.«141374_j27161373180011_1_alg».proof.Proof.Gen.KernelIdeal.Launch
import proofs.«141374_j27161373180011_1_alg».proof.Proof.Gen.KernelIdeal.Skeleton
import proofs.«141374_j27161373180011_1_alg».proof.Proof.Gen.KernelIdeal.Points
import Idealize.ShloMosaic.Lib.Pipeline.FrameBody
import Idealize.ShloMosaic.Lib.Tactic

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t of the array V gives it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev whole3_S4096x128 : Rect S4096x128 := Rect.unit (s := S4096x128) ![0, 0] S4096x128.size inb_S4096x128_S4096x128_0_0
abbrev whole3_S1x128 : Rect S1x128 := Rect.unit (s := S1x128) ![0, 0] S1x128.size inb_S1x128_S1x128_0_0

/-- The output block after the body: the payload of the whole input blocks, stored over the whole block. -/
def out3_5 (x0 : Vec F S4096x128 .f32) (x1 : Vec F S1x128 .f32) (x2 : Vec F S1x128 .f32) (x3 : Vec F S1x128 .f32) (x4 : Vec F S1x128 .f32) : Vec F S4096x128 .f32 :=
  View.canon [⟨whole3_S4096x128, k3_pay1 (View.ld x0 whole3_S4096x128) (View.ld x3 whole3_S1x128) (View.ld x4 whole3_S1x128) (View.ld x1 whole3_S1x128) (View.ld x2 whole3_S1x128)⟩]

theorem cover3_5 (p0 : Vec F S4096x128 .f32) (y : S4096x128.Idx) :
    ∃ pc ∈ ([⟨whole3_S4096x128, p0⟩] : List (View.Piece (Elt F) S4096x128 .f32)), y ∈ pc.1.set :=
  View.cover_of_tiled [⟨whole3_S4096x128, p0⟩] S4096x128.size (by rfl) y

set_option maxHeartbeats 1000000 in
/-- The body's triple: it leaves the inputs as they were and the output at out3_5 of them. -/
theorem sound_kernel3 (c : Dev nD) (E : Set ℕ) (i : grid3.Coords)
    (arg1 : Memref sig .tc .vmem S4096x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S4096x128 .f32) (harg6 : arg6.IsWhole)
    (x0 : Vec F S4096x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E (cc3__bn_kernel i arg1 harg1 arg2 harg2 arg3 harg3 arg4 harg4 arg5 harg5 arg6 harg6) K := by
  simp only [cc3__bn_kernel_eq_skeleton]; unfold cc3__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  iexists _; isplitr
  swap; · iexact H5
  ipureintro
  exact View.read_writes_eq_canon _ _ _ (cover3_5 _)

/-- The region's proof data: an input keeps its block, the output block is out3_5 of the input blocks. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d
theorem before3_2 (c : Dev nD) (t : Fin cfg3.N) (d) : (dat3 V c).before 2 t d = iblk3 V c 2 t :=
  (dat3 V c).before_in_eq_fetched 2 rfl (fun _ => rfl) (fun _ _ _ => rfl) (fun _ => rfl) t d
theorem before3_3 (c : Dev nD) (t : Fin cfg3.N) (d) : (dat3 V c).before 3 t d = iblk3 V c 3 t :=
  (dat3 V c).before_in_eq_fetched 3 rfl (fun _ => rfl) (fun _ _ _ => rfl) (fun _ => rfl) t d
theorem before3_4 (c : Dev nD) (t : Fin cfg3.N) (d) : (dat3 V c).before 4 t d = iblk3 V c 4 t :=
  (dat3 V c).before_in_eq_fetched 4 rfl (fun _ => rfl) (fun _ _ _ => rfl) (fun _ => rfl) t d

/-- At any point the inputs hold their blocks, so the body's triple applies; the invariant and the dues pass through. -/
theorem body_obligation3 (c : Dev nD) : BodyObligation (dat3 (F := F) V c) (defs₀ (F := F)) Variants.none () Set.univ := fun t => by
  show iprop((dat3 V c).Φ t.castSucc ∗ (dat3 V c).owesAt () t.castSucc
      ∗ bigSep Finset.univ fun w : Fin 6 => iprop(∃ d, owns (c : Thread nD τ) ((cfg3.win w).stage (cfg3.slots t w)) fullShare ((dat3 V c).before w t d)))
    ⊢ wp frame (wpE (defs₀ (F := F)) Variants.none c none) Set.univ (bodyAt3 t) fun _ =>
      iprop((dat3 V c).Φ t.castSucc ∗ (dat3 V c).owesAt () t.castSucc
        ∗ bigSep Finset.univ fun w : Fin 6 => owns (c : Thread nD τ) ((cfg3.win w).stage (cfg3.slots t w)) fullShare ((dat3 V c).after w t))
  rw [bigSep_W3, bigSep_W3]
  simp only [before3_0, before3_1, before3_2, before3_3, before3_4, after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  iframe
  isplitl [H5]; · iexists _; iexact H5
  iintro ⟨H0, H1, H2, H3, H4, H5⟩
  iframe

end Cert.KernelIdeal.Fr

end
-- ==== Proof.KI.R4.lean ====
import proofs.«141374_j27161373180011_1_alg».proof.Proof.Gen.KernelIdeal.Launch
import proofs.«141374_j27161373180011_1_alg».proof.Proof.Gen.KernelIdeal.Skeleton
import proofs.«141374_j27161373180011_1_alg».proof.Proof.Gen.KernelIdeal.Points
import Idealize.ShloMosaic.Lib.Pipeline.FrameBody
import Idealize.ShloMosaic.Lib.Tactic

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t of the array V gives it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev whole4_S4096x128 : Rect S4096x128 := Rect.unit (s := S4096x128) ![0, 0] S4096x128.size inb_S4096x128_S4096x128_0_0
abbrev whole4_S128x128 : Rect S128x128 := Rect.unit (s := S128x128) ![0, 0] S128x128.size inb_S128x128_S128x128_0_0
abbrev whole4_S1x128 : Rect S1x128 := Rect.unit (s := S1x128) ![0, 0] S1x128.size inb_S1x128_S1x128_0_0

/-- The output block after the body: the payload of the whole input blocks, stored over the whole block. -/
def out4_6 (x0 : Vec F S4096x128 .f32) (x1 : Vec F S4096x128 .f32) (x2 : Vec F S128x128 .f32) (x3 : Vec F S1x128 .f32) (x4 : Vec F S128x128 .f32) (x5 : Vec F S1x128 .f32) : Vec F S4096x128 .f32 :=
  View.canon [⟨whole4_S4096x128, k4_pay1 (View.ld x0 whole4_S4096x128) (View.ld x1 whole4_S4096x128) (View.ld x2 whole4_S128x128) (View.ld x3 whole4_S1x128) (View.ld x4 whole4_S128x128) (View.ld x5 whole4_S1x128)⟩]

theorem cover4_6 (p0 : Vec F S4096x128 .f32) (y : S4096x128.Idx) :
    ∃ pc ∈ ([⟨whole4_S4096x128, p0⟩] : List (View.Piece (Elt F) S4096x128 .f32)), y ∈ pc.1.set :=
  View.cover_of_tiled [⟨whole4_S4096x128, p0⟩] S4096x128.size (by rfl) y

set_option maxHeartbeats 1000000 in
/-- The body's triple: it leaves the inputs as they were and the output at out4_6 of them. -/
theorem sound_kernel4 (c : Dev nD) (E : Set ℕ) (i : grid4.Coords)
    (arg1 : Memref sig .tc .vmem S4096x128 .f32) (harg1 : arg1.IsWhole) (arg2 : Memref sig .tc .vmem S4096x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4096x128 .f32) (harg7 : arg7.IsWhole)
    (x0 : Vec F S4096x128 .f32) (x1 : Vec F S4096x128 .f32) (x2 : Vec F S128x128 .f32) (x3 : Vec F S1x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out4_6 x0 x1 x2 x3 x4 x5)) -∗ K ⟨⟩))
      ⊢ wp frame (wpE (defs₀ (F := F)) Variants.none c none) E (cc4__gin_mlp_kernel i arg1 harg1 arg2 harg2 arg3 harg3 arg4 harg4 arg5 harg5 arg6 harg6 arg7 harg7) K := by
  simp only [cc4__gin_mlp_kernel_eq_skeleton]; unfold cc4__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  iexists _; isplitr
  swap; · iexact H6
  ipureintro
  exact View.read_writes_eq_canon _ _ _ (cover4_6 _)

/-- The region's proof data: an input keeps its block, the output block is out4_6 of the input blocks. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t) (iblk4 V c 1 t) (iblk4 V c 2 t) (iblk4 V c 3 t) (iblk4 V c 4 t) (iblk4 V c 5 t)
  Φ _ := Pipeline.ΦA spec4 c
  q _ := fullShare
  owed _ := 0

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) :
    (dat4 V c).after 6 t = out4_6 (iblk4 V c 0 t) (iblk4 V c 1 t) (iblk4 V c 2 t) (iblk4 V c 3 t) (iblk4 V c 4 t) (iblk4 V c 5 t) := by dsimp only [dat4]

theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d
theorem before4_2 (c : Dev nD) (t : Fin cfg4.N) (d) : (dat4 V c).before 2 t d = iblk4 V c 2 t :=
  (dat4 V c).before_in_eq_fetched 2 rfl (fun _ => rfl) (fun _ _ _ => rfl) (fun _ => rfl) t d
theorem before4_3 (c : Dev nD) (t : Fin cfg4.N) (d) : (dat4 V c).before 3 t d = iblk4 V c 3 t :=
  (dat4 V c).before_in_eq_fetched 3 rfl (fun _ => rfl) (fun _ _ _ => rfl) (fun _ => rfl) t d
theorem before4_4 (c : Dev nD) (t : Fin cfg4.N) (d) : (dat4 V c).before 4 t d = iblk4 V c 4 t :=
  (dat4 V c).before_in_eq_fetched 4 rfl (fun _ => rfl) (fun _ _ _ => rfl) (fun _ => rfl) t d
theorem before4_5 (c : Dev nD) (t : Fin cfg4.N) (d) : (dat4 V c).before 5 t d = iblk4 V c 5 t :=
  (dat4 V c).before_in_eq_fetched 5 rfl (fun _ => rfl) (fun _ _ _ => rfl) (fun _ => rfl) t d

/-- At any point the inputs hold their blocks, so the body's triple applies; the invariant and the dues pass through. -/
theorem body_obligation4 (c : Dev nD) : BodyObligation (dat4 (F := F) V c) (defs₀ (F := F)) Variants.none () Set.univ := fun t => by
  show iprop((dat4 V c).Φ t.castSucc ∗ (dat4 V c).owesAt () t.castSucc
      ∗ bigSep Finset.univ fun w : Fin 7 => iprop(∃ d, owns (c : Thread nD τ) ((cfg4.win w).stage (cfg4.slots t w)) fullShare ((dat4 V c).before w t d)))
    ⊢ wp frame (wpE (defs₀ (F := F)) Variants.none c none) Set.univ (bodyAt4 t) fun _ =>
      iprop((dat4 V c).Φ t.castSucc ∗ (dat4 V c).owesAt () t.castSucc
        ∗ bigSep Finset.univ fun w : Fin 7 => owns (c : Thread nD τ) ((cfg4.win w).stage (cfg4.slots t w)) fullShare ((dat4 V c).after w t))
  rw [bigSep_W4, bigSep_W4]
  simp only [before4_0, before4_1, before4_2, before4_3, before4_4, before4_5, after4_0, after4_1, after4_2, after4_3, after4_4, after4_5, after4_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ _ _ _ _ _ _ _ _ _ _ _ _ _ _ _ (iblk4 V c 0 t) (iblk4 V c 1 t) (iblk4 V c 2 t) (iblk4 V c 3 t) (iblk4 V c 4 t) (iblk4 V c 5 t) _)
  iframe
  isplitl [H6]; · iexists _; iexact H6
  iintro ⟨H0, H1, H2, H3, H4, H5, H6⟩
  iframe

end Cert.KernelIdeal.Fr

end
-- ==== Proof.KI.R5.lean ====
import proofs.«141374_j27161373180011_1_alg».proof.Proof.Gen.KernelIdeal.Launch
import proofs.«141374_j27161373180011_1_alg».proof.Proof.Gen.KernelIdeal.Skeleton
import proofs.«141374_j27161373180011_1_alg».proof.Proof.Gen.KernelIdeal.Points
import Idealize.ShloMosaic.Lib.Pipeline.FrameBody
import Idealize.ShloMosaic.Lib.Tactic

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t of the array V gives it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev whole5_S4096x128 : Rect S4096x128 := Rect.unit (s := S4096x128) ![0, 0] S4096x128.size inb_S4096x128_S4096x128_0_0
abbrev whole5_S1x128 : Rect S1x128 := Rect.unit (s := S1x128) ![0, 0] S1x128.size inb_S1x128_S1x128_0_0

/-- The output block after the body: the payload of the whole input blocks, stored over the whole block. -/
def out5_5 (x0 : Vec F S4096x128 .f32) (x1 : Vec F S1x128 .f32) (x2 : Vec F S1x128 .f32) (x3 : Vec F S1x128 .f32) (x4 : Vec F S1x128 .f32) : Vec F S4096x128 .f32 :=
  View.canon [⟨whole5_S4096x128, k5_pay1 (View.ld x0 whole5_S4096x128) (View.ld x3 whole5_S1x128) (View.ld x4 whole5_S1x128) (View.ld x1 whole5_S1x128) (View.ld x2 whole5_S1x128)⟩]

theorem cover5_5 (p0 : Vec F S4096x128 .f32) (y : S4096x128.Idx) :
    ∃ pc ∈ ([⟨whole5_S4096x128, p0⟩] : List (View.Piece (Elt F) S4096x128 .f32)), y ∈ pc.1.set :=
  View.cover_of_tiled [⟨whole5_S4096x128, p0⟩] S4096x128.size (by rfl) y

set_option maxHeartbeats 1000000 in
/-- The body's triple: it leaves the inputs as they were and the output at out5_5 of them. -/
theorem sound_kernel5 (c : Dev nD) (E : Set ℕ) (i : grid5.Coords)
    (arg1 : Memref sig .tc .vmem S4096x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S4096x128 .f32) (harg6 : arg6.IsWhole)
    (x0 : Vec F S4096x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out5_5 x0 x1 x2 x3 x4)) -∗ K ⟨⟩))
      ⊢ wp frame (wpE (defs₀ (F := F)) Variants.none c none) E (cc5__bn_kernel i arg1 harg1 arg2 harg2 arg3 harg3 arg4 harg4 arg5 harg5 arg6 harg6) K := by
  simp only [cc5__bn_kernel_eq_skeleton]; unfold cc5__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  iexists _; isplitr
  swap; · iexact H5
  ipureintro
  exact View.read_writes_eq_canon _ _ _ (cover5_5 _)

/-- The region's proof data: an input keeps its block, the output block is out5_5 of the input blocks. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) :
    (dat5 V c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  (dat5 V c).before_in_eq_fetched 0 rfl (fun _ => rfl) (fun _ _ _ => rfl) (fun _ => rfl) t d
theorem before5_1 (c : Dev nD) (t : Fin cfg5.N) (d) : (dat5 V c).before 1 t d = iblk5 V c 1 t :=
  (dat5 V c).before_in_eq_fetched 1 rfl (fun _ => rfl) (fun _ _ _ => rfl) (fun _ => rfl) t d
theorem before5_2 (c : Dev nD) (t : Fin cfg5.N) (d) : (dat5 V c).before 2 t d = iblk5 V c 2 t :=
  (dat5 V c).before_in_eq_fetched 2 rfl (fun _ => rfl) (fun _ _ _ => rfl) (fun _ => rfl) t d
theorem before5_3 (c : Dev nD) (t : Fin cfg5.N) (d) : (dat5 V c).before 3 t d = iblk5 V c 3 t :=
  (dat5 V c).before_in_eq_fetched 3 rfl (fun _ => rfl) (fun _ _ _ => rfl) (fun _ => rfl) t d
theorem before5_4 (c : Dev nD) (t : Fin cfg5.N) (d) : (dat5 V c).before 4 t d = iblk5 V c 4 t :=
  (dat5 V c).before_in_eq_fetched 4 rfl (fun _ => rfl) (fun _ _ _ => rfl) (fun _ => rfl) t d

/-- At any point the inputs hold their blocks, so the body's triple applies; the invariant and the dues pass through. -/
theorem body_obligation5 (c : Dev nD) : BodyObligation (dat5 (F := F) V c) (defs₀ (F := F)) Variants.none () Set.univ := fun t => by
  show iprop((dat5 V c).Φ t.castSucc ∗ (dat5 V c).owesAt () t.castSucc
      ∗ bigSep Finset.univ fun w : Fin 6 => iprop(∃ d, owns (c : Thread nD τ) ((cfg5.win w).stage (cfg5.slots t w)) fullShare ((dat5 V c).before w t d)))
    ⊢ wp frame (wpE (defs₀ (F := F)) Variants.none c none) Set.univ (bodyAt5 t) fun _ =>
      iprop((dat5 V c).Φ t.castSucc ∗ (dat5 V c).owesAt () t.castSucc
        ∗ bigSep Finset.univ fun w : Fin 6 => owns (c : Thread nD τ) ((cfg5.win w).stage (cfg5.slots t w)) fullShare ((dat5 V c).after w t))
  rw [bigSep_W5, bigSep_W5]
  simp only [before5_0, before5_1, before5_2, before5_3, before5_4, after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  iframe
  isplitl [H5]; · iexists _; iexact H5
  iintro ⟨H0, H1, H2, H3, H4, H5⟩
  iframe

end Cert.KernelIdeal.Fr

end
-- ==== Proof.KI.R6.lean ====
import proofs.«141374_j27161373180011_1_alg».proof.Proof.Gen.KernelIdeal.Launch
import proofs.«141374_j27161373180011_1_alg».proof.Proof.Gen.KernelIdeal.Skeleton
import proofs.«141374_j27161373180011_1_alg».proof.Proof.Gen.KernelIdeal.Points
import Idealize.ShloMosaic.Lib.Pipeline.FrameBody
import Idealize.ShloMosaic.Lib.Tactic

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t of the array V gives it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev whole6_S4096x128 : Rect S4096x128 := Rect.unit (s := S4096x128) ![0, 0] S4096x128.size inb_S4096x128_S4096x128_0_0
abbrev whole6_S128x128 : Rect S128x128 := Rect.unit (s := S128x128) ![0, 0] S128x128.size inb_S128x128_S128x128_0_0
abbrev whole6_S1x128 : Rect S1x128 := Rect.unit (s := S1x128) ![0, 0] S1x128.size inb_S1x128_S1x128_0_0

/-- The output block after the body: the payload of the whole input blocks, stored over the whole block. -/
def out6_6 (x0 : Vec F S4096x128 .f32) (x1 : Vec F S4096x128 .f32) (x2 : Vec F S128x128 .f32) (x3 : Vec F S1x128 .f32) (x4 : Vec F S128x128 .f32) (x5 : Vec F S1x128 .f32) : Vec F S4096x128 .f32 :=
  View.canon [⟨whole6_S4096x128, k6_pay1 (View.ld x0 whole6_S4096x128) (View.ld x1 whole6_S4096x128) (View.ld x2 whole6_S128x128) (View.ld x3 whole6_S1x128) (View.ld x4 whole6_S128x128) (View.ld x5 whole6_S1x128)⟩]

theorem cover6_6 (p0 : Vec F S4096x128 .f32) (y : S4096x128.Idx) :
    ∃ pc ∈ ([⟨whole6_S4096x128, p0⟩] : List (View.Piece (Elt F) S4096x128 .f32)), y ∈ pc.1.set :=
  View.cover_of_tiled [⟨whole6_S4096x128, p0⟩] S4096x128.size (by rfl) y

set_option maxHeartbeats 1000000 in
/-- The body's triple: it leaves the inputs as they were and the output at out6_6 of them. -/
theorem sound_kernel6 (c : Dev nD) (E : Set ℕ) (i : grid6.Coords)
    (arg1 : Memref sig .tc .vmem S4096x128 .f32) (harg1 : arg1.IsWhole) (arg2 : Memref sig .tc .vmem S4096x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4096x128 .f32) (harg7 : arg7.IsWhole)
    (x0 : Vec F S4096x128 .f32) (x1 : Vec F S4096x128 .f32) (x2 : Vec F S128x128 .f32) (x3 : Vec F S1x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out6_6 x0 x1 x2 x3 x4 x5)) -∗ K ⟨⟩))
      ⊢ wp frame (wpE (defs₀ (F := F)) Variants.none c none) E (cc6__gin_mlp_kernel i arg1 harg1 arg2 harg2 arg3 harg3 arg4 harg4 arg5 harg5 arg6 harg6 arg7 harg7) K := by
  simp only [cc6__gin_mlp_kernel_eq_skeleton]; unfold cc6__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  iexists _; isplitr
  swap; · iexact H6
  ipureintro
  exact View.read_writes_eq_canon _ _ _ (cover6_6 _)

/-- The region's proof data: an input keeps its block, the output block is out6_6 of the input blocks. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => out6_6 (iblk6 V c 0 t) (iblk6 V c 1 t) (iblk6 V c 2 t) (iblk6 V c 3 t) (iblk6 V c 4 t) (iblk6 V c 5 t)
  Φ _ := Pipeline.ΦA spec6 c
  q _ := fullShare
  owed _ := 0

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) :
    (dat6 V c).after 6 t = out6_6 (iblk6 V c 0 t) (iblk6 V c 1 t) (iblk6 V c 2 t) (iblk6 V c 3 t) (iblk6 V c 4 t) (iblk6 V c 5 t) := by dsimp only [dat6]

theorem before6_0 (c : Dev nD) (t : Fin cfg6.N) (d) : (dat6 V c).before 0 t d = iblk6 V c 0 t :=
  (dat6 V c).before_in_eq_fetched 0 rfl (fun _ => rfl) (fun _ _ _ => rfl) (fun _ => rfl) t d
theorem before6_1 (c : Dev nD) (t : Fin cfg6.N) (d) : (dat6 V c).before 1 t d = iblk6 V c 1 t :=
  (dat6 V c).before_in_eq_fetched 1 rfl (fun _ => rfl) (fun _ _ _ => rfl) (fun _ => rfl) t d
theorem before6_2 (c : Dev nD) (t : Fin cfg6.N) (d) : (dat6 V c).before 2 t d = iblk6 V c 2 t :=
  (dat6 V c).before_in_eq_fetched 2 rfl (fun _ => rfl) (fun _ _ _ => rfl) (fun _ => rfl) t d
theorem before6_3 (c : Dev nD) (t : Fin cfg6.N) (d) : (dat6 V c).before 3 t d = iblk6 V c 3 t :=
  (dat6 V c).before_in_eq_fetched 3 rfl (fun _ => rfl) (fun _ _ _ => rfl) (fun _ => rfl) t d
theorem before6_4 (c : Dev nD) (t : Fin cfg6.N) (d) : (dat6 V c).before 4 t d = iblk6 V c 4 t :=
  (dat6 V c).before_in_eq_fetched 4 rfl (fun _ => rfl) (fun _ _ _ => rfl) (fun _ => rfl) t d
theorem before6_5 (c : Dev nD) (t : Fin cfg6.N) (d) : (dat6 V c).before 5 t d = iblk6 V c 5 t :=
  (dat6 V c).before_in_eq_fetched 5 rfl (fun _ => rfl) (fun _ _ _ => rfl) (fun _ => rfl) t d

/-- At any point the inputs hold their blocks, so the body's triple applies; the invariant and the dues pass through. -/
theorem body_obligation6 (c : Dev nD) : BodyObligation (dat6 (F := F) V c) (defs₀ (F := F)) Variants.none () Set.univ := fun t => by
  show iprop((dat6 V c).Φ t.castSucc ∗ (dat6 V c).owesAt () t.castSucc
      ∗ bigSep Finset.univ fun w : Fin 7 => iprop(∃ d, owns (c : Thread nD τ) ((cfg6.win w).stage (cfg6.slots t w)) fullShare ((dat6 V c).before w t d)))
    ⊢ wp frame (wpE (defs₀ (F := F)) Variants.none c none) Set.univ (bodyAt6 t) fun _ =>
      iprop((dat6 V c).Φ t.castSucc ∗ (dat6 V c).owesAt () t.castSucc
        ∗ bigSep Finset.univ fun w : Fin 7 => owns (c : Thread nD τ) ((cfg6.win w).stage (cfg6.slots t w)) fullShare ((dat6 V c).after w t))
  rw [bigSep_W6, bigSep_W6]
  simp only [before6_0, before6_1, before6_2, before6_3, before6_4, before6_5, after6_0, after6_1, after6_2, after6_3, after6_4, after6_5, after6_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel6 c Set.univ _ _ _ _ _ _ _ _ _ _ _ _ _ _ _ (iblk6 V c 0 t) (iblk6 V c 1 t) (iblk6 V c 2 t) (iblk6 V c 3 t) (iblk6 V c 4 t) (iblk6 V c 5 t) _)
  iframe
  isplitl [H6]; · iexists _; iexact H6
  iintro ⟨H0, H1, H2, H3, H4, H5, H6⟩
  iframe

end Cert.KernelIdeal.Fr

end
-- ==== Proof.KI.R7.lean ====
import proofs.«141374_j27161373180011_1_alg».proof.Proof.Gen.KernelIdeal.Launch
import proofs.«141374_j27161373180011_1_alg».proof.Proof.Gen.KernelIdeal.Skeleton
import proofs.«141374_j27161373180011_1_alg».proof.Proof.Gen.KernelIdeal.Points
import Idealize.ShloMosaic.Lib.Pipeline.FrameBody
import Idealize.ShloMosaic.Lib.Tactic

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t of the array V gives it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev whole7_S4096x128 : Rect S4096x128 := Rect.unit (s := S4096x128) ![0, 0] S4096x128.size inb_S4096x128_S4096x128_0_0
abbrev whole7_S1x128 : Rect S1x128 := Rect.unit (s := S1x128) ![0, 0] S1x128.size inb_S1x128_S1x128_0_0

/-- The output block after the body: the payload of the whole input blocks, stored over the whole block. -/
def out7_5 (x0 : Vec F S4096x128 .f32) (x1 : Vec F S1x128 .f32) (x2 : Vec F S1x128 .f32) (x3 : Vec F S1x128 .f32) (x4 : Vec F S1x128 .f32) : Vec F S4096x128 .f32 :=
  View.canon [⟨whole7_S4096x128, k7_pay1 (View.ld x0 whole7_S4096x128) (View.ld x3 whole7_S1x128) (View.ld x4 whole7_S1x128) (View.ld x1 whole7_S1x128) (View.ld x2 whole7_S1x128)⟩]

theorem cover7_5 (p0 : Vec F S4096x128 .f32) (y : S4096x128.Idx) :
    ∃ pc ∈ ([⟨whole7_S4096x128, p0⟩] : List (View.Piece (Elt F) S4096x128 .f32)), y ∈ pc.1.set :=
  View.cover_of_tiled [⟨whole7_S4096x128, p0⟩] S4096x128.size (by rfl) y

set_option maxHeartbeats 1000000 in
/-- The body's triple: it leaves the inputs as they were and the output at out7_5 of them. -/
theorem sound_kernel7 (c : Dev nD) (E : Set ℕ) (i : grid7.Coords)
    (arg1 : Memref sig .tc .vmem S4096x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S4096x128 .f32) (harg6 : arg6.IsWhole)
    (x0 : Vec F S4096x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out7_5 x0 x1 x2 x3 x4)) -∗ K ⟨⟩))
      ⊢ wp frame (wpE (defs₀ (F := F)) Variants.none c none) E (cc7__bn_kernel i arg1 harg1 arg2 harg2 arg3 harg3 arg4 harg4 arg5 harg5 arg6 harg6) K := by
  simp only [cc7__bn_kernel_eq_skeleton]; unfold cc7__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  iexists _; isplitr
  swap; · iexact H5
  ipureintro
  exact View.read_writes_eq_canon _ _ _ (cover7_5 _)

/-- The region's proof data: an input keeps its block, the output block is out7_5 of the input blocks. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := Pipeline.ΦA spec7 c
  q _ := fullShare
  owed _ := 0

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) :
    (dat7 V c).after 5 t = out7_5 (iblk7 V c 0 t) (iblk7 V c 1 t) (iblk7 V c 2 t) (iblk7 V c 3 t) (iblk7 V c 4 t) := by dsimp only [dat7]

theorem before7_0 (c : Dev nD) (t : Fin cfg7.N) (d) : (dat7 V c).before 0 t d = iblk7 V c 0 t :=
  (dat7 V c).before_in_eq_fetched 0 rfl (fun _ => rfl) (fun _ _ _ => rfl) (fun _ => rfl) t d
theorem before7_1 (c : Dev nD) (t : Fin cfg7.N) (d) : (dat7 V c).before 1 t d = iblk7 V c 1 t :=
  (dat7 V c).before_in_eq_fetched 1 rfl (fun _ => rfl) (fun _ _ _ => rfl) (fun _ => rfl) t d
theorem before7_2 (c : Dev nD) (t : Fin cfg7.N) (d) : (dat7 V c).before 2 t d = iblk7 V c 2 t :=
  (dat7 V c).before_in_eq_fetched 2 rfl (fun _ => rfl) (fun _ _ _ => rfl) (fun _ => rfl) t d
theorem before7_3 (c : Dev nD) (t : Fin cfg7.N) (d) : (dat7 V c).before 3 t d = iblk7 V c 3 t :=
  (dat7 V c).before_in_eq_fetched 3 rfl (fun _ => rfl) (fun _ _ _ => rfl) (fun _ => rfl) t d
theorem before7_4 (c : Dev nD) (t : Fin cfg7.N) (d) : (dat7 V c).before 4 t d = iblk7 V c 4 t :=
  (dat7 V c).before_in_eq_fetched 4 rfl (fun _ => rfl) (fun _ _ _ => rfl) (fun _ => rfl) t d

/-- At any point the inputs hold their blocks, so the body's triple applies; the invariant and the dues pass through. -/
theorem body_obligation7 (c : Dev nD) : BodyObligation (dat7 (F := F) V c) (defs₀ (F := F)) Variants.none () Set.univ := fun t => by
  show iprop((dat7 V c).Φ t.castSucc ∗ (dat7 V c).owesAt () t.castSucc
      ∗ bigSep Finset.univ fun w : Fin 6 => iprop(∃ d, owns (c : Thread nD τ) ((cfg7.win w).stage (cfg7.slots t w)) fullShare ((dat7 V c).before w t d)))
    ⊢ wp frame (wpE (defs₀ (F := F)) Variants.none c none) Set.univ (bodyAt7 t) fun _ =>
      iprop((dat7 V c).Φ t.castSucc ∗ (dat7 V c).owesAt () t.castSucc
        ∗ bigSep Finset.univ fun w : Fin 6 => owns (c : Thread nD τ) ((cfg7.win w).stage (cfg7.slots t w)) fullShare ((dat7 V c).after w t))
  rw [bigSep_W7, bigSep_W7]
  simp only [before7_0, before7_1, before7_2, before7_3, before7_4, after7_0, after7_1, after7_2, after7_3, after7_4, after7_5]
  iintro ⟨HΦ, Ho, ⟨%d0, H0⟩, ⟨%d1, H1⟩, ⟨%d2, H2⟩, ⟨%d3, H3⟩, ⟨%d4, H4⟩, ⟨%d5, H5⟩⟩
  iapply (sound_kernel7 c Set.univ _ _ _ _ _ _ _ _ _ _ _ _ _ (iblk7 V c 0 t) (iblk7 V c 1 t) (iblk7 V c 2 t) (iblk7 V c 3 t) (iblk7 V c 4 t) _)
  iframe
  isplitl [H5]; · iexists _; iexact H5
  iintro ⟨H0, H1, H2, H3, H4, H5⟩
  iframe

end Cert.KernelIdeal.Fr

end
-- ==== Proof.KI.R8.lean ====
import proofs.«141374_j27161373180011_1_alg».proof.Proof.Gen.KernelIdeal.Launch
import proofs.«141374_j27161373180011_1_alg».proof.Proof.Gen.KernelIdeal.Skeleton
import proofs.«141374_j27161373180011_1_alg».proof.Proof.Gen.KernelIdeal.Points
import Idealize.ShloMosaic.Lib.Pipeline.FrameBody
import Idealize.ShloMosaic.Lib.Tactic

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t of the array V gives it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev whole8_S4096x128 : Rect S4096x128 := Rect.unit (s := S4096x128) ![0, 0] S4096x128.size inb_S4096x128_S4096x128_0_0
abbrev whole8_S128x128 : Rect S128x128 := Rect.unit (s := S128x128) ![0, 0] S128x128.size inb_S128x128_S128x128_0_0
abbrev whole8_S1x128 : Rect S1x128 := Rect.unit (s := S1x128) ![0, 0] S1x128.size inb_S1x128_S1x128_0_0

/-- The output block after the body: the payload of the whole input blocks, stored over the whole block. -/
def out8_6 (x0 : Vec F S4096x128 .f32) (x1 : Vec F S4096x128 .f32) (x2 : Vec F S128x128 .f32) (x3 : Vec F S1x128 .f32) (x4 : Vec F S128x128 .f32) (x5 : Vec F S1x128 .f32) : Vec F S4096x128 .f32 :=
  View.canon [⟨whole8_S4096x128, k8_pay1 (View.ld x0 whole8_S4096x128) (View.ld x1 whole8_S4096x128) (View.ld x2 whole8_S128x128) (View.ld x3 whole8_S1x128) (View.ld x4 whole8_S128x128) (View.ld x5 whole8_S1x128)⟩]

theorem cover8_6 (p0 : Vec F S4096x128 .f32) (y : S4096x128.Idx) :
    ∃ pc ∈ ([⟨whole8_S4096x128, p0⟩] : List (View.Piece (Elt F) S4096x128 .f32)), y ∈ pc.1.set :=
  View.cover_of_tiled [⟨whole8_S4096x128, p0⟩] S4096x128.size (by rfl) y

set_option maxHeartbeats 1000000 in
/-- The body's triple: it leaves the inputs as they were and the output at out8_6 of them. -/
theorem sound_kernel8 (c : Dev nD) (E : Set ℕ) (i : grid8.Coords)
    (arg1 : Memref sig .tc .vmem S4096x128 .f32) (harg1 : arg1.IsWhole) (arg2 : Memref sig .tc .vmem S4096x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4096x128 .f32) (harg7 : arg7.IsWhole)
    (x0 : Vec F S4096x128 .f32) (x1 : Vec F S4096x128 .f32) (x2 : Vec F S128x128 .f32) (x3 : Vec F S1x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out8_6 x0 x1 x2 x3 x4 x5)) -∗ K ⟨⟩))
      ⊢ wp frame (wpE (defs₀ (F := F)) Variants.none c none) E (cc8__gin_mlp_kernel i arg1 harg1 arg2 harg2 arg3 harg3 arg4 harg4 arg5 harg5 arg6 harg6 arg7 harg7) K := by
  simp only [cc8__gin_mlp_kernel_eq_skeleton]; unfold cc8__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  iexists _; isplitr
  swap; · iexact H6
  ipureintro
  exact View.read_writes_eq_canon _ _ _ (cover8_6 _)

/-- The region's proof data: an input keeps its block, the output block is out8_6 of the input blocks. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => out8_6 (iblk8 V c 0 t) (iblk8 V c 1 t) (iblk8 V c 2 t) (iblk8 V c 3 t) (iblk8 V c 4 t) (iblk8 V c 5 t)
  Φ _ := Pipeline.ΦA spec8 c
  q _ := fullShare
  owed _ := 0

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) :
    (dat8 V c).after 6 t = out8_6 (iblk8 V c 0 t) (iblk8 V c 1 t) (iblk8 V c 2 t) (iblk8 V c 3 t) (iblk8 V c 4 t) (iblk8 V c 5 t) := by dsimp only [dat8]

theorem before8_0 (c : Dev nD) (t : Fin cfg8.N) (d) : (dat8 V c).before 0 t d = iblk8 V c 0 t :=
  (dat8 V c).before_in_eq_fetched 0 rfl (fun _ => rfl) (fun _ _ _ => rfl) (fun _ => rfl) t d
theorem before8_1 (c : Dev nD) (t : Fin cfg8.N) (d) : (dat8 V c).before 1 t d = iblk8 V c 1 t :=
  (dat8 V c).before_in_eq_fetched 1 rfl (fun _ => rfl) (fun _ _ _ => rfl) (fun _ => rfl) t d
theorem before8_2 (c : Dev nD) (t : Fin cfg8.N) (d) : (dat8 V c).before 2 t d = iblk8 V c 2 t :=
  (dat8 V c).before_in_eq_fetched 2 rfl (fun _ => rfl) (fun _ _ _ => rfl) (fun _ => rfl) t d
theorem before8_3 (c : Dev nD) (t : Fin cfg8.N) (d) : (dat8 V c).before 3 t d = iblk8 V c 3 t :=
  (dat8 V c).before_in_eq_fetched 3 rfl (fun _ => rfl) (fun _ _ _ => rfl) (fun _ => rfl) t d
theorem before8_4 (c : Dev nD) (t : Fin cfg8.N) (d) : (dat8 V c).before 4 t d = iblk8 V c 4 t :=
  (dat8 V c).before_in_eq_fetched 4 rfl (fun _ => rfl) (fun _ _ _ => rfl) (fun _ => rfl) t d
theorem before8_5 (c : Dev nD) (t : Fin cfg8.N) (d) : (dat8 V c).before 5 t d = iblk8 V c 5 t :=
  (dat8 V c).before_in_eq_fetched 5 rfl (fun _ => rfl) (fun _ _ _ => rfl) (fun _ => rfl) t d

/-- At any point the inputs hold their blocks, so the body's triple applies; the invariant and the dues pass through. -/
theorem body_obligation8 (c : Dev nD) : BodyObligation (dat8 (F := F) V c) (defs₀ (F := F)) Variants.none () Set.univ := fun t => by
  show iprop((dat8 V c).Φ t.castSucc ∗ (dat8 V c).owesAt () t.castSucc
      ∗ bigSep Finset.univ fun w : Fin 7 => iprop(∃ d, owns (c : Thread nD τ) ((cfg8.win w).stage (cfg8.slots t w)) fullShare ((dat8 V c).before w t d)))
    ⊢ wp frame (wpE (defs₀ (F := F)) Variants.none c none) Set.univ (bodyAt8 t) fun _ =>
      iprop((dat8 V c).Φ t.castSucc ∗ (dat8 V c).owesAt () t.castSucc
        ∗ bigSep Finset.univ fun w : Fin 7 => owns (c : Thread nD τ) ((cfg8.win w).stage (cfg8.slots t w)) fullShare ((dat8 V c).after w t))
  rw [bigSep_W8, bigSep_W8]
  simp only [before8_0, before8_1, before8_2, before8_3, before8_4, before8_5, after8_0, after8_1, after8_2, after8_3, after8_4, after8_5, after8_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel8 c Set.univ _ _ _ _ _ _ _ _ _ _ _ _ _ _ _ (iblk8 V c 0 t) (iblk8 V c 1 t) (iblk8 V c 2 t) (iblk8 V c 3 t) (iblk8 V c 4 t) (iblk8 V c 5 t) _)
  iframe
  isplitl [H6]; · iexists _; iexact H6
  iintro ⟨H0, H1, H2, H3, H4, H5, H6⟩
  iframe

end Cert.KernelIdeal.Fr

end
-- ==== Proof.KI.R9.lean ====
import proofs.«141374_j27161373180011_1_alg».proof.Proof.Gen.KernelIdeal.Launch
import proofs.«141374_j27161373180011_1_alg».proof.Proof.Gen.KernelIdeal.Skeleton
import proofs.«141374_j27161373180011_1_alg».proof.Proof.Gen.KernelIdeal.Points
import Idealize.ShloMosaic.Lib.Pipeline.FrameBody
import Idealize.ShloMosaic.Lib.Tactic

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t of the array V gives it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

abbrev whole9_S4096x128 : Rect S4096x128 := Rect.unit (s := S4096x128) ![0, 0] S4096x128.size inb_S4096x128_S4096x128_0_0
abbrev whole9_S1x128 : Rect S1x128 := Rect.unit (s := S1x128) ![0, 0] S1x128.size inb_S1x128_S1x128_0_0

/-- The output block after the body: the payload of the whole input blocks, stored over the whole block. -/
def out9_5 (x0 : Vec F S4096x128 .f32) (x1 : Vec F S1x128 .f32) (x2 : Vec F S1x128 .f32) (x3 : Vec F S1x128 .f32) (x4 : Vec F S1x128 .f32) : Vec F S4096x128 .f32 :=
  View.canon [⟨whole9_S4096x128, k9_pay1 (View.ld x0 whole9_S4096x128) (View.ld x3 whole9_S1x128) (View.ld x4 whole9_S1x128) (View.ld x1 whole9_S1x128) (View.ld x2 whole9_S1x128)⟩]

theorem cover9_5 (p0 : Vec F S4096x128 .f32) (y : S4096x128.Idx) :
    ∃ pc ∈ ([⟨whole9_S4096x128, p0⟩] : List (View.Piece (Elt F) S4096x128 .f32)), y ∈ pc.1.set :=
  View.cover_of_tiled [⟨whole9_S4096x128, p0⟩] S4096x128.size (by rfl) y

set_option maxHeartbeats 1000000 in
/-- The body's triple: it leaves the inputs as they were and the output at out9_5 of them. -/
theorem sound_kernel9 (c : Dev nD) (E : Set ℕ) (i : grid9.Coords)
    (arg1 : Memref sig .tc .vmem S4096x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S4096x128 .f32) (harg6 : arg6.IsWhole)
    (x0 : Vec F S4096x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out9_5 x0 x1 x2 x3 x4)) -∗ K ⟨⟩))
      ⊢ wp frame (wpE (defs₀ (F := F)) Variants.none c none) E (cc9__bn_kernel i arg1 harg1 arg2 harg2 arg3 harg3 arg4 harg4 arg5 harg5 arg6 harg6) K := by
  simp only [cc9__bn_kernel_eq_skeleton]; unfold cc9__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  iexists _; isplitr
  swap; · iexact H5
  ipureintro
  exact View.read_writes_eq_canon _ _ _ (cover9_5 _)

/-- The region's proof data: an input keeps its block, the output block is out9_5 of the input blocks. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => out9_5 (iblk9 V c 0 t) (iblk9 V c 1 t) (iblk9 V c 2 t) (iblk9 V c 3 t) (iblk9 V c 4 t)
  Φ _ := Pipeline.ΦA spec9 c
  q _ := fullShare
  owed _ := 0

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) :
    (dat9 V c).after 5 t = out9_5 (iblk9 V c 0 t) (iblk9 V c 1 t) (iblk9 V c 2 t) (iblk9 V c 3 t) (iblk9 V c 4 t) := by dsimp only [dat9]

theorem before9_0 (c : Dev nD) (t : Fin cfg9.N) (d) : (dat9 V c).before 0 t d = iblk9 V c 0 t :=
  (dat9 V c).before_in_eq_fetched 0 rfl (fun _ => rfl) (fun _ _ _ => rfl) (fun _ => rfl) t d
theorem before9_1 (c : Dev nD) (t : Fin cfg9.N) (d) : (dat9 V c).before 1 t d = iblk9 V c 1 t :=
  (dat9 V c).before_in_eq_fetched 1 rfl (fun _ => rfl) (fun _ _ _ => rfl) (fun _ => rfl) t d
theorem before9_2 (c : Dev nD) (t : Fin cfg9.N) (d) : (dat9 V c).before 2 t d = iblk9 V c 2 t :=
  (dat9 V c).before_in_eq_fetched 2 rfl (fun _ => rfl) (fun _ _ _ => rfl) (fun _ => rfl) t d
theorem before9_3 (c : Dev nD) (t : Fin cfg9.N) (d) : (dat9 V c).before 3 t d = iblk9 V c 3 t :=
  (dat9 V c).before_in_eq_fetched 3 rfl (fun _ => rfl) (fun _ _ _ => rfl) (fun _ => rfl) t d
theorem before9_4 (c : Dev nD) (t : Fin cfg9.N) (d) : (dat9 V c).before 4 t d = iblk9 V c 4 t :=
  (dat9 V c).before_in_eq_fetched 4 rfl (fun _ => rfl) (fun _ _ _ => rfl) (fun _ => rfl) t d

/-- At any point the inputs hold their blocks, so the body's triple applies; the invariant and the dues pass through. -/
theorem body_obligation9 (c : Dev nD) : BodyObligation (dat9 (F := F) V c) (defs₀ (F := F)) Variants.none () Set.univ := fun t => by
  show iprop((dat9 V c).Φ t.castSucc ∗ (dat9 V c).owesAt () t.castSucc
      ∗ bigSep Finset.univ fun w : Fin 6 => iprop(∃ d, owns (c : Thread nD τ) ((cfg9.win w).stage (cfg9.slots t w)) fullShare ((dat9 V c).before w t d)))
    ⊢ wp frame (wpE (defs₀ (F := F)) Variants.none c none) Set.univ (bodyAt9 t) fun _ =>
      iprop((dat9 V c).Φ t.castSucc ∗ (dat9 V c).owesAt () t.castSucc
        ∗ bigSep Finset.univ fun w : Fin 6 => owns (c : Thread nD τ) ((cfg9.win w).stage (cfg9.slots t w)) fullShare ((dat9 V c).after w t))
  rw [bigSep_W9, bigSep_W9]
  simp only [before9_0, before9_1, before9_2, before9_3, before9_4, after9_0, after9_1, after9_2, after9_3, after9_4, after9_5]
  iintro ⟨HΦ, Ho, ⟨%d0, H0⟩, ⟨%d1, H1⟩, ⟨%d2, H2⟩, ⟨%d3, H3⟩, ⟨%d4, H4⟩, ⟨%d5, H5⟩⟩
  iapply (sound_kernel9 c Set.univ _ _ _ _ _ _ _ _ _ _ _ _ _ (iblk9 V c 0 t) (iblk9 V c 1 t) (iblk9 V c 2 t) (iblk9 V c 3 t) (iblk9 V c 4 t) _)
  iframe
  isplitl [H5]; · iexists _; iexact H5
  iintro ⟨H0, H1, H2, H3, H4, H5⟩
  iframe

end Cert.KernelIdeal.Fr

end
-- ==== Proof.KI.R10.lean ====
import proofs.«141374_j27161373180011_1_alg».proof.Proof.Gen.KernelIdeal.Launch
import proofs.«141374_j27161373180011_1_alg».proof.Proof.Gen.KernelIdeal.Skeleton
import proofs.«141374_j27161373180011_1_alg».proof.Proof.Gen.KernelIdeal.Points
import Idealize.ShloMosaic.Lib.Pipeline.FrameBody
import Idealize.ShloMosaic.Lib.Tactic

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t of the array V gives it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

abbrev whole10_S512x640 : Rect S512x640 := Rect.unit (s := S512x640) ![0, 0] S512x640.size inb_S512x640_S512x640_0_0
abbrev whole10_S640x128 : Rect S640x128 := Rect.unit (s := S640x128) ![0, 0] S640x128.size inb_S640x128_S640x128_0_0
abbrev whole10_S1x128 : Rect S1x128 := Rect.unit (s := S1x128) ![0, 0] S1x128.size inb_S1x128_S1x128_0_0
abbrev whole10_S128x2 : Rect S128x2 := Rect.unit (s := S128x2) ![0, 0] S128x2.size inb_S128x2_S128x2_0_0
abbrev whole10_S1x2 : Rect S1x2 := Rect.unit (s := S1x2) ![0, 0] S1x2.size inb_S1x2_S1x2_0_0
abbrev whole10_S512x2 : Rect S512x2 := Rect.unit (s := S512x2) ![0, 0] S512x2.size inb_S512x2_S512x2_0_0

/-- The output block after the body: the payload of the whole input blocks, stored over the whole block. -/
def out10_5 (x0 : Vec F S512x640 .f32) (x1 : Vec F S640x128 .f32) (x2 : Vec F S1x128 .f32) (x3 : Vec F S128x2 .f32) (x4 : Vec F S1x2 .f32) : Vec F S512x2 .f32 :=
  View.canon [⟨whole10_S512x2, k10_pay1 (View.ld x0 whole10_S512x640) (View.ld x1 whole10_S640x128) (View.ld x2 whole10_S1x128) (View.ld x3 whole10_S128x2) (View.ld x4 whole10_S1x2)⟩]

theorem cover10_5 (p0 : Vec F S512x2 .f32) (y : S512x2.Idx) :
    ∃ pc ∈ ([⟨whole10_S512x2, p0⟩] : List (View.Piece (Elt F) S512x2 .f32)), y ∈ pc.1.set :=
  View.cover_of_tiled [⟨whole10_S512x2, p0⟩] S512x2.size (by rfl) y

set_option maxHeartbeats 1000000 in
/-- The body's triple: it leaves the inputs as they were and the output at out10_5 of them. -/
theorem sound_kernel10 (c : Dev nD) (E : Set ℕ) (i : grid10.Coords)
    (arg1 : Memref sig .tc .vmem S512x640 .f32) (harg1 : arg1.IsWhole) (arg2 : Memref sig .tc .vmem S640x128 .f32) (harg2 : arg2.IsWhole) (arg3 : Memref sig .tc .vmem S1x128 .f32) (harg3 : arg3.IsWhole) (arg4 : Memref sig .tc .vmem S128x2 .f32) (harg4 : arg4.IsWhole) (arg5 : Memref sig .tc .vmem S1x2 .f32) (harg5 : arg5.IsWhole) (arg6 : Memref sig .tc .vmem S512x2 .f32) (harg6 : arg6.IsWhole)
    (x0 : Vec F S512x640 .f32) (x1 : Vec F S640x128 .f32) (x2 : Vec F S1x128 .f32) (x3 : Vec F S128x2 .f32) (x4 : Vec F S1x2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out10_5 x0 x1 x2 x3 x4)) -∗ K ⟨⟩))
      ⊢ wp frame (wpE (defs₀ (F := F)) Variants.none c none) E (cc10__readout_kernel i arg1 harg1 arg2 harg2 arg3 harg3 arg4 harg4 arg5 harg5 arg6 harg6) K := by
  simp only [cc10__readout_kernel_eq_skeleton]; unfold cc10__readout_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  iexists _; isplitr
  swap; · iexact H5
  ipureintro
  exact View.read_writes_eq_canon _ _ _ (cover10_5 _)

/-- The region's proof data: an input keeps its block, the output block is out10_5 of the input blocks. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => out10_5 (iblk10 V c 0 t) (iblk10 V c 1 t) (iblk10 V c 2 t) (iblk10 V c 3 t) (iblk10 V c 4 t)
  Φ _ := Pipeline.ΦA spec10 c
  q _ := fullShare
  owed _ := 0

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) :
    (dat10 V c).after 5 t = out10_5 (iblk10 V c 0 t) (iblk10 V c 1 t) (iblk10 V c 2 t) (iblk10 V c 3 t) (iblk10 V c 4 t) := by dsimp only [dat10]

theorem before10_0 (c : Dev nD) (t : Fin cfg10.N) (d) : (dat10 V c).before 0 t d = iblk10 V c 0 t :=
  (dat10 V c).before_in_eq_fetched 0 rfl (fun _ => rfl) (fun _ _ _ => rfl) (fun _ => rfl) t d
theorem before10_1 (c : Dev nD) (t : Fin cfg10.N) (d) : (dat10 V c).before 1 t d = iblk10 V c 1 t :=
  (dat10 V c).before_in_eq_fetched 1 rfl (fun _ => rfl) (fun _ _ _ => rfl) (fun _ => rfl) t d
theorem before10_2 (c : Dev nD) (t : Fin cfg10.N) (d) : (dat10 V c).before 2 t d = iblk10 V c 2 t :=
  (dat10 V c).before_in_eq_fetched 2 rfl (fun _ => rfl) (fun _ _ _ => rfl) (fun _ => rfl) t d
theorem before10_3 (c : Dev nD) (t : Fin cfg10.N) (d) : (dat10 V c).before 3 t d = iblk10 V c 3 t :=
  (dat10 V c).before_in_eq_fetched 3 rfl (fun _ => rfl) (fun _ _ _ => rfl) (fun _ => rfl) t d
theorem before10_4 (c : Dev nD) (t : Fin cfg10.N) (d) : (dat10 V c).before 4 t d = iblk10 V c 4 t :=
  (dat10 V c).before_in_eq_fetched 4 rfl (fun _ => rfl) (fun _ _ _ => rfl) (fun _ => rfl) t d

/-- At any point the inputs hold their blocks, so the body's triple applies; the invariant and the dues pass through. -/
theorem body_obligation10 (c : Dev nD) : BodyObligation (dat10 (F := F) V c) (defs₀ (F := F)) Variants.none () Set.univ := fun t => by
  show iprop((dat10 V c).Φ t.castSucc ∗ (dat10 V c).owesAt () t.castSucc
      ∗ bigSep Finset.univ fun w : Fin 6 => iprop(∃ d, owns (c : Thread nD τ) ((cfg10.win w).stage (cfg10.slots t w)) fullShare ((dat10 V c).before w t d)))
    ⊢ wp frame (wpE (defs₀ (F := F)) Variants.none c none) Set.univ (bodyAt10 t) fun _ =>
      iprop((dat10 V c).Φ t.castSucc ∗ (dat10 V c).owesAt () t.castSucc
        ∗ bigSep Finset.univ fun w : Fin 6 => owns (c : Thread nD τ) ((cfg10.win w).stage (cfg10.slots t w)) fullShare ((dat10 V c).after w t))
  rw [bigSep_W10, bigSep_W10]
  simp only [before10_0, before10_1, before10_2, before10_3, before10_4, after10_0, after10_1, after10_2, after10_3, after10_4, after10_5]
  iintro ⟨HΦ, Ho, ⟨%d0, H0⟩, ⟨%d1, H1⟩, ⟨%d2, H2⟩, ⟨%d3, H3⟩, ⟨%d4, H4⟩, ⟨%d5, H5⟩⟩
  iapply (sound_kernel10 c Set.univ _ _ _ _ _ _ _ _ _ _ _ _ _ (iblk10 V c 0 t) (iblk10 V c 1 t) (iblk10 V c 2 t) (iblk10 V c 3 t) (iblk10 V c 4 t) _)
  iframe
  isplitl [H5]; · iexists _; iexact H5
  iintro ⟨H0, H1, H2, H3, H4, H5⟩
  iframe

end Cert.KernelIdeal.Fr

end
-- ==== Proof.KI.Fold.lean ====
import proofs.«141374_j27161373180011_1_alg».proof.Proof.Gen.KernelIdeal.Regions
import proofs.«141374_j27161373180011_1_alg».proof.Proof.KI.R0
import proofs.«141374_j27161373180011_1_alg».proof.Proof.KI.R1
import proofs.«141374_j27161373180011_1_alg».proof.Proof.KI.R2
import proofs.«141374_j27161373180011_1_alg».proof.Proof.KI.R3
import proofs.«141374_j27161373180011_1_alg».proof.Proof.KI.R4
import proofs.«141374_j27161373180011_1_alg».proof.Proof.KI.R5
import proofs.«141374_j27161373180011_1_alg».proof.Proof.KI.R6
import proofs.«141374_j27161373180011_1_alg».proof.Proof.KI.R7
import proofs.«141374_j27161373180011_1_alg».proof.Proof.KI.R8
import proofs.«141374_j27161373180011_1_alg».proof.Proof.KI.R9
import proofs.«141374_j27161373180011_1_alg».proof.Proof.KI.R10
import proofs.«141374_j27161373180011_1_alg».proof.Proof.LibFold

noncomputable section

namespace Cert.KernelIdeal.Fr

open Cert.KernelIdeal Cert.KernelIdeal.Gen Cert.LibFold
open Idealize.ShloMosaic Idealize.ShloMosaic.TcCoe
open Idealize.SL Idealize.SL.BI Idealize.SL.BI.BIBase
open Idealize.ShloMosaic.Pipeline (Dat)

variable {F : FTy → Type} [FloatOps F] (m : (ℓ : Loc nD τ sig) → Buf (Elt F) ℓ)

abbrev rd (W : Dev nD → Valuation τ sig (Elt F)) : (c : Dev nD) → (b : Ref sig .tc) → Buf (Elt F) ((c : Thread nD τ).loc b) := fun c b => W c b

def U1 (c : Dev nD) : Valuation τ sig (Elt F) := V1 m c
def U2 (c : Dev nD) : Valuation τ sig (Elt F) :=
  Function.update (U1 m c) main_v19 ((dat0 (rd (U1 m)) c).arrAt 6 cfg0.N)
def U3 (c : Dev nD) : Valuation τ sig (Elt F) := StableHlo.after hostOps1 (U2 m c)
def U4 (c : Dev nD) : Valuation τ sig (Elt F) :=
  Function.update (U3 m c) main_v24 ((dat1 (rd (U3 m)) c).arrAt 5 cfg1.N)
def U5 (c : Dev nD) : Valuation τ sig (Elt F) := StableHlo.after hostOps2 (U4 m c)
def U6 (c : Dev nD) : Valuation τ sig (Elt F) :=
  Function.update (U5 m c) main_v40 ((dat2 (rd (U5 m)) c).arrAt 6 cfg2.N)
def U7 (c : Dev nD) : Valuation τ sig (Elt F) := StableHlo.after hostOps3 (U6 m c)
def U8 (c : Dev nD) : Valuation τ sig (Elt F) :=
  Function.update (U7 m c) main_v45 ((dat3 (rd (U7 m)) c).arrAt 5 cfg3.N)
def U9 (c : Dev nD) : Valuation τ sig (Elt F) := StableHlo.after hostOps4 (U8 m c)
def U10 (c : Dev nD) : Valuation τ sig (Elt F) :=
  Function.update (U9 m c) main_v61 ((dat4 (rd (U9 m)) c).arrAt 6 cfg4.N)
def U11 (c : Dev nD) : Valuation τ sig (Elt F) := StableHlo.after hostOps5 (U10 m c)
def U12 (c : Dev nD) : Valuation τ sig (Elt F) :=
  Function.update (U11 m c) main_v66 ((dat5 (rd (U11 m)) c).arrAt 5 cfg5.N)
def U13 (c : Dev nD) : Valuation τ sig (Elt F) := StableHlo.after hostOps6 (U12 m c)
def U14 (c : Dev nD) : Valuation τ sig (Elt F) :=
  Function.update (U13 m c) main_v82 ((dat6 (rd (U13 m)) c).arrAt 6 cfg6.N)
def U15 (c : Dev nD) : Valuation τ sig (Elt F) := StableHlo.after hostOps7 (U14 m c)
def U16 (c : Dev nD) : Valuation τ sig (Elt F) :=
  Function.update (U15 m c) main_v87 ((dat7 (rd (U15 m)) c).arrAt 5 cfg7.N)
def U17 (c : Dev nD) : Valuation τ sig (Elt F) := StableHlo.after hostOps8 (U16 m c)
def U18 (c : Dev nD) : Valuation τ sig (Elt F) :=
  Function.update (U17 m c) main_v103 ((dat8 (rd (U17 m)) c).arrAt 6 cfg8.N)
def U19 (c : Dev nD) : Valuation τ sig (Elt F) := StableHlo.after hostOps9 (U18 m c)
def U20 (c : Dev nD) : Valuation τ sig (Elt F) :=
  Function.update (U19 m c) main_v108 ((dat9 (rd (U19 m)) c).arrAt 5 cfg9.N)
def U21 (c : Dev nD) : Valuation τ sig (Elt F) := StableHlo.after hostOps10 (U20 m c)
def U22 (c : Dev nD) : Valuation τ sig (Elt F) :=
  Function.update (U21 m c) main_v127 ((dat10 (rd (U21 m)) c).arrAt 5 cfg10.N)

theorem hF0 (c : Dev nD) (w : Fin cfg0.W) : (dat0 (rd (U1 m)) c).arrAt w cfg0.N = rd (U2 m) c (Pipeline.arrRef spec0 w) :=
  arrAt_update 6 (fun _ => rfl) (by decide) w
theorem hrest0 (c : Dev nD) : ∀ b, b ∉ Finset.univ.image (Pipeline.arrRef spec0) → rd (U2 m) c b = rd (U1 m) c b :=
  update_rest (Pipeline.arrRef spec0) 6
theorem hF1 (c : Dev nD) (w : Fin cfg1.W) : (dat1 (rd (U3 m)) c).arrAt w cfg1.N = rd (U4 m) c (Pipeline.arrRef spec1 w) :=
  arrAt_update 5 (fun _ => rfl) (by decide) w
theorem hrest1 (c : Dev nD) : ∀ b, b ∉ Finset.univ.image (Pipeline.arrRef spec1) → rd (U4 m) c b = rd (U3 m) c b :=
  update_rest (Pipeline.arrRef spec1) 5
theorem hF2 (c : Dev nD) (w : Fin cfg2.W) : (dat2 (rd (U5 m)) c).arrAt w cfg2.N = rd (U6 m) c (Pipeline.arrRef spec2 w) :=
  arrAt_update 6 (fun _ => rfl) (by decide) w
theorem hrest2 (c : Dev nD) : ∀ b, b ∉ Finset.univ.image (Pipeline.arrRef spec2) → rd (U6 m) c b = rd (U5 m) c b :=
  update_rest (Pipeline.arrRef spec2) 6
theorem hF3 (c : Dev nD) (w : Fin cfg3.W) : (dat3 (rd (U7 m)) c).arrAt w cfg3.N = rd (U8 m) c (Pipeline.arrRef spec3 w) :=
  arrAt_update 5 (fun _ => rfl) (by decide) w
theorem hrest3 (c : Dev nD) : ∀ b, b ∉ Finset.univ.image (Pipeline.arrRef spec3) → rd (U8 m) c b = rd (U7 m) c b :=
  update_rest (Pipeline.arrRef spec3) 5
theorem hF4 (c : Dev nD) (w : Fin cfg4.W) : (dat4 (rd (U9 m)) c).arrAt w cfg4.N = rd (U10 m) c (Pipeline.arrRef spec4 w) :=
  arrAt_update 6 (fun _ => rfl) (by decide) w
theorem hrest4 (c : Dev nD) : ∀ b, b ∉ Finset.univ.image (Pipeline.arrRef spec4) → rd (U10 m) c b = rd (U9 m) c b :=
  update_rest (Pipeline.arrRef spec4) 6
theorem hF5 (c : Dev nD) (w : Fin cfg5.W) : (dat5 (rd (U11 m)) c).arrAt w cfg5.N = rd (U12 m) c (Pipeline.arrRef spec5 w) :=
  arrAt_update 5 (fun _ => rfl) (by decide) w
theorem hrest5 (c : Dev nD) : ∀ b, b ∉ Finset.univ.image (Pipeline.arrRef spec5) → rd (U12 m) c b = rd (U11 m) c b :=
  update_rest (Pipeline.arrRef spec5) 5
theorem hF6 (c : Dev nD) (w : Fin cfg6.W) : (dat6 (rd (U13 m)) c).arrAt w cfg6.N = rd (U14 m) c (Pipeline.arrRef spec6 w) :=
  arrAt_update 6 (fun _ => rfl) (by decide) w
theorem hrest6 (c : Dev nD) : ∀ b, b ∉ Finset.univ.image (Pipeline.arrRef spec6) → rd (U14 m) c b = rd (U13 m) c b :=
  update_rest (Pipeline.arrRef spec6) 6
theorem hF7 (c : Dev nD) (w : Fin cfg7.W) : (dat7 (rd (U15 m)) c).arrAt w cfg7.N = rd (U16 m) c (Pipeline.arrRef spec7 w) :=
  arrAt_update 5 (fun _ => rfl) (by decide) w
theorem hrest7 (c : Dev nD) : ∀ b, b ∉ Finset.univ.image (Pipeline.arrRef spec7) → rd (U16 m) c b = rd (U15 m) c b :=
  update_rest (Pipeline.arrRef spec7) 5
theorem hF8 (c : Dev nD) (w : Fin cfg8.W) : (dat8 (rd (U17 m)) c).arrAt w cfg8.N = rd (U18 m) c (Pipeline.arrRef spec8 w) :=
  arrAt_update 6 (fun _ => rfl) (by decide) w
theorem hrest8 (c : Dev nD) : ∀ b, b ∉ Finset.univ.image (Pipeline.arrRef spec8) → rd (U18 m) c b = rd (U17 m) c b :=
  update_rest (Pipeline.arrRef spec8) 6
theorem hF9 (c : Dev nD) (w : Fin cfg9.W) : (dat9 (rd (U19 m)) c).arrAt w cfg9.N = rd (U20 m) c (Pipeline.arrRef spec9 w) :=
  arrAt_update 5 (fun _ => rfl) (by decide) w
theorem hrest9 (c : Dev nD) : ∀ b, b ∉ Finset.univ.image (Pipeline.arrRef spec9) → rd (U20 m) c b = rd (U19 m) c b :=
  update_rest (Pipeline.arrRef spec9) 5
theorem hF10 (c : Dev nD) (w : Fin cfg10.W) : (dat10 (rd (U21 m)) c).arrAt w cfg10.N = rd (U22 m) c (Pipeline.arrRef spec10 w) :=
  arrAt_update 5 (fun _ => rfl) (by decide) w
theorem hrest10 (c : Dev nD) : ∀ b, b ∉ Finset.univ.image (Pipeline.arrRef spec10) → rd (U22 m) c b = rd (U21 m) c b :=
  update_rest (Pipeline.arrRef spec10) 5

def pdats : (p : Fin 11) → (c : Dev nD) → Dat τ (Elt F) Unit ℕ (UR sig nD τ) ℕ (cfgs p) c
  | ⟨0, _⟩ => dat0 (rd (U1 m))
  | ⟨1, _⟩ => dat1 (rd (U3 m))
  | ⟨2, _⟩ => dat2 (rd (U5 m))
  | ⟨3, _⟩ => dat3 (rd (U7 m))
  | ⟨4, _⟩ => dat4 (rd (U9 m))
  | ⟨5, _⟩ => dat5 (rd (U11 m))
  | ⟨6, _⟩ => dat6 (rd (U13 m))
  | ⟨7, _⟩ => dat7 (rd (U15 m))
  | ⟨8, _⟩ => dat8 (rd (U17 m))
  | ⟨9, _⟩ => dat9 (rd (U19 m))
  | ⟨10, _⟩ => dat10 (rd (U21 m))

abbrev 𝒱₀ : Variants := Variants.none
abbrev L : GSem nD τ sig → Finset Unit := fun _ => ∅
abbrev lv : GSem nD τ sig → Unit → ℕ := fun _ _ => 0
abbrev R (c : Dev nD) : sProp (MT nD τ sig Unit (Elt F) ℕ (UR sig nD τ) ℕ) :=
  iprop((∃ r, prngReg c r) ∗ ∃ W, owes (c : Thread nD τ) (0 : CellTallies nD τ sig Unit) W)

def outs : Outs (F := F) := fun J r c => match J with
  | 2 => U2 m c r
  | 4 => U4 m c r
  | 6 => U6 m c r
  | 8 => U8 m c r
  | 10 => U10 m c r
  | 12 => U12 m c r
  | 14 => U14 m c r
  | 16 => U16 m c r
  | 18 => U18 m c r
  | 20 => U20 m c r
  | 22 => U22 m c r
  | _ => V0 m c r

theorem V1_eq (c : Dev nD) : V1 m c = U1 m c := rfl
theorem V2_eq (c : Dev nD) : V2 m (outs m) c = U2 m c := update_update_self (V1_eq m c)
theorem V3_eq (c : Dev nD) : V3 m (outs m) c = U3 m c := congrArg (StableHlo.after hostOps1) (V2_eq m c)
theorem V4_eq (c : Dev nD) : V4 m (outs m) c = U4 m c := update_update_self (V3_eq m c)
theorem V5_eq (c : Dev nD) : V5 m (outs m) c = U5 m c := congrArg (StableHlo.after hostOps2) (V4_eq m c)
theorem V6_eq (c : Dev nD) : V6 m (outs m) c = U6 m c := update_update_self (V5_eq m c)
theorem V7_eq (c : Dev nD) : V7 m (outs m) c = U7 m c := congrArg (StableHlo.after hostOps3) (V6_eq m c)
theorem V8_eq (c : Dev nD) : V8 m (outs m) c = U8 m c := update_update_self (V7_eq m c)
theorem V9_eq (c : Dev nD) : V9 m (outs m) c = U9 m c := congrArg (StableHlo.after hostOps4) (V8_eq m c)
theorem V10_eq (c : Dev nD) : V10 m (outs m) c = U10 m c := update_update_self (V9_eq m c)
theorem V11_eq (c : Dev nD) : V11 m (outs m) c = U11 m c := congrArg (StableHlo.after hostOps5) (V10_eq m c)
theorem V12_eq (c : Dev nD) : V12 m (outs m) c = U12 m c := update_update_self (V11_eq m c)
theorem V13_eq (c : Dev nD) : V13 m (outs m) c = U13 m c := congrArg (StableHlo.after hostOps6) (V12_eq m c)
theorem V14_eq (c : Dev nD) : V14 m (outs m) c = U14 m c := update_update_self (V13_eq m c)
theorem V15_eq (c : Dev nD) : V15 m (outs m) c = U15 m c := congrArg (StableHlo.after hostOps7) (V14_eq m c)
theorem V16_eq (c : Dev nD) : V16 m (outs m) c = U16 m c := update_update_self (V15_eq m c)
theorem V17_eq (c : Dev nD) : V17 m (outs m) c = U17 m c := congrArg (StableHlo.after hostOps8) (V16_eq m c)
theorem V18_eq (c : Dev nD) : V18 m (outs m) c = U18 m c := update_update_self (V17_eq m c)
theorem V19_eq (c : Dev nD) : V19 m (outs m) c = U19 m c := congrArg (StableHlo.after hostOps9) (V18_eq m c)
theorem V20_eq (c : Dev nD) : V20 m (outs m) c = U20 m c := update_update_self (V19_eq m c)
theorem V21_eq (c : Dev nD) : V21 m (outs m) c = U21 m c := congrArg (StableHlo.after hostOps10) (V20_eq m c)
theorem V22_eq (c : Dev nD) : V22 m (outs m) c = U22 m c := update_update_self (V21_eq m c)

end Cert.KernelIdeal.Fr

end
-- ==== Proof.KI.Regs.lean ====
import proofs.«141374_j27161373180011_1_alg».proof.Proof.KI.Fold
import proofs.«141374_j27161373180011_1_alg».proof.Proof.LibRegionSeg

noncomputable section

namespace Cert.KernelIdeal.Fr

open Cert.KernelIdeal Cert.KernelIdeal.Gen Idealize.ShloMosaic

variable {F : FTy → Type} [FloatOps F] (m : (ℓ : Loc nD τ sig) → Buf (Elt F) ℓ)

def reg0 : Pipeline.RegionSeg (pcfgs (F := F)) adm (pdats m) () defs₀ 𝒱₀ L lv 0 :=
  regOf cfgs (pdats m) defs₀ (U1 m) (U2 m) launch0 (body_obligation0 _) (hF0 m) (hrest0 m)
def reg1 : Pipeline.RegionSeg (pcfgs (F := F)) adm (pdats m) () defs₀ 𝒱₀ L lv 1 :=
  regOf cfgs (pdats m) defs₀ (U3 m) (U4 m) launch1 (body_obligation1 _) (hF1 m) (hrest1 m)
def reg2 : Pipeline.RegionSeg (pcfgs (F := F)) adm (pdats m) () defs₀ 𝒱₀ L lv 2 :=
  regOf cfgs (pdats m) defs₀ (U5 m) (U6 m) launch2 (body_obligation2 _) (hF2 m) (hrest2 m)
def reg3 : Pipeline.RegionSeg (pcfgs (F := F)) adm (pdats m) () defs₀ 𝒱₀ L lv 3 :=
  regOf cfgs (pdats m) defs₀ (U7 m) (U8 m) launch3 (body_obligation3 _) (hF3 m) (hrest3 m)
def reg4 : Pipeline.RegionSeg (pcfgs (F := F)) adm (pdats m) () defs₀ 𝒱₀ L lv 4 :=
  regOf cfgs (pdats m) defs₀ (U9 m) (U10 m) launch4 (body_obligation4 _) (hF4 m) (hrest4 m)
def reg5 : Pipeline.RegionSeg (pcfgs (F := F)) adm (pdats m) () defs₀ 𝒱₀ L lv 5 :=
  regOf cfgs (pdats m) defs₀ (U11 m) (U12 m) launch5 (body_obligation5 _) (hF5 m) (hrest5 m)
def reg6 : Pipeline.RegionSeg (pcfgs (F := F)) adm (pdats m) () defs₀ 𝒱₀ L lv 6 :=
  regOf cfgs (pdats m) defs₀ (U13 m) (U14 m) launch6 (body_obligation6 _) (hF6 m) (hrest6 m)
def reg7 : Pipeline.RegionSeg (pcfgs (F := F)) adm (pdats m) () defs₀ 𝒱₀ L lv 7 :=
  regOf cfgs (pdats m) defs₀ (U15 m) (U16 m) launch7 (body_obligation7 _) (hF7 m) (hrest7 m)
def reg8 : Pipeline.RegionSeg (pcfgs (F := F)) adm (pdats m) () defs₀ 𝒱₀ L lv 8 :=
  regOf cfgs (pdats m) defs₀ (U17 m) (U18 m) launch8 (body_obligation8 _) (hF8 m) (hrest8 m)
def reg9 : Pipeline.RegionSeg (pcfgs (F := F)) adm (pdats m) () defs₀ 𝒱₀ L lv 9 :=
  regOf cfgs (pdats m) defs₀ (U19 m) (U20 m) launch9 (body_obligation9 _) (hF9 m) (hrest9 m)
def reg10 : Pipeline.RegionSeg (pcfgs (F := F)) adm (pdats m) () defs₀ 𝒱₀ L lv 10 :=
  regOf cfgs (pdats m) defs₀ (U21 m) (U22 m) launch10 (body_obligation10 _) (hF10 m) (hrest10 m)

end Cert.KernelIdeal.Fr

end
-- ==== Proof.KI.Run.lean ====
import proofs.«141374_j27161373180011_1_alg».proof.Proof.KI.RunCond
import proofs.«141374_j27161373180011_1_alg».proof.Proof.KI.Regs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

set_option backward.isDefEq.respectTransparency.types false in
def runOf :=
  Gen.run_cond (F := F) m emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := Pipeline.initEach L lv fun c => by
      iintro ⟨⟨-, HO, -, Hp, -⟩, -⟩
      imodintro
      isplitl [Hp]; · iexists _; iexact Hp
      iexists ∅; iexact HO)
    (hE11 := fun c => by iintro ⟨-, HO⟩; iexact HO)
    (R0 := reg0 m) (hpre0 := fun c => by rw [V1_eq]; exact .rfl) (hpost0 := fun c => by rw [V2_eq]; exact .rfl)
    (R1 := reg1 m) (hpre1 := fun c => by rw [V3_eq]; exact .rfl) (hpost1 := fun c => by rw [V4_eq]; exact .rfl)
    (R2 := reg2 m) (hpre2 := fun c => by rw [V5_eq]; exact .rfl) (hpost2 := fun c => by rw [V6_eq]; exact .rfl)
    (R3 := reg3 m) (hpre3 := fun c => by rw [V7_eq]; exact .rfl) (hpost3 := fun c => by rw [V8_eq]; exact .rfl)
    (R4 := reg4 m) (hpre4 := fun c => by rw [V9_eq]; exact .rfl) (hpost4 := fun c => by rw [V10_eq]; exact .rfl)
    (R5 := reg5 m) (hpre5 := fun c => by rw [V11_eq]; exact .rfl) (hpost5 := fun c => by rw [V12_eq]; exact .rfl)
    (R6 := reg6 m) (hpre6 := fun c => by rw [V13_eq]; exact .rfl) (hpost6 := fun c => by rw [V14_eq]; exact .rfl)
    (R7 := reg7 m) (hpre7 := fun c => by rw [V15_eq]; exact .rfl) (hpost7 := fun c => by rw [V16_eq]; exact .rfl)
    (R8 := reg8 m) (hpre8 := fun c => by rw [V17_eq]; exact .rfl) (hpost8 := fun c => by rw [V18_eq]; exact .rfl)
    (R9 := reg9 m) (hpre9 := fun c => by rw [V19_eq]; exact .rfl) (hpost9 := fun c => by rw [V20_eq]; exact .rfl)
    (R10 := reg10 m) (hpre10 := fun c => by rw [V21_eq]; exact .rfl) (hpost10 := fun c => by rw [V22_eq]; exact .rfl)

theorem run_all :
    θ_run defs (onTc (τ := τ) (main (F := F))) ⟨m, fun _ => 0, ρ⟩
      (fun r => ∀ c : Dev nD, ∀ b ∈ Pipeline.ucRefs τ sig, r.2.mem (((c : Thread nD τ)).1, b) = U22 m c b) :=
  (θ_run defs _ _).mono (fun r h c b hb => (h c b hb).trans (congrFun (V22_eq m c) b)) (runOf m ρ)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Fr

end
-- ==== Proof.KI.Args.lean ====
/-
  No item of @main writes an argument: at the last stage of the fold of buffer contents every argument array still holds
  its launch contents, so a final memory that agrees with that stage on every unscoped buffer has the arguments as launched.
-/
import proofs.«141374_j27161373180011_1_alg».proof.Proof.KI.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem args_of_read (mem : (ℓ : Loc nD τ sig) → Buf (Elt F) ℓ) (c : Dev nD)
    (h : ∀ b ∈ Pipeline.ucRefs τ sig, mem (((c : Thread nD τ)).1, b) = U22 m c b) :
    mem ((c.tc : Thread nD τ).loc main_arg0) = m ((c.tc : Thread nD τ).loc main_arg0)
    ∧ mem ((c.tc : Thread nD τ).loc main_arg1) = m ((c.tc : Thread nD τ).loc main_arg1)
    ∧ mem ((c.tc : Thread nD τ).loc main_arg2) = m ((c.tc : Thread nD τ).loc main_arg2)
    ∧ mem ((c.tc : Thread nD τ).loc main_arg3) = m ((c.tc : Thread nD τ).loc main_arg3)
    ∧ mem ((c.tc : Thread nD τ).loc main_arg4) = m ((c.tc : Thread nD τ).loc main_arg4)
    ∧ mem ((c.tc : Thread nD τ).loc main_arg5) = m ((c.tc : Thread nD τ).loc main_arg5)
    ∧ mem ((c.tc : Thread nD τ).loc main_arg6) = m ((c.tc : Thread nD τ).loc main_arg6)
    ∧ mem ((c.tc : Thread nD τ).loc main_arg7) = m ((c.tc : Thread nD τ).loc main_arg7)
    ∧ mem ((c.tc : Thread nD τ).loc main_arg8) = m ((c.tc : Thread nD τ).loc main_arg8)
    ∧ mem ((c.tc : Thread nD τ).loc main_arg9) = m ((c.tc : Thread nD τ).loc main_arg9)
    ∧ mem ((c.tc : Thread nD τ).loc main_arg10) = m ((c.tc : Thread nD τ).loc main_arg10)
    ∧ mem ((c.tc : Thread nD τ).loc main_arg11) = m ((c.tc : Thread nD τ).loc main_arg11)
    ∧ mem ((c.tc : Thread nD τ).loc main_arg12) = m ((c.tc : Thread nD τ).loc main_arg12)
    ∧ mem ((c.tc : Thread nD τ).loc main_arg13) = m ((c.tc : Thread nD τ).loc main_arg13)
    ∧ mem ((c.tc : Thread nD τ).loc main_arg14) = m ((c.tc : Thread nD τ).loc main_arg14)
    ∧ mem ((c.tc : Thread nD τ).loc main_arg15) = m ((c.tc : Thread nD τ).loc main_arg15)
    ∧ mem ((c.tc : Thread nD τ).loc main_arg16) = m ((c.tc : Thread nD τ).loc main_arg16)
    ∧ mem ((c.tc : Thread nD τ).loc main_arg17) = m ((c.tc : Thread nD τ).loc main_arg17)
    ∧ mem ((c.tc : Thread nD τ).loc main_arg18) = m ((c.tc : Thread nD τ).loc main_arg18)
    ∧ mem ((c.tc : Thread nD τ).loc main_arg19) = m ((c.tc : Thread nD τ).loc main_arg19)
    ∧ mem ((c.tc : Thread nD τ).loc main_arg20) = m ((c.tc : Thread nD τ).loc main_arg20)
    ∧ mem ((c.tc : Thread nD τ).loc main_arg21) = m ((c.tc : Thread nD τ).loc main_arg21)
    ∧ mem ((c.tc : Thread nD τ).loc main_arg22) = m ((c.tc : Thread nD τ).loc main_arg22)
    ∧ mem ((c.tc : Thread nD τ).loc main_arg23) = m ((c.tc : Thread nD τ).loc main_arg23)
    ∧ mem ((c.tc : Thread nD τ).loc main_arg24) = m ((c.tc : Thread nD τ).loc main_arg24)
    ∧ mem ((c.tc : Thread nD τ).loc main_arg25) = m ((c.tc : Thread nD τ).loc main_arg25)
    ∧ mem ((c.tc : Thread nD τ).loc main_arg26) = m ((c.tc : Thread nD τ).loc main_arg26)
    ∧ mem ((c.tc : Thread nD τ).loc main_arg27) = m ((c.tc : Thread nD τ).loc main_arg27)
    ∧ mem ((c.tc : Thread nD τ).loc main_arg28) = m ((c.tc : Thread nD τ).loc main_arg28)
    ∧ mem ((c.tc : Thread nD τ).loc main_arg29) = m ((c.tc : Thread nD τ).loc main_arg29)
    ∧ mem ((c.tc : Thread nD τ).loc main_arg30) = m ((c.tc : Thread nD τ).loc main_arg30)
    ∧ mem ((c.tc : Thread nD τ).loc main_arg31) = m ((c.tc : Thread nD τ).loc main_arg31)
    ∧ mem ((c.tc : Thread nD τ).loc main_arg32) = m ((c.tc : Thread nD τ).loc main_arg32)
    ∧ mem ((c.tc : Thread nD τ).loc main_arg33) = m ((c.tc : Thread nD τ).loc main_arg33)
    ∧ mem ((c.tc : Thread nD τ).loc main_arg34) = m ((c.tc : Thread nD τ).loc main_arg34)
    ∧ mem ((c.tc : Thread nD τ).loc main_arg35) = m ((c.tc : Thread nD τ).loc main_arg35)
    ∧ mem ((c.tc : Thread nD τ).loc main_arg36) = m ((c.tc : Thread nD τ).loc main_arg36)
    ∧ mem ((c.tc : Thread nD τ).loc main_arg37) = m ((c.tc : Thread nD τ).loc main_arg37)
    ∧ mem ((c.tc : Thread nD τ).loc main_arg38) = m ((c.tc : Thread nD τ).loc main_arg38)
    ∧ mem ((c.tc : Thread nD τ).loc main_arg39) = m ((c.tc : Thread nD τ).loc main_arg39) :=
  ⟨(h _ (mem_uc main_arg0 (by decide))).trans ((congrFun (V22_eq m c).symm _).trans (V22_main_arg0 m (outs m) c)),
   (h _ (mem_uc main_arg1 (by decide))).trans ((congrFun (V22_eq m c).symm _).trans (V22_main_arg1 m (outs m) c)),
   (h _ (mem_uc main_arg2 (by decide))).trans ((congrFun (V22_eq m c).symm _).trans (V22_main_arg2 m (outs m) c)),
   (h _ (mem_uc main_arg3 (by decide))).trans ((congrFun (V22_eq m c).symm _).trans (V22_main_arg3 m (outs m) c)),
   (h _ (mem_uc main_arg4 (by decide))).trans ((congrFun (V22_eq m c).symm _).trans (V22_main_arg4 m (outs m) c)),
   (h _ (mem_uc main_arg5 (by decide))).trans ((congrFun (V22_eq m c).symm _).trans (V22_main_arg5 m (outs m) c)),
   (h _ (mem_uc main_arg6 (by decide))).trans ((congrFun (V22_eq m c).symm _).trans (V22_main_arg6 m (outs m) c)),
   (h _ (mem_uc main_arg7 (by decide))).trans ((congrFun (V22_eq m c).symm _).trans (V22_main_arg7 m (outs m) c)),
   (h _ (mem_uc main_arg8 (by decide))).trans ((congrFun (V22_eq m c).symm _).trans (V22_main_arg8 m (outs m) c)),
   (h _ (mem_uc main_arg9 (by decide))).trans ((congrFun (V22_eq m c).symm _).trans (V22_main_arg9 m (outs m) c)),
   (h _ (mem_uc main_arg10 (by decide))).trans ((congrFun (V22_eq m c).symm _).trans (V22_main_arg10 m (outs m) c)),
   (h _ (mem_uc main_arg11 (by decide))).trans ((congrFun (V22_eq m c).symm _).trans (V22_main_arg11 m (outs m) c)),
   (h _ (mem_uc main_arg12 (by decide))).trans ((congrFun (V22_eq m c).symm _).trans (V22_main_arg12 m (outs m) c)),
   (h _ (mem_uc main_arg13 (by decide))).trans ((congrFun (V22_eq m c).symm _).trans (V22_main_arg13 m (outs m) c)),
   (h _ (mem_uc main_arg14 (by decide))).trans ((congrFun (V22_eq m c).symm _).trans (V22_main_arg14 m (outs m) c)),
   (h _ (mem_uc main_arg15 (by decide))).trans ((congrFun (V22_eq m c).symm _).trans (V22_main_arg15 m (outs m) c)),
   (h _ (mem_uc main_arg16 (by decide))).trans ((congrFun (V22_eq m c).symm _).trans (V22_main_arg16 m (outs m) c)),
   (h _ (mem_uc main_arg17 (by decide))).trans ((congrFun (V22_eq m c).symm _).trans (V22_main_arg17 m (outs m) c)),
   (h _ (mem_uc main_arg18 (by decide))).trans ((congrFun (V22_eq m c).symm _).trans (V22_main_arg18 m (outs m) c)),
   (h _ (mem_uc main_arg19 (by decide))).trans ((congrFun (V22_eq m c).symm _).trans (V22_main_arg19 m (outs m) c)),
   (h _ (mem_uc main_arg20 (by decide))).trans ((congrFun (V22_eq m c).symm _).trans (V22_main_arg20 m (outs m) c)),
   (h _ (mem_uc main_arg21 (by decide))).trans ((congrFun (V22_eq m c).symm _).trans (V22_main_arg21 m (outs m) c)),
   (h _ (mem_uc main_arg22 (by decide))).trans ((congrFun (V22_eq m c).symm _).trans (V22_main_arg22 m (outs m) c)),
   (h _ (mem_uc main_arg23 (by decide))).trans ((congrFun (V22_eq m c).symm _).trans (V22_main_arg23 m (outs m) c)),
   (h _ (mem_uc main_arg24 (by decide))).trans ((congrFun (V22_eq m c).symm _).trans (V22_main_arg24 m (outs m) c)),
   (h _ (mem_uc main_arg25 (by decide))).trans ((congrFun (V22_eq m c).symm _).trans (V22_main_arg25 m (outs m) c)),
   (h _ (mem_uc main_arg26 (by decide))).trans ((congrFun (V22_eq m c).symm _).trans (V22_main_arg26 m (outs m) c)),
   (h _ (mem_uc main_arg27 (by decide))).trans ((congrFun (V22_eq m c).symm _).trans (V22_main_arg27 m (outs m) c)),
   (h _ (mem_uc main_arg28 (by decide))).trans ((congrFun (V22_eq m c).symm _).trans (V22_main_arg28 m (outs m) c)),
   (h _ (mem_uc main_arg29 (by decide))).trans ((congrFun (V22_eq m c).symm _).trans (V22_main_arg29 m (outs m) c)),
   (h _ (mem_uc main_arg30 (by decide))).trans ((congrFun (V22_eq m c).symm _).trans (V22_main_arg30 m (outs m) c)),
   (h _ (mem_uc main_arg31 (by decide))).trans ((congrFun (V22_eq m c).symm _).trans (V22_main_arg31 m (outs m) c)),
   (h _ (mem_uc main_arg32 (by decide))).trans ((congrFun (V22_eq m c).symm _).trans (V22_main_arg32 m (outs m) c)),
   (h _ (mem_uc main_arg33 (by decide))).trans ((congrFun (V22_eq m c).symm _).trans (V22_main_arg33 m (outs m) c)),
   (h _ (mem_uc main_arg34 (by decide))).trans ((congrFun (V22_eq m c).symm _).trans (V22_main_arg34 m (outs m) c)),
   (h _ (mem_uc main_arg35 (by decide))).trans ((congrFun (V22_eq m c).symm _).trans (V22_main_arg35 m (outs m) c)),
   (h _ (mem_uc main_arg36 (by decide))).trans ((congrFun (V22_eq m c).symm _).trans (V22_main_arg36 m (outs m) c)),
   (h _ (mem_uc main_arg37 (by decide))).trans ((congrFun (V22_eq m c).symm _).trans (V22_main_arg37 m (outs m) c)),
   (h _ (mem_uc main_arg38 (by decide))).trans ((congrFun (V22_eq m c).symm _).trans (V22_main_arg38 m (outs m) c)),
   (h _ (mem_uc main_arg39 (by decide))).trans ((congrFun (V22_eq m c).symm _).trans (V22_main_arg39 m (outs m) c))⟩

end Cert.KernelIdeal.Fr

end
-- ==== Proof.KI.Host.lean ====
import proofs.«141374_j27161373180011_1_alg».proof.Proof.Gen.KernelIdeal.Regions
import Idealize.ShloMosaic.Lib.StableHlo.Run

noncomputable section

namespace Cert.KernelIdeal.HostRead

open Cert.KernelIdeal Cert.KernelIdeal.Gen
open Idealize.ShloMosaic Idealize.ShloMosaic.TcCoe Idealize.ShloMosaic.StableHlo
open Idealize.SL.Sem

variable {F : FTy → Type} [FloatOps F]

def edgeRow0 (ei : (⟨S2x524288, .i32⟩ : BufTy).Contents (Elt F)) : (⟨S524288, .i32⟩ : BufTy).Contents (Elt F) :=
  shapeCast S524288 (extractStridedSlice S1x524288 ![0, 0] ei slices_S2x524288_S1x524288_0_0) shapeCasts_S1x524288_S524288

def edgeRow1 (ei : (⟨S2x524288, .i32⟩ : BufTy).Contents (Elt F)) : (⟨S524288, .i32⟩ : BufTy).Contents (Elt F) :=
  shapeCast S524288 (extractStridedSlice S1x524288 ![1, 0] ei slices_S2x524288_S1x524288_1_0) shapeCasts_S1x524288_S524288

def wrapIdx (i : (⟨S524288, .i32⟩ : BufTy).Contents (Elt F)) : (⟨S524288, .i32⟩ : BufTy).Contents (Elt F) :=
  select (cmpi .slt i (broadcastInDim S524288 ![] bcast_S_S524288 (constantI S_ 32 0#32 : (⟨S_, .i32⟩ : BufTy).Contents (Elt F)))
      : (⟨S524288, .i1⟩ : BufTy).Contents (Elt F))
    (addi i (broadcastInDim S524288 ![] bcast_S_S524288 (constantI S_ 32 32768#32 : (⟨S_, .i32⟩ : BufTy).Contents (Elt F)))) i

def aggRows64 (x : (⟨S32768x64, .f32⟩ : BufTy).Contents (Elt F)) (ew : (⟨S524288, .f32⟩ : BufTy).Contents (Elt F))
    (into src : (⟨S524288, .i32⟩ : BufTy).Contents (Elt F)) : (⟨S32768x64, .f32⟩ : BufTy).Contents (Elt F) :=
  Host.scatterAdd scatter_S32768x64_S524288x1_S524288x64_1_0_0_1
    (broadcastInDim S32768x64 ![] bcast_S_S32768x64 (constant S_ .f32 0x00000000#32 : (⟨S_, .f32⟩ : BufTy).Contents (Elt F)))
    (broadcastInDim S524288x1 ![0] bcast_S524288_S524288x1_0 into)
    (mulf (Host.gather gather_S32768x64_S524288x1_S524288x64_1_0_n_n_0_1_164 x
        (broadcastInDim S524288x1 ![0] bcast_S524288_S524288x1_0 (wrapIdx src)))
      (broadcastInDim S524288x64 ![0, 1] bcast_S524288x1_S524288x64_0_1 (broadcastInDim S524288x1 ![0] bcast_S524288_S524288x1_0 ew)))

def agg64 (x : (⟨S32768x64, .f32⟩ : BufTy).Contents (Elt F)) (ew : (⟨S524288, .f32⟩ : BufTy).Contents (Elt F))
    (ei : (⟨S2x524288, .i32⟩ : BufTy).Contents (Elt F)) : (⟨S32768x64, .f32⟩ : BufTy).Contents (Elt F) :=
  aggRows64 x ew (edgeRow0 ei) (edgeRow1 ei)

def aggRows128 (h : (⟨S32768x128, .f32⟩ : BufTy).Contents (Elt F)) (ew : (⟨S524288, .f32⟩ : BufTy).Contents (Elt F))
    (into src : (⟨S524288, .i32⟩ : BufTy).Contents (Elt F)) : (⟨S32768x128, .f32⟩ : BufTy).Contents (Elt F) :=
  Host.scatterAdd scatter_S32768x128_S524288x1_S524288x128_1_0_0_1
    (broadcastInDim S32768x128 ![] bcast_S_S32768x128 (constant S_ .f32 0x00000000#32 : (⟨S_, .f32⟩ : BufTy).Contents (Elt F)))
    (broadcastInDim S524288x1 ![0] bcast_S524288_S524288x1_0 into)
    (mulf (Host.gather gather_S32768x128_S524288x1_S524288x128_1_0_n_n_0_1_1128 h
        (broadcastInDim S524288x1 ![0] bcast_S524288_S524288x1_0 (wrapIdx src)))
      (broadcastInDim S524288x128 ![0, 1] bcast_S524288x1_S524288x128_0_1 (broadcastInDim S524288x1 ![0] bcast_S524288_S524288x1_0 ew)))

def agg128 (h : (⟨S32768x128, .f32⟩ : BufTy).Contents (Elt F)) (ew : (⟨S524288, .f32⟩ : BufTy).Contents (Elt F))
    (ei : (⟨S2x524288, .i32⟩ : BufTy).Contents (Elt F)) : (⟨S32768x128, .f32⟩ : BufTy).Contents (Elt F) :=
  aggRows128 h ew (edgeRow0 ei) (edgeRow1 ei)

def pool (h : (⟨S32768x128, .f32⟩ : BufTy).Contents (Elt F)) (gi : (⟨S32768, .i32⟩ : BufTy).Contents (Elt F)) :
    (⟨S512x128, .f32⟩ : BufTy).Contents (Elt F) :=
  Host.scatterAdd scatter_S512x128_S32768x1_S32768x128_1_0_0_1
    (broadcastInDim S512x128 ![] bcast_S_S512x128 (constant S_ .f32 0x00000000#32 : (⟨S_, .f32⟩ : BufTy).Contents (Elt F)))
    (broadcastInDim S32768x1 ![0] bcast_S32768_S32768x1_0 gi) h

variable (m : (ℓ : Loc nD τ sig) → Buf (Elt F) ℓ) (outs : Outs (F := F))

abbrev written1 : List (Ref sig .tc) := hostOps0_W
abbrev written2 : List (Ref sig .tc) := written1 ++ [main_v19]
abbrev written3 : List (Ref sig .tc) := written2 ++ hostOps1_W
abbrev written4 : List (Ref sig .tc) := written3 ++ [main_v24]
abbrev written5 : List (Ref sig .tc) := written4 ++ hostOps2_W
abbrev written6 : List (Ref sig .tc) := written5 ++ [main_v40]
abbrev written7 : List (Ref sig .tc) := written6 ++ hostOps3_W
abbrev written8 : List (Ref sig .tc) := written7 ++ [main_v45]
abbrev written9 : List (Ref sig .tc) := written8 ++ hostOps4_W
abbrev written10 : List (Ref sig .tc) := written9 ++ [main_v61]
abbrev written11 : List (Ref sig .tc) := written10 ++ hostOps5_W
abbrev written12 : List (Ref sig .tc) := written11 ++ [main_v66]
abbrev written13 : List (Ref sig .tc) := written12 ++ hostOps6_W
abbrev written14 : List (Ref sig .tc) := written13 ++ [main_v82]
abbrev written15 : List (Ref sig .tc) := written14 ++ hostOps7_W
abbrev written16 : List (Ref sig .tc) := written15 ++ [main_v87]
abbrev written17 : List (Ref sig .tc) := written16 ++ hostOps8_W
abbrev written18 : List (Ref sig .tc) := written17 ++ [main_v103]
abbrev written19 : List (Ref sig .tc) := written18 ++ hostOps9_W
abbrev written20 : List (Ref sig .tc) := written19 ++ [main_v108]
abbrev written21 : List (Ref sig .tc) := written20 ++ hostOps10_W
abbrev written22 : List (Ref sig .tc) := written21 ++ [main_v127]

theorem V1_launch (c : Dev nD) (r : Ref sig .tc) (h : r ∉ written1) : V1 m c r = m ((c : Thread nD τ).loc r) :=
  (V1_of m c r h).trans rfl
theorem V2_launch (c : Dev nD) (r : Ref sig .tc) (h : r ∉ written2) : V2 m outs c r = m ((c : Thread nD τ).loc r) :=
  (V2_of m outs c r (fun hh => h (List.mem_append_right _ hh))).trans (V1_launch m c r (fun hh => h (List.mem_append_left _ hh)))
theorem V3_launch (c : Dev nD) (r : Ref sig .tc) (h : r ∉ written3) : V3 m outs c r = m ((c : Thread nD τ).loc r) :=
  (V3_of m outs c r (fun hh => h (List.mem_append_right _ hh))).trans (V2_launch m outs c r (fun hh => h (List.mem_append_left _ hh)))
theorem V4_launch (c : Dev nD) (r : Ref sig .tc) (h : r ∉ written4) : V4 m outs c r = m ((c : Thread nD τ).loc r) :=
  (V4_of m outs c r (fun hh => h (List.mem_append_right _ hh))).trans (V3_launch m outs c r (fun hh => h (List.mem_append_left _ hh)))
theorem V5_launch (c : Dev nD) (r : Ref sig .tc) (h : r ∉ written5) : V5 m outs c r = m ((c : Thread nD τ).loc r) :=
  (V5_of m outs c r (fun hh => h (List.mem_append_right _ hh))).trans (V4_launch m outs c r (fun hh => h (List.mem_append_left _ hh)))
theorem V6_launch (c : Dev nD) (r : Ref sig .tc) (h : r ∉ written6) : V6 m outs c r = m ((c : Thread nD τ).loc r) :=
  (V6_of m outs c r (fun hh => h (List.mem_append_right _ hh))).trans (V5_launch m outs c r (fun hh => h (List.mem_append_left _ hh)))
theorem V7_launch (c : Dev nD) (r : Ref sig .tc) (h : r ∉ written7) : V7 m outs c r = m ((c : Thread nD τ).loc r) :=
  (V7_of m outs c r (fun hh => h (List.mem_append_right _ hh))).trans (V6_launch m outs c r (fun hh => h (List.mem_append_left _ hh)))
theorem V8_launch (c : Dev nD) (r : Ref sig .tc) (h : r ∉ written8) : V8 m outs c r = m ((c : Thread nD τ).loc r) :=
  (V8_of m outs c r (fun hh => h (List.mem_append_right _ hh))).trans (V7_launch m outs c r (fun hh => h (List.mem_append_left _ hh)))
theorem V9_launch (c : Dev nD) (r : Ref sig .tc) (h : r ∉ written9) : V9 m outs c r = m ((c : Thread nD τ).loc r) :=
  (V9_of m outs c r (fun hh => h (List.mem_append_right _ hh))).trans (V8_launch m outs c r (fun hh => h (List.mem_append_left _ hh)))
theorem V10_launch (c : Dev nD) (r : Ref sig .tc) (h : r ∉ written10) : V10 m outs c r = m ((c : Thread nD τ).loc r) :=
  (V10_of m outs c r (fun hh => h (List.mem_append_right _ hh))).trans (V9_launch m outs c r (fun hh => h (List.mem_append_left _ hh)))
theorem V11_launch (c : Dev nD) (r : Ref sig .tc) (h : r ∉ written11) : V11 m outs c r = m ((c : Thread nD τ).loc r) :=
  (V11_of m outs c r (fun hh => h (List.mem_append_right _ hh))).trans (V10_launch m outs c r (fun hh => h (List.mem_append_left _ hh)))
theorem V12_launch (c : Dev nD) (r : Ref sig .tc) (h : r ∉ written12) : V12 m outs c r = m ((c : Thread nD τ).loc r) :=
  (V12_of m outs c r (fun hh => h (List.mem_append_right _ hh))).trans (V11_launch m outs c r (fun hh => h (List.mem_append_left _ hh)))
theorem V13_launch (c : Dev nD) (r : Ref sig .tc) (h : r ∉ written13) : V13 m outs c r = m ((c : Thread nD τ).loc r) :=
  (V13_of m outs c r (fun hh => h (List.mem_append_right _ hh))).trans (V12_launch m outs c r (fun hh => h (List.mem_append_left _ hh)))
theorem V14_launch (c : Dev nD) (r : Ref sig .tc) (h : r ∉ written14) : V14 m outs c r = m ((c : Thread nD τ).loc r) :=
  (V14_of m outs c r (fun hh => h (List.mem_append_right _ hh))).trans (V13_launch m outs c r (fun hh => h (List.mem_append_left _ hh)))
theorem V15_launch (c : Dev nD) (r : Ref sig .tc) (h : r ∉ written15) : V15 m outs c r = m ((c : Thread nD τ).loc r) :=
  (V15_of m outs c r (fun hh => h (List.mem_append_right _ hh))).trans (V14_launch m outs c r (fun hh => h (List.mem_append_left _ hh)))
theorem V16_launch (c : Dev nD) (r : Ref sig .tc) (h : r ∉ written16) : V16 m outs c r = m ((c : Thread nD τ).loc r) :=
  (V16_of m outs c r (fun hh => h (List.mem_append_right _ hh))).trans (V15_launch m outs c r (fun hh => h (List.mem_append_left _ hh)))
theorem V17_launch (c : Dev nD) (r : Ref sig .tc) (h : r ∉ written17) : V17 m outs c r = m ((c : Thread nD τ).loc r) :=
  (V17_of m outs c r (fun hh => h (List.mem_append_right _ hh))).trans (V16_launch m outs c r (fun hh => h (List.mem_append_left _ hh)))
theorem V18_launch (c : Dev nD) (r : Ref sig .tc) (h : r ∉ written18) : V18 m outs c r = m ((c : Thread nD τ).loc r) :=
  (V18_of m outs c r (fun hh => h (List.mem_append_right _ hh))).trans (V17_launch m outs c r (fun hh => h (List.mem_append_left _ hh)))
theorem V19_launch (c : Dev nD) (r : Ref sig .tc) (h : r ∉ written19) : V19 m outs c r = m ((c : Thread nD τ).loc r) :=
  (V19_of m outs c r (fun hh => h (List.mem_append_right _ hh))).trans (V18_launch m outs c r (fun hh => h (List.mem_append_left _ hh)))
theorem V20_launch (c : Dev nD) (r : Ref sig .tc) (h : r ∉ written20) : V20 m outs c r = m ((c : Thread nD τ).loc r) :=
  (V20_of m outs c r (fun hh => h (List.mem_append_right _ hh))).trans (V19_launch m outs c r (fun hh => h (List.mem_append_left _ hh)))
theorem V21_launch (c : Dev nD) (r : Ref sig .tc) (h : r ∉ written21) : V21 m outs c r = m ((c : Thread nD τ).loc r) :=
  (V21_of m outs c r (fun hh => h (List.mem_append_right _ hh))).trans (V20_launch m outs c r (fun hh => h (List.mem_append_left _ hh)))
theorem V22_launch (c : Dev nD) (r : Ref sig .tc) (h : r ∉ written22) : V22 m outs c r = m ((c : Thread nD τ).loc r) :=
  (V22_of m outs c r (fun hh => h (List.mem_append_right _ hh))).trans (V21_launch m outs c r (fun hh => h (List.mem_append_left _ hh)))

theorem V1_main_arg0 (c : Dev nD) : V1 m c main_arg0 = m ((c : Thread nD τ).loc main_arg0) := V1_launch m c main_arg0 (by decide)
theorem V1_main_arg2 (c : Dev nD) : V1 m c main_arg2 = m ((c : Thread nD τ).loc main_arg2) := V1_launch m c main_arg2 (by decide)
theorem V1_main_arg4 (c : Dev nD) : V1 m c main_arg4 = m ((c : Thread nD τ).loc main_arg4) := V1_launch m c main_arg4 (by decide)
theorem V5_main_arg6 (c : Dev nD) : V5 m outs c main_arg6 = m ((c : Thread nD τ).loc main_arg6) := V5_launch m outs c main_arg6 (by decide)
theorem V5_main_arg8 (c : Dev nD) : V5 m outs c main_arg8 = m ((c : Thread nD τ).loc main_arg8) := V5_launch m outs c main_arg8 (by decide)
theorem V9_main_arg10 (c : Dev nD) : V9 m outs c main_arg10 = m ((c : Thread nD τ).loc main_arg10) := V9_launch m outs c main_arg10 (by decide)
theorem V9_main_arg12 (c : Dev nD) : V9 m outs c main_arg12 = m ((c : Thread nD τ).loc main_arg12) := V9_launch m outs c main_arg12 (by decide)
theorem V13_main_arg14 (c : Dev nD) : V13 m outs c main_arg14 = m ((c : Thread nD τ).loc main_arg14) := V13_launch m outs c main_arg14 (by decide)
theorem V13_main_arg16 (c : Dev nD) : V13 m outs c main_arg16 = m ((c : Thread nD τ).loc main_arg16) := V13_launch m outs c main_arg16 (by decide)
theorem V17_main_arg18 (c : Dev nD) : V17 m outs c main_arg18 = m ((c : Thread nD τ).loc main_arg18) := V17_launch m outs c main_arg18 (by decide)
theorem V17_main_arg20 (c : Dev nD) : V17 m outs c main_arg20 = m ((c : Thread nD τ).loc main_arg20) := V17_launch m outs c main_arg20 (by decide)
theorem V21_main_arg34 (c : Dev nD) : V21 m outs c main_arg34 = m ((c : Thread nD τ).loc main_arg34) := V21_launch m outs c main_arg34 (by decide)
theorem V21_main_arg36 (c : Dev nD) : V21 m outs c main_arg36 = m ((c : Thread nD τ).loc main_arg36) := V21_launch m outs c main_arg36 (by decide)

theorem V2_main_v19 (c : Dev nD) : V2 m outs c main_v19 = outs 2 main_v19 c := Function.update_self _ _ _
theorem V4_main_v24 (c : Dev nD) : V4 m outs c main_v24 = outs 4 main_v24 c := Function.update_self _ _ _
theorem V6_main_v40 (c : Dev nD) : V6 m outs c main_v40 = outs 6 main_v40 c := Function.update_self _ _ _
theorem V8_main_v45 (c : Dev nD) : V8 m outs c main_v45 = outs 8 main_v45 c := Function.update_self _ _ _
theorem V10_main_v61 (c : Dev nD) : V10 m outs c main_v61 = outs 10 main_v61 c := Function.update_self _ _ _
theorem V12_main_v66 (c : Dev nD) : V12 m outs c main_v66 = outs 12 main_v66 c := Function.update_self _ _ _
theorem V14_main_v82 (c : Dev nD) : V14 m outs c main_v82 = outs 14 main_v82 c := Function.update_self _ _ _
theorem V16_main_v87 (c : Dev nD) : V16 m outs c main_v87 = outs 16 main_v87 c := Function.update_self _ _ _
theorem V18_main_v103 (c : Dev nD) : V18 m outs c main_v103 = outs 18 main_v103 c := Function.update_self _ _ _
theorem V20_main_v108 (c : Dev nD) : V20 m outs c main_v108 = outs 20 main_v108 c := Function.update_self _ _ _
theorem V22_main_v127 (c : Dev nD) : V22 m outs c main_v127 = outs 22 main_v127 c := Function.update_self _ _ _

theorem V3_main_v19 (c : Dev nD) : V3 m outs c main_v19 = V2 m outs c main_v19 := V3_of m outs c main_v19 (by decide)

theorem V5_main_v24 (c : Dev nD) : V5 m outs c main_v24 = V4 m outs c main_v24 := V5_of m outs c main_v24 (by decide)

theorem V7_main_v40 (c : Dev nD) : V7 m outs c main_v40 = V6 m outs c main_v40 := V7_of m outs c main_v40 (by decide)

theorem V9_main_v45 (c : Dev nD) : V9 m outs c main_v45 = V8 m outs c main_v45 := V9_of m outs c main_v45 (by decide)

theorem V11_main_v61 (c : Dev nD) : V11 m outs c main_v61 = V10 m outs c main_v61 := V11_of m outs c main_v61 (by decide)

theorem V13_main_v66 (c : Dev nD) : V13 m outs c main_v66 = V12 m outs c main_v66 := V13_of m outs c main_v66 (by decide)

theorem V15_main_v82 (c : Dev nD) : V15 m outs c main_v82 = V14 m outs c main_v82 := V15_of m outs c main_v82 (by decide)

theorem V17_main_v87 (c : Dev nD) : V17 m outs c main_v87 = V16 m outs c main_v87 := V17_of m outs c main_v87 (by decide)

theorem V19_main_v103 (c : Dev nD) : V19 m outs c main_v103 = V18 m outs c main_v103 := V19_of m outs c main_v103 (by decide)

theorem V20_main_v19 (c : Dev nD) : V20 m outs c main_v19 = V2 m outs c main_v19 :=
  (V20_of m outs c main_v19 (by decide)).trans <| (V19_of m outs c main_v19 (by decide)).trans <|
  (V18_of m outs c main_v19 (by decide)).trans <| (V17_of m outs c main_v19 (by decide)).trans <|
  (V16_of m outs c main_v19 (by decide)).trans <| (V15_of m outs c main_v19 (by decide)).trans <|
  (V14_of m outs c main_v19 (by decide)).trans <| (V13_of m outs c main_v19 (by decide)).trans <|
  (V12_of m outs c main_v19 (by decide)).trans <| (V11_of m outs c main_v19 (by decide)).trans <|
  (V10_of m outs c main_v19 (by decide)).trans <| (V9_of m outs c main_v19 (by decide)).trans <|
  (V8_of m outs c main_v19 (by decide)).trans <| (V7_of m outs c main_v19 (by decide)).trans <|
  (V6_of m outs c main_v19 (by decide)).trans <| (V5_of m outs c main_v19 (by decide)).trans <|
  (V4_of m outs c main_v19 (by decide)).trans <| V3_of m outs c main_v19 (by decide)

theorem V20_main_v40 (c : Dev nD) : V20 m outs c main_v40 = V6 m outs c main_v40 :=
  (V20_of m outs c main_v40 (by decide)).trans <| (V19_of m outs c main_v40 (by decide)).trans <|
  (V18_of m outs c main_v40 (by decide)).trans <| (V17_of m outs c main_v40 (by decide)).trans <|
  (V16_of m outs c main_v40 (by decide)).trans <| (V15_of m outs c main_v40 (by decide)).trans <|
  (V14_of m outs c main_v40 (by decide)).trans <| (V13_of m outs c main_v40 (by decide)).trans <|
  (V12_of m outs c main_v40 (by decide)).trans <| (V11_of m outs c main_v40 (by decide)).trans <|
  (V10_of m outs c main_v40 (by decide)).trans <| (V9_of m outs c main_v40 (by decide)).trans <|
  (V8_of m outs c main_v40 (by decide)).trans <| V7_of m outs c main_v40 (by decide)

theorem V20_main_v61 (c : Dev nD) : V20 m outs c main_v61 = V10 m outs c main_v61 :=
  (V20_of m outs c main_v61 (by decide)).trans <| (V19_of m outs c main_v61 (by decide)).trans <|
  (V18_of m outs c main_v61 (by decide)).trans <| (V17_of m outs c main_v61 (by decide)).trans <|
  (V16_of m outs c main_v61 (by decide)).trans <| (V15_of m outs c main_v61 (by decide)).trans <|
  (V14_of m outs c main_v61 (by decide)).trans <| (V13_of m outs c main_v61 (by decide)).trans <|
  (V12_of m outs c main_v61 (by decide)).trans <| V11_of m outs c main_v61 (by decide)

theorem V20_main_v82 (c : Dev nD) : V20 m outs c main_v82 = V14 m outs c main_v82 :=
  (V20_of m outs c main_v82 (by decide)).trans <| (V19_of m outs c main_v82 (by decide)).trans <|
  (V18_of m outs c main_v82 (by decide)).trans <| (V17_of m outs c main_v82 (by decide)).trans <|
  (V16_of m outs c main_v82 (by decide)).trans <| V15_of m outs c main_v82 (by decide)

theorem V3_main_v19_out (c : Dev nD) : V3 m outs c main_v19 = outs 2 main_v19 c := (V3_main_v19 m outs c).trans (V2_main_v19 m outs c)
theorem V5_main_v24_out (c : Dev nD) : V5 m outs c main_v24 = outs 4 main_v24 c := (V5_main_v24 m outs c).trans (V4_main_v24 m outs c)
theorem V7_main_v40_out (c : Dev nD) : V7 m outs c main_v40 = outs 6 main_v40 c := (V7_main_v40 m outs c).trans (V6_main_v40 m outs c)
theorem V9_main_v45_out (c : Dev nD) : V9 m outs c main_v45 = outs 8 main_v45 c := (V9_main_v45 m outs c).trans (V8_main_v45 m outs c)
theorem V11_main_v61_out (c : Dev nD) : V11 m outs c main_v61 = outs 10 main_v61 c := (V11_main_v61 m outs c).trans (V10_main_v61 m outs c)
theorem V13_main_v66_out (c : Dev nD) : V13 m outs c main_v66 = outs 12 main_v66 c := (V13_main_v66 m outs c).trans (V12_main_v66 m outs c)
theorem V15_main_v82_out (c : Dev nD) : V15 m outs c main_v82 = outs 14 main_v82 c := (V15_main_v82 m outs c).trans (V14_main_v82 m outs c)
theorem V17_main_v87_out (c : Dev nD) : V17 m outs c main_v87 = outs 16 main_v87 c := (V17_main_v87 m outs c).trans (V16_main_v87 m outs c)
theorem V19_main_v103_out (c : Dev nD) : V19 m outs c main_v103 = outs 18 main_v103 c := (V19_main_v103 m outs c).trans (V18_main_v103 m outs c)
theorem V20_main_v19_out (c : Dev nD) : V20 m outs c main_v19 = outs 2 main_v19 c := (V20_main_v19 m outs c).trans (V2_main_v19 m outs c)
theorem V20_main_v40_out (c : Dev nD) : V20 m outs c main_v40 = outs 6 main_v40 c := (V20_main_v40 m outs c).trans (V6_main_v40 m outs c)
theorem V20_main_v61_out (c : Dev nD) : V20 m outs c main_v61 = outs 10 main_v61 c := (V20_main_v61 m outs c).trans (V10_main_v61 m outs c)
theorem V20_main_v82_out (c : Dev nD) : V20 m outs c main_v82 = outs 14 main_v82 c := (V20_main_v82 m outs c).trans (V14_main_v82 m outs c)

theorem V1_main_v1 (c : Dev nD) : V1 m c main_v1 = edgeRow0 (m ((c : Thread nD τ).loc main_arg38)) := by
  show StableHlo.after hostOps0 (V0 m c) (Proc.devRef .tc main_v1) = _
  after_results
  rfl
theorem V1_main_v3 (c : Dev nD) : V1 m c main_v3 = edgeRow1 (m ((c : Thread nD τ).loc main_arg38)) := by
  show StableHlo.after hostOps0 (V0 m c) (Proc.devRef .tc main_v3) = _
  after_results
  rfl

theorem V1_agg (c : Dev nD) : V1 m c main_v16
    = agg64 (m ((c : Thread nD τ).loc main_arg0)) (m ((c : Thread nD τ).loc main_arg1)) (m ((c : Thread nD τ).loc main_arg38)) := by
  show StableHlo.after hostOps0 (V0 m c) (Proc.devRef .tc main_v16) = _
  after_results_simp
  rfl

theorem V1_main_v17 (c : Dev nD) : V1 m c main_v17 = shapeCast S1x128 (m ((c : Thread nD τ).loc main_arg3)) shapeCasts_S128_S1x128 := by
  show StableHlo.after hostOps0 (V0 m c) (Proc.devRef .tc main_v17) = _
  after_results
  rfl
theorem V1_main_v18 (c : Dev nD) : V1 m c main_v18 = shapeCast S1x128 (m ((c : Thread nD τ).loc main_arg5)) shapeCasts_S128_S1x128 := by
  show StableHlo.after hostOps0 (V0 m c) (Proc.devRef .tc main_v18) = _
  after_results
  rfl

theorem V4_main_v1 (c : Dev nD) : V4 m outs c main_v1 = edgeRow0 (m ((c : Thread nD τ).loc main_arg38)) :=
  (V4_of m outs c main_v1 (by decide)).trans <| (V3_of m outs c main_v1 (by decide)).trans <|
  (V2_of m outs c main_v1 (by decide)).trans <| V1_main_v1 m c
theorem V4_main_v3 (c : Dev nD) : V4 m outs c main_v3 = edgeRow1 (m ((c : Thread nD τ).loc main_arg38)) :=
  (V4_of m outs c main_v3 (by decide)).trans <| (V3_of m outs c main_v3 (by decide)).trans <|
  (V2_of m outs c main_v3 (by decide)).trans <| V1_main_v3 m c
theorem V8_main_v1 (c : Dev nD) : V8 m outs c main_v1 = edgeRow0 (m ((c : Thread nD τ).loc main_arg38)) :=
  (V8_of m outs c main_v1 (by decide)).trans <| (V7_of m outs c main_v1 (by decide)).trans <|
  (V6_of m outs c main_v1 (by decide)).trans <| (V5_of m outs c main_v1 (by decide)).trans <| V4_main_v1 m outs c
theorem V8_main_v3 (c : Dev nD) : V8 m outs c main_v3 = edgeRow1 (m ((c : Thread nD τ).loc main_arg38)) :=
  (V8_of m outs c main_v3 (by decide)).trans <| (V7_of m outs c main_v3 (by decide)).trans <|
  (V6_of m outs c main_v3 (by decide)).trans <| (V5_of m outs c main_v3 (by decide)).trans <| V4_main_v3 m outs c
theorem V12_main_v1 (c : Dev nD) : V12 m outs c main_v1 = edgeRow0 (m ((c : Thread nD τ).loc main_arg38)) :=
  (V12_of m outs c main_v1 (by decide)).trans <| (V11_of m outs c main_v1 (by decide)).trans <|
  (V10_of m outs c main_v1 (by decide)).trans <| (V9_of m outs c main_v1 (by decide)).trans <| V8_main_v1 m outs c
theorem V12_main_v3 (c : Dev nD) : V12 m outs c main_v3 = edgeRow1 (m ((c : Thread nD τ).loc main_arg38)) :=
  (V12_of m outs c main_v3 (by decide)).trans <| (V11_of m outs c main_v3 (by decide)).trans <|
  (V10_of m outs c main_v3 (by decide)).trans <| (V9_of m outs c main_v3 (by decide)).trans <| V8_main_v3 m outs c
theorem V16_main_v1 (c : Dev nD) : V16 m outs c main_v1 = edgeRow0 (m ((c : Thread nD τ).loc main_arg38)) :=
  (V16_of m outs c main_v1 (by decide)).trans <| (V15_of m outs c main_v1 (by decide)).trans <|
  (V14_of m outs c main_v1 (by decide)).trans <| (V13_of m outs c main_v1 (by decide)).trans <| V12_main_v1 m outs c
theorem V16_main_v3 (c : Dev nD) : V16 m outs c main_v3 = edgeRow1 (m ((c : Thread nD τ).loc main_arg38)) :=
  (V16_of m outs c main_v3 (by decide)).trans <| (V15_of m outs c main_v3 (by decide)).trans <|
  (V14_of m outs c main_v3 (by decide)).trans <| (V13_of m outs c main_v3 (by decide)).trans <| V12_main_v3 m outs c

theorem V5_agg (c : Dev nD) : V5 m outs c main_v37
    = agg128 (V4 m outs c main_v24) (m ((c : Thread nD τ).loc main_arg1)) (m ((c : Thread nD τ).loc main_arg38)) := by
  have h : V5 m outs c main_v37
      = aggRows128 (V4 m outs c main_v24) (V4 m outs c main_arg1) (V4 m outs c main_v1) (V4 m outs c main_v3) := by
    show StableHlo.after hostOps2 (V4 m outs c) (Proc.devRef .tc main_v37) = _
    after_results_simp
    rfl
  rw [h, V4_launch m outs c main_arg1 (by decide), V4_main_v1 m outs c, V4_main_v3 m outs c]
  rfl

theorem V9_agg (c : Dev nD) : V9 m outs c main_v58
    = agg128 (V8 m outs c main_v45) (m ((c : Thread nD τ).loc main_arg1)) (m ((c : Thread nD τ).loc main_arg38)) := by
  have h : V9 m outs c main_v58
      = aggRows128 (V8 m outs c main_v45) (V8 m outs c main_arg1) (V8 m outs c main_v1) (V8 m outs c main_v3) := by
    show StableHlo.after hostOps4 (V8 m outs c) (Proc.devRef .tc main_v58) = _
    after_results_simp
    rfl
  rw [h, V8_launch m outs c main_arg1 (by decide), V8_main_v1 m outs c, V8_main_v3 m outs c]
  rfl

theorem V13_agg (c : Dev nD) : V13 m outs c main_v79
    = agg128 (V12 m outs c main_v66) (m ((c : Thread nD τ).loc main_arg1)) (m ((c : Thread nD τ).loc main_arg38)) := by
  have h : V13 m outs c main_v79
      = aggRows128 (V12 m outs c main_v66) (V12 m outs c main_arg1) (V12 m outs c main_v1) (V12 m outs c main_v3) := by
    show StableHlo.after hostOps6 (V12 m outs c) (Proc.devRef .tc main_v79) = _
    after_results_simp
    rfl
  rw [h, V12_launch m outs c main_arg1 (by decide), V12_main_v1 m outs c, V12_main_v3 m outs c]
  rfl

theorem V17_agg (c : Dev nD) : V17 m outs c main_v100
    = agg128 (V16 m outs c main_v87) (m ((c : Thread nD τ).loc main_arg1)) (m ((c : Thread nD τ).loc main_arg38)) := by
  have h : V17 m outs c main_v100
      = aggRows128 (V16 m outs c main_v87) (V16 m outs c main_arg1) (V16 m outs c main_v1) (V16 m outs c main_v3) := by
    show StableHlo.after hostOps8 (V16 m outs c) (Proc.devRef .tc main_v100) = _
    after_results_simp
    rfl
  rw [h, V16_launch m outs c main_arg1 (by decide), V16_main_v1 m outs c, V16_main_v3 m outs c]
  rfl

theorem V5_agg_out (c : Dev nD) : V5 m outs c main_v37
    = agg128 (outs 4 main_v24 c) (m ((c : Thread nD τ).loc main_arg1)) (m ((c : Thread nD τ).loc main_arg38)) := by
  rw [V5_agg, V4_main_v24]
theorem V9_agg_out (c : Dev nD) : V9 m outs c main_v58
    = agg128 (outs 8 main_v45 c) (m ((c : Thread nD τ).loc main_arg1)) (m ((c : Thread nD τ).loc main_arg38)) := by
  rw [V9_agg, V8_main_v45]
theorem V13_agg_out (c : Dev nD) : V13 m outs c main_v79
    = agg128 (outs 12 main_v66 c) (m ((c : Thread nD τ).loc main_arg1)) (m ((c : Thread nD τ).loc main_arg38)) := by
  rw [V13_agg, V12_main_v66]
theorem V17_agg_out (c : Dev nD) : V17 m outs c main_v100
    = agg128 (outs 16 main_v87 c) (m ((c : Thread nD τ).loc main_arg1)) (m ((c : Thread nD τ).loc main_arg38)) := by
  rw [V17_agg, V16_main_v87]

theorem V3_main_v20 (c : Dev nD) : V3 m outs c main_v20 = shapeCast S1x128 (m ((c : Thread nD τ).loc main_arg22)) shapeCasts_S128_S1x128 := by
  rw [← V2_launch m outs c main_arg22 (by decide)]
  show StableHlo.after hostOps1 (V2 m outs c) (Proc.devRef .tc main_v20) = _
  after_results
  rfl
theorem V3_main_v21 (c : Dev nD) : V3 m outs c main_v21 = shapeCast S1x128 (m ((c : Thread nD τ).loc main_arg23)) shapeCasts_S128_S1x128 := by
  rw [← V2_launch m outs c main_arg23 (by decide)]
  show StableHlo.after hostOps1 (V2 m outs c) (Proc.devRef .tc main_v21) = _
  after_results
  rfl
theorem V3_main_v22 (c : Dev nD) : V3 m outs c main_v22 = shapeCast S1x128 (m ((c : Thread nD τ).loc main_arg24)) shapeCasts_S128_S1x128 := by
  rw [← V2_launch m outs c main_arg24 (by decide)]
  show StableHlo.after hostOps1 (V2 m outs c) (Proc.devRef .tc main_v22) = _
  after_results
  rfl
theorem V3_main_v23 (c : Dev nD) : V3 m outs c main_v23 = shapeCast S1x128 (m ((c : Thread nD τ).loc main_arg25)) shapeCasts_S128_S1x128 := by
  rw [← V2_launch m outs c main_arg25 (by decide)]
  show StableHlo.after hostOps1 (V2 m outs c) (Proc.devRef .tc main_v23) = _
  after_results
  rfl

theorem V5_main_v38 (c : Dev nD) : V5 m outs c main_v38 = shapeCast S1x128 (m ((c : Thread nD τ).loc main_arg7)) shapeCasts_S128_S1x128 := by
  rw [← V4_launch m outs c main_arg7 (by decide)]
  show StableHlo.after hostOps2 (V4 m outs c) (Proc.devRef .tc main_v38) = _
  after_results
  rfl
theorem V5_main_v39 (c : Dev nD) : V5 m outs c main_v39 = shapeCast S1x128 (m ((c : Thread nD τ).loc main_arg9)) shapeCasts_S128_S1x128 := by
  rw [← V4_launch m outs c main_arg9 (by decide)]
  show StableHlo.after hostOps2 (V4 m outs c) (Proc.devRef .tc main_v39) = _
  after_results
  rfl

theorem V7_main_v41 (c : Dev nD) : V7 m outs c main_v41 = shapeCast S1x128 (m ((c : Thread nD τ).loc main_arg22)) shapeCasts_S128_S1x128 := by
  rw [← V6_launch m outs c main_arg22 (by decide)]
  show StableHlo.after hostOps3 (V6 m outs c) (Proc.devRef .tc main_v41) = _
  after_results
  rfl
theorem V7_main_v42 (c : Dev nD) : V7 m outs c main_v42 = shapeCast S1x128 (m ((c : Thread nD τ).loc main_arg23)) shapeCasts_S128_S1x128 := by
  rw [← V6_launch m outs c main_arg23 (by decide)]
  show StableHlo.after hostOps3 (V6 m outs c) (Proc.devRef .tc main_v42) = _
  after_results
  rfl
theorem V7_main_v43 (c : Dev nD) : V7 m outs c main_v43 = shapeCast S1x128 (m ((c : Thread nD τ).loc main_arg24)) shapeCasts_S128_S1x128 := by
  rw [← V6_launch m outs c main_arg24 (by decide)]
  show StableHlo.after hostOps3 (V6 m outs c) (Proc.devRef .tc main_v43) = _
  after_results
  rfl
theorem V7_main_v44 (c : Dev nD) : V7 m outs c main_v44 = shapeCast S1x128 (m ((c : Thread nD τ).loc main_arg25)) shapeCasts_S128_S1x128 := by
  rw [← V6_launch m outs c main_arg25 (by decide)]
  show StableHlo.after hostOps3 (V6 m outs c) (Proc.devRef .tc main_v44) = _
  after_results
  rfl

theorem V9_main_v59 (c : Dev nD) : V9 m outs c main_v59 = shapeCast S1x128 (m ((c : Thread nD τ).loc main_arg11)) shapeCasts_S128_S1x128 := by
  rw [← V8_launch m outs c main_arg11 (by decide)]
  show StableHlo.after hostOps4 (V8 m outs c) (Proc.devRef .tc main_v59) = _
  after_results
  rfl
theorem V9_main_v60 (c : Dev nD) : V9 m outs c main_v60 = shapeCast S1x128 (m ((c : Thread nD τ).loc main_arg13)) shapeCasts_S128_S1x128 := by
  rw [← V8_launch m outs c main_arg13 (by decide)]
  show StableHlo.after hostOps4 (V8 m outs c) (Proc.devRef .tc main_v60) = _
  after_results
  rfl

theorem V11_main_v62 (c : Dev nD) : V11 m outs c main_v62 = shapeCast S1x128 (m ((c : Thread nD τ).loc main_arg26)) shapeCasts_S128_S1x128 := by
  rw [← V10_launch m outs c main_arg26 (by decide)]
  show StableHlo.after hostOps5 (V10 m outs c) (Proc.devRef .tc main_v62) = _
  after_results
  rfl
theorem V11_main_v63 (c : Dev nD) : V11 m outs c main_v63 = shapeCast S1x128 (m ((c : Thread nD τ).loc main_arg27)) shapeCasts_S128_S1x128 := by
  rw [← V10_launch m outs c main_arg27 (by decide)]
  show StableHlo.after hostOps5 (V10 m outs c) (Proc.devRef .tc main_v63) = _
  after_results
  rfl
theorem V11_main_v64 (c : Dev nD) : V11 m outs c main_v64 = shapeCast S1x128 (m ((c : Thread nD τ).loc main_arg28)) shapeCasts_S128_S1x128 := by
  rw [← V10_launch m outs c main_arg28 (by decide)]
  show StableHlo.after hostOps5 (V10 m outs c) (Proc.devRef .tc main_v64) = _
  after_results
  rfl
theorem V11_main_v65 (c : Dev nD) : V11 m outs c main_v65 = shapeCast S1x128 (m ((c : Thread nD τ).loc main_arg29)) shapeCasts_S128_S1x128 := by
  rw [← V10_launch m outs c main_arg29 (by decide)]
  show StableHlo.after hostOps5 (V10 m outs c) (Proc.devRef .tc main_v65) = _
  after_results
  rfl

theorem V13_main_v80 (c : Dev nD) : V13 m outs c main_v80 = shapeCast S1x128 (m ((c : Thread nD τ).loc main_arg15)) shapeCasts_S128_S1x128 := by
  rw [← V12_launch m outs c main_arg15 (by decide)]
  show StableHlo.after hostOps6 (V12 m outs c) (Proc.devRef .tc main_v80) = _
  after_results
  rfl
theorem V13_main_v81 (c : Dev nD) : V13 m outs c main_v81 = shapeCast S1x128 (m ((c : Thread nD τ).loc main_arg17)) shapeCasts_S128_S1x128 := by
  rw [← V12_launch m outs c main_arg17 (by decide)]
  show StableHlo.after hostOps6 (V12 m outs c) (Proc.devRef .tc main_v81) = _
  after_results
  rfl

theorem V15_main_v83 (c : Dev nD) : V15 m outs c main_v83 = shapeCast S1x128 (m ((c : Thread nD τ).loc main_arg30)) shapeCasts_S128_S1x128 := by
  rw [← V14_launch m outs c main_arg30 (by decide)]
  show StableHlo.after hostOps7 (V14 m outs c) (Proc.devRef .tc main_v83) = _
  after_results
  rfl
theorem V15_main_v84 (c : Dev nD) : V15 m outs c main_v84 = shapeCast S1x128 (m ((c : Thread nD τ).loc main_arg31)) shapeCasts_S128_S1x128 := by
  rw [← V14_launch m outs c main_arg31 (by decide)]
  show StableHlo.after hostOps7 (V14 m outs c) (Proc.devRef .tc main_v84) = _
  after_results
  rfl
theorem V15_main_v85 (c : Dev nD) : V15 m outs c main_v85 = shapeCast S1x128 (m ((c : Thread nD τ).loc main_arg32)) shapeCasts_S128_S1x128 := by
  rw [← V14_launch m outs c main_arg32 (by decide)]
  show StableHlo.after hostOps7 (V14 m outs c) (Proc.devRef .tc main_v85) = _
  after_results
  rfl
theorem V15_main_v86 (c : Dev nD) : V15 m outs c main_v86 = shapeCast S1x128 (m ((c : Thread nD τ).loc main_arg33)) shapeCasts_S128_S1x128 := by
  rw [← V14_launch m outs c main_arg33 (by decide)]
  show StableHlo.after hostOps7 (V14 m outs c) (Proc.devRef .tc main_v86) = _
  after_results
  rfl

theorem V17_main_v101 (c : Dev nD) : V17 m outs c main_v101 = shapeCast S1x128 (m ((c : Thread nD τ).loc main_arg19)) shapeCasts_S128_S1x128 := by
  rw [← V16_launch m outs c main_arg19 (by decide)]
  show StableHlo.after hostOps8 (V16 m outs c) (Proc.devRef .tc main_v101) = _
  after_results
  rfl
theorem V17_main_v102 (c : Dev nD) : V17 m outs c main_v102 = shapeCast S1x128 (m ((c : Thread nD τ).loc main_arg21)) shapeCasts_S128_S1x128 := by
  rw [← V16_launch m outs c main_arg21 (by decide)]
  show StableHlo.after hostOps8 (V16 m outs c) (Proc.devRef .tc main_v102) = _
  after_results
  rfl

theorem V19_main_v104 (c : Dev nD) : V19 m outs c main_v104 = shapeCast S1x128 (m ((c : Thread nD τ).loc main_arg30)) shapeCasts_S128_S1x128 := by
  rw [← V18_launch m outs c main_arg30 (by decide)]
  show StableHlo.after hostOps9 (V18 m outs c) (Proc.devRef .tc main_v104) = _
  after_results
  rfl
theorem V19_main_v105 (c : Dev nD) : V19 m outs c main_v105 = shapeCast S1x128 (m ((c : Thread nD τ).loc main_arg31)) shapeCasts_S128_S1x128 := by
  rw [← V18_launch m outs c main_arg31 (by decide)]
  show StableHlo.after hostOps9 (V18 m outs c) (Proc.devRef .tc main_v105) = _
  after_results
  rfl
theorem V19_main_v106 (c : Dev nD) : V19 m outs c main_v106 = shapeCast S1x128 (m ((c : Thread nD τ).loc main_arg32)) shapeCasts_S128_S1x128 := by
  rw [← V18_launch m outs c main_arg32 (by decide)]
  show StableHlo.after hostOps9 (V18 m outs c) (Proc.devRef .tc main_v106) = _
  after_results
  rfl
theorem V19_main_v107 (c : Dev nD) : V19 m outs c main_v107 = shapeCast S1x128 (m ((c : Thread nD τ).loc main_arg33)) shapeCasts_S128_S1x128 := by
  rw [← V18_launch m outs c main_arg33 (by decide)]
  show StableHlo.after hostOps9 (V18 m outs c) (Proc.devRef .tc main_v107) = _
  after_results
  rfl

theorem V21_main_v125 (c : Dev nD) : V21 m outs c main_v125 = shapeCast S1x128 (m ((c : Thread nD τ).loc main_arg35)) shapeCasts_S128_S1x128 := by
  rw [← V20_launch m outs c main_arg35 (by decide)]
  show StableHlo.after hostOps10 (V20 m outs c) (Proc.devRef .tc main_v125) = _
  after_results
  rfl
theorem V21_main_v126 (c : Dev nD) : V21 m outs c main_v126 = shapeCast S1x2 (m ((c : Thread nD τ).loc main_arg37)) shapeCasts_S2_S1x2 := by
  rw [← V20_launch m outs c main_arg37 (by decide)]
  show StableHlo.after hostOps10 (V20 m outs c) (Proc.devRef .tc main_v126) = _
  after_results
  rfl

theorem V21_main_v111 (c : Dev nD) : V21 m outs c main_v111 = pool (V20 m outs c main_v19) (m ((c : Thread nD τ).loc main_arg39)) := by
  rw [← V20_launch m outs c main_arg39 (by decide)]
  show StableHlo.after hostOps10 (V20 m outs c) (Proc.devRef .tc main_v111) = _
  after_results_simp
  rfl

theorem V21_main_v114 (c : Dev nD) : V21 m outs c main_v114 = pool (V20 m outs c main_v40) (m ((c : Thread nD τ).loc main_arg39)) := by
  rw [← V20_launch m outs c main_arg39 (by decide)]
  show StableHlo.after hostOps10 (V20 m outs c) (Proc.devRef .tc main_v114) = _
  after_results_simp
  rfl

theorem V21_main_v117 (c : Dev nD) : V21 m outs c main_v117 = pool (V20 m outs c main_v61) (m ((c : Thread nD τ).loc main_arg39)) := by
  rw [← V20_launch m outs c main_arg39 (by decide)]
  show StableHlo.after hostOps10 (V20 m outs c) (Proc.devRef .tc main_v117) = _
  after_results_simp
  rfl

theorem V21_main_v120 (c : Dev nD) : V21 m outs c main_v120 = pool (V20 m outs c main_v82) (m ((c : Thread nD τ).loc main_arg39)) := by
  rw [← V20_launch m outs c main_arg39 (by decide)]
  show StableHlo.after hostOps10 (V20 m outs c) (Proc.devRef .tc main_v120) = _
  after_results_simp
  rfl

theorem V21_main_v123 (c : Dev nD) : V21 m outs c main_v123 = pool (V20 m outs c main_v108) (m ((c : Thread nD τ).loc main_arg39)) := by
  rw [← V20_launch m outs c main_arg39 (by decide)]
  show StableHlo.after hostOps10 (V20 m outs c) (Proc.devRef .tc main_v123) = _
  after_results_simp
  rfl

theorem nary5_result {x a b d e y : Ref sig .tc}
    (f : ((k : Fin 5) → ((![x, a, b, d, e] : Fin 5 → Ref sig .tc) k).ty.Contents (Elt F)) → y.ty.Contents (Elt F)) (hxs hy)
    (G : Valuation τ sig (Elt F)) :
    (nary (τ := τ) ![x, a, b, d, e] y f hxs hy).result G (Proc.devRef .tc y)
      = f (Fin.cons (G (Proc.devRef .tc x)) (Fin.cons (G (Proc.devRef .tc a)) (Fin.cons (G (Proc.devRef .tc b))
          (Fin.cons (G (Proc.devRef .tc d)) (Fin.cons (G (Proc.devRef .tc e)) (fun i => i.elim0)))))) := by
  rw [nary_result]; congr 1; funext k; fin_cases k <;> rfl

abbrev joinTail (G : Valuation τ sig (Elt F)) : Valuation τ sig (Elt F) :=
  (StableHlo.reshape main_arg37 main_v126 rfl shapeCasts_S2_S1x2 : HloOp τ sig (Elt F)).result
    ((StableHlo.reshape main_arg35 main_v125 rfl shapeCasts_S128_S1x128 : HloOp τ sig (Elt F)).result
      ((StableHlo.nary ![main_v111, main_v114, main_v117, main_v120, main_v123] main_v124 (fun u => concatenate S512x640 1 [⟨S512x128, u 0⟩, ⟨S512x128, u 1⟩, ⟨S512x128, u 2⟩, ⟨S512x128, u 3⟩, ⟨S512x128, u 4⟩] concatenates_S512x128_S512x128_S512x128_S512x128_S512x128_S512x640_d1) : HloOp τ sig (Elt F)).result G))

theorem joinTail_of (G : Valuation τ sig (Elt F)) (r : Ref sig .tc) (h4 : r ≠ main_v124) (h5 : r ≠ main_v125) (h6 : r ≠ main_v126) :
    joinTail G (Proc.devRef .tc r) = G (Proc.devRef .tc r) := by
  dsimp only [joinTail]
  rw [reshape_result_ne _ _ _ _ _ _ _ h6, reshape_result_ne _ _ _ _ _ _ _ h5, nary_result_ne _ _ _ _ _ _ h4]

theorem joinTail_main_v124 (G : Valuation τ sig (Elt F)) : joinTail G (Proc.devRef .tc main_v124)
    = concatenate S512x640 1
        [⟨S512x128, joinTail G (Proc.devRef .tc main_v111)⟩, ⟨S512x128, joinTail G (Proc.devRef .tc main_v114)⟩,
         ⟨S512x128, joinTail G (Proc.devRef .tc main_v117)⟩, ⟨S512x128, joinTail G (Proc.devRef .tc main_v120)⟩,
         ⟨S512x128, joinTail G (Proc.devRef .tc main_v123)⟩]
        concatenates_S512x128_S512x128_S512x128_S512x128_S512x128_S512x640_d1 := by
  rw [joinTail_of G main_v111 (by decide) (by decide) (by decide), joinTail_of G main_v114 (by decide) (by decide) (by decide),
    joinTail_of G main_v117 (by decide) (by decide) (by decide), joinTail_of G main_v120 (by decide) (by decide) (by decide),
    joinTail_of G main_v123 (by decide) (by decide) (by decide)]
  dsimp only [joinTail]
  rw [reshape_result_ne _ _ _ _ _ _ _ (by decide), reshape_result_ne _ _ _ _ _ _ _ (by decide), nary5_result]
  rfl

theorem V21_cat (c : Dev nD) : V21 m outs c main_v124
    = concatenate S512x640 1
        [⟨S512x128, pool (V20 m outs c main_v19) (m ((c : Thread nD τ).loc main_arg39))⟩,
         ⟨S512x128, pool (V20 m outs c main_v40) (m ((c : Thread nD τ).loc main_arg39))⟩,
         ⟨S512x128, pool (V20 m outs c main_v61) (m ((c : Thread nD τ).loc main_arg39))⟩,
         ⟨S512x128, pool (V20 m outs c main_v82) (m ((c : Thread nD τ).loc main_arg39))⟩,
         ⟨S512x128, pool (V20 m outs c main_v108) (m ((c : Thread nD τ).loc main_arg39))⟩]
        concatenates_S512x128_S512x128_S512x128_S512x128_S512x128_S512x640_d1 := by
  have key : V21 m outs c main_v124
      = concatenate S512x640 1
          [⟨S512x128, V21 m outs c main_v111⟩, ⟨S512x128, V21 m outs c main_v114⟩, ⟨S512x128, V21 m outs c main_v117⟩,
           ⟨S512x128, V21 m outs c main_v120⟩, ⟨S512x128, V21 m outs c main_v123⟩]
          concatenates_S512x128_S512x128_S512x128_S512x128_S512x128_S512x640_d1 := by
    show StableHlo.after hostOps10 (V20 m outs c) (Proc.devRef .tc main_v124)
      = concatenate S512x640 1
          [⟨S512x128, StableHlo.after hostOps10 (V20 m outs c) (Proc.devRef .tc main_v111)⟩,
           ⟨S512x128, StableHlo.after hostOps10 (V20 m outs c) (Proc.devRef .tc main_v114)⟩,
           ⟨S512x128, StableHlo.after hostOps10 (V20 m outs c) (Proc.devRef .tc main_v117)⟩,
           ⟨S512x128, StableHlo.after hostOps10 (V20 m outs c) (Proc.devRef .tc main_v120)⟩,
           ⟨S512x128, StableHlo.after hostOps10 (V20 m outs c) (Proc.devRef .tc main_v123)⟩]
          concatenates_S512x128_S512x128_S512x128_S512x128_S512x128_S512x640_d1
    simp only [after_cons, after_nil]
    exact joinTail_main_v124 _
  rw [key, V21_main_v111, V21_main_v114, V21_main_v117, V21_main_v120, V21_main_v123]

theorem V21_cat_out (c : Dev nD) : V21 m outs c main_v124
    = concatenate S512x640 1
        [⟨S512x128, pool (outs 2 main_v19 c) (m ((c : Thread nD τ).loc main_arg39))⟩,
         ⟨S512x128, pool (outs 6 main_v40 c) (m ((c : Thread nD τ).loc main_arg39))⟩,
         ⟨S512x128, pool (outs 10 main_v61 c) (m ((c : Thread nD τ).loc main_arg39))⟩,
         ⟨S512x128, pool (outs 14 main_v82 c) (m ((c : Thread nD τ).loc main_arg39))⟩,
         ⟨S512x128, pool (outs 20 main_v108 c) (m ((c : Thread nD τ).loc main_arg39))⟩]
        concatenates_S512x128_S512x128_S512x128_S512x128_S512x128_S512x640_d1 := by
  rw [V21_cat, V20_main_v19_out, V20_main_v40_out, V20_main_v61_out, V20_main_v82_out, V20_main_v108]

end Cert.KernelIdeal.HostRead

end
-- ==== Proof.KI.V0.lean ====
import proofs.«141374_j27161373180011_1_alg».proof.Proof.KI.R0
import proofs.«141374_j27161373180011_1_alg».proof.Proof.Gen.ReferenceIdeal.Read
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Cert.KernelIdeal Cert.KernelIdeal.Gen
open Idealize.ShloMosaic Idealize.ShloMosaic.TcCoe Idealize.SL.Sem
open Idealize.ShloMosaic.ValueIdx
open Idealize.ShloMosaic.Pipeline (Dat)
open scoped BigOperators

abbrev dIn0 : ℕ := 64

/-- out(r, j) = Σ_k max(Σ_l (h(r, l) + a(r, l)) · W₁(l, k) + b₁(0, k), 0) · W₂(k, j) + b₂(0, j), for h, a of width 64. -/
def mlpK0 (h a : Vec Ideal S32768x64 .f32) (W1 : Vec Ideal S64x128 .f32) (b1 : Vec Ideal S1x128 .f32)
    (W2 : Vec Ideal S128x128 .f32) (b2 : Vec Ideal S1x128 .f32) : Vec Ideal S32768x128 .f32 :=
  fun i => (∑ k : Fin 128, max ((∑ l : Fin dIn0, (h (ix2 (i 0) l) + a (ix2 (i 0) l)) * W1 (ix2 l k)) + b1 (ix2 (0 : Fin 1) k)) 0
      * W2 (ix2 k (i 1))) + b2 (ix2 (0 : Fin 1) (i 1))

theorem mlpK0_apply (h a : Vec Ideal S32768x64 .f32) (W1 : Vec Ideal S64x128 .f32) (b1 : Vec Ideal S1x128 .f32)
    (W2 : Vec Ideal S128x128 .f32) (b2 : Vec Ideal S1x128 .f32) (r : Fin 32768) (j : Fin 128) :
    mlpK0 h a W1 b1 W2 b2 (ix2 r j)
      = (∑ k : Fin 128, max ((∑ l : Fin dIn0, (h (ix2 r l) + a (ix2 r l)) * W1 (ix2 l k)) + b1 (ix2 (0 : Fin 1) k)) 0
          * W2 (ix2 k j)) + b2 (ix2 (0 : Fin 1) j) := rfl

/-- A product of two matrices that contracts one axis is the sum over that axis's coordinate. -/
theorem dot2_sum {m k n : ℕ} (D : DotDims ⟨2, ![m, k]⟩ ⟨2, ![k, n]⟩ ⟨2, ![m, n]⟩) (hr : D.contr.rank = 1)
    (hs : D.contr.size ⟨0, by omega⟩ = k)
    (l0 : ∀ i c, (D.lhsIdx i c 0).val = (i 0).val) (l1 : ∀ i c, (D.lhsIdx i c 1).val = (c ⟨0, by omega⟩).val)
    (r0 : ∀ i c, (D.rhsIdx i c 0).val = (c ⟨0, by omega⟩).val) (r1 : ∀ i c, (D.rhsIdx i c 1).val = (i 1).val)
    (L : (⟨2, ![m, k]⟩ : Shape).Idx → EReal) (R : (⟨2, ![k, n]⟩ : Shape).Idx → EReal) (p : Fin m) (q : Fin n) :
    ∑ c : D.contr.Idx, L (D.lhsIdx (ix2 p q) c) * R (D.rhsIdx (ix2 p q) c) = ∑ l : Fin k, L (ix2 p l) * R (ix2 l q) := by
  rw [← Equiv.sum_comp (contrEquiv1 D k hr hs).symm]
  refine Finset.sum_congr rfl fun l _ => ?_
  have hl := contrEquiv1_symm_val D k hr hs l
  have el : D.lhsIdx (ix2 p q) ((contrEquiv1 D k hr hs).symm l) = ix2 p l := funext fun a => Fin.ext (by
    match a with
    | ⟨0, _⟩ => exact l0 _ _
    | ⟨1, _⟩ => exact (l1 _ _).trans hl)
  have er : D.rhsIdx (ix2 p q) ((contrEquiv1 D k hr hs).symm l) = ix2 l q := funext fun a => Fin.ext (by
    match a with
    | ⟨0, _⟩ => exact (r0 _ _).trans hl
    | ⟨1, _⟩ => exact r1 _ _)
  rw [el, er]

theorem lhs_mm1_0 (i : S4096x128.Idx) (q : dot_S4096x64_S64x128_S4096x128_1_0_0_1_n_n.contr.Idx) :
    (dot_S4096x64_S64x128_S4096x128_1_0_0_1_n_n.lhsIdx i q 0).val = (i 0).val := by
  unfold DotDims.lhsIdx
  rw [dif_neg (show ¬(0 : Fin S4096x64.rank) ∈ dot_S4096x64_S64x128_S4096x128_1_0_0_1_n_n.lhsBatch by decide), dif_pos (show (0 : Fin S4096x64.rank) ∈ dot_S4096x64_S64x128_S4096x128_1_0_0_1_n_n.lhsNonContracting by decide)]
  rfl

theorem lhs_mm1_1 (i : S4096x128.Idx) (q : dot_S4096x64_S64x128_S4096x128_1_0_0_1_n_n.contr.Idx) :
    (dot_S4096x64_S64x128_S4096x128_1_0_0_1_n_n.lhsIdx i q 1).val = (q ⟨0, by decide⟩).val :=
  dot_S4096x64_S64x128_S4096x128_1_0_0_1_n_n.lhsIdx_val_of_single rfl i q

theorem rhs_mm1_0 (i : S4096x128.Idx) (q : dot_S4096x64_S64x128_S4096x128_1_0_0_1_n_n.contr.Idx) :
    (dot_S4096x64_S64x128_S4096x128_1_0_0_1_n_n.rhsIdx i q 0).val = (q ⟨0, by decide⟩).val :=
  dot_S4096x64_S64x128_S4096x128_1_0_0_1_n_n.rhsIdx_val_of_single rfl i q

theorem rhs_mm1_1 (i : S4096x128.Idx) (q : dot_S4096x64_S64x128_S4096x128_1_0_0_1_n_n.contr.Idx) :
    (dot_S4096x64_S64x128_S4096x128_1_0_0_1_n_n.rhsIdx i q 1).val = (i 1).val := by
  unfold DotDims.rhsIdx
  rw [dif_neg (show ¬(1 : Fin S64x128.rank) ∈ dot_S4096x64_S64x128_S4096x128_1_0_0_1_n_n.rhsBatch by decide), dif_pos (show (1 : Fin S64x128.rank) ∈ dot_S4096x64_S64x128_S4096x128_1_0_0_1_n_n.rhsNonContracting by decide)]
  rfl

theorem mm1_apply (L : FVec Ideal S4096x64 .bf16) (R : FVec Ideal S64x128 .bf16) (p : Fin 4096) (q : Fin 128) :
    matmul dot_S4096x64_S64x128_S4096x128_1_0_0_1_n_n none L R (constant (F := Ideal) S4096x128 .f32 0x00000000#32) (ix2 p q)
      = ∑ l : Fin dIn0, L (ix2 p l) * R (ix2 l q) := by
  simp only [matmul]
  rw [Ideal.matmul_constant_zero_apply]
  exact dot2_sum _ rfl rfl lhs_mm1_0 lhs_mm1_1 rhs_mm1_0 rhs_mm1_1 L R p q

theorem lhs_mm2_0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl

theorem lhs_mm2_1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q

theorem rhs_mm2_0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q

theorem rhs_mm2_1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

theorem mm2_apply (L : FVec Ideal S4096x128 .bf16) (R : FVec Ideal S128x128 .bf16) (p : Fin 4096) (q : Fin 128) :
    matmul dot_S4096x128_S128x128_S4096x128_1_0_0_1_n_n none L R (constant (F := Ideal) S4096x128 .f32 0x00000000#32) (ix2 p q)
      = ∑ k : Fin 128, L (ix2 p k) * R (ix2 k q) := by
  simp only [matmul]
  rw [Ideal.matmul_constant_zero_apply]
  exact dot2_sum _ rfl rfl lhs_mm2_0 lhs_mm2_1 rhs_mm2_0 rhs_mm2_1 L R p q

/-- The body's value at (p, q): each product is a plain sum and each bias row is read at the column. -/
theorem pay_apply (x0 x1 : Vec Ideal S4096x64 .f32) (x2 : Vec Ideal S64x128 .f32) (x3 : Vec Ideal S1x128 .f32)
    (x4 : Vec Ideal S128x128 .f32) (x5 : Vec Ideal S1x128 .f32) (p : Fin 4096) (q : Fin 128) :
    k0_pay1 (F := Ideal) x0 x1 x2 x3 x4 x5 (ix2 p q)
      = (∑ k : Fin 128, max ((∑ l : Fin dIn0, (x0 (ix2 p l) + x1 (ix2 p l)) * x2 (ix2 l k)) + x3 (ix2 (0 : Fin 1) k)) 0
          * x4 (ix2 k q)) + x5 (ix2 (0 : Fin 1) q) := by
  unfold k0_pay1
  have hz0 : (FloatOps.ofBits (F := Ideal) FTy.f32 0x00000000#32) = (0 : EReal) := Ideal.ofBits_zero_f32
  rw [addf_apply, mm2_apply, broadcastTo_1b_ab_apply, shapeCast_self]
  simp only [truncf_apply, maximumf_apply, addf_apply, mm1_apply, broadcastTo_1b_ab_apply, shapeCast_self, broadcast_apply, hz0]

theorem hz : (![0, 0] : Fin 2 → Nat) = fun _ => 0 := funext fun a => by fin_cases a <;> rfl

/-- The row-tiled arrays of the update regions are at block (t, 0) at point t; their index maps are one function. -/
theorem mlpIdx : ∀ t : Fin grid0.N, win0_6.index t 0 = t.val ∧ win0_6.index t 1 = 0 := by decide +kernel

/-- Block t of an array of 32768 rows of width 64. -/
abbrev rows64 (t : Fin grid0.N) (A : Vec Ideal S32768x64 .f32) : Vec Ideal S4096x64 .f32 :=
  (win0_0.blk t).view.read (Elt Ideal) A

/-- Block t of an array of 32768 rows of width 128. -/
abbrev mlpRows (t : Fin grid0.N) (A : Vec Ideal S32768x128 .f32) : Vec Ideal S4096x128 .f32 :=
  (win0_6.blk t).view.read (Elt Ideal) A

/-- Block t is rows 4096·t … 4096·t + 4095 of the array. -/
theorem rows64_apply (t : Fin grid0.N) (A : Vec Ideal S32768x64 .f32) (p : Fin 4096) (l : Fin 64) :
    rows64 t A (ix2 p l) = A (ix2 ⟨t.val * 4096 + p.val, by have := Nat.lt_of_lt_of_eq t.isLt N_0; have := p.isLt; omega⟩ l) := by
  obtain ⟨e0, e1⟩ := mlpIdx t
  show A ((win0_0.blk t).view.emb (ix2 p l)) = _
  refine congrArg A (funext fun a => Fin.ext ?_)
  match a with
  | ⟨0, _⟩ => show win0_6.index t 0 * 4096 + 1 * p.val = t.val * 4096 + p.val; rw [e0]; omega
  | ⟨1, _⟩ => show win0_6.index t 1 * 64 + 1 * l.val = l.val; rw [e1]; omega

theorem mlpRows_apply (t : Fin grid0.N) (A : Vec Ideal S32768x128 .f32) (p : Fin 4096) (l : Fin 128) :
    mlpRows t A (ix2 p l) = A (ix2 ⟨t.val * 4096 + p.val, by have := Nat.lt_of_lt_of_eq t.isLt N_0; have := p.isLt; omega⟩ l) := by
  obtain ⟨e0, e1⟩ := mlpIdx t
  show A ((win0_6.blk t).view.emb (ix2 p l)) = _
  refine congrArg A (funext fun a => Fin.ext ?_)
  match a with
  | ⟨0, _⟩ => show win0_6.index t 0 * 4096 + 1 * p.val = t.val * 4096 + p.val; rw [e0]; omega
  | ⟨1, _⟩ => show win0_6.index t 1 * 128 + 1 * l.val = l.val; rw [e1]; omega

/-- The block of a weight matrix or of a bias row is the whole array. -/
theorem whole64x128 (t : Fin grid0.N) (A : Vec Ideal S64x128 .f32) : (win0_2.blk t).view.read (Elt Ideal) A = A :=
  funext fun y => congrArg A (funext fun a => Fin.ext
    (win0_2.rect_emb_val_of_index_zero t a (match a with | ⟨0, _⟩ => rfl | ⟨1, _⟩ => rfl) y))

theorem mlpWhole1 (t : Fin grid0.N) (A : Vec Ideal S1x128 .f32) : (win0_3.blk t).view.read (Elt Ideal) A = A :=
  funext fun y => congrArg A (funext fun a => Fin.ext
    (win0_3.rect_emb_val_of_index_zero t a (match a with | ⟨0, _⟩ => rfl | ⟨1, _⟩ => rfl) y))

theorem mlpWhole128 (t : Fin grid0.N) (A : Vec Ideal S128x128 .f32) : (win0_4.blk t).view.read (Elt Ideal) A = A :=
  funext fun y => congrArg A (funext fun a => Fin.ext
    (win0_4.rect_emb_val_of_index_zero t a (match a with | ⟨0, _⟩ => rfl | ⟨1, _⟩ => rfl) y))

/-- A row of the output depends on the same row of h and a only: the body on block t of the inputs gives block t of mlpK0. -/
theorem tile0_eq (h a : Vec Ideal S32768x64 .f32) (W1 : Vec Ideal S64x128 .f32) (b1 : Vec Ideal S1x128 .f32)
    (W2 : Vec Ideal S128x128 .f32) (b2 : Vec Ideal S1x128 .f32) (t : Fin grid0.N) :
    Fr.out0_6 (F := Ideal) (rows64 t h) (rows64 t a) ((win0_2.blk t).view.read (Elt Ideal) W1) ((win0_3.blk t).view.read (Elt Ideal) b1)
        ((win0_4.blk t).view.read (Elt Ideal) W2) ((win0_3.blk t).view.read (Elt Ideal) b2)
      = mlpRows t (mlpK0 h a W1 b1 W2 b2) := by
  rw [whole64x128, mlpWhole128, mlpWhole1, mlpWhole1]
  unfold Fr.out0_6
  rw [View.canon_unit_zero hz]
  simp only [View.ld_unit_zero (S := S4096x64) hz, View.ld_unit_zero (S := S64x128) hz, View.ld_unit_zero (S := S1x128) hz,
    View.ld_unit_zero (S := S128x128) hz]
  funext j
  obtain ⟨p, q, rfl⟩ : ∃ (p : Fin 4096) (q : Fin 128), j = ix2 p q := ⟨j 0, j 1, eq_ix2 j⟩
  rw [pay_apply]
  simp only [rows64_apply, mlpRows_apply, mlpK0_apply]

/-- Row r of an array of 32768 rows lies in block r / 4096. -/
theorem mlpCover (i : S32768x128.Idx) : ∃ t : Fin grid0.N, i ∈ (win0_6.rect t).set := by
  have hi0 : (i 0).val < 32768 := (i 0).isLt
  have hi1 : (i 1).val < 128 := (i 1).isLt
  obtain ⟨t, ht⟩ : ∃ t : Fin grid0.N, t.val = (i 0).val / 4096 := ⟨⟨(i 0).val / 4096, by rw [N_0]; omega⟩, rfl⟩
  obtain ⟨e0, e1⟩ := mlpIdx t
  refine ⟨t, Rect.mem_set_unit.2 fun a => ?_⟩
  match a with
  | ⟨0, _⟩ => show win0_6.index t 0 * 4096 ≤ (i 0).val ∧ (i 0).val < win0_6.index t 0 * 4096 + 4096; rw [e0, ht]; omega
  | ⟨1, _⟩ => show win0_6.index t 1 * 128 ≤ (i 1).val ∧ (i 1).val < win0_6.index t 1 * 128 + 128; rw [e1]; omega

variable (V : (c : Dev nD) → (b : Ref sig .tc) → Buf (Elt Ideal) ((c : Thread nD τ).loc b))

/-- After the region's run its output array is mlpK0 of the arrays the region found. -/
theorem final0 (c : Dev nD) :
    (Fr.dat0 (F := Ideal) V c).arrAt 6 cfg0.N
      = mlpK0 (V c (Pipeline.arrRef spec0 0)) (V c (Pipeline.arrRef spec0 1)) (V c (Pipeline.arrRef spec0 2))
          (V c (Pipeline.arrRef spec0 3)) (V c (Pipeline.arrRef spec0 4)) (V c (Pipeline.arrRef spec0 5)) :=
  (Fr.dat0 (F := Ideal) V c).arrAt_eq_of_cover 6 _ (fun t _ => (Fr.after0_6 V c t).trans (tile0_eq _ _ _ _ _ _ t))
    fun i => (mlpCover i).imp fun t h => ⟨flush0_6 t, (Finset.ext_iff.1 (View.set_slice_whole _ _) i).2 h⟩

/-- The reference's operations for the update: add, product with W₁, bias, maximum with zero, product with W₂, bias. -/
def refMlp0 (h a : Vec Ideal S32768x64 .f32) (W1 : Vec Ideal S64x128 .f32) (b1 : Vec Ideal S128 .f32)
    (W2 : Vec Ideal S128x128 .f32) (b2 : Vec Ideal S128 .f32) : Vec Ideal S32768x128 .f32 :=
  addf
    (Host.dotGeneral (φ₁ := .f32) (φ₂ := .f32) Cert.ReferenceIdeal.dot_S32768x128_S128x128_S32768x128_1_0_0_1_n_n none
      (maximumf
        (addf
          (Host.dotGeneral (φ₁ := .f32) (φ₂ := .f32) Cert.ReferenceIdeal.dot_S32768x64_S64x128_S32768x128_1_0_0_1_n_n none (addf (φ := .f32) h a) W1)
          (broadcastInDim Cert.ReferenceIdeal.S32768x128 ![0, 1] Cert.ReferenceIdeal.Gen.bcast_S1x128_S32768x128_0_1
            (broadcastInDim Cert.ReferenceIdeal.S1x128 ![1] Cert.ReferenceIdeal.Gen.bcast_S128_S1x128_1 b1)))
        (broadcastInDim Cert.ReferenceIdeal.S32768x128 ![] Cert.ReferenceIdeal.Gen.bcast_S_S32768x128
          (constant (F := Ideal) Cert.ReferenceIdeal.S_ .f32 0x00000000#32)))
      W2)
    (broadcastInDim Cert.ReferenceIdeal.S32768x128 ![0, 1] Cert.ReferenceIdeal.Gen.bcast_S1x128_S32768x128_0_1
      (broadcastInDim Cert.ReferenceIdeal.S1x128 ![1] Cert.ReferenceIdeal.Gen.bcast_S128_S1x128_1 b2))

open Cert.ReferenceIdeal.Read in
theorem ref_mlp0 (x0 : (⟨Cert.ReferenceIdeal.S32768x64, .f32⟩ : BufTy).Contents (Elt Ideal))
    (x1 : (⟨Cert.ReferenceIdeal.S524288, .f32⟩ : BufTy).Contents (Elt Ideal))
    (x2 : (⟨Cert.ReferenceIdeal.S64x128, .f32⟩ : BufTy).Contents (Elt Ideal))
    (x3 : (⟨Cert.ReferenceIdeal.S128, .f32⟩ : BufTy).Contents (Elt Ideal))
    (x4 : (⟨Cert.ReferenceIdeal.S128x128, .f32⟩ : BufTy).Contents (Elt Ideal))
    (x5 : (⟨Cert.ReferenceIdeal.S128, .f32⟩ : BufTy).Contents (Elt Ideal))
    (x38 : (⟨Cert.ReferenceIdeal.S2x524288, .i32⟩ : BufTy).Contents (Elt Ideal)) :
    val_main_v26 (F := Ideal) x0 x1 x2 x3 x4 x5 x38 = refMlp0 x0 (val_main_v16 (F := Ideal) x0 x1 x38) x2 x3 x4 x5 := rfl

open Cert.ReferenceIdeal.Read in
/-- The reference's product contracts one axis: it is the plain sum over that coordinate. -/
theorem refdot1_apply (L : FVec Ideal S32768x64 .f32) (R : FVec Ideal S64x128 .f32) (r : Fin 32768) (j : Fin 128) :
    Host.dotGeneral Cert.ReferenceIdeal.dot_S32768x64_S64x128_S32768x128_1_0_0_1_n_n none L R (ix2 r j)
      = ∑ l : Fin dIn0, L (ix2 r l) * R (ix2 l j) := by
  simp only [Host.dotGeneral]
  rw [Ideal.dotGeneral_apply]
  exact dot2_sum _ rfl rfl lhs_main_v18_0 lhs_main_v18_1 rhs_main_v18_0 rhs_main_v18_1 L R r j

open Cert.ReferenceIdeal.Read in
theorem refdot2_apply (L : FVec Ideal S32768x128 .f32) (R : FVec Ideal S128x128 .f32) (r : Fin 32768) (j : Fin 128) :
    Host.dotGeneral Cert.ReferenceIdeal.dot_S32768x128_S128x128_S32768x128_1_0_0_1_n_n none L R (ix2 r j)
      = ∑ k : Fin 128, L (ix2 r k) * R (ix2 k j) := by
  simp only [Host.dotGeneral]
  rw [Ideal.dotGeneral_apply]
  exact dot2_sum _ rfl rfl lhs_main_v23_0 lhs_main_v23_1 rhs_main_v23_0 rhs_main_v23_1 L R r j

open Cert.ReferenceIdeal.Read in
/-- A bias vector broadcast to one row and then over the rows reads, at (r, j), the vector at j. -/
theorem refbias_apply (b : Vec Ideal S128 .f32) (r : Fin 32768) (j : Fin 128) :
    broadcastInDim Cert.ReferenceIdeal.S32768x128 ![0, 1] Cert.ReferenceIdeal.Gen.bcast_S1x128_S32768x128_0_1
        (broadcastInDim Cert.ReferenceIdeal.S1x128 ![1] Cert.ReferenceIdeal.Gen.bcast_S128_S1x128_1 b) (ix2 r j) = b (ix1 j) :=
  (val_main_v20_apply (F := Ideal) b (ix2 r j)).trans ((val_main_v19_apply (F := Ideal) b _).trans
    (congrArg b (funext fun a => match a with | ⟨0, _⟩ => rfl)))

open Cert.ReferenceIdeal.Read in
theorem refzero_apply (i : S32768x128.Idx) :
    broadcastInDim Cert.ReferenceIdeal.S32768x128 ![] Cert.ReferenceIdeal.Gen.bcast_S_S32768x128
        (constant (F := Ideal) Cert.ReferenceIdeal.S_ .f32 0x00000000#32) i = (0 : EReal) :=
  (val_main_call0_v0_apply (F := Ideal) i).trans ((val_main_call0_cst_apply (F := Ideal) _).trans Ideal.ofBits_zero_f32)

/-- Both sides are the same sums over the same index sets, term by term. -/
theorem mlpK0_eq_ref (h a : Vec Ideal S32768x64 .f32) (W1 : Vec Ideal S64x128 .f32) (b1 : Vec Ideal S128 .f32)
    (W2 : Vec Ideal S128x128 .f32) (b2 : Vec Ideal S128 .f32) :
    mlpK0 h a W1 (shapeCast S1x128 b1 shapeCasts_S128_S1x128) W2
        (shapeCast S1x128 b2 shapeCasts_S128_S1x128) = refMlp0 h a W1 b1 W2 b2 := by
  funext i
  obtain ⟨r, j, rfl⟩ : ∃ (r : Fin 32768) (j : Fin 128), i = ix2 r j := ⟨i 0, i 1, eq_ix2 i⟩
  rw [mlpK0_apply]
  unfold refMlp0
  rw [addf_apply, refdot2_apply, refbias_apply, shapeCast_a_1a_apply]
  refine congrArg (· + b2 (ix1 j)) (Finset.sum_congr rfl fun k _ => ?_)
  rw [maximumf_apply, addf_apply, refdot1_apply, refbias_apply, refzero_apply, shapeCast_a_1a_apply]
  rfl

end Cert.KernelIdeal.Val

end
-- ==== Proof.KI.V1.lean ====
import proofs.«141374_j27161373180011_1_alg».proof.Proof.KI.R1
import proofs.«141374_j27161373180011_1_alg».proof.Proof.KI.R3
import proofs.«141374_j27161373180011_1_alg».proof.Proof.KI.R5
import proofs.«141374_j27161373180011_1_alg».proof.Proof.KI.R7
import proofs.«141374_j27161373180011_1_alg».proof.Proof.KI.R9
import proofs.«141374_j27161373180011_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.SL.Sem
open Idealize.ShloMosaic.Pipeline (Dat)
open Idealize.ShloMosaic.ValueIdx

/-- Batch normalisation of `h` by the one-row arrays γ, β, μ, σ²: entry (r, q) is (h[r, q] − μ[q]) · rsqrt(σ²[q] + ε) · γ[q] + β[q]. -/
def bnK (h : Vec Ideal S32768x128 .f32) (g be mu var : Vec Ideal S1x128 .f32) : Vec Ideal S32768x128 .f32 :=
  fun i => (h i - mu (ix2 (0 : Fin 1) (⟨(i 1).val, (i 1).isLt⟩ : Fin 128)))
      * Ideal.rsqrt (var (ix2 (0 : Fin 1) (⟨(i 1).val, (i 1).isLt⟩ : Fin 128)) + Ideal.ofBits .f32 0x3A83126F#32)
      * g (ix2 (0 : Fin 1) (⟨(i 1).val, (i 1).isLt⟩ : Fin 128))
    + be (ix2 (0 : Fin 1) (⟨(i 1).val, (i 1).isLt⟩ : Fin 128))

theorem Bn.pay_apply (x0 : Vec Ideal S4096x128 .f32) (xmu xvar xg xbe : Vec Ideal S1x128 .f32) (p : Fin 4096) (q : Fin 128) :
    k1_pay1 (F := Ideal) x0 xmu xvar xg xbe (ix2 p q)
      = (x0 (ix2 p q) - xmu (ix2 (0 : Fin 1) q)) * Ideal.rsqrt (xvar (ix2 (0 : Fin 1) q) + Ideal.ofBits .f32 0x3A83126F#32)
          * xg (ix2 (0 : Fin 1) q) + xbe (ix2 (0 : Fin 1) q) := by
  unfold k1_pay1
  simp only [shapeCast_self]
  rw [addf_apply, mulf_apply, mulf_apply, subf_apply, broadcastTo_1b_ab_apply, broadcastTo_1b_ab_apply,
    broadcastTo_1b_ab_apply, broadcastTo_1b_ab_apply]
  rfl

theorem Bn.tile_eq (A0 : Vec Ideal S32768x128 .f32) (A1 A2 A3 A4 : Vec Ideal S1x128 .f32)
    (b0 : Vec Ideal S4096x128 .f32) (b1 b2 b3 b4 : Vec Ideal S1x128 .f32) (i : S32768x128.Idx) (j : S4096x128.Idx)
    (h0 : b0 j = A0 i) (hi : (i 1).val = (j 1).val)
    (h1 : ∀ q : Fin 128, b1 (ix2 (0 : Fin 1) q) = A1 (ix2 (0 : Fin 1) q)) (h2 : ∀ q : Fin 128, b2 (ix2 (0 : Fin 1) q) = A2 (ix2 (0 : Fin 1) q))
    (h3 : ∀ q : Fin 128, b3 (ix2 (0 : Fin 1) q) = A3 (ix2 (0 : Fin 1) q)) (h4 : ∀ q : Fin 128, b4 (ix2 (0 : Fin 1) q) = A4 (ix2 (0 : Fin 1) q)) :
    k1_pay1 (F := Ideal) b0 b3 b4 b1 b2 j = bnK A0 A1 A2 A3 A4 i := by
  obtain ⟨p, q, rfl⟩ : ∃ (p : Fin 4096) (q : Fin 128), j = ix2 p q := ⟨j 0, j 1, eq_ix2 j⟩
  have hq : (⟨(i 1).val, (i 1).isLt⟩ : Fin 128) = q := Fin.ext hi
  rw [Bn.pay_apply, h0, h1, h2, h3, h4]
  unfold bnK
  rw [hq]

theorem Bn.row_read (A : Vec Ideal S1x128 .f32) (k : S1x128.Idx) (q : Fin 128) (h0 : (k 0).val = 0) (h1 : (k 1).val = q.val) :
    A k = A (ix2 (0 : Fin 1) q) :=
  congrArg A (funext fun a => Fin.ext (by match a with | ⟨0, _⟩ => exact h0 | ⟨1, _⟩ => exact h1))

theorem Bn.hz : (![0, 0] : Fin 2 → Nat) = fun _ => 0 := funext fun a => by fin_cases a <;> rfl

theorem Bn.idx : ∀ t : Fin cfg1.N, win1_5.index t (0 : Fin 2) = t.val ∧ win1_5.index t (1 : Fin 2) = 0 :=
  (by decide +kernel : ∀ t : Fin grid1.N, _)

set_option maxHeartbeats 1000000 in
/-- Over any arrays, point `t`'s result is tile `t` of `bnK` of them: the five regions differ only in the arrays they read, so this serves all. -/
theorem Bn.flushed (A0 : Vec Ideal S32768x128 .f32) (A1 A2 A3 A4 : Vec Ideal S1x128 .f32) (t : Fin cfg1.N) :
    (cfg1.win 5).cut (grid1.coords t) (Fr.out1_5 (((cfg1.win 0).blk t).view.read (Elt Ideal) A0)
        (((cfg1.win 1).blk t).view.read (Elt Ideal) A1) (((cfg1.win 2).blk t).view.read (Elt Ideal) A2)
        (((cfg1.win 3).blk t).view.read (Elt Ideal) A3) (((cfg1.win 4).blk t).view.read (Elt Ideal) A4))
      = ((cfg1.win 5).blk t).view.read (Elt Ideal) (bnK A0 A1 A2 A3 A4) := by
  unfold Fr.out1_5
  rw [View.canon_unit_zero Bn.hz]
  simp only [View.ld_unit_zero (S := S4096x128) Bn.hz, View.ld_unit_zero (S := S1x128) Bn.hz]
  exact funext fun (j : S4096x128.Idx) => Bn.tile_eq A0 A1 A2 A3 A4 _ _ _ _ _ (((cfg1.win 5).blk t).view.emb j) j rfl
    (win1_5.rect_emb_val_of_index_zero t (1 : Fin 2) rfl j)
    (fun q => Bn.row_read A1 _ q (win1_1.rect_emb_val_of_index_zero t (0 : Fin 2) rfl _) (win1_1.rect_emb_val_of_index_zero t (1 : Fin 2) rfl _))
    (fun q => Bn.row_read A2 _ q (win1_2.rect_emb_val_of_index_zero t (0 : Fin 2) rfl _) (win1_2.rect_emb_val_of_index_zero t (1 : Fin 2) rfl _))
    (fun q => Bn.row_read A3 _ q (win1_3.rect_emb_val_of_index_zero t (0 : Fin 2) rfl _) (win1_3.rect_emb_val_of_index_zero t (1 : Fin 2) rfl _))
    (fun q => Bn.row_read A4 _ q (win1_4.rect_emb_val_of_index_zero t (0 : Fin 2) rfl _) (win1_4.rect_emb_val_of_index_zero t (1 : Fin 2) rfl _))

/-- Row `r` lies in the tile of point `r / 4096`, so the eight tiles cover the array. -/
theorem Bn.cover (i : S32768x128.Idx) : ∃ t : Fin cfg1.N, (cfg1.win 5).flush t = true ∧ i ∈ ((cfg1.win 5).blk t).view.set := by
  have hi0 : (i 0).val < 32768 := (i 0).isLt
  have hi1 : (i 1).val < 128 := (i 1).isLt
  have hN : grid1.N = 8 := N_1
  have hlt : (i 0).val / 4096 < grid1.N := by omega
  obtain ⟨g0, g1⟩ := Bn.idx ⟨(i 0).val / 4096, hlt⟩
  refine ⟨⟨(i 0).val / 4096, hlt⟩, flush1_5 _, ?_⟩
  show i ∈ ((View.whole main_v24).slice (win1_5.rect ⟨(i 0).val / 4096, hlt⟩)).set
  rw [View.set_slice_whole, Rect.mem_set_unit]
  intro a
  match a with
  | ⟨0, _⟩ =>
    show win1_5.index ⟨(i 0).val / 4096, hlt⟩ (0 : Fin 2) * 4096 ≤ (i 0).val
      ∧ (i 0).val < win1_5.index ⟨(i 0).val / 4096, hlt⟩ (0 : Fin 2) * 4096 + 4096
    rw [g0]; show (i 0).val / 4096 * 4096 ≤ (i 0).val ∧ (i 0).val < (i 0).val / 4096 * 4096 + 4096; omega
  | ⟨1, _⟩ =>
    show win1_5.index ⟨(i 0).val / 4096, hlt⟩ (1 : Fin 2) * 128 ≤ (i 1).val
      ∧ (i 1).val < win1_5.index ⟨(i 0).val / 4096, hlt⟩ (1 : Fin 2) * 128 + 128
    rw [g1]; omega

section Regions

variable (V : (c : Dev nD) → (b : Ref sig .tc) → Buf (Elt Ideal) ((c : Thread nD τ).loc b))

theorem final1 (c : Dev nD) :
    (Cert.KernelIdeal.Fr.dat1 (F := Ideal) V c).arrAt 5 cfg1.N
      = bnK (V c (Pipeline.arrRef spec1 0)) (V c (Pipeline.arrRef spec1 1)) (V c (Pipeline.arrRef spec1 2))
          (V c (Pipeline.arrRef spec1 3)) (V c (Pipeline.arrRef spec1 4)) :=
  (Fr.dat1 (F := Ideal) V c).arrAt_eq_of_cover 5 _
    (fun t _ => (congrArg ((cfg1.win 5).cut (grid1.coords t)) (Fr.after1_5 V c t)).trans (Bn.flushed _ _ _ _ _ t)) Bn.cover

theorem final3 (c : Dev nD) :
    (Cert.KernelIdeal.Fr.dat3 (F := Ideal) V c).arrAt 5 cfg3.N
      = bnK (V c (Pipeline.arrRef spec3 0)) (V c (Pipeline.arrRef spec3 1)) (V c (Pipeline.arrRef spec3 2))
          (V c (Pipeline.arrRef spec3 3)) (V c (Pipeline.arrRef spec3 4)) :=
  (Fr.dat3 (F := Ideal) V c).arrAt_eq_of_cover 5 _
    (fun t _ => (congrArg ((cfg3.win 5).cut (grid3.coords t)) (Fr.after3_5 V c t)).trans (Bn.flushed _ _ _ _ _ t)) Bn.cover

theorem final5 (c : Dev nD) :
    (Cert.KernelIdeal.Fr.dat5 (F := Ideal) V c).arrAt 5 cfg5.N
      = bnK (V c (Pipeline.arrRef spec5 0)) (V c (Pipeline.arrRef spec5 1)) (V c (Pipeline.arrRef spec5 2))
          (V c (Pipeline.arrRef spec5 3)) (V c (Pipeline.arrRef spec5 4)) :=
  (Fr.dat5 (F := Ideal) V c).arrAt_eq_of_cover 5 _
    (fun t _ => (congrArg ((cfg5.win 5).cut (grid5.coords t)) (Fr.after5_5 V c t)).trans (Bn.flushed _ _ _ _ _ t)) Bn.cover

theorem final7 (c : Dev nD) :
    (Cert.KernelIdeal.Fr.dat7 (F := Ideal) V c).arrAt 5 cfg7.N
      = bnK (V c (Pipeline.arrRef spec7 0)) (V c (Pipeline.arrRef spec7 1)) (V c (Pipeline.arrRef spec7 2))
          (V c (Pipeline.arrRef spec7 3)) (V c (Pipeline.arrRef spec7 4)) :=
  (Fr.dat7 (F := Ideal) V c).arrAt_eq_of_cover 5 _
    (fun t _ => (congrArg ((cfg7.win 5).cut (grid7.coords t)) (Fr.after7_5 V c t)).trans (Bn.flushed _ _ _ _ _ t)) Bn.cover

theorem final9 (c : Dev nD) :
    (Cert.KernelIdeal.Fr.dat9 (F := Ideal) V c).arrAt 5 cfg9.N
      = bnK (V c (Pipeline.arrRef spec9 0)) (V c (Pipeline.arrRef spec9 1)) (V c (Pipeline.arrRef spec9 2))
          (V c (Pipeline.arrRef spec9 3)) (V c (Pipeline.arrRef spec9 4)) :=
  (Fr.dat9 (F := Ideal) V c).arrAt_eq_of_cover 5 _
    (fun t _ => (congrArg ((cfg9.win 5).cut (grid9.coords t)) (Fr.after9_5 V c t)).trans (Bn.flushed _ _ _ _ _ t)) Bn.cover

end Regions

def refBn (h : Vec Ideal S32768x128 .f32) (g be mu var : Vec Ideal S128 .f32) : Vec Ideal S32768x128 .f32 :=
  addf
    (mulf
      (mulf
        (subf h (broadcastInDim Cert.ReferenceIdeal.S32768x128 ![0, 1] Cert.ReferenceIdeal.Gen.bcast_S1x128_S32768x128_0_1 (broadcastInDim Cert.ReferenceIdeal.S1x128 ![1] Cert.ReferenceIdeal.Gen.bcast_S128_S1x128_1 mu)))
        (broadcastInDim Cert.ReferenceIdeal.S32768x128 ![0, 1] Cert.ReferenceIdeal.Gen.bcast_S1x128_S32768x128_0_1 (broadcastInDim Cert.ReferenceIdeal.S1x128 ![1] Cert.ReferenceIdeal.Gen.bcast_S128_S1x128_1
          (Host.rsqrt (addf var (broadcastInDim Cert.ReferenceIdeal.S128 ![] Cert.ReferenceIdeal.Gen.bcast_S_S128 (constant (F := Ideal) Cert.ReferenceIdeal.S_ .f32 0x3A83126F#32)))))))
      (broadcastInDim Cert.ReferenceIdeal.S32768x128 ![0, 1] Cert.ReferenceIdeal.Gen.bcast_S1x128_S32768x128_0_1 (broadcastInDim Cert.ReferenceIdeal.S1x128 ![1] Cert.ReferenceIdeal.Gen.bcast_S128_S1x128_1 g)))
    (broadcastInDim Cert.ReferenceIdeal.S32768x128 ![0, 1] Cert.ReferenceIdeal.Gen.bcast_S1x128_S32768x128_0_1 (broadcastInDim Cert.ReferenceIdeal.S1x128 ![1] Cert.ReferenceIdeal.Gen.bcast_S128_S1x128_1 be))

theorem Bn.rowBcast_apply (y : Vec Ideal S128 .f32) (r : Fin 32768) (q : Fin 128) :
    broadcastInDim Cert.ReferenceIdeal.S32768x128 ![0, 1] Cert.ReferenceIdeal.Gen.bcast_S1x128_S32768x128_0_1 (broadcastInDim Cert.ReferenceIdeal.S1x128 ![1] Cert.ReferenceIdeal.Gen.bcast_S128_S1x128_1 y) (ix2 r q) = y (ix1 q) := by
  refine (broadcastInDim_apply _ Cert.ReferenceIdeal.Gen.bcast_S1x128_S32768x128_0_1 _ (ix2 r q) (ix2 (0 : Fin 1) q) (fun a => match a with
    | ⟨0, _⟩ => by show 0 = if (1 : Nat) = 1 then 0 else r.val; rw [if_pos rfl]
    | ⟨1, _⟩ => by show q.val = if (128 : Nat) = 1 then 0 else q.val; rw [if_neg (by decide)])).trans ?_
  exact broadcastInDim_apply _ Cert.ReferenceIdeal.Gen.bcast_S128_S1x128_1 y (ix2 (0 : Fin 1) q) (ix1 q) (fun a => match a with
    | ⟨0, _⟩ => by show q.val = if (128 : Nat) = 1 then 0 else q.val; rw [if_neg (by decide)])

theorem bnK_eq_ref (h : Vec Ideal S32768x128 .f32) (g be mu var : Vec Ideal S128 .f32) (hc : S128.ShapeCasts S1x128) :
    bnK h (shapeCast S1x128 g hc) (shapeCast S1x128 be hc) (shapeCast S1x128 mu hc) (shapeCast S1x128 var hc) = refBn h g be mu var := by
  funext i
  obtain ⟨r, q, rfl⟩ : ∃ (r : Fin 32768) (q : Fin 128), i = ix2 r q := ⟨i 0, i 1, eq_ix2 i⟩
  unfold refBn
  rw [addf_apply, mulf_apply, mulf_apply, subf_apply, Bn.rowBcast_apply, Bn.rowBcast_apply, Bn.rowBcast_apply, Bn.rowBcast_apply]
  unfold bnK
  show (h (ix2 r q) - shapeCast S1x128 mu hc (ix2 (0 : Fin 1) q))
      * Ideal.rsqrt (shapeCast S1x128 var hc (ix2 (0 : Fin 1) q) + Ideal.ofBits .f32 0x3A83126F#32)
      * shapeCast S1x128 g hc (ix2 (0 : Fin 1) q) + shapeCast S1x128 be hc (ix2 (0 : Fin 1) q) = _
  rw [shapeCast_a_1a_apply, shapeCast_a_1a_apply, shapeCast_a_1a_apply, shapeCast_a_1a_apply]
  rfl

section RefStages

open Cert.ReferenceIdeal.Read

variable (x0 : (⟨Cert.ReferenceIdeal.S32768x64, .f32⟩ : BufTy).Contents (Elt Ideal))
  (x1 : (⟨Cert.ReferenceIdeal.S524288, .f32⟩ : BufTy).Contents (Elt Ideal))
  (x2 : (⟨Cert.ReferenceIdeal.S64x128, .f32⟩ : BufTy).Contents (Elt Ideal))
  (x3 : (⟨Cert.ReferenceIdeal.S128, .f32⟩ : BufTy).Contents (Elt Ideal))
  (x4 : (⟨Cert.ReferenceIdeal.S128x128, .f32⟩ : BufTy).Contents (Elt Ideal))
  (x5 : (⟨Cert.ReferenceIdeal.S128, .f32⟩ : BufTy).Contents (Elt Ideal))
  (x6 : (⟨Cert.ReferenceIdeal.S128x128, .f32⟩ : BufTy).Contents (Elt Ideal))
  (x7 : (⟨Cert.ReferenceIdeal.S128, .f32⟩ : BufTy).Contents (Elt Ideal))
  (x8 : (⟨Cert.ReferenceIdeal.S128x128, .f32⟩ : BufTy).Contents (Elt Ideal))
  (x9 : (⟨Cert.ReferenceIdeal.S128, .f32⟩ : BufTy).Contents (Elt Ideal))
  (x10 : (⟨Cert.ReferenceIdeal.S128x128, .f32⟩ : BufTy).Contents (Elt Ideal))
  (x11 : (⟨Cert.ReferenceIdeal.S128, .f32⟩ : BufTy).Contents (Elt Ideal))
  (x12 : (⟨Cert.ReferenceIdeal.S128x128, .f32⟩ : BufTy).Contents (Elt Ideal))
  (x13 : (⟨Cert.ReferenceIdeal.S128, .f32⟩ : BufTy).Contents (Elt Ideal))
  (x14 : (⟨Cert.ReferenceIdeal.S128x128, .f32⟩ : BufTy).Contents (Elt Ideal))
  (x15 : (⟨Cert.ReferenceIdeal.S128, .f32⟩ : BufTy).Contents (Elt Ideal))
  (x16 : (⟨Cert.ReferenceIdeal.S128x128, .f32⟩ : BufTy).Contents (Elt Ideal))
  (x17 : (⟨Cert.ReferenceIdeal.S128, .f32⟩ : BufTy).Contents (Elt Ideal))
  (x18 : (⟨Cert.ReferenceIdeal.S128x128, .f32⟩ : BufTy).Contents (Elt Ideal))
  (x19 : (⟨Cert.ReferenceIdeal.S128, .f32⟩ : BufTy).Contents (Elt Ideal))
  (x20 : (⟨Cert.ReferenceIdeal.S128x128, .f32⟩ : BufTy).Contents (Elt Ideal))
  (x21 x22 x23 x24 x25 x26 x27 x28 x29 x30 x31 x32 x33 : (⟨Cert.ReferenceIdeal.S128, .f32⟩ : BufTy).Contents (Elt Ideal))
  (x38 : (⟨Cert.ReferenceIdeal.S2x524288, .i32⟩ : BufTy).Contents (Elt Ideal))

theorem ref_bn1 :
    val_main_v41 (F := Ideal) x0 x1 x2 x3 x4 x5 x22 x23 x24 x25 x38
      = refBn (val_main_v26 (F := Ideal) x0 x1 x2 x3 x4 x5 x38) x22 x23 x24 x25 := by
  unfold val_main_v41 val_main_v40 val_main_v39 val_main_v38 val_main_v37 val_main_v36 val_main_v35 val_main_v34 val_main_v33 val_main_v32 val_main_v31 val_main_v30 val_main_v29 val_main_v28 val_main_v27 val_main_cst_1 refBn
  rfl

theorem ref_bn2 :
    val_main_v79 (F := Ideal) x0 x1 x2 x3 x4 x5 x6 x7 x8 x9 x22 x23 x24 x25 x38
      = refBn (val_main_v64 (F := Ideal) x0 x1 x2 x3 x4 x5 x6 x7 x8 x9 x22 x23 x24 x25 x38) x22 x23 x24 x25 := by
  unfold val_main_v79 val_main_v78 val_main_v77 val_main_v76 val_main_v75 val_main_v74 val_main_v73 val_main_v72 val_main_v71 val_main_v70 val_main_v69 val_main_v68 val_main_v67 val_main_v66 val_main_v65 val_main_cst_5 refBn
  rfl

theorem ref_bn3 :
    val_main_v117 (F := Ideal) x0 x1 x2 x3 x4 x5 x6 x7 x8 x9 x10 x11 x12 x13 x22 x23 x24 x25 x26 x27 x28 x29 x38
      = refBn (val_main_v102 (F := Ideal) x0 x1 x2 x3 x4 x5 x6 x7 x8 x9 x10 x11 x12 x13 x22 x23 x24 x25 x38) x26 x27 x28 x29 := by
  unfold val_main_v117 val_main_v116 val_main_v115 val_main_v114 val_main_v113 val_main_v112 val_main_v111 val_main_v110 val_main_v109 val_main_v108 val_main_v107 val_main_v106 val_main_v105 val_main_v104 val_main_v103 val_main_cst_9 refBn
  rfl

theorem ref_bn4 :
    val_main_v155 (F := Ideal) x0 x1 x2 x3 x4 x5 x6 x7 x8 x9 x10 x11 x12 x13 x14 x15 x16 x17 x22 x23 x24 x25 x26 x27 x28 x29 x30 x31 x32 x33 x38
      = refBn (val_main_v140 (F := Ideal) x0 x1 x2 x3 x4 x5 x6 x7 x8 x9 x10 x11 x12 x13 x14 x15 x16 x17 x22 x23 x24 x25 x26 x27 x28 x29 x38) x30 x31 x32 x33 := by
  unfold val_main_v155 val_main_v154 val_main_v153 val_main_v152 val_main_v151 val_main_v150 val_main_v149 val_main_v148 val_main_v147 val_main_v146 val_main_v145 val_main_v144 val_main_v143 val_main_v142 val_main_v141 val_main_cst_13 refBn
  rfl

theorem ref_bn5 :
    val_main_v193 (F := Ideal) x0 x1 x2 x3 x4 x5 x6 x7 x8 x9 x10 x11 x12 x13 x14 x15 x16 x17 x18 x19 x20 x21 x22 x23 x24 x25 x26 x27 x28 x29 x30 x31 x32 x33 x38
      = refBn (val_main_v178 (F := Ideal) x0 x1 x2 x3 x4 x5 x6 x7 x8 x9 x10 x11 x12 x13 x14 x15 x16 x17 x18 x19 x20 x21 x22 x23 x24 x25 x26 x27 x28 x29 x30 x31 x32 x33 x38) x30 x31 x32 x33 := by
  unfold val_main_v193 val_main_v192 val_main_v191 val_main_v190 val_main_v189 val_main_v188 val_main_v187 val_main_v186 val_main_v185 val_main_v184 val_main_v183 val_main_v182 val_main_v181 val_main_v180 val_main_v179 val_main_cst_17 refBn
  rfl

end RefStages

end Cert.KernelIdeal.Val

end
-- ==== Proof.KI.V2.lean ====
import proofs.«141374_j27161373180011_1_alg».proof.Proof.KI.V0
import proofs.«141374_j27161373180011_1_alg».proof.Proof.KI.R2
import proofs.«141374_j27161373180011_1_alg».proof.Proof.KI.R4
import proofs.«141374_j27161373180011_1_alg».proof.Proof.KI.R6
import proofs.«141374_j27161373180011_1_alg».proof.Proof.KI.R8

noncomputable section

namespace Cert.KernelIdeal.Val

open Cert.KernelIdeal Cert.KernelIdeal.Gen
open Idealize.ShloMosaic Idealize.ShloMosaic.TcCoe Idealize.SL.Sem
open Idealize.ShloMosaic.ValueIdx
open Idealize.ShloMosaic.Pipeline (Dat)
open scoped BigOperators

/-- out(r, j) = Σ_k max(Σ_l (h(r, l) + a(r, l)) · W₁(l, k) + b₁(0, k), 0) · W₂(k, j) + b₂(0, j), on 32768 rows of width 128. -/
def mlpK2 (h a : Vec Ideal S32768x128 .f32) (W1 : Vec Ideal S128x128 .f32) (b1 : Vec Ideal S1x128 .f32)
    (W2 : Vec Ideal S128x128 .f32) (b2 : Vec Ideal S1x128 .f32) : Vec Ideal S32768x128 .f32 :=
  fun i => (∑ k : Fin 128, max ((∑ l : Fin 128, (h (ix2 (i 0) l) + a (ix2 (i 0) l)) * W1 (ix2 l k)) + b1 (ix2 (0 : Fin 1) k)) 0
      * W2 (ix2 k (i 1))) + b2 (ix2 (0 : Fin 1) (i 1))

theorem mlpK2_apply (h a : Vec Ideal S32768x128 .f32) (W1 : Vec Ideal S128x128 .f32) (b1 : Vec Ideal S1x128 .f32)
    (W2 : Vec Ideal S128x128 .f32) (b2 : Vec Ideal S1x128 .f32) (r : Fin 32768) (j : Fin 128) :
    mlpK2 h a W1 b1 W2 b2 (ix2 r j)
      = (∑ k : Fin 128, max ((∑ l : Fin 128, (h (ix2 r l) + a (ix2 r l)) * W1 (ix2 l k)) + b1 (ix2 (0 : Fin 1) k)) 0
          * W2 (ix2 k j)) + b2 (ix2 (0 : Fin 1) j) := rfl

/-- Each product contracts 128 coordinates and is a plain sum; a bias row is read at the column. -/
theorem pay2_apply (x0 x1 : Vec Ideal S4096x128 .f32) (x2 : Vec Ideal S128x128 .f32) (x3 : Vec Ideal S1x128 .f32)
    (x4 : Vec Ideal S128x128 .f32) (x5 : Vec Ideal S1x128 .f32) (p : Fin 4096) (q : Fin 128) :
    k2_pay1 (F := Ideal) x0 x1 x2 x3 x4 x5 (ix2 p q)
      = (∑ k : Fin 128, max ((∑ l : Fin 128, (x0 (ix2 p l) + x1 (ix2 p l)) * x2 (ix2 l k)) + x3 (ix2 (0 : Fin 1) k)) 0
          * x4 (ix2 k q)) + x5 (ix2 (0 : Fin 1) q) := by
  unfold k2_pay1
  have hz0 : (FloatOps.ofBits (F := Ideal) FTy.f32 0x00000000#32) = (0 : EReal) := Ideal.ofBits_zero_f32
  rw [addf_apply, mm2_apply, broadcastTo_1b_ab_apply, shapeCast_self]
  simp only [truncf_apply, maximumf_apply, addf_apply, mm2_apply, broadcastTo_1b_ab_apply, shapeCast_self, broadcast_apply, hz0]

/-- A row of the output depends on the same row of h and a only: the body on block t of the inputs gives block t of mlpK2. -/
theorem tile2_eq (h a : Vec Ideal S32768x128 .f32) (W1 : Vec Ideal S128x128 .f32) (b1 : Vec Ideal S1x128 .f32)
    (W2 : Vec Ideal S128x128 .f32) (b2 : Vec Ideal S1x128 .f32) (t : Fin grid0.N) :
    Fr.out2_6 (F := Ideal) (mlpRows t h) (mlpRows t a) ((win0_4.blk t).view.read (Elt Ideal) W1) ((win0_3.blk t).view.read (Elt Ideal) b1)
        ((win0_4.blk t).view.read (Elt Ideal) W2) ((win0_3.blk t).view.read (Elt Ideal) b2)
      = mlpRows t (mlpK2 h a W1 b1 W2 b2) := by
  rw [mlpWhole128, mlpWhole128, mlpWhole1, mlpWhole1]
  unfold Fr.out2_6
  rw [View.canon_unit_zero hz]
  simp only [View.ld_unit_zero (S := S4096x128) hz, View.ld_unit_zero (S := S128x128) hz, View.ld_unit_zero (S := S1x128) hz]
  funext j
  obtain ⟨p, q, rfl⟩ : ∃ (p : Fin 4096) (q : Fin 128), j = ix2 p q := ⟨j 0, j 1, eq_ix2 j⟩
  rw [pay2_apply]
  simp only [mlpRows_apply, mlpK2_apply]

variable (V : (c : Dev nD) → (b : Ref sig .tc) → Buf (Elt Ideal) ((c : Thread nD τ).loc b))

/-- After a region's run its output array is mlpK2 of the arrays the region found. -/
theorem final2 (c : Dev nD) :
    (Fr.dat2 (F := Ideal) V c).arrAt 6 cfg2.N
      = mlpK2 (V c (Pipeline.arrRef spec2 0)) (V c (Pipeline.arrRef spec2 1)) (V c (Pipeline.arrRef spec2 2))
          (V c (Pipeline.arrRef spec2 3)) (V c (Pipeline.arrRef spec2 4)) (V c (Pipeline.arrRef spec2 5)) :=
  (Fr.dat2 (F := Ideal) V c).arrAt_eq_of_cover 6 _ (fun t _ => (Fr.after2_6 V c t).trans (tile2_eq _ _ _ _ _ _ t))
    fun i => (mlpCover i).imp fun t h => ⟨flush2_6 t, (Finset.ext_iff.1 (View.set_slice_whole _ _) i).2 h⟩

theorem final4 (c : Dev nD) :
    (Fr.dat4 (F := Ideal) V c).arrAt 6 cfg4.N
      = mlpK2 (V c (Pipeline.arrRef spec4 0)) (V c (Pipeline.arrRef spec4 1)) (V c (Pipeline.arrRef spec4 2))
          (V c (Pipeline.arrRef spec4 3)) (V c (Pipeline.arrRef spec4 4)) (V c (Pipeline.arrRef spec4 5)) :=
  (Fr.dat4 (F := Ideal) V c).arrAt_eq_of_cover 6 _ (fun t _ => (Fr.after4_6 V c t).trans (tile2_eq _ _ _ _ _ _ t))
    fun i => (mlpCover i).imp fun t h => ⟨flush4_6 t, (Finset.ext_iff.1 (View.set_slice_whole _ _) i).2 h⟩

theorem final6 (c : Dev nD) :
    (Fr.dat6 (F := Ideal) V c).arrAt 6 cfg6.N
      = mlpK2 (V c (Pipeline.arrRef spec6 0)) (V c (Pipeline.arrRef spec6 1)) (V c (Pipeline.arrRef spec6 2))
          (V c (Pipeline.arrRef spec6 3)) (V c (Pipeline.arrRef spec6 4)) (V c (Pipeline.arrRef spec6 5)) :=
  (Fr.dat6 (F := Ideal) V c).arrAt_eq_of_cover 6 _ (fun t _ => (Fr.after6_6 V c t).trans (tile2_eq _ _ _ _ _ _ t))
    fun i => (mlpCover i).imp fun t h => ⟨flush6_6 t, (Finset.ext_iff.1 (View.set_slice_whole _ _) i).2 h⟩

theorem final8 (c : Dev nD) :
    (Fr.dat8 (F := Ideal) V c).arrAt 6 cfg8.N
      = mlpK2 (V c (Pipeline.arrRef spec8 0)) (V c (Pipeline.arrRef spec8 1)) (V c (Pipeline.arrRef spec8 2))
          (V c (Pipeline.arrRef spec8 3)) (V c (Pipeline.arrRef spec8 4)) (V c (Pipeline.arrRef spec8 5)) :=
  (Fr.dat8 (F := Ideal) V c).arrAt_eq_of_cover 6 _ (fun t _ => (Fr.after8_6 V c t).trans (tile2_eq _ _ _ _ _ _ t))
    fun i => (mlpCover i).imp fun t h => ⟨flush8_6 t, (Finset.ext_iff.1 (View.set_slice_whole _ _) i).2 h⟩

/-- The reference's operations for one update: add, product with W₁, bias, maximum with zero, product with W₂, bias. -/
def refMlp2 (h a : Vec Ideal S32768x128 .f32) (W1 : Vec Ideal S128x128 .f32) (b1 : Vec Ideal S128 .f32)
    (W2 : Vec Ideal S128x128 .f32) (b2 : Vec Ideal S128 .f32) : Vec Ideal S32768x128 .f32 :=
  addf
    (Host.dotGeneral (φ₁ := .f32) (φ₂ := .f32) Cert.ReferenceIdeal.dot_S32768x128_S128x128_S32768x128_1_0_0_1_n_n none
      (maximumf
        (addf
          (Host.dotGeneral (φ₁ := .f32) (φ₂ := .f32) Cert.ReferenceIdeal.dot_S32768x128_S128x128_S32768x128_1_0_0_1_n_n none (addf (φ := .f32) h a) W1)
          (broadcastInDim Cert.ReferenceIdeal.S32768x128 ![0, 1] Cert.ReferenceIdeal.Gen.bcast_S1x128_S32768x128_0_1
            (broadcastInDim Cert.ReferenceIdeal.S1x128 ![1] Cert.ReferenceIdeal.Gen.bcast_S128_S1x128_1 b1)))
        (broadcastInDim Cert.ReferenceIdeal.S32768x128 ![] Cert.ReferenceIdeal.Gen.bcast_S_S32768x128
          (constant (F := Ideal) Cert.ReferenceIdeal.S_ .f32 0x00000000#32)))
      W2)
    (broadcastInDim Cert.ReferenceIdeal.S32768x128 ![0, 1] Cert.ReferenceIdeal.Gen.bcast_S1x128_S32768x128_0_1
      (broadcastInDim Cert.ReferenceIdeal.S1x128 ![1] Cert.ReferenceIdeal.Gen.bcast_S128_S1x128_1 b2))

section
open Cert.ReferenceIdeal.Read

variable (x0 : (⟨Cert.ReferenceIdeal.S32768x64, .f32⟩ : BufTy).Contents (Elt Ideal))
  (x1 : (⟨Cert.ReferenceIdeal.S524288, .f32⟩ : BufTy).Contents (Elt Ideal))
  (x2 : (⟨Cert.ReferenceIdeal.S64x128, .f32⟩ : BufTy).Contents (Elt Ideal))
  (x3 : (⟨Cert.ReferenceIdeal.S128, .f32⟩ : BufTy).Contents (Elt Ideal))
  (x4 : (⟨Cert.ReferenceIdeal.S128x128, .f32⟩ : BufTy).Contents (Elt Ideal))
  (x5 : (⟨Cert.ReferenceIdeal.S128, .f32⟩ : BufTy).Contents (Elt Ideal))
  (x6 : (⟨Cert.ReferenceIdeal.S128x128, .f32⟩ : BufTy).Contents (Elt Ideal))
  (x7 : (⟨Cert.ReferenceIdeal.S128, .f32⟩ : BufTy).Contents (Elt Ideal))
  (x8 : (⟨Cert.ReferenceIdeal.S128x128, .f32⟩ : BufTy).Contents (Elt Ideal))
  (x9 : (⟨Cert.ReferenceIdeal.S128, .f32⟩ : BufTy).Contents (Elt Ideal))
  (x10 : (⟨Cert.ReferenceIdeal.S128x128, .f32⟩ : BufTy).Contents (Elt Ideal))
  (x11 : (⟨Cert.ReferenceIdeal.S128, .f32⟩ : BufTy).Contents (Elt Ideal))
  (x12 : (⟨Cert.ReferenceIdeal.S128x128, .f32⟩ : BufTy).Contents (Elt Ideal))
  (x13 : (⟨Cert.ReferenceIdeal.S128, .f32⟩ : BufTy).Contents (Elt Ideal))
  (x14 : (⟨Cert.ReferenceIdeal.S128x128, .f32⟩ : BufTy).Contents (Elt Ideal))
  (x15 : (⟨Cert.ReferenceIdeal.S128, .f32⟩ : BufTy).Contents (Elt Ideal))
  (x16 : (⟨Cert.ReferenceIdeal.S128x128, .f32⟩ : BufTy).Contents (Elt Ideal))
  (x17 : (⟨Cert.ReferenceIdeal.S128, .f32⟩ : BufTy).Contents (Elt Ideal))
  (x18 : (⟨Cert.ReferenceIdeal.S128x128, .f32⟩ : BufTy).Contents (Elt Ideal))
  (x19 : (⟨Cert.ReferenceIdeal.S128, .f32⟩ : BufTy).Contents (Elt Ideal))
  (x20 : (⟨Cert.ReferenceIdeal.S128x128, .f32⟩ : BufTy).Contents (Elt Ideal))
  (x21 x22 x23 x24 x25 x26 x27 x28 x29 x30 x31 x32 x33 : (⟨Cert.ReferenceIdeal.S128, .f32⟩ : BufTy).Contents (Elt Ideal))
  (x38 : (⟨Cert.ReferenceIdeal.S2x524288, .i32⟩ : BufTy).Contents (Elt Ideal))

/-- The reference's layers 2 to 5 are this composition at their own stages and arguments. -/
theorem ref_mlp2 :
    val_main_v64 (F := Ideal) x0 x1 x2 x3 x4 x5 x6 x7 x8 x9 x22 x23 x24 x25 x38
      = refMlp2 (val_main_v41 (F := Ideal) x0 x1 x2 x3 x4 x5 x22 x23 x24 x25 x38) (val_main_v54 (F := Ideal) x0 x1 x2 x3 x4 x5 x22 x23 x24 x25 x38) x6 x7 x8 x9 := rfl

theorem ref_mlp3 :
    val_main_v102 (F := Ideal) x0 x1 x2 x3 x4 x5 x6 x7 x8 x9 x10 x11 x12 x13 x22 x23 x24 x25 x38
      = refMlp2 (val_main_v79 (F := Ideal) x0 x1 x2 x3 x4 x5 x6 x7 x8 x9 x22 x23 x24 x25 x38) (val_main_v92 (F := Ideal) x0 x1 x2 x3 x4 x5 x6 x7 x8 x9 x22 x23 x24 x25 x38) x10 x11 x12 x13 := rfl

theorem ref_mlp4 :
    val_main_v140 (F := Ideal) x0 x1 x2 x3 x4 x5 x6 x7 x8 x9 x10 x11 x12 x13 x14 x15 x16 x17 x22 x23 x24 x25 x26 x27 x28 x29 x38
      = refMlp2 (val_main_v117 (F := Ideal) x0 x1 x2 x3 x4 x5 x6 x7 x8 x9 x10 x11 x12 x13 x22 x23 x24 x25 x26 x27 x28 x29 x38) (val_main_v130 (F := Ideal) x0 x1 x2 x3 x4 x5 x6 x7 x8 x9 x10 x11 x12 x13 x22 x23 x24 x25 x26 x27 x28 x29 x38) x14 x15 x16 x17 := rfl

theorem ref_mlp5 :
    val_main_v178 (F := Ideal) x0 x1 x2 x3 x4 x5 x6 x7 x8 x9 x10 x11 x12 x13 x14 x15 x16 x17 x18 x19 x20 x21 x22 x23 x24 x25 x26 x27 x28 x29 x30 x31 x32 x33 x38
      = refMlp2 (val_main_v155 (F := Ideal) x0 x1 x2 x3 x4 x5 x6 x7 x8 x9 x10 x11 x12 x13 x14 x15 x16 x17 x22 x23 x24 x25 x26 x27 x28 x29 x30 x31 x32 x33 x38) (val_main_v168 (F := Ideal) x0 x1 x2 x3 x4 x5 x6 x7 x8 x9 x10 x11 x12 x13 x14 x15 x16 x17 x22 x23 x24 x25 x26 x27 x28 x29 x30 x31 x32 x33 x38) x18 x19 x20 x21 := rfl

end

/-- Both sides are the same sums over the same index sets, term by term. -/
theorem mlpK2_eq_ref (h a : Vec Ideal S32768x128 .f32) (W1 : Vec Ideal S128x128 .f32) (b1 : Vec Ideal S128 .f32)
    (W2 : Vec Ideal S128x128 .f32) (b2 : Vec Ideal S128 .f32) :
    mlpK2 h a W1 (shapeCast S1x128 b1 shapeCasts_S128_S1x128) W2
        (shapeCast S1x128 b2 shapeCasts_S128_S1x128) = refMlp2 h a W1 b1 W2 b2 := by
  funext i
  obtain ⟨r, j, rfl⟩ : ∃ (r : Fin 32768) (j : Fin 128), i = ix2 r j := ⟨i 0, i 1, eq_ix2 i⟩
  rw [mlpK2_apply]
  unfold refMlp2
  rw [addf_apply, refdot2_apply, refbias_apply, shapeCast_a_1a_apply]
  refine congrArg (· + b2 (ix1 j)) (Finset.sum_congr rfl fun k _ => ?_)
  rw [maximumf_apply, addf_apply, refdot2_apply, refbias_apply, refzero_apply, shapeCast_a_1a_apply]
  rfl

end Cert.KernelIdeal.Val

end
-- ==== Proof.KI.V10.lean ====
import proofs.«141374_j27161373180011_1_alg».proof.Proof.KI.R10
import proofs.«141374_j27161373180011_1_alg».proof.Proof.Gen.ReferenceIdeal.Read
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Val

open Cert.KernelIdeal Cert.KernelIdeal.Gen
open Idealize.ShloMosaic Idealize.ShloMosaic.TcCoe Idealize.SL.Sem
open Idealize.ShloMosaic.ValueIdx
open Idealize.ShloMosaic.Pipeline (Dat)

def roKv (g : Vec Ideal S512x640 .f32) (M1 : Vec Ideal S640x128 .f32) (c1 : Vec Ideal S1x128 .f32)
    (M2 : Vec Ideal S128x2 .f32) (c2 : Vec Ideal S1x2 .f32) (r : Fin 512) (j : Fin 2) : EReal :=
  (∑ k : Fin 128, max ((∑ l : Fin 640, g (ix2 r l) * M1 (ix2 l k)) + c1 (ix2 (0 : Fin 1) k)) 0 * M2 (ix2 k j))
    + c2 (ix2 (0 : Fin 1) j)

def roK (g : Vec Ideal S512x640 .f32) (M1 : Vec Ideal S640x128 .f32) (c1 : Vec Ideal S1x128 .f32)
    (M2 : Vec Ideal S128x2 .f32) (c2 : Vec Ideal S1x2 .f32) : Vec Ideal S512x2 .f32 :=
  fun i => roKv g M1 c1 M2 c2 (i 0) (i 1)

theorem lhs10a_0 (i : S512x128.Idx) (q : dot_S512x640_S640x128_S512x128_1_0_0_1_n_n.contr.Idx) :
    (dot_S512x640_S640x128_S512x128_1_0_0_1_n_n.lhsIdx i q 0).val = (i 0).val := by
  unfold DotDims.lhsIdx
  rw [dif_neg (show ¬(0 : Fin S512x640.rank) ∈ dot_S512x640_S640x128_S512x128_1_0_0_1_n_n.lhsBatch by decide), dif_pos (show (0 : Fin S512x640.rank) ∈ dot_S512x640_S640x128_S512x128_1_0_0_1_n_n.lhsNonContracting by decide)]
  rfl
theorem lhs10a_1 (i : S512x128.Idx) (q : dot_S512x640_S640x128_S512x128_1_0_0_1_n_n.contr.Idx) :
    (dot_S512x640_S640x128_S512x128_1_0_0_1_n_n.lhsIdx i q 1).val = (q ⟨0, by decide⟩).val :=
  dot_S512x640_S640x128_S512x128_1_0_0_1_n_n.lhsIdx_val_of_single rfl i q
theorem rhs10a_0 (i : S512x128.Idx) (q : dot_S512x640_S640x128_S512x128_1_0_0_1_n_n.contr.Idx) :
    (dot_S512x640_S640x128_S512x128_1_0_0_1_n_n.rhsIdx i q 0).val = (q ⟨0, by decide⟩).val :=
  dot_S512x640_S640x128_S512x128_1_0_0_1_n_n.rhsIdx_val_of_single rfl i q
theorem rhs10a_1 (i : S512x128.Idx) (q : dot_S512x640_S640x128_S512x128_1_0_0_1_n_n.contr.Idx) :
    (dot_S512x640_S640x128_S512x128_1_0_0_1_n_n.rhsIdx i q 1).val = (i 1).val := by
  unfold DotDims.rhsIdx
  rw [dif_neg (show ¬(1 : Fin S640x128.rank) ∈ dot_S512x640_S640x128_S512x128_1_0_0_1_n_n.rhsBatch by decide), dif_pos (show (1 : Fin S640x128.rank) ∈ dot_S512x640_S640x128_S512x128_1_0_0_1_n_n.rhsNonContracting by decide)]
  rfl

theorem mm10a_apply {φ₁ φ₂ : FTy} (a : FVec Ideal S512x640 φ₁) (b : FVec Ideal S640x128 φ₂) (r : Fin 512) (k : Fin 128) :
    matmul dot_S512x640_S640x128_S512x128_1_0_0_1_n_n none a b (constant S512x128 .f32 0x00000000#32) (ix2 r k)
      = ∑ l : Fin 640, a (ix2 r l) * b (ix2 l k) := by
  simp only [matmul]
  rw [Ideal.matmul_constant_zero_apply, ← Equiv.sum_comp (contrEquiv1 dot_S512x640_S640x128_S512x128_1_0_0_1_n_n 640 rfl rfl).symm]
  refine Finset.sum_congr rfl fun l _ => ?_
  have hk := contrEquiv1_symm_val dot_S512x640_S640x128_S512x128_1_0_0_1_n_n 640 rfl rfl l
  have el : dot_S512x640_S640x128_S512x128_1_0_0_1_n_n.lhsIdx (ix2 r k) ((contrEquiv1 dot_S512x640_S640x128_S512x128_1_0_0_1_n_n 640 rfl rfl).symm l) = ix2 r l := funext fun a => Fin.ext (by
    match a with
    | ⟨0, _⟩ => exact lhs10a_0 _ _
    | ⟨1, _⟩ => exact (lhs10a_1 _ _).trans hk)
  have er : dot_S512x640_S640x128_S512x128_1_0_0_1_n_n.rhsIdx (ix2 r k) ((contrEquiv1 dot_S512x640_S640x128_S512x128_1_0_0_1_n_n 640 rfl rfl).symm l) = ix2 l k := funext fun a => Fin.ext (by
    match a with
    | ⟨0, _⟩ => exact (rhs10a_0 _ _).trans hk
    | ⟨1, _⟩ => exact rhs10a_1 _ _)
  rw [el, er]

theorem lhs10b_0 (i : S512x2.Idx) (q : dot_S512x128_S128x2_S512x2_1_0_0_1_n_n.contr.Idx) :
    (dot_S512x128_S128x2_S512x2_1_0_0_1_n_n.lhsIdx i q 0).val = (i 0).val := by
  unfold DotDims.lhsIdx
  rw [dif_neg (show ¬(0 : Fin S512x128.rank) ∈ dot_S512x128_S128x2_S512x2_1_0_0_1_n_n.lhsBatch by decide), dif_pos (show (0 : Fin S512x128.rank) ∈ dot_S512x128_S128x2_S512x2_1_0_0_1_n_n.lhsNonContracting by decide)]
  rfl
theorem lhs10b_1 (i : S512x2.Idx) (q : dot_S512x128_S128x2_S512x2_1_0_0_1_n_n.contr.Idx) :
    (dot_S512x128_S128x2_S512x2_1_0_0_1_n_n.lhsIdx i q 1).val = (q ⟨0, by decide⟩).val :=
  dot_S512x128_S128x2_S512x2_1_0_0_1_n_n.lhsIdx_val_of_single rfl i q
theorem rhs10b_0 (i : S512x2.Idx) (q : dot_S512x128_S128x2_S512x2_1_0_0_1_n_n.contr.Idx) :
    (dot_S512x128_S128x2_S512x2_1_0_0_1_n_n.rhsIdx i q 0).val = (q ⟨0, by decide⟩).val :=
  dot_S512x128_S128x2_S512x2_1_0_0_1_n_n.rhsIdx_val_of_single rfl i q
theorem rhs10b_1 (i : S512x2.Idx) (q : dot_S512x128_S128x2_S512x2_1_0_0_1_n_n.contr.Idx) :
    (dot_S512x128_S128x2_S512x2_1_0_0_1_n_n.rhsIdx i q 1).val = (i 1).val := by
  unfold DotDims.rhsIdx
  rw [dif_neg (show ¬(1 : Fin S128x2.rank) ∈ dot_S512x128_S128x2_S512x2_1_0_0_1_n_n.rhsBatch by decide), dif_pos (show (1 : Fin S128x2.rank) ∈ dot_S512x128_S128x2_S512x2_1_0_0_1_n_n.rhsNonContracting by decide)]
  rfl

theorem mm10b_apply {φ₁ φ₂ : FTy} (a : FVec Ideal S512x128 φ₁) (b : FVec Ideal S128x2 φ₂) (r : Fin 512) (j : Fin 2) :
    matmul dot_S512x128_S128x2_S512x2_1_0_0_1_n_n none a b (constant S512x2 .f32 0x00000000#32) (ix2 r j)
      = ∑ k : Fin 128, a (ix2 r k) * b (ix2 k j) := by
  simp only [matmul]
  rw [Ideal.matmul_constant_zero_apply, ← Equiv.sum_comp (contrEquiv1 dot_S512x128_S128x2_S512x2_1_0_0_1_n_n 128 rfl rfl).symm]
  refine Finset.sum_congr rfl fun k _ => ?_
  have hk := contrEquiv1_symm_val dot_S512x128_S128x2_S512x2_1_0_0_1_n_n 128 rfl rfl k
  have el : dot_S512x128_S128x2_S512x2_1_0_0_1_n_n.lhsIdx (ix2 r j) ((contrEquiv1 dot_S512x128_S128x2_S512x2_1_0_0_1_n_n 128 rfl rfl).symm k) = ix2 r k := funext fun a => Fin.ext (by
    match a with
    | ⟨0, _⟩ => exact lhs10b_0 _ _
    | ⟨1, _⟩ => exact (lhs10b_1 _ _).trans hk)
  have er : dot_S512x128_S128x2_S512x2_1_0_0_1_n_n.rhsIdx (ix2 r j) ((contrEquiv1 dot_S512x128_S128x2_S512x2_1_0_0_1_n_n 128 rfl rfl).symm k) = ix2 k j := funext fun a => Fin.ext (by
    match a with
    | ⟨0, _⟩ => exact (rhs10b_0 _ _).trans hk
    | ⟨1, _⟩ => exact rhs10b_1 _ _)
  rw [el, er]

theorem pay10_apply (x0 : Vec Ideal S512x640 .f32) (x1 : Vec Ideal S640x128 .f32) (x2 : Vec Ideal S1x128 .f32)
    (x3 : Vec Ideal S128x2 .f32) (x4 : Vec Ideal S1x2 .f32) (r : Fin 512) (j : Fin 2) :
    (k10_pay1 (F := Ideal) x0 x1 x2 x3 x4) (ix2 r j) = roKv x0 x1 x2 x3 x4 r j := by
  unfold k10_pay1 roKv
  rw [shapeCast_self, shapeCast_self, shapeCast_self]
  refine (addf_apply _ _ _).trans ?_
  refine congrArg₂ (· + ·) ?_ (broadcastTo_1b_ab_apply _ _ r j)
  refine (mm10b_apply _ _ r j).trans ?_
  refine Finset.sum_congr rfl fun k _ => ?_
  refine congrArg₂ (· * ·) ?_ rfl
  refine (truncf_apply (ψ := .bf16) (φ := .f32) _ bitsLt_bf16_f32 _).trans ?_
  refine (maximumf_apply _ _ _).trans ?_
  refine congrArg₂ max ?_ Ideal.ofBits_zero_f32
  refine (addf_apply _ _ _).trans ?_
  refine congrArg₂ (· + ·) ?_ (broadcastTo_1b_ab_apply _ _ r k)
  exact mm10a_apply _ _ r k

theorem hz10 : (![0, 0] : Fin 2 → Nat) = fun _ => 0 := funext fun a => by fin_cases a <;> rfl

theorem out10_eq (x0 : Vec Ideal S512x640 .f32) (x1 : Vec Ideal S640x128 .f32) (x2 : Vec Ideal S1x128 .f32)
    (x3 : Vec Ideal S128x2 .f32) (x4 : Vec Ideal S1x2 .f32) :
    Fr.out10_5 (F := Ideal) x0 x1 x2 x3 x4 = roK x0 x1 x2 x3 x4 := by
  unfold Fr.out10_5
  rw [View.canon_unit_zero hz10]
  simp only [View.ld_unit_zero (S := S512x640) hz10, View.ld_unit_zero (S := S640x128) hz10, View.ld_unit_zero (S := S1x128) hz10,
    View.ld_unit_zero (S := S128x2) hz10, View.ld_unit_zero (S := S1x2) hz10]
  funext i
  obtain ⟨r, j, rfl⟩ : ∃ (r : Fin 512) (j : Fin 2), i = ix2 r j := ⟨i 0, i 1, eq_ix2 i⟩
  exact pay10_apply x0 x1 x2 x3 x4 r j

variable (V : (c : Dev nD) → (b : Ref sig .tc) → Buf (Elt Ideal) ((c : Thread nD τ).loc b))

theorem iblk10_0 (c : Dev nD) (t : Fin cfg10.N) : Fr.iblk10 V c 0 t = V c (Pipeline.arrRef spec10 0) := by
  unfold Fr.iblk10
  have hz10' : (fun a => win10_0.index t a * main_v124.ty.shape.size a) = fun _ => 0 := funext fun a => by fin_cases a <;> rfl
  exact Memref.read_access_unit_zero (Elt Ideal) main_v124 hz10' (fun a => by rw [congrFun hz10' a]; simp) (V c (Pipeline.arrRef spec10 0))

theorem iblk10_1 (c : Dev nD) (t : Fin cfg10.N) : Fr.iblk10 V c 1 t = V c (Pipeline.arrRef spec10 1) := by
  unfold Fr.iblk10
  have hz10' : (fun a => win10_1.index t a * main_arg34.ty.shape.size a) = fun _ => 0 := funext fun a => by fin_cases a <;> rfl
  exact Memref.read_access_unit_zero (Elt Ideal) main_arg34 hz10' (fun a => by rw [congrFun hz10' a]; simp) (V c (Pipeline.arrRef spec10 1))

theorem iblk10_2 (c : Dev nD) (t : Fin cfg10.N) : Fr.iblk10 V c 2 t = V c (Pipeline.arrRef spec10 2) := by
  unfold Fr.iblk10
  have hz10' : (fun a => win10_2.index t a * main_v125.ty.shape.size a) = fun _ => 0 := funext fun a => by fin_cases a <;> rfl
  exact Memref.read_access_unit_zero (Elt Ideal) main_v125 hz10' (fun a => by rw [congrFun hz10' a]; simp) (V c (Pipeline.arrRef spec10 2))

theorem iblk10_3 (c : Dev nD) (t : Fin cfg10.N) : Fr.iblk10 V c 3 t = V c (Pipeline.arrRef spec10 3) := by
  unfold Fr.iblk10
  have hz10' : (fun a => win10_3.index t a * main_arg36.ty.shape.size a) = fun _ => 0 := funext fun a => by fin_cases a <;> rfl
  exact Memref.read_access_unit_zero (Elt Ideal) main_arg36 hz10' (fun a => by rw [congrFun hz10' a]; simp) (V c (Pipeline.arrRef spec10 3))

theorem iblk10_4 (c : Dev nD) (t : Fin cfg10.N) : Fr.iblk10 V c 4 t = V c (Pipeline.arrRef spec10 4) := by
  unfold Fr.iblk10
  have hz10' : (fun a => win10_4.index t a * main_v126.ty.shape.size a) = fun _ => 0 := funext fun a => by fin_cases a <;> rfl
  exact Memref.read_access_unit_zero (Elt Ideal) main_v126 hz10' (fun a => by rw [congrFun hz10' a]; simp) (V c (Pipeline.arrRef spec10 4))

theorem flushed10_eq (c : Dev nD) (t : Fin cfg10.N) :
    (Fr.dat10 (F := Ideal) V c).flushed 5 t = ((cfg10.win 5).blk t).view.read (Elt Ideal)
      (roK (V c (Pipeline.arrRef spec10 0)) (V c (Pipeline.arrRef spec10 1)) (V c (Pipeline.arrRef spec10 2)) (V c (Pipeline.arrRef spec10 3)) (V c (Pipeline.arrRef spec10 4))) := by
  show (cfg10.win 5).cut (grid10.coords t) ((Fr.dat10 (F := Ideal) V c).after 5 t) = _
  rw [Fr.after10_5, out10_eq, iblk10_0, iblk10_1, iblk10_2, iblk10_3, iblk10_4]
  have hz10' : (fun a => win10_5.index t a * main_v127.ty.shape.size a) = fun _ => 0 := funext fun a => by fin_cases a <;> rfl
  exact (Memref.read_access_unit_zero (Elt Ideal) main_v127 hz10' (fun a => by rw [congrFun hz10' a]; simp) _).symm

theorem final10 (c : Dev nD) :
    (Cert.KernelIdeal.Fr.dat10 (F := Ideal) V c).arrAt 5 cfg10.N = roK (V c (Pipeline.arrRef spec10 0)) (V c (Pipeline.arrRef spec10 1)) (V c (Pipeline.arrRef spec10 2)) (V c (Pipeline.arrRef spec10 3)) (V c (Pipeline.arrRef spec10 4)) :=
  (Fr.dat10 (F := Ideal) V c).arrAt_eq_of_cover 5 _ (fun t _ => flushed10_eq V c t) fun i =>
    ⟨t10_0, flush10_5 t10_0, by
      show i ∈ ((View.whole main_v127).slice (win10_5.rect t10_0)).set
      rw [View.set_slice_whole, Rect.mem_set_unit]
      intro a
      have h0 : (i 0 : Nat) < 512 := (i 0).isLt
      have h1 : (i 1 : Nat) < 2 := (i 1).isLt
      match a with
      | ⟨0, _⟩ => show 0 * 512 ≤ (i 0 : Nat) ∧ (i 0 : Nat) < 0 * 512 + 512; omega
      | ⟨1, _⟩ => show 0 * 2 ≤ (i 1 : Nat) ∧ (i 1 : Nat) < 0 * 2 + 2; omega⟩

def refRo (g : Vec Ideal S512x640 .f32) (M1 : Vec Ideal S640x128 .f32) (c1 : Vec Ideal S128 .f32)
    (M2 : Vec Ideal S128x2 .f32) (c2 : Vec Ideal S2 .f32) : Vec Ideal S512x2 .f32 :=
  addf
    (Host.dotGeneral (F := Ideal) (φ₁ := .f32) (φ₂ := .f32) Cert.ReferenceIdeal.dot_S512x128_S128x2_S512x2_1_0_0_1_n_n none
      (maximumf
        (addf (Host.dotGeneral (F := Ideal) (φ₁ := .f32) (φ₂ := .f32) Cert.ReferenceIdeal.dot_S512x640_S640x128_S512x128_1_0_0_1_n_n none g M1)
          (broadcastInDim Cert.ReferenceIdeal.S512x128 ![0, 1] Cert.ReferenceIdeal.Gen.bcast_S1x128_S512x128_0_1
            (broadcastInDim Cert.ReferenceIdeal.S1x128 ![1] Cert.ReferenceIdeal.Gen.bcast_S128_S1x128_1 c1)))
        (broadcastInDim Cert.ReferenceIdeal.S512x128 ![] Cert.ReferenceIdeal.Gen.bcast_S_S512x128
          (constant (F := Ideal) Cert.ReferenceIdeal.S_ .f32 0x00000000#32)))
      M2)
    (broadcastInDim Cert.ReferenceIdeal.S512x2 ![0, 1] Cert.ReferenceIdeal.Gen.bcast_S1x2_S512x2_0_1
      (broadcastInDim Cert.ReferenceIdeal.S1x2 ![1] Cert.ReferenceIdeal.Gen.bcast_S2_S1x2_1 c2))

theorem refmm10a_apply (a : FVec Ideal S512x640 .f32) (b : FVec Ideal S640x128 .f32) (r : Fin 512) (k : Fin 128) :
    Host.dotGeneral (F := Ideal) (φ₁ := .f32) (φ₂ := .f32) Cert.ReferenceIdeal.dot_S512x640_S640x128_S512x128_1_0_0_1_n_n none a b (ix2 r k)
      = ∑ l : Fin 640, a (ix2 r l) * b (ix2 l k) := by
  simp only [Host.dotGeneral]
  exact (Ideal.dotGeneral_apply _ _ _ a b (ix2 r k)).trans
    ((Ideal.matmul_constant_zero_apply dot_S512x640_S640x128_S512x128_1_0_0_1_n_n none a b (ix2 r k)).symm.trans (mm10a_apply a b r k))

theorem refmm10b_apply (a : FVec Ideal S512x128 .f32) (b : FVec Ideal S128x2 .f32) (r : Fin 512) (j : Fin 2) :
    Host.dotGeneral (F := Ideal) (φ₁ := .f32) (φ₂ := .f32) Cert.ReferenceIdeal.dot_S512x128_S128x2_S512x2_1_0_0_1_n_n none a b (ix2 r j)
      = ∑ k : Fin 128, a (ix2 r k) * b (ix2 k j) := by
  simp only [Host.dotGeneral]
  exact (Ideal.dotGeneral_apply _ _ _ a b (ix2 r j)).trans
    ((Ideal.matmul_constant_zero_apply dot_S512x128_S128x2_S512x2_1_0_0_1_n_n none a b (ix2 r j)).symm.trans (mm10b_apply a b r j))

theorem row10_128_apply (c1 : Vec Ideal S128 .f32) (k : Fin 128) :
    shapeCast S1x128 c1 Cert.KernelIdeal.Gen.shapeCasts_S128_S1x128 (ix2 (0 : Fin 1) k) = c1 (ix1 k) :=
  shapeCast_apply c1 Cert.KernelIdeal.Gen.shapeCasts_S128_S1x128 (ix2 (0 : Fin 1) k) (ix1 k)
    (by rewrite [Shape.rowMajor_val_two, Shape.rowMajor_val_one]; show k.val = 0 * 128 + k.val; omega)

theorem row10_2_apply (c2 : Vec Ideal S2 .f32) (j : Fin 2) :
    shapeCast S1x2 c2 Cert.KernelIdeal.Gen.shapeCasts_S2_S1x2 (ix2 (0 : Fin 1) j) = c2 (ix1 j) :=
  shapeCast_apply c2 Cert.KernelIdeal.Gen.shapeCasts_S2_S1x2 (ix2 (0 : Fin 1) j) (ix1 j)
    (by rewrite [Shape.rowMajor_val_two, Shape.rowMajor_val_one]; show j.val = 0 * 2 + j.val; omega)

theorem refrow10_128_apply (c1 : Vec Ideal S128 .f32) (r : Fin 512) (k : Fin 128) :
    broadcastInDim Cert.ReferenceIdeal.S512x128 ![0, 1] Cert.ReferenceIdeal.Gen.bcast_S1x128_S512x128_0_1
      (broadcastInDim Cert.ReferenceIdeal.S1x128 ![1] Cert.ReferenceIdeal.Gen.bcast_S128_S1x128_1 c1) (ix2 r k) = c1 (ix1 k) := by
  refine (broadcastInDim_apply _ Cert.ReferenceIdeal.Gen.bcast_S1x128_S512x128_0_1 _ (ix2 r k) (ix2 (0 : Fin 1) k) (fun a => match a with
    | ⟨0, _⟩ => by show 0 = if (1 : Nat) = 1 then 0 else r.val; rw [if_pos rfl]
    | ⟨1, _⟩ => by show k.val = if (128 : Nat) = 1 then 0 else k.val; rw [if_neg (by decide)])).trans ?_
  exact broadcastInDim_apply _ Cert.ReferenceIdeal.Gen.bcast_S128_S1x128_1 c1 (ix2 (0 : Fin 1) k) (ix1 k) (fun a => match a with
    | ⟨0, _⟩ => by show k.val = if (128 : Nat) = 1 then 0 else k.val; rw [if_neg (by decide)])

theorem refrow10_2_apply (c2 : Vec Ideal S2 .f32) (r : Fin 512) (j : Fin 2) :
    broadcastInDim Cert.ReferenceIdeal.S512x2 ![0, 1] Cert.ReferenceIdeal.Gen.bcast_S1x2_S512x2_0_1
      (broadcastInDim Cert.ReferenceIdeal.S1x2 ![1] Cert.ReferenceIdeal.Gen.bcast_S2_S1x2_1 c2) (ix2 r j) = c2 (ix1 j) := by
  refine (broadcastInDim_apply _ Cert.ReferenceIdeal.Gen.bcast_S1x2_S512x2_0_1 _ (ix2 r j) (ix2 (0 : Fin 1) j) (fun a => match a with
    | ⟨0, _⟩ => by show 0 = if (1 : Nat) = 1 then 0 else r.val; rw [if_pos rfl]
    | ⟨1, _⟩ => by show j.val = if (2 : Nat) = 1 then 0 else j.val; rw [if_neg (by decide)])).trans ?_
  exact broadcastInDim_apply _ Cert.ReferenceIdeal.Gen.bcast_S2_S1x2_1 c2 (ix2 (0 : Fin 1) j) (ix1 j) (fun a => match a with
    | ⟨0, _⟩ => by show j.val = if (2 : Nat) = 1 then 0 else j.val; rw [if_neg (by decide)])

theorem roK_eq_ref (g : Vec Ideal S512x640 .f32) (M1 : Vec Ideal S640x128 .f32) (c1 : Vec Ideal S128 .f32)
    (M2 : Vec Ideal S128x2 .f32) (c2 : Vec Ideal S2 .f32) :
    roK g M1 (shapeCast S1x128 c1 Cert.KernelIdeal.Gen.shapeCasts_S128_S1x128) M2 (shapeCast S1x2 c2 Cert.KernelIdeal.Gen.shapeCasts_S2_S1x2)
      = refRo g M1 c1 M2 c2 := by
  funext i
  obtain ⟨r, j, rfl⟩ : ∃ (r : Fin 512) (j : Fin 2), i = ix2 r j := ⟨i 0, i 1, eq_ix2 i⟩
  show roKv g M1 _ M2 _ r j = _
  unfold roKv refRo
  refine ((addf_apply _ _ _).trans ?_).symm
  refine congrArg₂ (· + ·) ?_ ((refrow10_2_apply c2 r j).trans (row10_2_apply c2 j).symm)
  refine (refmm10b_apply _ _ r j).trans ?_
  refine Finset.sum_congr rfl fun k _ => ?_
  refine congrArg₂ (· * ·) ?_ rfl
  refine (maximumf_apply _ _ _).trans ?_
  refine congrArg₂ max ?_ Ideal.ofBits_zero_f32
  refine (addf_apply _ _ _).trans ?_
  exact congrArg₂ (· + ·) (refmm10a_apply g M1 r k) ((refrow10_128_apply c1 r k).trans (row10_128_apply c1 k).symm)

theorem ref_ro (x0 : (⟨Cert.ReferenceIdeal.S32768x64, .f32⟩ : BufTy).Contents (Elt Ideal)) (x1 : (⟨Cert.ReferenceIdeal.S524288, .f32⟩ : BufTy).Contents (Elt Ideal)) (x2 : (⟨Cert.ReferenceIdeal.S64x128, .f32⟩ : BufTy).Contents (Elt Ideal)) (x3 : (⟨Cert.ReferenceIdeal.S128, .f32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal)) (x6 : (⟨Cert.ReferenceIdeal.S128x128, .f32⟩ : BufTy).Contents (Elt Ideal)) (x7 : (⟨Cert.ReferenceIdeal.S128, .f32⟩ : BufTy).Contents (Elt Ideal)) (x8 : (⟨Cert.ReferenceIdeal.S128x128, .f32⟩ : BufTy).Contents (Elt Ideal)) (x9 : (⟨Cert.ReferenceIdeal.S128, .f32⟩ : BufTy).Contents (Elt Ideal)) (x10 : (⟨Cert.ReferenceIdeal.S128x128, .f32⟩ : BufTy).Contents (Elt Ideal)) (x11 : (⟨Cert.ReferenceIdeal.S128, .f32⟩ : BufTy).Contents (Elt Ideal)) (x12 : (⟨Cert.ReferenceIdeal.S128x128, .f32⟩ : BufTy).Contents (Elt Ideal)) (x13 : (⟨Cert.ReferenceIdeal.S128, .f32⟩ : BufTy).Contents (Elt Ideal)) (x14 : (⟨Cert.ReferenceIdeal.S128x128, .f32⟩ : BufTy).Contents (Elt Ideal)) (x15 : (⟨Cert.ReferenceIdeal.S128, .f32⟩ : BufTy).Contents (Elt Ideal)) (x16 : (⟨Cert.ReferenceIdeal.S128x128, .f32⟩ : BufTy).Contents (Elt Ideal)) (x17 : (⟨Cert.ReferenceIdeal.S128, .f32⟩ : BufTy).Contents (Elt Ideal)) (x18 : (⟨Cert.ReferenceIdeal.S128x128, .f32⟩ : BufTy).Contents (Elt Ideal)) (x19 : (⟨Cert.ReferenceIdeal.S128, .f32⟩ : BufTy).Contents (Elt Ideal)) (x20 : (⟨Cert.ReferenceIdeal.S128x128, .f32⟩ : BufTy).Contents (Elt Ideal)) (x21 : (⟨Cert.ReferenceIdeal.S128, .f32⟩ : BufTy).Contents (Elt Ideal)) (x22 : (⟨Cert.ReferenceIdeal.S128, .f32⟩ : BufTy).Contents (Elt Ideal)) (x23 : (⟨Cert.ReferenceIdeal.S128, .f32⟩ : BufTy).Contents (Elt Ideal)) (x24 : (⟨Cert.ReferenceIdeal.S128, .f32⟩ : BufTy).Contents (Elt Ideal)) (x25 : (⟨Cert.ReferenceIdeal.S128, .f32⟩ : BufTy).Contents (Elt Ideal)) (x26 : (⟨Cert.ReferenceIdeal.S128, .f32⟩ : BufTy).Contents (Elt Ideal)) (x27 : (⟨Cert.ReferenceIdeal.S128, .f32⟩ : BufTy).Contents (Elt Ideal)) (x28 : (⟨Cert.ReferenceIdeal.S128, .f32⟩ : BufTy).Contents (Elt Ideal)) (x29 : (⟨Cert.ReferenceIdeal.S128, .f32⟩ : BufTy).Contents (Elt Ideal)) (x30 : (⟨Cert.ReferenceIdeal.S128, .f32⟩ : BufTy).Contents (Elt Ideal)) (x31 : (⟨Cert.ReferenceIdeal.S128, .f32⟩ : BufTy).Contents (Elt Ideal)) (x32 : (⟨Cert.ReferenceIdeal.S128, .f32⟩ : BufTy).Contents (Elt Ideal)) (x33 : (⟨Cert.ReferenceIdeal.S128, .f32⟩ : BufTy).Contents (Elt Ideal)) (x34 : (⟨Cert.ReferenceIdeal.S640x128, .f32⟩ : BufTy).Contents (Elt Ideal)) (x35 : (⟨Cert.ReferenceIdeal.S128, .f32⟩ : BufTy).Contents (Elt Ideal)) (x36 : (⟨Cert.ReferenceIdeal.S128x2, .f32⟩ : BufTy).Contents (Elt Ideal)) (x37 : (⟨Cert.ReferenceIdeal.S2, .f32⟩ : BufTy).Contents (Elt Ideal)) (x38 : (⟨Cert.ReferenceIdeal.S2x524288, .i32⟩ : BufTy).Contents (Elt Ideal)) (x39 : (⟨Cert.ReferenceIdeal.S32768, .i32⟩ : BufTy).Contents (Elt Ideal)) :
    Cert.ReferenceIdeal.Read.val_main_v218 (F := Ideal) x0 x1 x2 x3 x4 x5 x6 x7 x8 x9 x10 x11 x12 x13 x14 x15 x16 x17 x18 x19 x20 x21 x22 x23 x24 x25 x26 x27 x28 x29 x30 x31 x32 x33 x34 x35 x36 x37 x38 x39
      = refRo (Cert.ReferenceIdeal.Read.val_main_v209 (F := Ideal) x0 x1 x2 x3 x4 x5 x6 x7 x8 x9 x10 x11 x12 x13 x14 x15 x16 x17 x18 x19 x20 x21 x22 x23 x24 x25 x26 x27 x28 x29 x30 x31 x32 x33 x38 x39) x34 x35 x36 x37 := by
  unfold Cert.ReferenceIdeal.Read.val_main_v218 Cert.ReferenceIdeal.Read.val_main_v217 Cert.ReferenceIdeal.Read.val_main_v216
    Cert.ReferenceIdeal.Read.val_main_v215 Cert.ReferenceIdeal.Read.val_main_v214 Cert.ReferenceIdeal.Read.val_main_call5_v0
    Cert.ReferenceIdeal.Read.val_main_call5_cst Cert.ReferenceIdeal.Read.val_main_v213 Cert.ReferenceIdeal.Read.val_main_v212
    Cert.ReferenceIdeal.Read.val_main_v211 Cert.ReferenceIdeal.Read.val_main_v210 refRo
  rfl

end Cert.KernelIdeal.Val

end
-- ==== Proof.KI.KVal.lean ====
/-
  The kernel's result in closed form. Through the fold of buffer contents, each region's output array is the region's
  whole-array function of what it reads: the node update of the previous layer's normalised output and its aggregate
  over the edges, with the layer's weights and bias rows; the batch-norm of that; at the end the readout of the five
  pooled layers joined side by side. The host operations between regions supply the aggregates, the bias rows and the
  join; every argument is read as launched.
-/
import proofs.«141374_j27161373180011_1_alg».proof.Proof.KI.Fold
import proofs.«141374_j27161373180011_1_alg».proof.Proof.KI.Host
import proofs.«141374_j27161373180011_1_alg».proof.Proof.KI.V0
import proofs.«141374_j27161373180011_1_alg».proof.Proof.KI.V1
import proofs.«141374_j27161373180011_1_alg».proof.Proof.KI.V2
import proofs.«141374_j27161373180011_1_alg».proof.Proof.KI.V10

set_option maxRecDepth 16384

noncomputable section

namespace Cert.KernelIdeal.Val

open Cert.KernelIdeal Cert.KernelIdeal.Gen Cert.KernelIdeal.HostRead
open Idealize.ShloMosaic Idealize.ShloMosaic.TcCoe Idealize.SL.Sem

variable (m : (ℓ : Loc nD τ sig) → Buf (Elt Ideal) ℓ) (c : Dev nD)

/-! The arguments, as launched. -/
abbrev a0 : (⟨S32768x64, .f32⟩ : BufTy).Contents (Elt Ideal) := m ((c : Thread nD τ).loc main_arg0)
abbrev a1 : (⟨S524288, .f32⟩ : BufTy).Contents (Elt Ideal) := m ((c : Thread nD τ).loc main_arg1)
abbrev a2 : (⟨S64x128, .f32⟩ : BufTy).Contents (Elt Ideal) := m ((c : Thread nD τ).loc main_arg2)
abbrev a3 : (⟨S128, .f32⟩ : BufTy).Contents (Elt Ideal) := m ((c : Thread nD τ).loc main_arg3)
abbrev a4 : (⟨S128x128, .f32⟩ : BufTy).Contents (Elt Ideal) := m ((c : Thread nD τ).loc main_arg4)
abbrev a5 : (⟨S128, .f32⟩ : BufTy).Contents (Elt Ideal) := m ((c : Thread nD τ).loc main_arg5)
abbrev a6 : (⟨S128x128, .f32⟩ : BufTy).Contents (Elt Ideal) := m ((c : Thread nD τ).loc main_arg6)
abbrev a7 : (⟨S128, .f32⟩ : BufTy).Contents (Elt Ideal) := m ((c : Thread nD τ).loc main_arg7)
abbrev a8 : (⟨S128x128, .f32⟩ : BufTy).Contents (Elt Ideal) := m ((c : Thread nD τ).loc main_arg8)
abbrev a9 : (⟨S128, .f32⟩ : BufTy).Contents (Elt Ideal) := m ((c : Thread nD τ).loc main_arg9)
abbrev a10 : (⟨S128x128, .f32⟩ : BufTy).Contents (Elt Ideal) := m ((c : Thread nD τ).loc main_arg10)
abbrev a11 : (⟨S128, .f32⟩ : BufTy).Contents (Elt Ideal) := m ((c : Thread nD τ).loc main_arg11)
abbrev a12 : (⟨S128x128, .f32⟩ : BufTy).Contents (Elt Ideal) := m ((c : Thread nD τ).loc main_arg12)
abbrev a13 : (⟨S128, .f32⟩ : BufTy).Contents (Elt Ideal) := m ((c : Thread nD τ).loc main_arg13)
abbrev a14 : (⟨S128x128, .f32⟩ : BufTy).Contents (Elt Ideal) := m ((c : Thread nD τ).loc main_arg14)
abbrev a15 : (⟨S128, .f32⟩ : BufTy).Contents (Elt Ideal) := m ((c : Thread nD τ).loc main_arg15)
abbrev a16 : (⟨S128x128, .f32⟩ : BufTy).Contents (Elt Ideal) := m ((c : Thread nD τ).loc main_arg16)
abbrev a17 : (⟨S128, .f32⟩ : BufTy).Contents (Elt Ideal) := m ((c : Thread nD τ).loc main_arg17)
abbrev a18 : (⟨S128x128, .f32⟩ : BufTy).Contents (Elt Ideal) := m ((c : Thread nD τ).loc main_arg18)
abbrev a19 : (⟨S128, .f32⟩ : BufTy).Contents (Elt Ideal) := m ((c : Thread nD τ).loc main_arg19)
abbrev a20 : (⟨S128x128, .f32⟩ : BufTy).Contents (Elt Ideal) := m ((c : Thread nD τ).loc main_arg20)
abbrev a21 : (⟨S128, .f32⟩ : BufTy).Contents (Elt Ideal) := m ((c : Thread nD τ).loc main_arg21)
abbrev a22 : (⟨S128, .f32⟩ : BufTy).Contents (Elt Ideal) := m ((c : Thread nD τ).loc main_arg22)
abbrev a23 : (⟨S128, .f32⟩ : BufTy).Contents (Elt Ideal) := m ((c : Thread nD τ).loc main_arg23)
abbrev a24 : (⟨S128, .f32⟩ : BufTy).Contents (Elt Ideal) := m ((c : Thread nD τ).loc main_arg24)
abbrev a25 : (⟨S128, .f32⟩ : BufTy).Contents (Elt Ideal) := m ((c : Thread nD τ).loc main_arg25)
abbrev a26 : (⟨S128, .f32⟩ : BufTy).Contents (Elt Ideal) := m ((c : Thread nD τ).loc main_arg26)
abbrev a27 : (⟨S128, .f32⟩ : BufTy).Contents (Elt Ideal) := m ((c : Thread nD τ).loc main_arg27)
abbrev a28 : (⟨S128, .f32⟩ : BufTy).Contents (Elt Ideal) := m ((c : Thread nD τ).loc main_arg28)
abbrev a29 : (⟨S128, .f32⟩ : BufTy).Contents (Elt Ideal) := m ((c : Thread nD τ).loc main_arg29)
abbrev a30 : (⟨S128, .f32⟩ : BufTy).Contents (Elt Ideal) := m ((c : Thread nD τ).loc main_arg30)
abbrev a31 : (⟨S128, .f32⟩ : BufTy).Contents (Elt Ideal) := m ((c : Thread nD τ).loc main_arg31)
abbrev a32 : (⟨S128, .f32⟩ : BufTy).Contents (Elt Ideal) := m ((c : Thread nD τ).loc main_arg32)
abbrev a33 : (⟨S128, .f32⟩ : BufTy).Contents (Elt Ideal) := m ((c : Thread nD τ).loc main_arg33)
abbrev a34 : (⟨S640x128, .f32⟩ : BufTy).Contents (Elt Ideal) := m ((c : Thread nD τ).loc main_arg34)
abbrev a35 : (⟨S128, .f32⟩ : BufTy).Contents (Elt Ideal) := m ((c : Thread nD τ).loc main_arg35)
abbrev a36 : (⟨S128x2, .f32⟩ : BufTy).Contents (Elt Ideal) := m ((c : Thread nD τ).loc main_arg36)
abbrev a37 : (⟨S2, .f32⟩ : BufTy).Contents (Elt Ideal) := m ((c : Thread nD τ).loc main_arg37)
abbrev a38 : (⟨S2x524288, .i32⟩ : BufTy).Contents (Elt Ideal) := m ((c : Thread nD τ).loc main_arg38)
abbrev a39 : (⟨S32768, .i32⟩ : BufTy).Contents (Elt Ideal) := m ((c : Thread nD τ).loc main_arg39)

/-- A feature vector as the one-row block the kernels stage. -/
abbrev row (x : (⟨S128, .f32⟩ : BufTy).Contents (Elt Ideal)) : (⟨S1x128, .f32⟩ : BufTy).Contents (Elt Ideal) := shapeCast S1x128 x shapeCasts_S128_S1x128
abbrev row2 (x : (⟨S2, .f32⟩ : BufTy).Contents (Elt Ideal)) : (⟨S1x2, .f32⟩ : BufTy).Contents (Elt Ideal) := shapeCast S1x2 x shapeCasts_S2_S1x2

/-! The layers: hL the node update of layer L, nL its batch-norm. -/
def h1 : Vec Ideal S32768x128 .f32 := mlpK0 (a0 m c) (agg64 (a0 m c) (a1 m c) (a38 m c)) (a2 m c) (row (a3 m c)) (a4 m c) (row (a5 m c))
def n1 : Vec Ideal S32768x128 .f32 := bnK (h1 m c) (row (a22 m c)) (row (a23 m c)) (row (a24 m c)) (row (a25 m c))
def h2 : Vec Ideal S32768x128 .f32 := mlpK2 (n1 m c) (agg128 (n1 m c) (a1 m c) (a38 m c)) (a6 m c) (row (a7 m c)) (a8 m c) (row (a9 m c))
def n2 : Vec Ideal S32768x128 .f32 := bnK (h2 m c) (row (a22 m c)) (row (a23 m c)) (row (a24 m c)) (row (a25 m c))
def h3 : Vec Ideal S32768x128 .f32 := mlpK2 (n2 m c) (agg128 (n2 m c) (a1 m c) (a38 m c)) (a10 m c) (row (a11 m c)) (a12 m c) (row (a13 m c))
def n3 : Vec Ideal S32768x128 .f32 := bnK (h3 m c) (row (a26 m c)) (row (a27 m c)) (row (a28 m c)) (row (a29 m c))
def h4 : Vec Ideal S32768x128 .f32 := mlpK2 (n3 m c) (agg128 (n3 m c) (a1 m c) (a38 m c)) (a14 m c) (row (a15 m c)) (a16 m c) (row (a17 m c))
def n4 : Vec Ideal S32768x128 .f32 := bnK (h4 m c) (row (a30 m c)) (row (a31 m c)) (row (a32 m c)) (row (a33 m c))
def h5 : Vec Ideal S32768x128 .f32 := mlpK2 (n4 m c) (agg128 (n4 m c) (a1 m c) (a38 m c)) (a18 m c) (row (a19 m c)) (a20 m c) (row (a21 m c))
def n5 : Vec Ideal S32768x128 .f32 := bnK (h5 m c) (row (a30 m c)) (row (a31 m c)) (row (a32 m c)) (row (a33 m c))
/-- The five pooled layers side by side. -/
def pooled : Vec Ideal S512x640 .f32 :=
  concatenate S512x640 1
    [⟨S512x128, pool (h1 m c) (a39 m c)⟩, ⟨S512x128, pool (h2 m c) (a39 m c)⟩, ⟨S512x128, pool (h3 m c) (a39 m c)⟩,
     ⟨S512x128, pool (h4 m c) (a39 m c)⟩, ⟨S512x128, pool (n5 m c) (a39 m c)⟩]
    concatenates_S512x128_S512x128_S512x128_S512x128_S512x128_S512x640_d1
/-- The readout. -/
def outK : Vec Ideal S512x2 .f32 := roK (pooled m c) (a34 m c) (row (a35 m c)) (a36 m c) (row2 (a37 m c))

/-- A stage of the fold, read at the TensorCore's references, is the conditional frame's valuation at the fold's family. -/
theorem rdU1 (r : Ref sig .tc) : Fr.rd (Fr.U1 m) c r = V1 m c r := (congrFun (Fr.V1_eq m c) _).symm
theorem rdU3 (r : Ref sig .tc) : Fr.rd (Fr.U3 m) c r = V3 m (Fr.outs m) c r := (congrFun (Fr.V3_eq m c) _).symm
theorem rdU5 (r : Ref sig .tc) : Fr.rd (Fr.U5 m) c r = V5 m (Fr.outs m) c r := (congrFun (Fr.V5_eq m c) _).symm
theorem rdU7 (r : Ref sig .tc) : Fr.rd (Fr.U7 m) c r = V7 m (Fr.outs m) c r := (congrFun (Fr.V7_eq m c) _).symm
theorem rdU9 (r : Ref sig .tc) : Fr.rd (Fr.U9 m) c r = V9 m (Fr.outs m) c r := (congrFun (Fr.V9_eq m c) _).symm
theorem rdU11 (r : Ref sig .tc) : Fr.rd (Fr.U11 m) c r = V11 m (Fr.outs m) c r := (congrFun (Fr.V11_eq m c) _).symm
theorem rdU13 (r : Ref sig .tc) : Fr.rd (Fr.U13 m) c r = V13 m (Fr.outs m) c r := (congrFun (Fr.V13_eq m c) _).symm
theorem rdU15 (r : Ref sig .tc) : Fr.rd (Fr.U15 m) c r = V15 m (Fr.outs m) c r := (congrFun (Fr.V15_eq m c) _).symm
theorem rdU17 (r : Ref sig .tc) : Fr.rd (Fr.U17 m) c r = V17 m (Fr.outs m) c r := (congrFun (Fr.V17_eq m c) _).symm
theorem rdU19 (r : Ref sig .tc) : Fr.rd (Fr.U19 m) c r = V19 m (Fr.outs m) c r := (congrFun (Fr.V19_eq m c) _).symm
theorem rdU21 (r : Ref sig .tc) : Fr.rd (Fr.U21 m) c r = V21 m (Fr.outs m) c r := (congrFun (Fr.V21_eq m c) _).symm

set_option maxHeartbeats 4000000 in
/-- Layer 1's node update. -/
theorem K1 : Fr.outs m 2 main_v19 c = h1 m c := by
  show Fr.U2 m c main_v19 = _
  unfold Fr.U2
  refine (Function.update_self _ _ _).trans ((final0 (Fr.rd (Fr.U1 m)) c).trans ?_)
  simp only [rdU1]
  show mlpK0 (V1 m c main_arg0) (V1 m c main_v16) (V1 m c main_arg2) (V1 m c main_v17) (V1 m c main_arg4) (V1 m c main_v18) = _
  rw [V1_main_arg0, V1_agg, V1_main_arg2, V1_main_v17, V1_main_arg4, V1_main_v18]
  rfl

set_option maxHeartbeats 4000000 in
/-- Layer 1's batch-norm. -/
theorem K2 : Fr.outs m 4 main_v24 c = n1 m c := by
  show Fr.U4 m c main_v24 = _
  unfold Fr.U4
  refine (Function.update_self _ _ _).trans ((final1 (Fr.rd (Fr.U3 m)) c).trans ?_)
  simp only [rdU3]
  show bnK (V3 m (Fr.outs m) c main_v19) (V3 m (Fr.outs m) c main_v20) (V3 m (Fr.outs m) c main_v21) (V3 m (Fr.outs m) c main_v22) (V3 m (Fr.outs m) c main_v23) = _
  rw [V3_main_v19, V2_main_v19, K1, V3_main_v20, V3_main_v21, V3_main_v22, V3_main_v23]
  rfl

set_option maxHeartbeats 4000000 in
/-- Layer 2's node update. -/
theorem K3 : Fr.outs m 6 main_v40 c = h2 m c := by
  show Fr.U6 m c main_v40 = _
  unfold Fr.U6
  refine (Function.update_self _ _ _).trans ((final2 (Fr.rd (Fr.U5 m)) c).trans ?_)
  simp only [rdU5]
  show mlpK2 (V5 m (Fr.outs m) c main_v24) (V5 m (Fr.outs m) c main_v37) (V5 m (Fr.outs m) c main_arg6) (V5 m (Fr.outs m) c main_v38) (V5 m (Fr.outs m) c main_arg8) (V5 m (Fr.outs m) c main_v39) = _
  rw [V5_agg, V5_main_v24, V4_main_v24, K2, V5_main_arg6, V5_main_v38, V5_main_arg8, V5_main_v39]
  rfl

set_option maxHeartbeats 4000000 in
/-- Layer 2's batch-norm. -/
theorem K4 : Fr.outs m 8 main_v45 c = n2 m c := by
  show Fr.U8 m c main_v45 = _
  unfold Fr.U8
  refine (Function.update_self _ _ _).trans ((final3 (Fr.rd (Fr.U7 m)) c).trans ?_)
  simp only [rdU7]
  show bnK (V7 m (Fr.outs m) c main_v40) (V7 m (Fr.outs m) c main_v41) (V7 m (Fr.outs m) c main_v42) (V7 m (Fr.outs m) c main_v43) (V7 m (Fr.outs m) c main_v44) = _
  rw [V7_main_v40, V6_main_v40, K3, V7_main_v41, V7_main_v42, V7_main_v43, V7_main_v44]
  rfl

set_option maxHeartbeats 4000000 in
/-- Layer 3's node update. -/
theorem K5 : Fr.outs m 10 main_v61 c = h3 m c := by
  show Fr.U10 m c main_v61 = _
  unfold Fr.U10
  refine (Function.update_self _ _ _).trans ((final4 (Fr.rd (Fr.U9 m)) c).trans ?_)
  simp only [rdU9]
  show mlpK2 (V9 m (Fr.outs m) c main_v45) (V9 m (Fr.outs m) c main_v58) (V9 m (Fr.outs m) c main_arg10) (V9 m (Fr.outs m) c main_v59) (V9 m (Fr.outs m) c main_arg12) (V9 m (Fr.outs m) c main_v60) = _
  rw [V9_agg, V9_main_v45, V8_main_v45, K4, V9_main_arg10, V9_main_v59, V9_main_arg12, V9_main_v60]
  rfl

set_option maxHeartbeats 4000000 in
/-- Layer 3's batch-norm. -/
theorem K6 : Fr.outs m 12 main_v66 c = n3 m c := by
  show Fr.U12 m c main_v66 = _
  unfold Fr.U12
  refine (Function.update_self _ _ _).trans ((final5 (Fr.rd (Fr.U11 m)) c).trans ?_)
  simp only [rdU11]
  show bnK (V11 m (Fr.outs m) c main_v61) (V11 m (Fr.outs m) c main_v62) (V11 m (Fr.outs m) c main_v63) (V11 m (Fr.outs m) c main_v64) (V11 m (Fr.outs m) c main_v65) = _
  rw [V11_main_v61, V10_main_v61, K5, V11_main_v62, V11_main_v63, V11_main_v64, V11_main_v65]
  rfl

set_option maxHeartbeats 4000000 in
/-- Layer 4's node update. -/
theorem K7 : Fr.outs m 14 main_v82 c = h4 m c := by
  show Fr.U14 m c main_v82 = _
  unfold Fr.U14
  refine (Function.update_self _ _ _).trans ((final6 (Fr.rd (Fr.U13 m)) c).trans ?_)
  simp only [rdU13]
  show mlpK2 (V13 m (Fr.outs m) c main_v66) (V13 m (Fr.outs m) c main_v79) (V13 m (Fr.outs m) c main_arg14) (V13 m (Fr.outs m) c main_v80) (V13 m (Fr.outs m) c main_arg16) (V13 m (Fr.outs m) c main_v81) = _
  rw [V13_agg, V13_main_v66, V12_main_v66, K6, V13_main_arg14, V13_main_v80, V13_main_arg16, V13_main_v81]
  rfl

set_option maxHeartbeats 4000000 in
/-- Layer 4's batch-norm. -/
theorem K8 : Fr.outs m 16 main_v87 c = n4 m c := by
  show Fr.U16 m c main_v87 = _
  unfold Fr.U16
  refine (Function.update_self _ _ _).trans ((final7 (Fr.rd (Fr.U15 m)) c).trans ?_)
  simp only [rdU15]
  show bnK (V15 m (Fr.outs m) c main_v82) (V15 m (Fr.outs m) c main_v83) (V15 m (Fr.outs m) c main_v84) (V15 m (Fr.outs m) c main_v85) (V15 m (Fr.outs m) c main_v86) = _
  rw [V15_main_v82, V14_main_v82, K7, V15_main_v83, V15_main_v84, V15_main_v85, V15_main_v86]
  rfl

set_option maxHeartbeats 4000000 in
/-- Layer 5's node update. -/
theorem K9 : Fr.outs m 18 main_v103 c = h5 m c := by
  show Fr.U18 m c main_v103 = _
  unfold Fr.U18
  refine (Function.update_self _ _ _).trans ((final8 (Fr.rd (Fr.U17 m)) c).trans ?_)
  simp only [rdU17]
  show mlpK2 (V17 m (Fr.outs m) c main_v87) (V17 m (Fr.outs m) c main_v100) (V17 m (Fr.outs m) c main_arg18) (V17 m (Fr.outs m) c main_v101) (V17 m (Fr.outs m) c main_arg20) (V17 m (Fr.outs m) c main_v102) = _
  rw [V17_agg, V17_main_v87, V16_main_v87, K8, V17_main_arg18, V17_main_v101, V17_main_arg20, V17_main_v102]
  rfl

set_option maxHeartbeats 4000000 in
/-- Layer 5's batch-norm. -/
theorem K10 : Fr.outs m 20 main_v108 c = n5 m c := by
  show Fr.U20 m c main_v108 = _
  unfold Fr.U20
  refine (Function.update_self _ _ _).trans ((final9 (Fr.rd (Fr.U19 m)) c).trans ?_)
  simp only [rdU19]
  show bnK (V19 m (Fr.outs m) c main_v103) (V19 m (Fr.outs m) c main_v104) (V19 m (Fr.outs m) c main_v105) (V19 m (Fr.outs m) c main_v106) (V19 m (Fr.outs m) c main_v107) = _
  rw [V19_main_v103, V18_main_v103, K9, V19_main_v104, V19_main_v105, V19_main_v106, V19_main_v107]
  rfl

set_option maxHeartbeats 4000000 in
/-- The readout of the joined pooled layers. -/
theorem K11 : Fr.outs m 22 main_v127 c = outK m c := by
  show Fr.U22 m c main_v127 = _
  unfold Fr.U22
  refine (Function.update_self _ _ _).trans ((final10 (Fr.rd (Fr.U21 m)) c).trans ?_)
  simp only [rdU21]
  show roK (V21 m (Fr.outs m) c main_v124) (V21 m (Fr.outs m) c main_arg34) (V21 m (Fr.outs m) c main_v125) (V21 m (Fr.outs m) c main_arg36) (V21 m (Fr.outs m) c main_v126) = _
  rw [V21_cat_out, K1, K3, K5, K7, K10, V21_main_arg34, V21_main_v125, V21_main_arg36, V21_main_v126]
  rfl

/-- The kernel's result array at the end of the fold. -/
theorem kernel_val : Fr.U22 m c main_v127 = outK m c := K11 m c

end Cert.KernelIdeal.Val

end
-- ==== Proof.KI.HostRef.lean ====
import proofs.«141374_j27161373180011_1_alg».proof.Proof.KI.Host
import proofs.«141374_j27161373180011_1_alg».proof.ReferenceIdeal
import proofs.«141374_j27161373180011_1_alg».proof.Proof.Gen.ReferenceIdeal.Read
import Idealize.ShloMosaic.Lib.ValueLayout

noncomputable section

namespace Cert.KernelIdeal.HostRead

open Cert.KernelIdeal Cert.KernelIdeal.Gen
open Idealize.ShloMosaic Idealize.ShloMosaic.TcCoe Idealize.ShloMosaic.StableHlo
open Idealize.SL.Sem

variable {F : FTy → Type} [FloatOps F]

theorem rec_gather_S32768x64_S524288x1_S524288x64_1_0_n_n_0_1_164 :
    Cert.KernelIdeal.gather_S32768x64_S524288x1_S524288x64_1_0_n_n_0_1_164
      = Cert.ReferenceIdeal.gather_S32768x64_S524288x1_S524288x64_1_0_n_n_0_1_164 := rfl
theorem rec_scatter_S32768x64_S524288x1_S524288x64_1_0_0_1 :
    Cert.KernelIdeal.scatter_S32768x64_S524288x1_S524288x64_1_0_0_1
      = Cert.ReferenceIdeal.scatter_S32768x64_S524288x1_S524288x64_1_0_0_1 := rfl
theorem rec_gather_S32768x128_S524288x1_S524288x128_1_0_n_n_0_1_1128 :
    Cert.KernelIdeal.gather_S32768x128_S524288x1_S524288x128_1_0_n_n_0_1_1128
      = Cert.ReferenceIdeal.gather_S32768x128_S524288x1_S524288x128_1_0_n_n_0_1_1128 := rfl
theorem rec_scatter_S32768x128_S524288x1_S524288x128_1_0_0_1 :
    Cert.KernelIdeal.scatter_S32768x128_S524288x1_S524288x128_1_0_0_1
      = Cert.ReferenceIdeal.scatter_S32768x128_S524288x1_S524288x128_1_0_0_1 := rfl
theorem rec_scatter_S512x128_S32768x1_S32768x128_1_0_0_1 :
    Cert.KernelIdeal.scatter_S512x128_S32768x1_S32768x128_1_0_0_1
      = Cert.ReferenceIdeal.scatter_S512x128_S32768x1_S32768x128_1_0_0_1 := rfl
theorem rec_slices_S2x524288_S1x524288_0_0 :
    Cert.KernelIdeal.Facts₀.slices_S2x524288_S1x524288_0_0 = Cert.ReferenceIdeal.Facts₀.slices_S2x524288_S1x524288_0_0 := rfl
theorem rec_slices_S2x524288_S1x524288_1_0 :
    Cert.KernelIdeal.Facts₀.slices_S2x524288_S1x524288_1_0 = Cert.ReferenceIdeal.Facts₀.slices_S2x524288_S1x524288_1_0 := rfl
theorem rec_shapeCasts_S1x524288_S524288 :
    Cert.KernelIdeal.Facts₀.shapeCasts_S1x524288_S524288 = Cert.ReferenceIdeal.Facts₀.shapeCasts_S1x524288_S524288 := rfl
theorem rec_bcast_S_S524288 :
    Cert.KernelIdeal.Facts₀.bcast_S_S524288 = Cert.ReferenceIdeal.Facts₀.bcast_S_S524288 := rfl
theorem rec_bcast_S524288_S524288x1_0 :
    Cert.KernelIdeal.Facts₀.bcast_S524288_S524288x1_0 = Cert.ReferenceIdeal.Facts₀.bcast_S524288_S524288x1_0 := rfl
theorem rec_bcast_S524288x1_S524288x64_0_1 :
    Cert.KernelIdeal.Facts₀.bcast_S524288x1_S524288x64_0_1 = Cert.ReferenceIdeal.Facts₀.bcast_S524288x1_S524288x64_0_1 := rfl
theorem rec_bcast_S_S32768x64 :
    Cert.KernelIdeal.Facts₀.bcast_S_S32768x64 = Cert.ReferenceIdeal.Facts₀.bcast_S_S32768x64 := rfl
theorem rec_bcast_S524288x1_S524288x128_0_1 :
    Cert.KernelIdeal.Facts₀.bcast_S524288x1_S524288x128_0_1 = Cert.ReferenceIdeal.Facts₀.bcast_S524288x1_S524288x128_0_1 := rfl
theorem rec_bcast_S_S32768x128 :
    Cert.KernelIdeal.Facts₀.bcast_S_S32768x128 = Cert.ReferenceIdeal.Facts₀.bcast_S_S32768x128 := rfl
theorem rec_bcast_S_S512x128 :
    Cert.KernelIdeal.Facts₀.bcast_S_S512x128 = Cert.ReferenceIdeal.Facts₀.bcast_S_S512x128 := rfl
theorem rec_bcast_S32768_S32768x1_0 :
    Cert.KernelIdeal.Facts₀.bcast_S32768_S32768x1_0 = Cert.ReferenceIdeal.Facts₀.bcast_S32768_S32768x1_0 := rfl
theorem rec_concatenates_S512x128_S512x128_S512x128_S512x128_S512x128_S512x640_d1 :
    Cert.KernelIdeal.Facts₀.concatenates_S512x128_S512x128_S512x128_S512x128_S512x128_S512x640_d1
      = Cert.ReferenceIdeal.Facts₀.concatenates_S512x128_S512x128_S512x128_S512x128_S512x128_S512x640_d1 := rfl

theorem agg64_ref (x : (⟨S32768x64, .f32⟩ : BufTy).Contents (Elt F)) (ew : (⟨S524288, .f32⟩ : BufTy).Contents (Elt F))
    (ei : (⟨S2x524288, .i32⟩ : BufTy).Contents (Elt F)) :
    agg64 (F := F) x ew ei = Cert.ReferenceIdeal.Read.val_main_v16 (F := F) x ew ei := rfl

theorem agg128_ref2 (h : (⟨S32768x128, .f32⟩ : BufTy).Contents (Elt F)) (ew : (⟨S524288, .f32⟩ : BufTy).Contents (Elt F))
    (ei : (⟨S2x524288, .i32⟩ : BufTy).Contents (Elt F)) :
    agg128 (F := F) h ew ei
      = Host.scatterAdd Cert.ReferenceIdeal.scatter_S32768x128_S524288x1_S524288x128_1_0_0_1
          (Cert.ReferenceIdeal.Read.val_main_v52 (F := F)) (Cert.ReferenceIdeal.Read.val_main_v53 (F := F) ei)
          (mulf (Host.gather Cert.ReferenceIdeal.gather_S32768x128_S524288x1_S524288x128_1_0_n_n_0_1_1128 h
              (Cert.ReferenceIdeal.Read.val_main_v47 (F := F) ei)) (Cert.ReferenceIdeal.Read.val_main_v50 (F := F) ew)) := rfl

theorem agg128_ref3 (h : (⟨S32768x128, .f32⟩ : BufTy).Contents (Elt F)) (ew : (⟨S524288, .f32⟩ : BufTy).Contents (Elt F))
    (ei : (⟨S2x524288, .i32⟩ : BufTy).Contents (Elt F)) :
    agg128 (F := F) h ew ei
      = Host.scatterAdd Cert.ReferenceIdeal.scatter_S32768x128_S524288x1_S524288x128_1_0_0_1
          (Cert.ReferenceIdeal.Read.val_main_v90 (F := F)) (Cert.ReferenceIdeal.Read.val_main_v91 (F := F) ei)
          (mulf (Host.gather Cert.ReferenceIdeal.gather_S32768x128_S524288x1_S524288x128_1_0_n_n_0_1_1128 h
              (Cert.ReferenceIdeal.Read.val_main_v85 (F := F) ei)) (Cert.ReferenceIdeal.Read.val_main_v88 (F := F) ew)) := rfl

theorem agg128_ref4 (h : (⟨S32768x128, .f32⟩ : BufTy).Contents (Elt F)) (ew : (⟨S524288, .f32⟩ : BufTy).Contents (Elt F))
    (ei : (⟨S2x524288, .i32⟩ : BufTy).Contents (Elt F)) :
    agg128 (F := F) h ew ei
      = Host.scatterAdd Cert.ReferenceIdeal.scatter_S32768x128_S524288x1_S524288x128_1_0_0_1
          (Cert.ReferenceIdeal.Read.val_main_v128 (F := F)) (Cert.ReferenceIdeal.Read.val_main_v129 (F := F) ei)
          (mulf (Host.gather Cert.ReferenceIdeal.gather_S32768x128_S524288x1_S524288x128_1_0_n_n_0_1_1128 h
              (Cert.ReferenceIdeal.Read.val_main_v123 (F := F) ei)) (Cert.ReferenceIdeal.Read.val_main_v126 (F := F) ew)) := rfl

theorem agg128_ref5 (h : (⟨S32768x128, .f32⟩ : BufTy).Contents (Elt F)) (ew : (⟨S524288, .f32⟩ : BufTy).Contents (Elt F))
    (ei : (⟨S2x524288, .i32⟩ : BufTy).Contents (Elt F)) :
    agg128 (F := F) h ew ei
      = Host.scatterAdd Cert.ReferenceIdeal.scatter_S32768x128_S524288x1_S524288x128_1_0_0_1
          (Cert.ReferenceIdeal.Read.val_main_v166 (F := F)) (Cert.ReferenceIdeal.Read.val_main_v167 (F := F) ei)
          (mulf (Host.gather Cert.ReferenceIdeal.gather_S32768x128_S524288x1_S524288x128_1_0_n_n_0_1_1128 h
              (Cert.ReferenceIdeal.Read.val_main_v161 (F := F) ei)) (Cert.ReferenceIdeal.Read.val_main_v164 (F := F) ew)) := rfl

theorem pool_ref1 (h : (⟨S32768x128, .f32⟩ : BufTy).Contents (Elt F)) (gi : (⟨S32768, .i32⟩ : BufTy).Contents (Elt F)) :
    pool (F := F) h gi
      = Host.scatterAdd Cert.ReferenceIdeal.scatter_S512x128_S32768x1_S32768x128_1_0_0_1
          (Cert.ReferenceIdeal.Read.val_main_v194 (F := F)) (Cert.ReferenceIdeal.Read.val_main_v195 (F := F) gi) h := rfl
theorem pool_ref2 (h : (⟨S32768x128, .f32⟩ : BufTy).Contents (Elt F)) (gi : (⟨S32768, .i32⟩ : BufTy).Contents (Elt F)) :
    pool (F := F) h gi
      = Host.scatterAdd Cert.ReferenceIdeal.scatter_S512x128_S32768x1_S32768x128_1_0_0_1
          (Cert.ReferenceIdeal.Read.val_main_v197 (F := F)) (Cert.ReferenceIdeal.Read.val_main_v198 (F := F) gi) h := rfl
theorem pool_ref3 (h : (⟨S32768x128, .f32⟩ : BufTy).Contents (Elt F)) (gi : (⟨S32768, .i32⟩ : BufTy).Contents (Elt F)) :
    pool (F := F) h gi
      = Host.scatterAdd Cert.ReferenceIdeal.scatter_S512x128_S32768x1_S32768x128_1_0_0_1
          (Cert.ReferenceIdeal.Read.val_main_v200 (F := F)) (Cert.ReferenceIdeal.Read.val_main_v201 (F := F) gi) h := rfl
theorem pool_ref4 (h : (⟨S32768x128, .f32⟩ : BufTy).Contents (Elt F)) (gi : (⟨S32768, .i32⟩ : BufTy).Contents (Elt F)) :
    pool (F := F) h gi
      = Host.scatterAdd Cert.ReferenceIdeal.scatter_S512x128_S32768x1_S32768x128_1_0_0_1
          (Cert.ReferenceIdeal.Read.val_main_v203 (F := F)) (Cert.ReferenceIdeal.Read.val_main_v204 (F := F) gi) h := rfl
theorem pool_ref5 (h : (⟨S32768x128, .f32⟩ : BufTy).Contents (Elt F)) (gi : (⟨S32768, .i32⟩ : BufTy).Contents (Elt F)) :
    pool (F := F) h gi
      = Host.scatterAdd Cert.ReferenceIdeal.scatter_S512x128_S32768x1_S32768x128_1_0_0_1
          (Cert.ReferenceIdeal.Read.val_main_v206 (F := F)) (Cert.ReferenceIdeal.Read.val_main_v207 (F := F) gi) h := rfl

theorem cat_ref (p1 p2 p3 p4 p5 : (⟨S512x128, .f32⟩ : BufTy).Contents (Elt F)) :
    concatenate S512x640 1 [⟨S512x128, p1⟩, ⟨S512x128, p2⟩, ⟨S512x128, p3⟩, ⟨S512x128, p4⟩, ⟨S512x128, p5⟩]
        concatenates_S512x128_S512x128_S512x128_S512x128_S512x128_S512x640_d1
      = concatenate Cert.ReferenceIdeal.S512x640 1
          [⟨Cert.ReferenceIdeal.S512x128, p1⟩, ⟨Cert.ReferenceIdeal.S512x128, p2⟩, ⟨Cert.ReferenceIdeal.S512x128, p3⟩,
           ⟨Cert.ReferenceIdeal.S512x128, p4⟩, ⟨Cert.ReferenceIdeal.S512x128, p5⟩]
          Cert.ReferenceIdeal.Facts₀.concatenates_S512x128_S512x128_S512x128_S512x128_S512x128_S512x640_d1 := rfl

theorem row128_ref (v : (⟨S128, .f32⟩ : BufTy).Contents (Elt F)) :
    shapeCast S1x128 v shapeCasts_S128_S1x128
      = broadcastInDim Cert.ReferenceIdeal.S1x128 ![1] Cert.ReferenceIdeal.Facts₀.bcast_S128_S1x128_1 v := by
  funext j
  obtain ⟨u, i, rfl⟩ : ∃ (u : Fin 1) (i : Fin 128), j = ValueIdx.ix2 u i := ⟨j 0, j 1, ValueIdx.eq_ix2 j⟩
  refine (ValueIdx.shapeCast_a_1a_apply v shapeCasts_S128_S1x128 u i).trans ?_
  exact (broadcastInDim_apply ![1] Cert.ReferenceIdeal.Facts₀.bcast_S128_S1x128_1 v (ValueIdx.ix2 u i) (ValueIdx.ix1 i)
    (fun a => match a with
      | ⟨0, _⟩ => by show i.val = if (128 : ℕ) = 1 then 0 else i.val; rw [if_neg (by decide)])).symm

theorem row2_ref (v : (⟨S2, .f32⟩ : BufTy).Contents (Elt F)) :
    shapeCast S1x2 v shapeCasts_S2_S1x2
      = broadcastInDim Cert.ReferenceIdeal.S1x2 ![1] Cert.ReferenceIdeal.Facts₀.bcast_S2_S1x2_1 v := by
  funext j
  obtain ⟨u, i, rfl⟩ : ∃ (u : Fin 1) (i : Fin 2), j = ValueIdx.ix2 u i := ⟨j 0, j 1, ValueIdx.eq_ix2 j⟩
  refine (ValueIdx.shapeCast_a_1a_apply v shapeCasts_S2_S1x2 u i).trans ?_
  exact (broadcastInDim_apply ![1] Cert.ReferenceIdeal.Facts₀.bcast_S2_S1x2_1 v (ValueIdx.ix2 u i) (ValueIdx.ix1 i)
    (fun a => match a with
      | ⟨0, _⟩ => by show i.val = if (2 : ℕ) = 1 then 0 else i.val; rw [if_neg (by decide)])).symm

section Stages

variable (x0 : (⟨S32768x64, .f32⟩ : BufTy).Contents (Elt F)) (x1 : (⟨S524288, .f32⟩ : BufTy).Contents (Elt F))
  (x2 : (⟨S64x128, .f32⟩ : BufTy).Contents (Elt F)) (x3 : (⟨S128, .f32⟩ : BufTy).Contents (Elt F))
  (x4 : (⟨S128x128, .f32⟩ : BufTy).Contents (Elt F)) (x5 : (⟨S128, .f32⟩ : BufTy).Contents (Elt F))
  (x6 : (⟨S128x128, .f32⟩ : BufTy).Contents (Elt F)) (x7 : (⟨S128, .f32⟩ : BufTy).Contents (Elt F))
  (x8 : (⟨S128x128, .f32⟩ : BufTy).Contents (Elt F)) (x9 : (⟨S128, .f32⟩ : BufTy).Contents (Elt F))
  (x10 : (⟨S128x128, .f32⟩ : BufTy).Contents (Elt F)) (x11 : (⟨S128, .f32⟩ : BufTy).Contents (Elt F))
  (x12 : (⟨S128x128, .f32⟩ : BufTy).Contents (Elt F)) (x13 : (⟨S128, .f32⟩ : BufTy).Contents (Elt F))
  (x14 : (⟨S128x128, .f32⟩ : BufTy).Contents (Elt F)) (x15 : (⟨S128, .f32⟩ : BufTy).Contents (Elt F))
  (x16 : (⟨S128x128, .f32⟩ : BufTy).Contents (Elt F)) (x17 : (⟨S128, .f32⟩ : BufTy).Contents (Elt F))
  (x18 : (⟨S128x128, .f32⟩ : BufTy).Contents (Elt F)) (x19 : (⟨S128, .f32⟩ : BufTy).Contents (Elt F))
  (x20 : (⟨S128x128, .f32⟩ : BufTy).Contents (Elt F)) (x21 : (⟨S128, .f32⟩ : BufTy).Contents (Elt F))
  (x22 x23 x24 x25 x26 x27 x28 x29 x30 x31 x32 x33 : (⟨S128, .f32⟩ : BufTy).Contents (Elt F))
  (x38 : (⟨S2x524288, .i32⟩ : BufTy).Contents (Elt F)) (x39 : (⟨S32768, .i32⟩ : BufTy).Contents (Elt F))

theorem val_main_v16_agg :
    Cert.ReferenceIdeal.Read.val_main_v16 (F := F) x0 x1 x38 = agg64 x0 x1 x38 := rfl

theorem val_main_v54_agg :
    Cert.ReferenceIdeal.Read.val_main_v54 (F := F) x0 x1 x2 x3 x4 x5 x22 x23 x24 x25 x38
      = agg128 (Cert.ReferenceIdeal.Read.val_main_v41 (F := F) x0 x1 x2 x3 x4 x5 x22 x23 x24 x25 x38) x1 x38 := rfl

theorem val_main_v92_agg :
    Cert.ReferenceIdeal.Read.val_main_v92 (F := F) x0 x1 x2 x3 x4 x5 x6 x7 x8 x9 x22 x23 x24 x25 x38
      = agg128 (Cert.ReferenceIdeal.Read.val_main_v79 (F := F) x0 x1 x2 x3 x4 x5 x6 x7 x8 x9 x22 x23 x24 x25 x38) x1 x38 := rfl

theorem val_main_v130_agg :
    Cert.ReferenceIdeal.Read.val_main_v130 (F := F) x0 x1 x2 x3 x4 x5 x6 x7 x8 x9 x10 x11 x12 x13 x22 x23 x24 x25 x26 x27 x28 x29 x38
      = agg128 (Cert.ReferenceIdeal.Read.val_main_v117 (F := F) x0 x1 x2 x3 x4 x5 x6 x7 x8 x9 x10 x11 x12 x13 x22 x23 x24 x25 x26 x27 x28 x29 x38)
          x1 x38 := rfl

theorem val_main_v168_agg :
    Cert.ReferenceIdeal.Read.val_main_v168 (F := F) x0 x1 x2 x3 x4 x5 x6 x7 x8 x9 x10 x11 x12 x13 x14 x15 x16 x17 x22 x23 x24 x25 x26 x27 x28 x29
        x30 x31 x32 x33 x38
      = agg128 (Cert.ReferenceIdeal.Read.val_main_v155 (F := F) x0 x1 x2 x3 x4 x5 x6 x7 x8 x9 x10 x11 x12 x13 x14 x15 x16 x17 x22 x23 x24 x25 x26 x27
          x28 x29 x30 x31 x32 x33 x38) x1 x38 := rfl

theorem val_main_v196_pool :
    Cert.ReferenceIdeal.Read.val_main_v196 (F := F) x0 x1 x2 x3 x4 x5 x38 x39
      = pool (Cert.ReferenceIdeal.Read.val_main_v26 (F := F) x0 x1 x2 x3 x4 x5 x38) x39 := rfl

theorem val_main_v199_pool :
    Cert.ReferenceIdeal.Read.val_main_v199 (F := F) x0 x1 x2 x3 x4 x5 x6 x7 x8 x9 x22 x23 x24 x25 x38 x39
      = pool (Cert.ReferenceIdeal.Read.val_main_v64 (F := F) x0 x1 x2 x3 x4 x5 x6 x7 x8 x9 x22 x23 x24 x25 x38) x39 := rfl

theorem val_main_v202_pool :
    Cert.ReferenceIdeal.Read.val_main_v202 (F := F) x0 x1 x2 x3 x4 x5 x6 x7 x8 x9 x10 x11 x12 x13 x22 x23 x24 x25 x38 x39
      = pool (Cert.ReferenceIdeal.Read.val_main_v102 (F := F) x0 x1 x2 x3 x4 x5 x6 x7 x8 x9 x10 x11 x12 x13 x22 x23 x24 x25 x38) x39 := rfl

theorem val_main_v205_pool :
    Cert.ReferenceIdeal.Read.val_main_v205 (F := F) x0 x1 x2 x3 x4 x5 x6 x7 x8 x9 x10 x11 x12 x13 x14 x15 x16 x17 x22 x23 x24 x25 x26 x27 x28 x29
        x38 x39
      = pool (Cert.ReferenceIdeal.Read.val_main_v140 (F := F) x0 x1 x2 x3 x4 x5 x6 x7 x8 x9 x10 x11 x12 x13 x14 x15 x16 x17 x22 x23 x24 x25 x26 x27
          x28 x29 x38) x39 := rfl

theorem val_main_v208_pool :
    Cert.ReferenceIdeal.Read.val_main_v208 (F := F) x0 x1 x2 x3 x4 x5 x6 x7 x8 x9 x10 x11 x12 x13 x14 x15 x16 x17 x18 x19 x20 x21 x22 x23 x24 x25
        x26 x27 x28 x29 x30 x31 x32 x33 x38 x39
      = pool (Cert.ReferenceIdeal.Read.val_main_v193 (F := F) x0 x1 x2 x3 x4 x5 x6 x7 x8 x9 x10 x11 x12 x13 x14 x15 x16 x17 x18 x19 x20 x21 x22 x23
          x24 x25 x26 x27 x28 x29 x30 x31 x32 x33 x38) x39 := rfl

theorem val_main_v209_cat :
    Cert.ReferenceIdeal.Read.val_main_v209 (F := F) x0 x1 x2 x3 x4 x5 x6 x7 x8 x9 x10 x11 x12 x13 x14 x15 x16 x17 x18 x19 x20 x21 x22 x23 x24 x25
        x26 x27 x28 x29 x30 x31 x32 x33 x38 x39
      = concatenate S512x640 1
          [⟨S512x128, Cert.ReferenceIdeal.Read.val_main_v196 (F := F) x0 x1 x2 x3 x4 x5 x38 x39⟩,
           ⟨S512x128, Cert.ReferenceIdeal.Read.val_main_v199 (F := F) x0 x1 x2 x3 x4 x5 x6 x7 x8 x9 x22 x23 x24 x25 x38 x39⟩,
           ⟨S512x128, Cert.ReferenceIdeal.Read.val_main_v202 (F := F) x0 x1 x2 x3 x4 x5 x6 x7 x8 x9 x10 x11 x12 x13 x22 x23 x24 x25 x38 x39⟩,
           ⟨S512x128, Cert.ReferenceIdeal.Read.val_main_v205 (F := F) x0 x1 x2 x3 x4 x5 x6 x7 x8 x9 x10 x11 x12 x13 x14 x15 x16 x17 x22 x23 x24 x25
              x26 x27 x28 x29 x38 x39⟩,
           ⟨S512x128, Cert.ReferenceIdeal.Read.val_main_v208 (F := F) x0 x1 x2 x3 x4 x5 x6 x7 x8 x9 x10 x11 x12 x13 x14 x15 x16 x17 x18 x19 x20 x21
              x22 x23 x24 x25 x26 x27 x28 x29 x30 x31 x32 x33 x38 x39⟩]
          concatenates_S512x128_S512x128_S512x128_S512x128_S512x128_S512x640_d1 := rfl

end Stages

end Cert.KernelIdeal.HostRead

end
-- ==== Proof.KI.Value.lean ====
/-
  The kernel's closed form is the reference's last stage function of the arguments. Layer by layer: a node update computed
  tile by tile by the kernel is the reference's two matrix products with bias and rectifier on the whole array; the
  batch-norm tile by tile is the reference's whole-array batch-norm; the aggregation over the edges, the pooling and the
  join are the reference's own host operations; the bias rows the kernels stage are the vectors the reference broadcasts.
  So every layer's value is the reference's stage of the same name, and the readout of the joined pooled layers is its result.
-/
import proofs.«141374_j27161373180011_1_alg».proof.Proof.KI.KVal
import proofs.«141374_j27161373180011_1_alg».proof.Proof.KI.HostRef

set_option maxRecDepth 16384

noncomputable section

namespace Cert.KernelIdeal.Val

open Cert.KernelIdeal Cert.KernelIdeal.Gen Cert.KernelIdeal.HostRead
open Idealize.ShloMosaic Idealize.ShloMosaic.TcCoe Idealize.SL.Sem

variable (m : (ℓ : Loc nD τ sig) → Buf (Elt Ideal) ℓ) (c : Dev nD)

/-- Layer 1's node update is the reference's. -/
theorem R1 : h1 m c = (Cert.ReferenceIdeal.Read.val_main_v26 (F := Ideal) (a0 m c) (a1 m c) (a2 m c) (a3 m c) (a4 m c) (a5 m c) (a38 m c)) :=
  (mlpK0_eq_ref _ _ _ _ _ _).trans
    ((congrArg (fun a => refMlp0 (a0 m c) a (a2 m c) (a3 m c) (a4 m c) (a5 m c)) (val_main_v16_agg (F := Ideal) (a0 m c) (a1 m c) (a38 m c)).symm).trans
      (ref_mlp0 (a0 m c) (a1 m c) (a2 m c) (a3 m c) (a4 m c) (a5 m c) (a38 m c)).symm)

/-- Layer 1's batch-norm is the reference's. -/
theorem R2 : n1 m c = (Cert.ReferenceIdeal.Read.val_main_v41 (F := Ideal) (a0 m c) (a1 m c) (a2 m c) (a3 m c) (a4 m c) (a5 m c) (a22 m c) (a23 m c) (a24 m c) (a25 m c) (a38 m c)) :=
  (bnK_eq_ref _ _ _ _ _ shapeCasts_S128_S1x128).trans
    ((congrArg (fun h => refBn h (a22 m c) (a23 m c) (a24 m c) (a25 m c)) (R1 m c)).trans
      (ref_bn1 (a0 m c) (a1 m c) (a2 m c) (a3 m c) (a4 m c) (a5 m c) (a22 m c) (a23 m c) (a24 m c) (a25 m c) (a38 m c)).symm)

/-- Layer 2's node update is the reference's: its input is the previous batch-norm, its aggregate the reference's own. -/
theorem R3 : h2 m c = (Cert.ReferenceIdeal.Read.val_main_v64 (F := Ideal) (a0 m c) (a1 m c) (a2 m c) (a3 m c) (a4 m c) (a5 m c) (a6 m c) (a7 m c) (a8 m c) (a9 m c) (a22 m c) (a23 m c) (a24 m c) (a25 m c) (a38 m c)) := by
  have e : agg128 (n1 m c) (a1 m c) (a38 m c) = (Cert.ReferenceIdeal.Read.val_main_v54 (F := Ideal) (a0 m c) (a1 m c) (a2 m c) (a3 m c) (a4 m c) (a5 m c) (a22 m c) (a23 m c) (a24 m c) (a25 m c) (a38 m c)) := by
    rw [R2 m c]; exact (val_main_v54_agg (F := Ideal) (a0 m c) (a1 m c) (a2 m c) (a3 m c) (a4 m c) (a5 m c) (a22 m c) (a23 m c) (a24 m c) (a25 m c) (a38 m c)).symm
  unfold h2
  rw [e, R2 m c]
  exact (mlpK2_eq_ref _ _ _ _ _ _).trans (ref_mlp2 (a0 m c) (a1 m c) (a2 m c) (a3 m c) (a4 m c) (a5 m c) (a6 m c) (a7 m c) (a8 m c) (a9 m c) (a22 m c) (a23 m c) (a24 m c) (a25 m c) (a38 m c)).symm

/-- Layer 2's batch-norm is the reference's. -/
theorem R4 : n2 m c = (Cert.ReferenceIdeal.Read.val_main_v79 (F := Ideal) (a0 m c) (a1 m c) (a2 m c) (a3 m c) (a4 m c) (a5 m c) (a6 m c) (a7 m c) (a8 m c) (a9 m c) (a22 m c) (a23 m c) (a24 m c) (a25 m c) (a38 m c)) :=
  (bnK_eq_ref _ _ _ _ _ shapeCasts_S128_S1x128).trans
    ((congrArg (fun h => refBn h (a22 m c) (a23 m c) (a24 m c) (a25 m c)) (R3 m c)).trans
      (ref_bn2 (a0 m c) (a1 m c) (a2 m c) (a3 m c) (a4 m c) (a5 m c) (a6 m c) (a7 m c) (a8 m c) (a9 m c) (a22 m c) (a23 m c) (a24 m c) (a25 m c) (a38 m c)).symm)

/-- Layer 3's node update is the reference's: its input is the previous batch-norm, its aggregate the reference's own. -/
theorem R5 : h3 m c = (Cert.ReferenceIdeal.Read.val_main_v102 (F := Ideal) (a0 m c) (a1 m c) (a2 m c) (a3 m c) (a4 m c) (a5 m c) (a6 m c) (a7 m c) (a8 m c) (a9 m c) (a10 m c) (a11 m c) (a12 m c) (a13 m c) (a22 m c) (a23 m c) (a24 m c) (a25 m c) (a38 m c)) := by
  have e : agg128 (n2 m c) (a1 m c) (a38 m c) = (Cert.ReferenceIdeal.Read.val_main_v92 (F := Ideal) (a0 m c) (a1 m c) (a2 m c) (a3 m c) (a4 m c) (a5 m c) (a6 m c) (a7 m c) (a8 m c) (a9 m c) (a22 m c) (a23 m c) (a24 m c) (a25 m c) (a38 m c)) := by
    rw [R4 m c]; exact (val_main_v92_agg (F := Ideal) (a0 m c) (a1 m c) (a2 m c) (a3 m c) (a4 m c) (a5 m c) (a6 m c) (a7 m c) (a8 m c) (a9 m c) (a22 m c) (a23 m c) (a24 m c) (a25 m c) (a38 m c)).symm
  unfold h3
  rw [e, R4 m c]
  exact (mlpK2_eq_ref _ _ _ _ _ _).trans (ref_mlp3 (a0 m c) (a1 m c) (a2 m c) (a3 m c) (a4 m c) (a5 m c) (a6 m c) (a7 m c) (a8 m c) (a9 m c) (a10 m c) (a11 m c) (a12 m c) (a13 m c) (a22 m c) (a23 m c) (a24 m c) (a25 m c) (a38 m c)).symm

/-- Layer 3's batch-norm is the reference's. -/
theorem R6 : n3 m c = (Cert.ReferenceIdeal.Read.val_main_v117 (F := Ideal) (a0 m c) (a1 m c) (a2 m c) (a3 m c) (a4 m c) (a5 m c) (a6 m c) (a7 m c) (a8 m c) (a9 m c) (a10 m c) (a11 m c) (a12 m c) (a13 m c) (a22 m c) (a23 m c) (a24 m c) (a25 m c) (a26 m c) (a27 m c) (a28 m c) (a29 m c) (a38 m c)) :=
  (bnK_eq_ref _ _ _ _ _ shapeCasts_S128_S1x128).trans
    ((congrArg (fun h => refBn h (a26 m c) (a27 m c) (a28 m c) (a29 m c)) (R5 m c)).trans
      (ref_bn3 (a0 m c) (a1 m c) (a2 m c) (a3 m c) (a4 m c) (a5 m c) (a6 m c) (a7 m c) (a8 m c) (a9 m c) (a10 m c) (a11 m c) (a12 m c) (a13 m c) (a22 m c) (a23 m c) (a24 m c) (a25 m c) (a26 m c) (a27 m c) (a28 m c) (a29 m c) (a38 m c)).symm)

/-- Layer 4's node update is the reference's: its input is the previous batch-norm, its aggregate the reference's own. -/
theorem R7 : h4 m c = (Cert.ReferenceIdeal.Read.val_main_v140 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a22 m c) (a23 m c) (a24 m c) (a25 m c) (a26 m c) (a27 m c) (a28 m c) (a29 m c) (a38 m c)) := by
  have e : agg128 (n3 m c) (a1 m c) (a38 m c) = (Cert.ReferenceIdeal.Read.val_main_v130 (F := Ideal) (a0 m c) (a1 m c) (a2 m c) (a3 m c) (a4 m c) (a5 m c) (a6 m c) (a7 m c) (a8 m c) (a9 m c) (a10 m c) (a11 m c) (a12 m c) (a13 m c) (a22 m c) (a23 m c) (a24 m c) (a25 m c) (a26 m c) (a27 m c) (a28 m c) (a29 m c) (a38 m c)) := by
    rw [R6 m c]; exact (val_main_v130_agg (F := Ideal) (a0 m c) (a1 m c) (a2 m c) (a3 m c) (a4 m c) (a5 m c) (a6 m c) (a7 m c) (a8 m c) (a9 m c) (a10 m c) (a11 m c) (a12 m c) (a13 m c) (a22 m c) (a23 m c) (a24 m c) (a25 m c) (a26 m c) (a27 m c) (a28 m c) (a29 m c) (a38 m c)).symm
  unfold h4
  rw [e, R6 m c]
  exact (mlpK2_eq_ref _ _ _ _ _ _).trans (ref_mlp4 (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a22 m c) (a23 m c) (a24 m c) (a25 m c) (a26 m c) (a27 m c) (a28 m c) (a29 m c) (a38 m c)).symm

/-- Layer 4's batch-norm is the reference's. -/
theorem R8 : n4 m c = (Cert.ReferenceIdeal.Read.val_main_v155 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a22 m c) (a23 m c) (a24 m c) (a25 m c) (a26 m c) (a27 m c) (a28 m c) (a29 m c) (a30 m c) (a31 m c) (a32 m c) (a33 m c) (a38 m c)) :=
  (bnK_eq_ref _ _ _ _ _ shapeCasts_S128_S1x128).trans
    ((congrArg (fun h => refBn h (a30 m c) (a31 m c) (a32 m c) (a33 m c)) (R7 m c)).trans
      (ref_bn4 (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a22 m c) (a23 m c) (a24 m c) (a25 m c) (a26 m c) (a27 m c) (a28 m c) (a29 m c) (a30 m c) (a31 m c) (a32 m c) (a33 m c) (a38 m c)).symm)

/-- Layer 5's node update is the reference's: its input is the previous batch-norm, its aggregate the reference's own. -/
theorem R9 : h5 m c = (Cert.ReferenceIdeal.Read.val_main_v178 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c) (a23 m c) (a24 m c) (a25 m c) (a26 m c) (a27 m c) (a28 m c) (a29 m c) (a30 m c) (a31 m c) (a32 m c) (a33 m c) (a38 m c)) := by
  have e : agg128 (n4 m c) (a1 m c) (a38 m c) = (Cert.ReferenceIdeal.Read.val_main_v168 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a22 m c) (a23 m c) (a24 m c) (a25 m c) (a26 m c) (a27 m c) (a28 m c) (a29 m c) (a30 m c) (a31 m c) (a32 m c) (a33 m c) (a38 m c)) := by
    rw [R8 m c]; exact (val_main_v168_agg (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a22 m c) (a23 m c) (a24 m c) (a25 m c) (a26 m c) (a27 m c) (a28 m c) (a29 m c) (a30 m c) (a31 m c) (a32 m c) (a33 m c) (a38 m c)).symm
  unfold h5
  rw [e, R8 m c]
  exact (mlpK2_eq_ref _ _ _ _ _ _).trans (ref_mlp5 (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c) (a23 m c) (a24 m c) (a25 m c) (a26 m c) (a27 m c) (a28 m c) (a29 m c) (a30 m c) (a31 m c) (a32 m c) (a33 m c) (a38 m c)).symm

/-- Layer 5's batch-norm is the reference's. -/
theorem R10 : n5 m c = (Cert.ReferenceIdeal.Read.val_main_v193 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c) (a23 m c) (a24 m c) (a25 m c) (a26 m c) (a27 m c) (a28 m c) (a29 m c) (a30 m c) (a31 m c) (a32 m c) (a33 m c) (a38 m c)) :=
  (bnK_eq_ref _ _ _ _ _ shapeCasts_S128_S1x128).trans
    ((congrArg (fun h => refBn h (a30 m c) (a31 m c) (a32 m c) (a33 m c)) (R9 m c)).trans
      (ref_bn5 (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c) (a23 m c) (a24 m c) (a25 m c) (a26 m c) (a27 m c) (a28 m c) (a29 m c) (a30 m c) (a31 m c) (a32 m c) (a33 m c) (a38 m c)).symm)

/-- The joined pooled layers are the reference's join. -/
theorem Rpool : pooled m c = (Cert.ReferenceIdeal.Read.val_main_v209 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c) (a23 m c) (a24 m c) (a25 m c) (a26 m c) (a27 m c) (a28 m c) (a29 m c) (a30 m c) (a31 m c) (a32 m c) (a33 m c) (a38 m c) (a39 m c)) := by
  unfold pooled
  rw [R1 m c, R3 m c, R5 m c, R7 m c, R10 m c]
  rw [← val_main_v196_pool (F := Ideal) (a0 m c) (a1 m c) (a2 m c) (a3 m c) (a4 m c) (a5 m c) (a38 m c) (a39 m c), ← val_main_v199_pool (F := Ideal) (a0 m c) (a1 m c) (a2 m c) (a3 m c) (a4 m c) (a5 m c) (a6 m c) (a7 m c) (a8 m c) (a9 m c) (a22 m c) (a23 m c) (a24 m c) (a25 m c) (a38 m c) (a39 m c), ← val_main_v202_pool (F := Ideal) (a0 m c) (a1 m c) (a2 m c) (a3 m c) (a4 m c) (a5 m c) (a6 m c) (a7 m c) (a8 m c) (a9 m c) (a10 m c) (a11 m c) (a12 m c) (a13 m c) (a22 m c) (a23 m c) (a24 m c) (a25 m c) (a38 m c) (a39 m c),
    ← val_main_v205_pool (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a22 m c) (a23 m c) (a24 m c) (a25 m c) (a26 m c) (a27 m c) (a28 m c) (a29 m c) (a38 m c) (a39 m c), ← val_main_v208_pool (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c) (a23 m c) (a24 m c) (a25 m c) (a26 m c) (a27 m c) (a28 m c) (a29 m c) (a30 m c) (a31 m c) (a32 m c) (a33 m c) (a38 m c) (a39 m c)]
  exact (val_main_v209_cat (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c) (a23 m c) (a24 m c) (a25 m c) (a26 m c) (a27 m c) (a28 m c) (a29 m c) (a30 m c) (a31 m c) (a32 m c) (a33 m c) (a38 m c) (a39 m c)).symm

/-- The readout is the reference's result. -/
theorem R11 : outK m c = (Cert.ReferenceIdeal.Read.val_main_v218 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c) (a23 m c) (a24 m c) (a25 m c) (a26 m c) (a27 m c) (a28 m c) (a29 m c) (a30 m c) (a31 m c) (a32 m c) (a33 m c) (a34 m c) (a35 m c) (a36 m c) (a37 m c) (a38 m c) (a39 m c)) := by
  unfold outK
  rw [Rpool m c]
  exact (roK_eq_ref _ _ _ _ _).trans (ref_ro (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c) (a23 m c) (a24 m c) (a25 m c) (a26 m c) (a27 m c) (a28 m c) (a29 m c) (a30 m c) (a31 m c) (a32 m c) (a33 m c) (a34 m c) (a35 m c) (a36 m c) (a37 m c) (a38 m c) (a39 m c)).symm

/-- The kernel's result array at the end of the fold is the reference's last stage function of the kernel's arguments. -/
theorem result_val : Fr.U22 m c main_v127 = (Cert.ReferenceIdeal.Read.val_main_v218 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c) (a23 m c) (a24 m c) (a25 m c) (a26 m c) (a27 m c) (a28 m c) (a29 m c) (a30 m c) (a31 m c) (a32 m c) (a33 m c) (a34 m c) (a35 m c) (a36 m c) (a37 m c) (a38 m c) (a39 m c)) :=
  (kernel_val m c).trans (R11 m c)

end Cert.KernelIdeal.Val

end
-- ==== Proof.Alg.lean ====
import proofs.«141374_j27161373180011_1_alg».proof.Defs
import proofs.«141374_j27161373180011_1_alg».proof.Proof.Gen.Pre_finite_inputs
import proofs.«141374_j27161373180011_1_alg».proof.Proof.KI.Args
import proofs.«141374_j27161373180011_1_alg».proof.Proof.KI.Value
import proofs.«141374_j27161373180011_1_alg».proof.Proof.Gen.ReferenceIdeal.Run
import proofs.«141374_j27161373180011_1_alg».proof.Proof.Gen.ReferenceIdeal.Read

noncomputable section

namespace Cert.Proof.Alg

open Idealize.ShloMosaic Idealize.ShloMosaic.TcCoe Idealize.SL.Sem

theorem algebraic : Cert.algebraic_KernelIdeal_ReferenceIdeal := by
  intro m ρ m' ρ' _ hagree
  refine ⟨fun c => Cert.KernelIdeal.Fr.U22 (F := Ideal) m c Cert.KernelIdeal.main_v127, ?_, ?_⟩
  · exact (θ_run Cert.KernelIdeal.defs _ _).mono
      (fun r h c => ⟨h c _ (Cert.KernelIdeal.Fr.mem_uc Cert.KernelIdeal.main_v127 (by decide)),
        Cert.KernelIdeal.Fr.args_of_read m r.2.mem c (h c)⟩)
      (Cert.KernelIdeal.Fr.run_all (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39⟩ := hagree c
    rw [Cert.ReferenceIdeal.Read.val_main_v218_eq, h0, h1, h2, h3, h4, h5, h6, h7, h8, h9, h10, h11, h12, h13, h14, h15, h16, h17, h18, h19, h20, h21, h22, h23, h24, h25, h26, h27, h28, h29, h30, h31, h32, h33, h34, h35, h36, h37, h38, h39]
    exact (Cert.KernelIdeal.Val.result_val m c).symm

end Cert.Proof.Alg

end
-- ==== Proof.lean ====
import proofs.«141374_j27161373180011_1_alg».proof.Defs
import proofs.«141374_j27161373180011_1_alg».proof.Proof.Gen.Kernel
import proofs.«141374_j27161373180011_1_alg».proof.Proof.Gen.KernelIdeal
import proofs.«141374_j27161373180011_1_alg».proof.Proof.Gen.ReferenceIdeal
import proofs.«141374_j27161373180011_1_alg».proof.Proof.Gen.Pre_finite_inputs
import proofs.«141374_j27161373180011_1_alg».proof.Proof.K.Frame
import proofs.«141374_j27161373180011_1_alg».proof.Proof.Alg
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Fr.frameOf m ρ,
  fun m ρ _ => (θ_run Cert.KernelIdeal.defs _ _).mono (fun r h c => Cert.KernelIdeal.Fr.args_of_read m r.2.mem c (h c)) (Cert.KernelIdeal.Fr.run_all (F := Ideal) m ρ),
  fun m ρ _ => (θ_run Cert.ReferenceIdeal.defs _ _).mono (fun _ h c => (h c).2) (Cert.ReferenceIdeal.Value.run (F := Ideal) m ρ),
  trivial,
  Cert.Proof.Alg.algebraic⟩

end Cert.Proof

end
